-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v103)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v103) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v217) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S3x4096x4096 : Shape := ⟨3, ![3, 4096, 4096]⟩
abbrev S3x4096 : Shape := ⟨2, ![3, 4096]⟩
abbrev S3x1024x1024 : Shape := ⟨3, ![3, 1024, 1024]⟩
abbrev S3x1024 : Shape := ⟨2, ![3, 1024]⟩
abbrev S2x16384 : Shape := ⟨2, ![2, 16384]⟩
abbrev S2x131072 : Shape := ⟨2, ![2, 131072]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S3x4096x4096 : S_.BroadcastsInDim S3x4096x4096 (![] : Fin 0 → Fin S3x4096x4096.rank)
  reducesTo_S3x4096x4096_S_d0_1_2 : S3x4096x4096.ReducesTo [0, 1, 2] S_
  bcast_S_S3x4096 : S_.BroadcastsInDim S3x4096 (![] : Fin 0 → Fin S3x4096.rank)
  reducesTo_S3x4096_S_d0_1 : S3x4096.ReducesTo [0, 1] S_
  bcast_S_S3x1024x1024 : S_.BroadcastsInDim S3x1024x1024 (![] : Fin 0 → Fin S3x1024x1024.rank)
  reducesTo_S3x1024x1024_S_d0_1_2 : S3x1024x1024.ReducesTo [0, 1, 2] S_
  bcast_S_S3x1024 : S_.BroadcastsInDim S3x1024 (![] : Fin 0 → Fin S3x1024.rank)
  reducesTo_S3x1024_S_d0_1 : S3x1024.ReducesTo [0, 1] S_
  bcast_S_S2x16384 : S_.BroadcastsInDim S2x16384 (![] : Fin 0 → Fin S2x16384.rank)
  reducesTo_S2x16384_S_d0_1 : S2x16384.ReducesTo [0, 1] S_
  bcast_S_S2x131072 : S_.BroadcastsInDim S2x131072 (![] : Fin 0 → Fin S2x131072.rank)
  reducesTo_S2x131072_S_d0_1 : S2x131072.ReducesTo [0, 1] S_

variable [Facts]

def fn_part2 {F : FTy → Type} [FloatOps F] (main_arg7 : IVec S2x16384 32) (main_arg8 : IVec S2x131072 32) (main_v33 : IVec S_ 1) : IVec S_ 1 :=
  let main_c_12 : IVec S_ 32 := constantI S_ 32 0#32
  let main_v34 : IVec S2x16384 32 := broadcastInDim S2x16384 ![] bcast_S_S2x16384 main_c_12
  let main_v35 : IVec S2x16384 1 := cmpi .sge main_arg7 main_v34
  let main_c_13 : IVec S_ 32 := constantI S_ 32 1024#32
  let main_v36 : IVec S2x16384 32 := broadcastInDim S2x16384 ![] bcast_S_S2x16384 main_c_13
  let main_v37 : IVec S2x16384 1 := cmpi .slt main_arg7 main_v36
  let main_v38 : IVec S2x16384 1 := andi main_v35 main_v37
  let main_c_14 : IVec S_ 1 := constantI S_ 1 1#1
  let main_v39 : IVec S_ 1 := (fun x v => Host.reduce IntOp.andi x v reducesTo_S2x16384_S_d0_1 h_S_) main_v38 main_c_14
  let main_v40 : IVec S_ 1 := andi main_v33 main_v39
  let main_c_15 : IVec S_ 32 := constantI S_ 32 0#32
  let main_v41 : IVec S2x131072 32 := broadcastInDim S2x131072 ![] bcast_S_S2x131072 main_c_15
  let main_v42 : IVec S2x131072 1 := cmpi .sge main_arg8 main_v41
  let main_c_16 : IVec S_ 32 := constantI S_ 32 4096#32
  let main_v43 : IVec S2x131072 32 := broadcastInDim S2x131072 ![] bcast_S_S2x131072 main_c_16
  let main_v44 : IVec S2x131072 1 := cmpi .slt main_arg8 main_v43
  let main_v45 : IVec S2x131072 1 := andi main_v42 main_v44
  let main_c_17 : IVec S_ 1 := constantI S_ 1 1#1
  let main_v46 : IVec S_ 1 := (fun x v => Host.reduce IntOp.andi x v reducesTo_S2x131072_S_d0_1 h_S_) main_v45 main_c_17
  let main_v47 : IVec S_ 1 := andi main_v40 main_v46
  main_v47

def fn_part1 {F : FTy → Type} [FloatOps F] (main_arg4 : FVec F S3x1024x1024 .f32) (main_arg5 : FVec F S3x1024x1024 .f32) (main_arg6 : FVec F S3x1024 .f32) (main_arg7 : IVec S2x16384 32) (main_arg8 : IVec S2x131072 32) (main_v13 : IVec S_ 1) (main_v16 : IVec S3x4096 1) : IVec S_ 1 :=
  let main_c_5 : IVec S_ 1 := constantI S_ 1 1#1
  let main_v17 : IVec S_ 1 := (fun x v => Host.reduce IntOp.andi x v reducesTo_S3x4096_S_d0_1 h_S_) main_v16 main_c_5
  let main_v18 : IVec S_ 1 := andi main_v13 main_v17
  let main_v19 : FVec F S3x1024x1024 .f32 := Host.absf main_arg4
  let main_cst_6 : FVec F S_ .f32 := constant S_ .f32 0x7F800000#32
  let main_v20 : FVec F S3x1024x1024 .f32 := broadcastInDim S3x1024x1024 ![] bcast_S_S3x1024x1024 main_cst_6
  let main_v21 : IVec S3x1024x1024 1 := cmpf .olt main_v19 main_v20
  let main_c_7 : IVec S_ 1 := constantI S_ 1 1#1
  let main_v22 : IVec S_ 1 := (fun x v => Host.reduce IntOp.andi x v reducesTo_S3x1024x1024_S_d0_1_2 h_S_) main_v21 main_c_7
  let main_v23 : IVec S_ 1 := andi main_v18 main_v22
  let main_v24 : FVec F S3x1024x1024 .f32 := Host.absf main_arg5
  let main_cst_8 : FVec F S_ .f32 := constant S_ .f32 0x7F800000#32
  let main_v25 : FVec F S3x1024x1024 .f32 := broadcastInDim S3x1024x1024 ![] bcast_S_S3x1024x1024 main_cst_8
  let main_v26 : IVec S3x1024x1024 1 := cmpf .olt main_v24 main_v25
  let main_c_9 : IVec S_ 1 := constantI S_ 1 1#1
  let main_v27 : IVec S_ 1 := (fun x v => Host.reduce IntOp.andi x v reducesTo_S3x1024x1024_S_d0_1_2 h_S_) main_v26 main_c_9
  let main_v28 : IVec S_ 1 := andi main_v23 main_v27
  let main_v29 : FVec F S3x1024 .f32 := Host.absf main_arg6
  let main_cst_10 : FVec F S_ .f32 := constant S_ .f32 0x7F800000#32
  let main_v30 : FVec F S3x1024 .f32 := broadcastInDim S3x1024 ![] bcast_S_S3x1024 main_cst_10
  let main_v31 : IVec S3x1024 1 := cmpf .olt main_v29 main_v30
  let main_c_11 : IVec S_ 1 := constantI S_ 1 1#1
  let main_v32 : IVec S_ 1 := (fun x v => Host.reduce IntOp.andi x v reducesTo_S3x1024_S_d0_1 h_S_) main_v31 main_c_11
  let main_v33 : IVec S_ 1 := andi main_v28 main_v32
  fn_part2 (F := F) main_arg7 main_arg8 main_v33

def fn {F : FTy → Type} [FloatOps F] (main_arg0 : FVec F S4096x1024 .f32) (main_arg1 : FVec F S3x4096x4096 .f32) (main_arg2 : FVec F S3x4096x4096 .f32) (main_arg3 : FVec F S3x4096 .f32) (main_arg4 : FVec F S3x1024x1024 .f32) (main_arg5 : FVec F S3x1024x1024 .f32) (main_arg6 : FVec F S3x1024 .f32) (main_arg7 : IVec S2x16384 32) (main_arg8 : IVec S2x131072 32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S3x4096x4096 .f32 := Host.absf main_arg1
  let main_cst_0 : FVec F S_ .f32 := constant S_ .f32 0x7F800000#32
  let main_v5 : FVec F S3x4096x4096 .f32 := broadcastInDim S3x4096x4096 ![] bcast_S_S3x4096x4096 main_cst_0
  let main_v6 : IVec S3x4096x4096 1 := cmpf .olt main_v4 main_v5
  let main_c_1 : IVec S_ 1 := constantI S_ 1 1#1
  let main_v7 : IVec S_ 1 := (fun x v => Host.reduce IntOp.andi x v reducesTo_S3x4096x4096_S_d0_1_2 h_S_) main_v6 main_c_1
  let main_v8 : IVec S_ 1 := andi main_v3 main_v7
  let main_v9 : FVec F S3x4096x4096 .f32 := Host.absf main_arg2
  let main_cst_2 : FVec F S_ .f32 := constant S_ .f32 0x7F800000#32
  let main_v10 : FVec F S3x4096x4096 .f32 := broadcastInDim S3x4096x4096 ![] bcast_S_S3x4096x4096 main_cst_2
  let main_v11 : IVec S3x4096x4096 1 := cmpf .olt main_v9 main_v10
  let main_c_3 : IVec S_ 1 := constantI S_ 1 1#1
  let main_v12 : IVec S_ 1 := (fun x v => Host.reduce IntOp.andi x v reducesTo_S3x4096x4096_S_d0_1_2 h_S_) main_v11 main_c_3
  let main_v13 : IVec S_ 1 := andi main_v8 main_v12
  let main_v14 : FVec F S3x4096 .f32 := Host.absf main_arg3
  let main_cst_4 : FVec F S_ .f32 := constant S_ .f32 0x7F800000#32
  let main_v15 : FVec F S3x4096 .f32 := broadcastInDim S3x4096 ![] bcast_S_S3x4096 main_cst_4
  let main_v16 : IVec S3x4096 1 := cmpf .olt main_v14 main_v15
  fn_part1 (F := F) main_arg4 main_arg5 main_arg6 main_arg7 main_arg8 main_v13 main_v16
-- ==== Kernel.lean ====
abbrev S4096x1024 : Shape := ⟨2, ![4096, 1024]⟩
abbrev S3x4096x4096 : Shape := ⟨3, ![3, 4096, 4096]⟩
abbrev S3x4096 : Shape := ⟨2, ![3, 4096]⟩
abbrev S3x1024x1024 : Shape := ⟨3, ![3, 1024, 1024]⟩
abbrev S3x1024 : Shape := ⟨2, ![3, 1024]⟩
abbrev S2x16384 : Shape := ⟨2, ![2, 16384]⟩
abbrev S2x131072 : Shape := ⟨2, ![2, 131072]⟩
abbrev S1x16384 : Shape := ⟨2, ![1, 16384]⟩
abbrev S16384 : Shape := ⟨1, ![16384]⟩
abbrev S1x131072 : Shape := ⟨2, ![1, 131072]⟩
abbrev S131072 : Shape := ⟨1, ![131072]⟩
abbrev S_ : Shape := ⟨0, ![]⟩
abbrev S1048576 : Shape := ⟨1, ![1048576]⟩
abbrev S16384x1 : Shape := ⟨2, ![16384, 1]⟩
abbrev S1024x1024 : Shape := ⟨2, ![1024, 1024]⟩
abbrev S1024 : Shape := ⟨1, ![1024]⟩
abbrev S1x1024 : Shape := ⟨2, ![1, 1024]⟩
abbrev S16777216 : Shape := ⟨1, ![16777216]⟩
abbrev S131072x1 : Shape := ⟨2, ![131072, 1]⟩
abbrev S4096x4096 : Shape := ⟨2, ![4096, 4096]⟩
abbrev S4096 : Shape := ⟨1, ![4096]⟩
abbrev S4096x1 : Shape := ⟨2, ![4096, 1]⟩
abbrev S512x1024 : Shape := ⟨2, ![512, 1024]⟩
abbrev S1x4096x4096 : Shape := ⟨3, ![1, 4096, 4096]⟩
abbrev S1x4096 : Shape := ⟨2, ![1, 4096]⟩
abbrev S256x4096 : Shape := ⟨2, ![256, 4096]⟩
abbrev S256x1 : Shape := ⟨2, ![256, 1]⟩
abbrev S256x1024 : Shape := ⟨2, ![256, 1024]⟩
abbrev S2048x512 : Shape := ⟨2, ![2048, 512]⟩
abbrev S2048x1 : Shape := ⟨2, ![2048, 1]⟩
abbrev S2048x1024 : Shape := ⟨2, ![2048, 1024]⟩
abbrev S1x1024x1024 : Shape := ⟨3, ![1, 1024, 1024]⟩

abbrev nBuf : Space → Nat
  | .hbm => 127
  | .vmem => 102
  | .smem => 0
  | _ => 0

abbrev bufTy : (tb : Table) → Fin (tcTables nBuf tb) → BufTy
  | .hbm, ⟨0, _⟩ => ⟨S4096x1024, .f32⟩
  | .hbm, ⟨1, _⟩ => ⟨S3x4096x4096, .f32⟩
  | .hbm, ⟨2, _⟩ => ⟨S3x4096x4096, .f32⟩
  | .hbm, ⟨3, _⟩ => ⟨S3x4096, .f32⟩
  | .hbm, ⟨4, _⟩ => ⟨S3x1024x1024, .f32⟩
  | .hbm, ⟨5, _⟩ => ⟨S3x1024x1024, .f32⟩
  | .hbm, ⟨6, _⟩ => ⟨S3x1024, .f32⟩
  | .hbm, ⟨7, _⟩ => ⟨S2x16384, .i32⟩
  | .hbm, ⟨8, _⟩ => ⟨S2x131072, .i32⟩
  | .hbm, ⟨9, _⟩ => ⟨S1x16384, .i32⟩
  | .hbm, ⟨10, _⟩ => ⟨S16384, .i32⟩
  | .hbm, ⟨11, _⟩ => ⟨S1x16384, .i32⟩
  | .hbm, ⟨12, _⟩ => ⟨S16384, .i32⟩
  | .hbm, ⟨13, _⟩ => ⟨S1x131072, .i32⟩
  | .hbm, ⟨14, _⟩ => ⟨S131072, .i32⟩
  | .hbm, ⟨15, _⟩ => ⟨S1x131072, .i32⟩
  | .hbm, ⟨16, _⟩ => ⟨S131072, .i32⟩
  | .hbm, ⟨17, _⟩ => ⟨S_, .i32⟩
  | .hbm, ⟨18, _⟩ => ⟨S16384, .i32⟩
  | .hbm, ⟨19, _⟩ => ⟨S16384, .i32⟩
  | .hbm, ⟨20, _⟩ => ⟨S16384, .i32⟩
  | .hbm, ⟨21, _⟩ => ⟨S_, .f32⟩
  | .hbm, ⟨22, _⟩ => ⟨S16384, .f32⟩
  | .hbm, ⟨23, _⟩ => ⟨S_, .f32⟩
  | .hbm, ⟨24, _⟩ => ⟨S1048576, .f32⟩
  | .hbm, ⟨25, _⟩ => ⟨S16384x1, .i32⟩
  | .hbm, ⟨26, _⟩ => ⟨S1048576, .f32⟩
  | .hbm, ⟨27, _⟩ => ⟨S1024x1024, .f32⟩
  | .hbm, ⟨28, _⟩ => ⟨S1024x1024, .bf16⟩
  | .hbm, ⟨29, _⟩ => ⟨S_, .f32⟩
  | .hbm, ⟨30, _⟩ => ⟨S16384, .f32⟩
  | .hbm, ⟨31, _⟩ => ⟨S_, .f32⟩
  | .hbm, ⟨32, _⟩ => ⟨S1024, .f32⟩
  | .hbm, ⟨33, _⟩ => ⟨S16384x1, .i32⟩
  | .hbm, ⟨34, _⟩ => ⟨S1024, .f32⟩
  | .hbm, ⟨35, _⟩ => ⟨S_, .f32⟩
  | .hbm, ⟨36, _⟩ => ⟨S1024, .f32⟩
  | .hbm, ⟨37, _⟩ => ⟨S1024, .f32⟩
  | .hbm, ⟨38, _⟩ => ⟨S_, .f32⟩
  | .hbm, ⟨39, _⟩ => ⟨S1024, .f32⟩
  | .hbm, ⟨40, _⟩ => ⟨S1024, .f32⟩
  | .hbm, ⟨41, _⟩ => ⟨S1x1024, .f32⟩
  | .hbm, ⟨42, _⟩ => ⟨S_, .i32⟩
  | .hbm, ⟨43, _⟩ => ⟨S131072, .i32⟩
  | .hbm, ⟨44, _⟩ => ⟨S131072, .i32⟩
  | .hbm, ⟨45, _⟩ => ⟨S131072, .i32⟩
  | .hbm, ⟨46, _⟩ => ⟨S_, .f32⟩
  | .hbm, ⟨47, _⟩ => ⟨S131072, .f32⟩
  | .hbm, ⟨48, _⟩ => ⟨S_, .f32⟩
  | .hbm, ⟨49, _⟩ => ⟨S16777216, .f32⟩
  | .hbm, ⟨50, _⟩ => ⟨S131072x1, .i32⟩
  | .hbm, ⟨51, _⟩ => ⟨S16777216, .f32⟩
  | .hbm, ⟨52, _⟩ => ⟨S4096x4096, .f32⟩
  | .hbm, ⟨53, _⟩ => ⟨S4096x4096, .bf16⟩
  | .hbm, ⟨54, _⟩ => ⟨S_, .f32⟩
  | .hbm, ⟨55, _⟩ => ⟨S131072, .f32⟩
  | .hbm, ⟨56, _⟩ => ⟨S_, .f32⟩
  | .hbm, ⟨57, _⟩ => ⟨S4096, .f32⟩
  | .hbm, ⟨58, _⟩ => ⟨S131072x1, .i32⟩
  | .hbm, ⟨59, _⟩ => ⟨S4096, .f32⟩
  | .hbm, ⟨60, _⟩ => ⟨S_, .f32⟩
  | .hbm, ⟨61, _⟩ => ⟨S4096, .f32⟩
  | .hbm, ⟨62, _⟩ => ⟨S4096, .f32⟩
  | .hbm, ⟨63, _⟩ => ⟨S_, .f32⟩
  | .hbm, ⟨64, _⟩ => ⟨S4096, .f32⟩
  | .hbm, ⟨65, _⟩ => ⟨S4096, .f32⟩
  | .hbm, ⟨66, _⟩ => ⟨S4096x1, .f32⟩
  | .hbm, ⟨67, _⟩ => ⟨S4096x1024, .bf16⟩
  | .hbm, ⟨68, _⟩ => ⟨S4096x1024, .bf16⟩
  | .hbm, ⟨69, _⟩ => ⟨S1x4096x4096, .f32⟩
  | .hbm, ⟨70, _⟩ => ⟨S4096x4096, .f32⟩
  | .hbm, ⟨71, _⟩ => ⟨S1x4096x4096, .f32⟩
  | .hbm, ⟨72, _⟩ => ⟨S4096x4096, .f32⟩
  | .hbm, ⟨73, _⟩ => ⟨S1x4096, .f32⟩
  | .hbm, ⟨74, _⟩ => ⟨S4096, .f32⟩
  | .hbm, ⟨75, _⟩ => ⟨S4096x1, .f32⟩
  | .hbm, ⟨76, _⟩ => ⟨S4096x1024, .f32⟩
  | .hbm, ⟨77, _⟩ => ⟨S4096x1024, .bf16⟩
  | .hbm, ⟨78, _⟩ => ⟨S4096x1024, .bf16⟩
  | .hbm, ⟨79, _⟩ => ⟨S1x1024x1024, .f32⟩
  | .hbm, ⟨80, _⟩ => ⟨S1024x1024, .f32⟩
  | .hbm, ⟨81, _⟩ => ⟨S1x1024x1024, .f32⟩
  | .hbm, ⟨82, _⟩ => ⟨S1024x1024, .f32⟩
  | .hbm, ⟨83, _⟩ => ⟨S1x1024, .f32⟩
  | .hbm, ⟨84, _⟩ => ⟨S1024, .f32⟩
  | .hbm, ⟨85, _⟩ => ⟨S1x1024, .f32⟩
  | .hbm, ⟨86, _⟩ => ⟨S4096x1024, .f32⟩
  | .hbm, ⟨87, _⟩ => ⟨S4096x1024, .bf16⟩
  | .hbm, ⟨88, _⟩ => ⟨S4096x1024, .bf16⟩
  | .hbm, ⟨89, _⟩ => ⟨S1x4096x4096, .f32⟩
  | .hbm, ⟨90, _⟩ => ⟨S4096x4096, .f32⟩
  | .hbm, ⟨91, _⟩ => ⟨S1x4096x4096, .f32⟩
  | .hbm, ⟨92, _⟩ => ⟨S4096x4096, .f32⟩
  | .hbm, ⟨93, _⟩ => ⟨S1x4096, .f32⟩
  | .hbm, ⟨94, _⟩ => ⟨S4096, .f32⟩
  | .hbm, ⟨95, _⟩ => ⟨S4096x1, .f32⟩
  | .hbm, ⟨96, _⟩ => ⟨S4096x1024, .f32⟩
  | .hbm, ⟨97, _⟩ => ⟨S4096x1024, .bf16⟩
  | .hbm, ⟨98, _⟩ => ⟨S4096x1024, .bf16⟩
  | .hbm, ⟨99, _⟩ => ⟨S1x1024x1024, .f32⟩
  | .hbm, ⟨100, _⟩ => ⟨S1024x1024, .f32⟩
  | .hbm, ⟨101, _⟩ => ⟨S1x1024x1024, .f32⟩
  | .hbm, ⟨102, _⟩ => ⟨S1024x1024, .f32⟩
  | .hbm, ⟨103, _⟩ => ⟨S1x1024, .f32⟩
  | .hbm, ⟨104, _⟩ => ⟨S1024, .f32⟩
  | .hbm, ⟨105, _⟩ => ⟨S1x1024, .f32⟩
  | .hbm, ⟨106, _⟩ => ⟨S4096x1024, .f32⟩
  | .hbm, ⟨107, _⟩ => ⟨S4096x1024, .bf16⟩
  | .hbm, ⟨108, _⟩ => ⟨S4096x1024, .bf16⟩
  | .hbm, ⟨109, _⟩ => ⟨S1x4096x4096, .f32⟩
  | .hbm, ⟨110, _⟩ => ⟨S4096x4096, .f32⟩
  | .hbm, ⟨111, _⟩ => ⟨S1x4096x4096, .f32⟩
  | .hbm, ⟨112, _⟩ => ⟨S4096x4096, .f32⟩
  | .hbm, ⟨113, _⟩ => ⟨S1x4096, .f32⟩
  | .hbm, ⟨114, _⟩ => ⟨S4096, .f32⟩
  | .hbm, ⟨115, _⟩ => ⟨S4096x1, .f32⟩
  | .hbm, ⟨116, _⟩ => ⟨S4096x1024, .f32⟩
  | .hbm, ⟨117, _⟩ => ⟨S4096x1024, .bf16⟩
  | .hbm, ⟨118, _⟩ => ⟨S4096x1024, .bf16⟩
  | .hbm, ⟨119, _⟩ => ⟨S1x1024x1024, .f32⟩
  | .hbm, ⟨120, _⟩ => ⟨S1024x1024, .f32⟩
  | .hbm, ⟨121, _⟩ => ⟨S1x1024x1024, .f32⟩
  | .hbm, ⟨122, _⟩ => ⟨S1024x1024, .f32⟩
  | .hbm, ⟨123, _⟩ => ⟨S1x1024, .f32⟩
  | .hbm, ⟨124, _⟩ => ⟨S1024, .f32⟩
  | .hbm, ⟨125, _⟩ => ⟨S1x1024, .f32⟩
  | .hbm, ⟨126, _⟩ => ⟨S4096x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1x1024, .f32⟩
  | .local _ .vmem, ⟨4, _⟩ => ⟨S512x1024, .bf16⟩
  | .local _ .vmem, ⟨5, _⟩ => ⟨S512x1024, .bf16⟩
  | .local _ .vmem, ⟨6, _⟩ => ⟨S4096x1024, .bf16⟩
  | .local _ .vmem, ⟨7, _⟩ => ⟨S4096x1024, .bf16⟩
  | .local _ .vmem, ⟨8, _⟩ => ⟨S256x4096, .f32⟩
  | .local _ .vmem, ⟨9, _⟩ => ⟨S256x4096, .f32⟩
  | .local _ .vmem, ⟨10, _⟩ => ⟨S256x4096, .f32⟩
  | .local _ .vmem, ⟨11, _⟩ => ⟨S256x4096, .f32⟩
  | .local _ .vmem, ⟨12, _⟩ => ⟨S256x1, .f32⟩
  | .local _ .vmem, ⟨13, _⟩ => ⟨S256x1, .f32⟩
  | .local _ .vmem, ⟨14, _⟩ => ⟨S256x1024, .f32⟩
  | .local _ .vmem, ⟨15, _⟩ => ⟨S256x1024, .f32⟩
  | .local _ .vmem, ⟨16, _⟩ => ⟨S2048x512, .bf16⟩
  | .local _ .vmem, ⟨17, _⟩ => ⟨S2048x512, .bf16⟩
  | .local _ .vmem, ⟨18, _⟩ => ⟨S512x1024, .bf16⟩
  | .local _ .vmem, ⟨19, _⟩ => ⟨S512x1024, .bf16⟩
  | .local _ .vmem, ⟨20, _⟩ => ⟨S2048x1, .f32⟩
  | .local _ .vmem, ⟨21, _⟩ => ⟨S2048x1, .f32⟩
  | .local _ .vmem, ⟨22, _⟩ => ⟨S2048x1024, .bf16⟩
  | .local _ .vmem, ⟨23, _⟩ => ⟨S2048x1024, .bf16⟩
  | .local _ .vmem, ⟨24, _⟩ => ⟨S2048x1024, .f32⟩
  | .local _ .vmem, ⟨25, _⟩ => ⟨S1024x1024, .bf16⟩
  | .local _ .vmem, ⟨26, _⟩ => ⟨S1024x1024, .bf16⟩
  | .local _ .vmem, ⟨27, _⟩ => ⟨S1024x1024, .bf16⟩
  | .local _ .vmem, ⟨28, _⟩ => ⟨S1024x1024, .bf16⟩
  | .local _ .vmem, ⟨29, _⟩ => ⟨S1024x1024, .f32⟩
  | .local _ .vmem, ⟨30, _⟩ => ⟨S1024x1024, .f32⟩
  | .local _ .vmem, ⟨31, _⟩ => ⟨S1x1024, .f32⟩
  | .local _ .vmem, ⟨32, _⟩ => ⟨S1024x1024, .f32⟩
  | .local _ .vmem, ⟨33, _⟩ => ⟨S1024x1024, .f32⟩
  | .local _ .vmem, ⟨34, _⟩ => ⟨S512x1024, .bf16⟩
  | .local _ .vmem, ⟨35, _⟩ => ⟨S512x1024, .bf16⟩
  | .local _ .vmem, ⟨36, _⟩ => ⟨S1024x1024, .bf16⟩
  | .local _ .vmem, ⟨37, _⟩ => ⟨S1x1024, .f32⟩
  | .local _ .vmem, ⟨38, _⟩ => ⟨S512x1024, .bf16⟩
  | .local _ .vmem, ⟨39, _⟩ => ⟨S512x1024, .bf16⟩
  | .local _ .vmem, ⟨40, _⟩ => ⟨S4096x1024, .bf16⟩
  | .local _ .vmem, ⟨41, _⟩ => ⟨S4096x1024, .bf16⟩
  | .local _ .vmem, ⟨42, _⟩ => ⟨S256x4096, .f32⟩
  | .local _ .vmem, ⟨43, _⟩ => ⟨S256x4096, .f32⟩
  | .local _ .vmem, ⟨44, _⟩ => ⟨S256x4096, .f32⟩
  | .local _ .vmem, ⟨45, _⟩ => ⟨S256x4096, .f32⟩
  | .local _ .vmem, ⟨46, _⟩ => ⟨S256x1, .f32⟩
  | .local _ .vmem, ⟨47, _⟩ => ⟨S256x1, .f32⟩
  | .local _ .vmem, ⟨48, _⟩ => ⟨S256x1024, .f32⟩
  | .local _ .vmem, ⟨49, _⟩ => ⟨S256x1024, .f32⟩
  | .local _ .vmem, ⟨50, _⟩ => ⟨S2048x512, .bf16⟩
  | .local _ .vmem, ⟨51, _⟩ => ⟨S2048x512, .bf16⟩
  | .local _ .vmem, ⟨52, _⟩ => ⟨S512x1024, .bf16⟩
  | .local _ .vmem, ⟨53, _⟩ => ⟨S512x1024, .bf16⟩
  | .local _ .vmem, ⟨54, _⟩ => ⟨S2048x1, .f32⟩
  | .local _ .vmem, ⟨55, _⟩ => ⟨S2048x1, .f32⟩
  | .local _ .vmem, ⟨56, _⟩ => ⟨S2048x1024, .bf16⟩
  | .local _ .vmem, ⟨57, _⟩ => ⟨S2048x1024, .bf16⟩
  | .local _ .vmem, ⟨58, _⟩ => ⟨S2048x1024, .f32⟩
  | .local _ .vmem, ⟨59, _⟩ => ⟨S1024x1024, .bf16⟩
  | .local _ .vmem, ⟨60, _⟩ => ⟨S1024x1024, .bf16⟩
  | .local _ .vmem, ⟨61, _⟩ => ⟨S1024x1024, .bf16⟩
  | .local _ .vmem, ⟨62, _⟩ => ⟨S1024x1024, .bf16⟩
  | .local _ .vmem, ⟨63, _⟩ => ⟨S1024x1024, .f32⟩
  | .local _ .vmem, ⟨64, _⟩ => ⟨S1024x1024, .f32⟩
  | .local _ .vmem, ⟨65, _⟩ => ⟨S1x1024, .f32⟩
  | .local _ .vmem, ⟨66, _⟩ => ⟨S1024x1024, .f32⟩
  | .local _ .vmem, ⟨67, _⟩ => ⟨S1024x1024, .f32⟩
  | .local _ .vmem, ⟨68, _⟩ => ⟨S512x1024, .bf16⟩
  | .local _ .vmem, ⟨69, _⟩ => ⟨S512x1024, .bf16⟩
  | .local _ .vmem, ⟨70, _⟩ => ⟨S1024x1024, .bf16⟩
  | .local _ .vmem, ⟨71, _⟩ => ⟨S1x1024, .f32⟩
  | .local _ .vmem, ⟨72, _⟩ => ⟨S512x1024, .bf16⟩
  | .local _ .vmem, ⟨73, _⟩ => ⟨S512x1024, .bf16⟩
  | .local _ .vmem, ⟨74, _⟩ => ⟨S4096x1024, .bf16⟩
  | .local _ .vmem, ⟨75, _⟩ => ⟨S4096x1024, .bf16⟩
  | .local _ .vmem, ⟨76, _⟩ => ⟨S256x4096, .f32⟩
  | .local _ .vmem, ⟨77, _⟩ => ⟨S256x4096, .f32⟩
  | .local _ .vmem, ⟨78, _⟩ => ⟨S256x4096, .f32⟩
  | .local _ .vmem, ⟨79, _⟩ => ⟨S256x4096, .f32⟩
  | .local _ .vmem, ⟨80, _⟩ => ⟨S256x1, .f32⟩
  | .local _ .vmem, ⟨81, _⟩ => ⟨S256x1, .f32⟩
  | .local _ .vmem, ⟨82, _⟩ => ⟨S256x1024, .f32⟩
  | .local _ .vmem, ⟨83, _⟩ => ⟨S256x1024, .f32⟩
  | .local _ .vmem, ⟨84, _⟩ => ⟨S2048x512, .bf16⟩
  | .local _ .vmem, ⟨85, _⟩ => ⟨S2048x512, .bf16⟩
  | .local _ .vmem, ⟨86, _⟩ => ⟨S512x1024, .bf16⟩
  | .local _ .vmem, ⟨87, _⟩ => ⟨S512x1024, .bf16⟩
  | .local _ .vmem, ⟨88, _⟩ => ⟨S2048x1, .f32⟩
  | .local _ .vmem, ⟨89, _⟩ => ⟨S2048x1, .f32⟩
  | .local _ .vmem, ⟨90, _⟩ => ⟨S2048x1024, .bf16⟩
  | .local _ .vmem, ⟨91, _⟩ => ⟨S2048x1024, .bf16⟩
  | .local _ .vmem, ⟨92, _⟩ => ⟨S2048x1024, .f32⟩
  | .local _ .vmem, ⟨93, _⟩ => ⟨S1024x1024, .bf16⟩
  | .local _ .vmem, ⟨94, _⟩ => ⟨S1024x1024, .bf16⟩
  | .local _ .vmem, ⟨95, _⟩ => ⟨S1024x1024, .bf16⟩
  | .local _ .vmem, ⟨96, _⟩ => ⟨S1024x1024, .bf16⟩
  | .local _ .vmem, ⟨97, _⟩ => ⟨S1024x1024, .f32⟩
  | .local _ .vmem, ⟨98, _⟩ => ⟨S1024x1024, .f32⟩
  | .local _ .vmem, ⟨99, _⟩ => ⟨S1x1024, .f32⟩
  | .local _ .vmem, ⟨100, _⟩ => ⟨S1024x1024, .f32⟩
  | .local _ .vmem, ⟨101, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | _, _ => false

abbrev semScoped : Fin 0 → Bool
  | ⟨_, h⟩ => absurd h (Nat.not_lt_zero _)

abbrev dmaSemScoped : Fin 99 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | _ => false

abbrev sig : RefSig :=
  ofTc nBuf bufTy 0 99 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_cst_0 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_1 : Ref sig .tc := ⟨.hbm, 29, rfl⟩
abbrev main_v17 : Ref sig .tc := ⟨.hbm, 30, rfl⟩
abbrev main_cst_2 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_3 : Ref sig .tc := ⟨.hbm, 35, rfl⟩
abbrev main_v21 : Ref sig .tc := ⟨.hbm, 36, rfl⟩
abbrev main_v22 : Ref sig .tc := ⟨.hbm, 37, rfl⟩
abbrev main_cst_4 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_6 : Ref sig .tc := ⟨.hbm, 46, rfl⟩
abbrev main_v29 : Ref sig .tc := ⟨.hbm, 47, rfl⟩
abbrev main_cst_7 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_8 : Ref sig .tc := ⟨.hbm, 54, rfl⟩
abbrev main_v35 : Ref sig .tc := ⟨.hbm, 55, rfl⟩
abbrev main_cst_9 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_10 : Ref sig .tc := ⟨.hbm, 60, rfl⟩
abbrev main_v39 : Ref sig .tc := ⟨.hbm, 61, rfl⟩
abbrev main_v40 : Ref sig .tc := ⟨.hbm, 62, rfl⟩
abbrev main_cst_11 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg3_1 : Ref sig .tc := ⟨.vmem, 23, rfl⟩
abbrev cc2_scratch0 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg1_1 : Ref sig .tc := ⟨.vmem, 28, rfl⟩
abbrev cc3_stg2_0 : Ref sig .tc := ⟨.vmem, 29, rfl⟩
abbrev cc3_stg3_0 : Ref sig .tc := ⟨.vmem, 30, rfl⟩
abbrev cc3_stg4_0 : Ref sig .tc := ⟨.vmem, 31, rfl⟩
abbrev cc3_stg5_0 : Ref sig .tc := ⟨.vmem, 32, rfl⟩
abbrev cc3_stg5_1 : Ref sig .tc := ⟨.vmem, 33, rfl⟩
abbrev cc4_stg0_0 : Ref sig .tc := ⟨.vmem, 34, rfl⟩
abbrev cc4_stg0_1 : Ref sig .tc := ⟨.vmem, 35, rfl⟩
abbrev cc4_stg1_0 : Ref sig .tc := ⟨.vmem, 36, rfl⟩
abbrev cc4_stg2_0 : Ref sig .tc := ⟨.vmem, 37, rfl⟩
abbrev cc4_stg3_0 : Ref sig .tc := ⟨.vmem, 38, rfl⟩
abbrev cc4_stg3_1 : Ref sig .tc := ⟨.vmem, 39, rfl⟩
abbrev cc5_stg0_0 : Ref sig .tc := ⟨.vmem, 40, rfl⟩
abbrev cc5_stg1_0 : Ref sig .tc := ⟨.vmem, 41, rfl⟩
abbrev cc5_stg2_0 : Ref sig .tc := ⟨.vmem, 42, rfl⟩
abbrev cc5_stg2_1 : Ref sig .tc := ⟨.vmem, 43, rfl⟩
abbrev cc5_stg3_0 : Ref sig .tc := ⟨.vmem, 44, rfl⟩
abbrev cc5_stg3_1 : Ref sig .tc := ⟨.vmem, 45, rfl⟩
abbrev cc5_stg4_0 : Ref sig .tc := ⟨.vmem, 46, rfl⟩
abbrev cc5_stg4_1 : Ref sig .tc := ⟨.vmem, 47, rfl⟩
abbrev cc5_stg5_0 : Ref sig .tc := ⟨.vmem, 48, rfl⟩
abbrev cc5_stg5_1 : Ref sig .tc := ⟨.vmem, 49, rfl⟩
abbrev cc6_stg0_0 : Ref sig .tc := ⟨.vmem, 50, rfl⟩
abbrev cc6_stg0_1 : Ref sig .tc := ⟨.vmem, 51, rfl⟩
abbrev cc6_stg1_0 : Ref sig .tc := ⟨.vmem, 52, rfl⟩
abbrev cc6_stg1_1 : Ref sig .tc := ⟨.vmem, 53, rfl⟩
abbrev cc6_stg2_0 : Ref sig .tc := ⟨.vmem, 54, rfl⟩
abbrev cc6_stg2_1 : Ref sig .tc := ⟨.vmem, 55, rfl⟩
abbrev cc6_stg3_0 : Ref sig .tc := ⟨.vmem, 56, rfl⟩
abbrev cc6_stg3_1 : Ref sig .tc := ⟨.vmem, 57, rfl⟩
abbrev cc6_scratch0 : Ref sig .tc := ⟨.vmem, 58, rfl⟩
abbrev cc7_stg0_0 : Ref sig .tc := ⟨.vmem, 59, rfl⟩
abbrev cc7_stg0_1 : Ref sig .tc := ⟨.vmem, 60, rfl⟩
abbrev cc7_stg1_0 : Ref sig .tc := ⟨.vmem, 61, rfl⟩
abbrev cc7_stg1_1 : Ref sig .tc := ⟨.vmem, 62, rfl⟩
abbrev cc7_stg2_0 : Ref sig .tc := ⟨.vmem, 63, rfl⟩
abbrev cc7_stg3_0 : Ref sig .tc := ⟨.vmem, 64, rfl⟩
abbrev cc7_stg4_0 : Ref sig .tc := ⟨.vmem, 65, rfl⟩
abbrev cc7_stg5_0 : Ref sig .tc := ⟨.vmem, 66, rfl⟩
abbrev cc7_stg5_1 : Ref sig .tc := ⟨.vmem, 67, rfl⟩
abbrev cc8_stg0_0 : Ref sig .tc := ⟨.vmem, 68, rfl⟩
abbrev cc8_stg0_1 : Ref sig .tc := ⟨.vmem, 69, rfl⟩
abbrev cc8_stg1_0 : Ref sig .tc := ⟨.vmem, 70, rfl⟩
abbrev cc8_stg2_0 : Ref sig .tc := ⟨.vmem, 71, rfl⟩
abbrev cc8_stg3_0 : Ref sig .tc := ⟨.vmem, 72, rfl⟩
abbrev cc8_stg3_1 : Ref sig .tc := ⟨.vmem, 73, rfl⟩
abbrev cc9_stg0_0 : Ref sig .tc := ⟨.vmem, 74, rfl⟩
abbrev cc9_stg1_0 : Ref sig .tc := ⟨.vmem, 75, rfl⟩
abbrev cc9_stg2_0 : Ref sig .tc := ⟨.vmem, 76, rfl⟩
abbrev cc9_stg2_1 : Ref sig .tc := ⟨.vmem, 77, rfl⟩
abbrev cc9_stg3_0 : Ref sig .tc := ⟨.vmem, 78, rfl⟩
abbrev cc9_stg3_1 : Ref sig .tc := ⟨.vmem, 79, rfl⟩
abbrev cc9_stg4_0 : Ref sig .tc := ⟨.vmem, 80, rfl⟩
abbrev cc9_stg4_1 : Ref sig .tc := ⟨.vmem, 81, rfl⟩
abbrev cc9_stg5_0 : Ref sig .tc := ⟨.vmem, 82, rfl⟩
abbrev cc9_stg5_1 : Ref sig .tc := ⟨.vmem, 83, rfl⟩
abbrev cc10_stg0_0 : Ref sig .tc := ⟨.vmem, 84, rfl⟩
abbrev cc10_stg0_1 : Ref sig .tc := ⟨.vmem, 85, rfl⟩
abbrev cc10_stg1_0 : Ref sig .tc := ⟨.vmem, 86, rfl⟩
abbrev cc10_stg1_1 : Ref sig .tc := ⟨.vmem, 87, rfl⟩
abbrev cc10_stg2_0 : Ref sig .tc := ⟨.vmem, 88, rfl⟩
abbrev cc10_stg2_1 : Ref sig .tc := ⟨.vmem, 89, rfl⟩
abbrev cc10_stg3_0 : Ref sig .tc := ⟨.vmem, 90, rfl⟩
abbrev cc10_stg3_1 : Ref sig .tc := ⟨.vmem, 91, rfl⟩
abbrev cc10_scratch0 : Ref sig .tc := ⟨.vmem, 92, rfl⟩
abbrev cc11_stg0_0 : Ref sig .tc := ⟨.vmem, 93, rfl⟩
abbrev cc11_stg0_1 : Ref sig .tc := ⟨.vmem, 94, rfl⟩
abbrev cc11_stg1_0 : Ref sig .tc := ⟨.vmem, 95, rfl⟩
abbrev cc11_stg1_1 : Ref sig .tc := ⟨.vmem, 96, rfl⟩
abbrev cc11_stg2_0 : Ref sig .tc := ⟨.vmem, 97, rfl⟩
abbrev cc11_stg3_0 : Ref sig .tc := ⟨.vmem, 98, rfl⟩
abbrev cc11_stg4_0 : Ref sig .tc := ⟨.vmem, 99, rfl⟩
abbrev cc11_stg5_0 : Ref sig .tc := ⟨.vmem, 100, rfl⟩
abbrev cc11_stg5_1 : Ref sig .tc := ⟨.vmem, 101, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem4_1 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem3_0 : DmaSem sig := 29
abbrev cc3_sem4_0 : DmaSem sig := 30
abbrev cc3_sem5_0 : DmaSem sig := 31
abbrev cc3_sem5_1 : DmaSem sig := 32
abbrev cc4_sem0_0 : DmaSem sig := 33
abbrev cc4_sem0_1 : DmaSem sig := 34
abbrev cc4_sem1_0 : DmaSem sig := 35
abbrev cc4_sem2_0 : DmaSem sig := 36
abbrev cc4_sem3_0 : DmaSem sig := 37
abbrev cc4_sem3_1 : DmaSem sig := 38
abbrev cc5_sem0_0 : DmaSem sig := 39
abbrev cc5_sem1_0 : DmaSem sig := 40
abbrev cc5_sem2_0 : DmaSem sig := 41
abbrev cc5_sem2_1 : DmaSem sig := 42
abbrev cc5_sem3_0 : DmaSem sig := 43
abbrev cc5_sem3_1 : DmaSem sig := 44
abbrev cc5_sem4_0 : DmaSem sig := 45
abbrev cc5_sem4_1 : DmaSem sig := 46
abbrev cc5_sem5_0 : DmaSem sig := 47
abbrev cc5_sem5_1 : DmaSem sig := 48
abbrev cc6_sem0_0 : DmaSem sig := 49
abbrev cc6_sem0_1 : DmaSem sig := 50
abbrev cc6_sem1_0 : DmaSem sig := 51
abbrev cc6_sem1_1 : DmaSem sig := 52
abbrev cc6_sem2_0 : DmaSem sig := 53
abbrev cc6_sem2_1 : DmaSem sig := 54
abbrev cc6_sem3_0 : DmaSem sig := 55
abbrev cc6_sem3_1 : DmaSem sig := 56
abbrev cc7_sem0_0 : DmaSem sig := 57
abbrev cc7_sem0_1 : DmaSem sig := 58
abbrev cc7_sem1_0 : DmaSem sig := 59
abbrev cc7_sem1_1 : DmaSem sig := 60
abbrev cc7_sem2_0 : DmaSem sig := 61
abbrev cc7_sem3_0 : DmaSem sig := 62
abbrev cc7_sem4_0 : DmaSem sig := 63
abbrev cc7_sem5_0 : DmaSem sig := 64
abbrev cc7_sem5_1 : DmaSem sig := 65
abbrev cc8_sem0_0 : DmaSem sig := 66
abbrev cc8_sem0_1 : DmaSem sig := 67
abbrev cc8_sem1_0 : DmaSem sig := 68
abbrev cc8_sem2_0 : DmaSem sig := 69
abbrev cc8_sem3_0 : DmaSem sig := 70
abbrev cc8_sem3_1 : DmaSem sig := 71
abbrev cc9_sem0_0 : DmaSem sig := 72
abbrev cc9_sem1_0 : DmaSem sig := 73
abbrev cc9_sem2_0 : DmaSem sig := 74
abbrev cc9_sem2_1 : DmaSem sig := 75
abbrev cc9_sem3_0 : DmaSem sig := 76
abbrev cc9_sem3_1 : DmaSem sig := 77
abbrev cc9_sem4_0 : DmaSem sig := 78
abbrev cc9_sem4_1 : DmaSem sig := 79
abbrev cc9_sem5_0 : DmaSem sig := 80
abbrev cc9_sem5_1 : DmaSem sig := 81
abbrev cc10_sem0_0 : DmaSem sig := 82
abbrev cc10_sem0_1 : DmaSem sig := 83
abbrev cc10_sem1_0 : DmaSem sig := 84
abbrev cc10_sem1_1 : DmaSem sig := 85
abbrev cc10_sem2_0 : DmaSem sig := 86
abbrev cc10_sem2_1 : DmaSem sig := 87
abbrev cc10_sem3_0 : DmaSem sig := 88
abbrev cc10_sem3_1 : DmaSem sig := 89
abbrev cc11_sem0_0 : DmaSem sig := 90
abbrev cc11_sem0_1 : DmaSem sig := 91
abbrev cc11_sem1_0 : DmaSem sig := 92
abbrev cc11_sem1_1 : DmaSem sig := 93
abbrev cc11_sem2_0 : DmaSem sig := 94
abbrev cc11_sem3_0 : DmaSem sig := 95
abbrev cc11_sem4_0 : DmaSem sig := 96
abbrev cc11_sem5_0 : DmaSem sig := 97
abbrev cc11_sem5_1 : DmaSem sig := 98

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S4096x1024 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S4096x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S256x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x4096 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S256x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S256x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨2, ![2, 8], ![false, false]⟩

def k2_cond2 (i : grid2.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_8 : BitVec 32 := 0#32
  let v15 : BitVec 1 := Scalar.cmpi .ne v14 c0_i32_8
  v15

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S2048x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S512x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S2048x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S2048x1024 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev grid3 : Pipeline.Grid := ⟨1, ![4], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1024x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1024x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1024x1024 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1024x1024 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x1024 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S1024x1024 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S512x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1024x1024 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x1024 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S512x1024 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![16], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 1 → Memref sig .tc .vmem S4096x1024 .bf16 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![false]

abbrev stage5_1 : Fin 1 → Memref sig .tc .vmem S4096x1024 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S256x4096 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S256x4096 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 2 → Memref sig .tc .vmem S256x1 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev stage5_5 : Fin 2 → Memref sig .tc .vmem S256x1024 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨2, ![2, 8], ![false, false]⟩

def k6_cond2 (i : grid6.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_8 : BitVec 32 := 0#32
  let v15 : BitVec 1 := Scalar.cmpi .ne v14 c0_i32_8
  v15

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage6_0 : Fin 2 → Memref sig .tc .vmem S2048x512 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, true]

abbrev stage6_1 : Fin 2 → Memref sig .tc .vmem S512x1024 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true]

abbrev stage6_2 : Fin 2 → Memref sig .tc .vmem S2048x1 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, false]

abbrev stage6_3 : Fin 2 → Memref sig .tc .vmem S2048x1024 .bf16 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true, false]

abbrev grid7 : Pipeline.Grid := ⟨1, ![4], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S1024x1024 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S1024x1024 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S1024x1024 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1024x1024 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x1024 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S1024x1024 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev grid8 : Pipeline.Grid := ⟨1, ![8], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S512x1024 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1024x1024 .bf16 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x1024 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 2 → Memref sig .tc .vmem S512x1024 .bf16 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev grid9 : Pipeline.Grid := ⟨1, ![16], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_4 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_5 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 1 → Memref sig .tc .vmem S4096x1024 .bf16 := fun | 0 => Memref.whole cc9_stg0_0 | ⟨_ + 1, h⟩ => absurd h (Nat.not_lt.2 (Nat.le_add_left _ _))
abbrev sem9_0 : Fin 1 → DmaSem sig := fun | 0 => cc9_sem0_0 | ⟨_ + 1, h⟩ => absurd h (Nat.not_lt.2 (Nat.le_add_left _ _))
abbrev reads9_0 : Fin grid9.rank → Bool := ![false]

abbrev stage9_1 : Fin 1 → Memref sig .tc .vmem S4096x1024 .bf16 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 2 → Memref sig .tc .vmem S256x4096 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev stage9_3 : Fin 2 → Memref sig .tc .vmem S256x4096 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true]

abbrev stage9_4 : Fin 2 → Memref sig .tc .vmem S256x1 .f32 := fun | 0 => Memref.whole cc9_stg4_0 | 1 => Memref.whole cc9_stg4_1 | ⟨_ + 2, h⟩ => absurd h (Nat.not_lt.2 (Nat.le_add_left _ _))
abbrev sem9_4 : Fin 2 → DmaSem sig := fun | 0 => cc9_sem4_0 | 1 => cc9_sem4_1 | ⟨_ + 2, h⟩ => absurd h (Nat.not_lt.2 (Nat.le_add_left _ _))
abbrev reads9_4 : Fin grid9.rank → Bool := ![true]

abbrev stage9_5 : Fin 2 → Memref sig .tc .vmem S256x1024 .f32 := fun | 0 => Memref.whole cc9_stg5_0 | 1 => Memref.whole cc9_stg5_1 | ⟨_ + 2, h⟩ => absurd h (Nat.not_lt.2 (Nat.le_add_left _ _))
abbrev sem9_5 : Fin 2 → DmaSem sig := fun | 0 => cc9_sem5_0 | 1 => cc9_sem5_1 | ⟨_ + 2, h⟩ => absurd h (Nat.not_lt.2 (Nat.le_add_left _ _))
abbrev reads9_5 : Fin grid9.rank → Bool := ![true]

abbrev grid10 : Pipeline.Grid := ⟨2, ![2, 8], ![false, false]⟩

def k10_cond2 (i : grid10.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_8 : BitVec 32 := 0#32
  let v15 : BitVec 1 := Scalar.cmpi .ne v14 c0_i32_8
  v15

def cc10_transform_0 (i : grid10.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc10_transform_1 (i : grid10.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc10_transform_2 (i : grid10.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc10_transform_3 (i : grid10.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage10_0 : Fin 2 → Memref sig .tc .vmem S2048x512 .bf16 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true, true]

abbrev stage10_1 : Fin 2 → Memref sig .tc .vmem S512x1024 .bf16 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![false, true]

abbrev stage10_2 : Fin 2 → Memref sig .tc .vmem S2048x1 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true, false]

abbrev stage10_3 : Fin 2 → Memref sig .tc .vmem S2048x1024 .bf16 := fun | 0 => Memref.whole cc10_stg3_0 | 1 => Memref.whole cc10_stg3_1 | ⟨_ + 2, h⟩ => absurd h (Nat.not_lt.2 (Nat.le_add_left _ _))
abbrev sem10_3 : Fin 2 → DmaSem sig := fun | 0 => cc10_sem3_0 | 1 => cc10_sem3_1 | ⟨_ + 2, h⟩ => absurd h (Nat.not_lt.2 (Nat.le_add_left _ _))
abbrev reads10_3 : Fin grid10.rank → Bool := ![true, false]

abbrev grid11 : Pipeline.Grid := ⟨1, ![4], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_5 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S1024x1024 .bf16 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 2 → Memref sig .tc .vmem S1024x1024 .bf16 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![true]

abbrev stage11_2 : Fin 1 → Memref sig .tc .vmem S1024x1024 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 1 → Memref sig .tc .vmem S1024x1024 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 1 → Memref sig .tc .vmem S1x1024 .f32 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))
abbrev reads11_4 : Fin grid11.rank → Bool := ![false]

abbrev stage11_5 : Fin 2 → Memref sig .tc .vmem S1024x1024 .f32 := fun | 0 => Memref.whole cc11_stg5_0 | 1 => Memref.whole cc11_stg5_1 | ⟨_ + 2, h⟩ => absurd h (Nat.not_lt.2 (Nat.le_add_left _ _))
abbrev sem11_5 : Fin 2 → DmaSem sig := fun | 0 => cc11_sem5_0 | 1 => cc11_sem5_1 | ⟨_ + 2, h⟩ => absurd h (Nat.not_lt.2 (Nat.le_add_left _ _))
abbrev reads11_5 : Fin grid11.rank → Bool := ![true]

class Facts₀ : Prop where
  slices_S2x16384_S1x16384_0_0 : S2x16384.Slices ![0, 0] S1x16384
  shapeCasts_S1x16384_S16384 : S1x16384.ShapeCasts S16384
  slices_S2x16384_S1x16384_1_0 : S2x16384.Slices ![1, 0] S1x16384
  slices_S2x131072_S1x131072_0_0 : S2x131072.Slices ![0, 0] S1x131072
  shapeCasts_S1x131072_S131072 : S1x131072.ShapeCasts S131072
  slices_S2x131072_S1x131072_1_0 : S2x131072.Slices ![1, 0] S1x131072
  bcast_S_S16384 : S_.BroadcastsInDim S16384 (![] : Fin 0 → Fin S16384.rank)
  bcast_S_S1048576 : S_.BroadcastsInDim S1048576 (![] : Fin 0 → Fin S1048576.rank)
  bcast_S16384_S16384x1_0 : S16384.BroadcastsInDim S16384x1 (![0] : Fin 1 → Fin S16384x1.rank)
  shapeCasts_S1048576_S1024x1024 : S1048576.ShapeCasts S1024x1024
  bitsLt_bf16_f32 : FTy.bits .bf16 < FTy.bits .f32
  bcast_S_S1024 : S_.BroadcastsInDim S1024 (![] : Fin 0 → Fin S1024.rank)
  shapeCasts_S1024_S1x1024 : S1024.ShapeCasts S1x1024
  bcast_S_S131072 : S_.BroadcastsInDim S131072 (![] : Fin 0 → Fin S131072.rank)
  bcast_S_S16777216 : S_.BroadcastsInDim S16777216 (![] : Fin 0 → Fin S16777216.rank)
  bcast_S131072_S131072x1_0 : S131072.BroadcastsInDim S131072x1 (![0] : Fin 1 → Fin S131072x1.rank)
  shapeCasts_S16777216_S4096x4096 : S16777216.ShapeCasts S4096x4096
  bcast_S_S4096 : S_.BroadcastsInDim S4096 (![] : Fin 0 → Fin S4096.rank)
  shapeCasts_S4096_S4096x1 : S4096.ShapeCasts S4096x1
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  packedbf16_S512x1024_S512x1024_0_0 : (Rect.unit (s := S512x1024) ![0, 0] S512x1024.size inb_S512x1024_S512x1024_0_0).PackedRows (EltTy.packing .bf16)
  slices_S3x4096x4096_S1x4096x4096_0_0_0 : S3x4096x4096.Slices ![0, 0, 0] S1x4096x4096
  shapeCasts_S1x4096x4096_S4096x4096 : S1x4096x4096.ShapeCasts S4096x4096
  slices_S3x4096_S1x4096_0_0 : S3x4096.Slices ![0, 0] S1x4096
  shapeCasts_S1x4096_S4096 : S1x4096.ShapeCasts S4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S256x1_S256x1_0_0 : ∀ a, (![0, 0] : Fin 2 → Nat) a + S256x1.size a ≤ S256x1.size a
  h_S256x1 : 0 < S256x1.numel
  shapeCasts_S256x1_S256x1 : S256x1.ShapeCasts S256x1
  broadcasts_S256x1_S256x1024 : S256x1.Broadcasts S256x1024
  inb_S256x1024_S256x1024_0_0 : ∀ a, (![0, 0] : Fin 2 → Nat) a + S256x1024.size a ≤ S256x1024.size a
  h_S256x1024 : 0 < S256x1024.numel
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  broadcasts_S2048x1_S2048x1024 : S2048x1.Broadcasts S2048x1024
  packedbf16_S2048x1024_S2048x1024_0_0 : (Rect.unit (s := S2048x1024) ![0, 0] S2048x1024.size inb_S2048x1024_S2048x1024_0_0).PackedRows (EltTy.packing .bf16)
  slices_S3x1024x1024_S1x1024x1024_0_0_0 : S3x1024x1024.Slices ![0, 0, 0] S1x1024x1024
  shapeCasts_S1x1024x1024_S1024x1024 : S1x1024x1024.ShapeCasts S1024x1024
  slices_S3x1024_S1x1024_0_0 : S3x1024.Slices ![0, 0] S1x1024
  shapeCasts_S1x1024_S1024 : S1x1024.ShapeCasts S1024
  broadcasts_S1x1024_S1024x1024 : S1x1024.Broadcasts S1024x1024
  slices_S3x4096x4096_S1x4096x4096_1_0_0 : S3x4096x4096.Slices ![1, 0, 0] S1x4096x4096
  slices_S3x4096_S1x4096_1_0 : S3x4096.Slices ![1, 0] S1x4096
  slices_S3x1024x1024_S1x1024x1024_1_0_0 : S3x1024x1024.Slices ![1, 0, 0] S1x1024x1024
  slices_S3x1024_S1x1024_1_0 : S3x1024.Slices ![1, 0] S1x1024
  slices_S3x4096x4096_S1x4096x4096_2_0_0 : S3x4096x4096.Slices ![2, 0, 0] S1x4096x4096
  slices_S3x4096_S1x4096_2_0 : S3x4096.Slices ![2, 0] S1x4096
  slices_S3x1024x1024_S1x1024x1024_2_0_0 : S3x1024x1024.Slices ![2, 0, 0] S1x1024x1024
  slices_S3x1024_S1x1024_2_0 : S3x1024.Slices ![2, 0] S1x1024
  scatter_S1048576_S16384x1_S16384_n_0_0_1_wf : ScatterDims.WF S1048576 S16384x1 S16384 [] [0] [0] 1
  scatter_S1024_S16384x1_S16384_n_0_0_1_wf : ScatterDims.WF S1024 S16384x1 S16384 [] [0] [0] 1
  scatter_S16777216_S131072x1_S131072_n_0_0_1_wf : ScatterDims.WF S16777216 S131072x1 S131072 [] [0] [0] 1
  scatter_S4096_S131072x1_S131072_n_0_0_1_wf : ScatterDims.WF S4096 S131072x1 S131072 [] [0] [0] 1
  dot_S512x1024_S1024x1024_S512x1024_1_0_0_1_n_n_wf : DotDims.WF S512x1024 S1024x1024 S512x1024 [1] [0] [0] [1] [] []
  dot_S256x4096_S4096x1024_S256x1024_1_0_0_1_n_n_wf : DotDims.WF S256x4096 S4096x1024 S256x1024 [1] [0] [0] [1] [] []
  dot_S2048x512_S512x1024_S2048x1024_1_0_0_1_n_n_wf : DotDims.WF S2048x512 S512x1024 S2048x1024 [1] [0] [0] [1] [] []
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .bf16 = 32 ∨ (Rect.block (s := S4096x1024) S512x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S4096x1024.size a
  hwx0_3 : ∀ i : grid0.Coords, EltTy.bits .bf16 = 32 ∨ (Rect.block (s := S4096x1024) S512x1024.size (cc0_transform_3 i) (hinb0_3 i)).WholeWords (EltTy.packing .bf16)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S4096x1024.size a ≤ S4096x1024.size a
  hwx1_0 : ∀ i : grid1.Coords, EltTy.bits .bf16 = 32 ∨ (Rect.block (s := S4096x1024) S4096x1024.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096x1024.size a ≤ S4096x1024.size a
  hwx1_1 : ∀ i : grid1.Coords, EltTy.bits .bf16 = 32 ∨ (Rect.block (s := S4096x1024) S4096x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x4096.size a ≤ S4096x4096.size a
  hwx1_2 : ∀ i : grid1.Coords, EltTy.bits .f32 = 32 ∨ (Rect.block (s := S4096x4096) S256x4096.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x4096.size a ≤ S4096x4096.size a
  hwx1_3 : ∀ i : grid1.Coords, EltTy.bits .f32 = 32 ∨ (Rect.block (s := S4096x4096) S256x4096.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S256x1.size a ≤ S4096x1.size a
  hwx1_4 : ∀ i : grid1.Coords, EltTy.bits .f32 = 32 ∨ (Rect.block (s := S4096x1) S256x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S256x1024.size a ≤ S4096x1024.size a
  hwx1_5 : ∀ i : grid1.Coords, EltTy.bits .f32 = 32 ∨ (Rect.block (s := S4096x1024) S256x1024.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x512.size a ≤ S4096x4096.size a
  hwx2_0 : ∀ i : grid2.Coords, EltTy.bits .bf16 = 32 ∨ (Rect.block (s := S4096x4096) S2048x512.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x1024.size a ≤ S4096x1024.size a
  hwx2_1 : ∀ i : grid2.Coords, EltTy.bits .bf16 = 32 ∨ (Rect.block (s := S4096x1024) S512x1024.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2048x1.size a ≤ S4096x1.size a
  hwx2_2 : ∀ i : grid2.Coords, EltTy.bits .f32 = 32 ∨ (Rect.block (s := S4096x1) S2048x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2048x1024.size a ≤ S4096x1024.size a
  hwx2_3 : ∀ i : grid2.Coords, EltTy.bits .bf16 = 32 ∨ (Rect.block (s := S4096x1024) S2048x1024.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x1024.size a ≤ S4096x1024.size a
  hwx3_0 : ∀ i : grid3.Coords, EltTy.bits .bf16 = 32 ∨ (Rect.block (s := S4096x1024) S1024x1024.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1024x1024.size a ≤ S4096x1024.size a
  hwx3_1 : ∀ i : grid3.Coords, EltTy.bits .bf16 = 32 ∨ (Rect.block (s := S4096x1024) S1024x1024.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1024x1024.size a ≤ S1024x1024.size a
  hwx3_2 : ∀ i : grid3.Coords, EltTy.bits .f32 = 32 ∨ (Rect.block (s := S1024x1024) S1024x1024.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1024x1024.size a ≤ S1024x1024.size a
  hwx3_3 : ∀ i : grid3.Coords, EltTy.bits .f32 = 32 ∨ (Rect.block (s := S1024x1024) S1024x1024.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x1024.size a ≤ S1x1024.size a
  hwx3_4 : ∀ i : grid3.Coords, EltTy.bits .f32 = 32 ∨ (Rect.block (s := S1x1024) S1x1024.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S1024x1024.size a ≤ S4096x1024.size a
  hwx3_5 : ∀ i : grid3.Coords, EltTy.bits .f32 = 32 ∨ (Rect.block (s := S4096x1024) S1024x1024.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S512x1024.size a ≤ S4096x1024.size a
  hwx4_0 : ∀ i : grid4.Coords, EltTy.bits .bf16 = 32 ∨ (Rect.block (s := S4096x1024) S512x1024.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1024x1024.size a ≤ S1024x1024.size a
  hwx4_1 : ∀ i : grid4.Coords, EltTy.bits .bf16 = 32 ∨ (Rect.block (s := S1024x1024) S1024x1024.size (cc4_transform_1 i) (hinb4_1 i)).WholeWords (EltTy.packing .bf16)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x1024.size a ≤ S1x1024.size a
  hwx4_2 : ∀ i : grid4.Coords, EltTy.bits .f32 = 32 ∨ (Rect.block (s := S1x1024) S1x1024.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S512x1024.size a ≤ S4096x1024.size a
  hwx4_3 : ∀ i : grid4.Coords, EltTy.bits .bf16 = 32 ∨ (Rect.block (s := S4096x1024) S512x1024.size (cc4_transform_3 i) (hinb4_3 i)).WholeWords (EltTy.packing .bf16)
  hrank5 : 0 < grid5.rank
  hstage5_0 : ∀ j, (stage5_0 j).IsWhole
  nbuf5_0 : grid5.bufCount reads5_0 true = 1
  hreads5_0 : ∀ i i' : grid5.Coords, (∀ a, reads5_0 a = true → i a = i' a) → cc5_transform_0 i = cc5_transform_0 i'
  hinb5_0 : ∀ (i : grid5.Coords) a, (cc5_transform_0 i a + 1) * S4096x1024.size a ≤ S4096x1024.size a
  hwx5_0 : ∀ i : grid5.Coords, EltTy.bits .bf16 = 32 ∨ (Rect.block (s := S4096x1024) S4096x1024.size (cc5_transform_0 i) (hinb5_0 i)).WholeWords (EltTy.packing .bf16)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S4096x1024.size a ≤ S4096x1024.size a
  hwx5_1 : ∀ i : grid5.Coords, EltTy.bits .bf16 = 32 ∨ (Rect.block (s := S4096x1024) S4096x1024.size (cc5_transform_1 i) (hinb5_1 i)).WholeWords (EltTy.packing .bf16)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S256x4096.size a ≤ S4096x4096.size a
  hwx5_2 : ∀ i : grid5.Coords, EltTy.bits .f32 = 32 ∨ (Rect.block (s := S4096x4096) S256x4096.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S256x4096.size a ≤ S4096x4096.size a
  hwx5_3 : ∀ i : grid5.Coords, EltTy.bits .f32 = 32 ∨ (Rect.block (s := S4096x4096) S256x4096.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S256x1.size a ≤ S4096x1.size a
  hwx5_4 : ∀ i : grid5.Coords, EltTy.bits .f32 = 32 ∨ (Rect.block (s := S4096x1) S256x1.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S256x1024.size a ≤ S4096x1024.size a
  hwx5_5 : ∀ i : grid5.Coords, EltTy.bits .f32 = 32 ∨ (Rect.block (s := S4096x1024) S256x1024.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2048x512.size a ≤ S4096x4096.size a
  hwx6_0 : ∀ i : grid6.Coords, EltTy.bits .bf16 = 32 ∨ (Rect.block (s := S4096x4096) S2048x512.size (cc6_transform_0 i) (hinb6_0 i)).WholeWords (EltTy.packing .bf16)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S512x1024.size a ≤ S4096x1024.size a
  hwx6_1 : ∀ i : grid6.Coords, EltTy.bits .bf16 = 32 ∨ (Rect.block (s := S4096x1024) S512x1024.size (cc6_transform_1 i) (hinb6_1 i)).WholeWords (EltTy.packing .bf16)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S2048x1.size a ≤ S4096x1.size a
  hwx6_2 : ∀ i : grid6.Coords, EltTy.bits .f32 = 32 ∨ (Rect.block (s := S4096x1) S2048x1.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S2048x1024.size a ≤ S4096x1024.size a
  hwx6_3 : ∀ i : grid6.Coords, EltTy.bits .bf16 = 32 ∨ (Rect.block (s := S4096x1024) S2048x1024.size (cc6_transform_3 i) (hinb6_3 i)).WholeWords (EltTy.packing .bf16)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S1024x1024.size a ≤ S4096x1024.size a
  hwx7_0 : ∀ i : grid7.Coords, EltTy.bits .bf16 = 32 ∨ (Rect.block (s := S4096x1024) S1024x1024.size (cc7_transform_0 i) (hinb7_0 i)).WholeWords (EltTy.packing .bf16)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S1024x1024.size a ≤ S4096x1024.size a
  hwx7_1 : ∀ i : grid7.Coords, EltTy.bits .bf16 = 32 ∨ (Rect.block (s := S4096x1024) S1024x1024.size (cc7_transform_1 i) (hinb7_1 i)).WholeWords (EltTy.packing .bf16)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1024x1024.size a ≤ S1024x1024.size a
  hwx7_2 : ∀ i : grid7.Coords, EltTy.bits .f32 = 32 ∨ (Rect.block (s := S1024x1024) S1024x1024.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1024x1024.size a ≤ S1024x1024.size a
  hwx7_3 : ∀ i : grid7.Coords, EltTy.bits .f32 = 32 ∨ (Rect.block (s := S1024x1024) S1024x1024.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x1024.size a ≤ S1x1024.size a
  hwx7_4 : ∀ i : grid7.Coords, EltTy.bits .f32 = 32 ∨ (Rect.block (s := S1x1024) S1x1024.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S1024x1024.size a ≤ S4096x1024.size a
  hwx7_5 : ∀ i : grid7.Coords, EltTy.bits .f32 = 32 ∨ (Rect.block (s := S4096x1024) S1024x1024.size (cc7_transform_5 i) (hinb7_5 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S512x1024.size a ≤ S4096x1024.size a
  hwx8_0 : ∀ i : grid8.Coords, EltTy.bits .bf16 = 32 ∨ (Rect.block (s := S4096x1024) S512x1024.size (cc8_transform_0 i) (hinb8_0 i)).WholeWords (EltTy.packing .bf16)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1024x1024.size a ≤ S1024x1024.size a
  hwx8_1 : ∀ i : grid8.Coords, EltTy.bits .bf16 = 32 ∨ (Rect.block (s := S1024x1024) S1024x1024.size (cc8_transform_1 i) (hinb8_1 i)).WholeWords (EltTy.packing .bf16)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x1024.size a ≤ S1x1024.size a
  hwx8_2 : ∀ i : grid8.Coords, EltTy.bits .f32 = 32 ∨ (Rect.block (s := S1x1024) S1x1024.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S512x1024.size a ≤ S4096x1024.size a
  hwx8_3 : ∀ i : grid8.Coords, EltTy.bits .bf16 = 32 ∨ (Rect.block (s := S4096x1024) S512x1024.size (cc8_transform_3 i) (hinb8_3 i)).WholeWords (EltTy.packing .bf16)
  hrank9 : 0 < grid9.rank
  hstage9_0 : ∀ j, (stage9_0 j).IsWhole
  nbuf9_0 : grid9.bufCount reads9_0 true = 1
  hreads9_0 : ∀ i i' : grid9.Coords, (∀ a, reads9_0 a = true → i a = i' a) → cc9_transform_0 i = cc9_transform_0 i'
  hinb9_0 : ∀ (i : grid9.Coords) a, (cc9_transform_0 i a + 1) * S4096x1024.size a ≤ S4096x1024.size a
  hwx9_0 : ∀ i : grid9.Coords, EltTy.bits .bf16 = 32 ∨ (Rect.block (s := S4096x1024) S4096x1024.size (cc9_transform_0 i) (hinb9_0 i)).WholeWords (EltTy.packing .bf16)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S4096x1024.size a ≤ S4096x1024.size a
  hwx9_1 : ∀ i : grid9.Coords, EltTy.bits .bf16 = 32 ∨ (Rect.block (s := S4096x1024) S4096x1024.size (cc9_transform_1 i) (hinb9_1 i)).WholeWords (EltTy.packing .bf16)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S256x4096.size a ≤ S4096x4096.size a
  hwx9_2 : ∀ i : grid9.Coords, EltTy.bits .f32 = 32 ∨ (Rect.block (s := S4096x4096) S256x4096.size (cc9_transform_2 i) (hinb9_2 i)).WholeWords (EltTy.packing .f32)
  hstage9_3 : ∀ j, (stage9_3 j).IsWhole
  nbuf9_3 : grid9.bufCount reads9_3 false = 2
  hreads9_3 : ∀ i i' : grid9.Coords, (∀ a, reads9_3 a = true → i a = i' a) → cc9_transform_3 i = cc9_transform_3 i'
  hinb9_3 : ∀ (i : grid9.Coords) a, (cc9_transform_3 i a + 1) * S256x4096.size a ≤ S4096x4096.size a
  hwx9_3 : ∀ i : grid9.Coords, EltTy.bits .f32 = 32 ∨ (Rect.block (s := S4096x4096) S256x4096.size (cc9_transform_3 i) (hinb9_3 i)).WholeWords (EltTy.packing .f32)
  hstage9_4 : ∀ j, (stage9_4 j).IsWhole
  nbuf9_4 : grid9.bufCount reads9_4 false = 2
  hreads9_4 : ∀ i i' : grid9.Coords, (∀ a, reads9_4 a = true → i a = i' a) → cc9_transform_4 i = cc9_transform_4 i'
  hinb9_4 : ∀ (i : grid9.Coords) a, (cc9_transform_4 i a + 1) * S256x1.size a ≤ S4096x1.size a
  hwx9_4 : ∀ i : grid9.Coords, EltTy.bits .f32 = 32 ∨ (Rect.block (s := S4096x1) S256x1.size (cc9_transform_4 i) (hinb9_4 i)).WholeWords (EltTy.packing .f32)
  hstage9_5 : ∀ j, (stage9_5 j).IsWhole
  nbuf9_5 : grid9.bufCount reads9_5 false = 2
  hreads9_5 : ∀ i i' : grid9.Coords, (∀ a, reads9_5 a = true → i a = i' a) → cc9_transform_5 i = cc9_transform_5 i'
  hinb9_5 : ∀ (i : grid9.Coords) a, (cc9_transform_5 i a + 1) * S256x1024.size a ≤ S4096x1024.size a
  hwx9_5 : ∀ i : grid9.Coords, EltTy.bits .f32 = 32 ∨ (Rect.block (s := S4096x1024) S256x1024.size (cc9_transform_5 i) (hinb9_5 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S2048x512.size a ≤ S4096x4096.size a
  hwx10_0 : ∀ i : grid10.Coords, EltTy.bits .bf16 = 32 ∨ (Rect.block (s := S4096x4096) S2048x512.size (cc10_transform_0 i) (hinb10_0 i)).WholeWords (EltTy.packing .bf16)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S512x1024.size a ≤ S4096x1024.size a
  hwx10_1 : ∀ i : grid10.Coords, EltTy.bits .bf16 = 32 ∨ (Rect.block (s := S4096x1024) S512x1024.size (cc10_transform_1 i) (hinb10_1 i)).WholeWords (EltTy.packing .bf16)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S2048x1.size a ≤ S4096x1.size a
  hwx10_2 : ∀ i : grid10.Coords, EltTy.bits .f32 = 32 ∨ (Rect.block (s := S4096x1) S2048x1.size (cc10_transform_2 i) (hinb10_2 i)).WholeWords (EltTy.packing .f32)
  hstage10_3 : ∀ j, (stage10_3 j).IsWhole
  nbuf10_3 : grid10.bufCount reads10_3 false = 2
  hreads10_3 : ∀ i i' : grid10.Coords, (∀ a, reads10_3 a = true → i a = i' a) → cc10_transform_3 i = cc10_transform_3 i'
  hinb10_3 : ∀ (i : grid10.Coords) a, (cc10_transform_3 i a + 1) * S2048x1024.size a ≤ S4096x1024.size a
  hwx10_3 : ∀ i : grid10.Coords, EltTy.bits .bf16 = 32 ∨ (Rect.block (s := S4096x1024) S2048x1024.size (cc10_transform_3 i) (hinb10_3 i)).WholeWords (EltTy.packing .bf16)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S1024x1024.size a ≤ S4096x1024.size a
  hwx11_0 : ∀ i : grid11.Coords, EltTy.bits .bf16 = 32 ∨ (Rect.block (s := S4096x1024) S1024x1024.size (cc11_transform_0 i) (hinb11_0 i)).WholeWords (EltTy.packing .bf16)
  hstage11_1 : ∀ j, (stage11_1 j).IsWhole
  nbuf11_1 : grid11.bufCount reads11_1 false = 2
  hreads11_1 : ∀ i i' : grid11.Coords, (∀ a, reads11_1 a = true → i a = i' a) → cc11_transform_1 i = cc11_transform_1 i'
  hinb11_1 : ∀ (i : grid11.Coords) a, (cc11_transform_1 i a + 1) * S1024x1024.size a ≤ S4096x1024.size a
  hwx11_1 : ∀ i : grid11.Coords, EltTy.bits .bf16 = 32 ∨ (Rect.block (s := S4096x1024) S1024x1024.size (cc11_transform_1 i) (hinb11_1 i)).WholeWords (EltTy.packing .bf16)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1024x1024.size a ≤ S1024x1024.size a
  hwx11_2 : ∀ i : grid11.Coords, EltTy.bits .f32 = 32 ∨ (Rect.block (s := S1024x1024) S1024x1024.size (cc11_transform_2 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S1024x1024.size a ≤ S1024x1024.size a
  hwx11_3 : ∀ i : grid11.Coords, EltTy.bits .f32 = 32 ∨ (Rect.block (s := S1024x1024) S1024x1024.size (cc11_transform_3 i) (hinb11_3 i)).WholeWords (EltTy.packing .f32)
  hstage11_4 : ∀ j, (stage11_4 j).IsWhole
  nbuf11_4 : grid11.bufCount reads11_4 true = 1
  hreads11_4 : ∀ i i' : grid11.Coords, (∀ a, reads11_4 a = true → i a = i' a) → cc11_transform_4 i = cc11_transform_4 i'
  hinb11_4 : ∀ (i : grid11.Coords) a, (cc11_transform_4 i a + 1) * S1x1024.size a ≤ S1x1024.size a
  hwx11_4 : ∀ i : grid11.Coords, EltTy.bits .f32 = 32 ∨ (Rect.block (s := S1x1024) S1x1024.size (cc11_transform_4 i) (hinb11_4 i)).WholeWords (EltTy.packing .f32)
  hstage11_5 : ∀ j, (stage11_5 j).IsWhole
  nbuf11_5 : grid11.bufCount reads11_5 false = 2
  hreads11_5 : ∀ i i' : grid11.Coords, (∀ a, reads11_5 a = true → i a = i' a) → cc11_transform_5 i = cc11_transform_5 i'
  hinb11_5 : ∀ (i : grid11.Coords) a, (cc11_transform_5 i a + 1) * S1024x1024.size a ≤ S4096x1024.size a
  hwx11_5 : ∀ i : grid11.Coords, EltTy.bits .f32 = 32 ∨ (Rect.block (s := S4096x1024) S1024x1024.size (cc11_transform_5 i) (hinb11_5 i)).WholeWords (EltTy.packing .f32)

variable [Facts₀]

def scatter_S1048576_S16384x1_S16384_n_0_0_1 : ScatterDims S1048576 S16384x1 S16384 where
  updateWindowDims := []
  insertedWindowDims := [0]
  scatterDimsToOperandDims := [0]
  indexVectorDim := 1
  wf := scatter_S1048576_S16384x1_S16384_n_0_0_1_wf
def scatter_S1024_S16384x1_S16384_n_0_0_1 : ScatterDims S1024 S16384x1 S16384 where
  updateWindowDims := []
  insertedWindowDims := [0]
  scatterDimsToOperandDims := [0]
  indexVectorDim := 1
  wf := scatter_S1024_S16384x1_S16384_n_0_0_1_wf
def scatter_S16777216_S131072x1_S131072_n_0_0_1 : ScatterDims S16777216 S131072x1 S131072 where
  updateWindowDims := []
  insertedWindowDims := [0]
  scatterDimsToOperandDims := [0]
  indexVectorDim := 1
  wf := scatter_S16777216_S131072x1_S131072_n_0_0_1_wf
def scatter_S4096_S131072x1_S131072_n_0_0_1 : ScatterDims S4096 S131072x1 S131072 where
  updateWindowDims := []
  insertedWindowDims := [0]
  scatterDimsToOperandDims := [0]
  indexVectorDim := 1
  wf := scatter_S4096_S131072x1_S131072_n_0_0_1_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S256x4096_S4096x1024_S256x1024_1_0_0_1_n_n : DotDims S256x4096 S4096x1024 S256x1024 where
  lhsContracting := [1]
  rhsContracting := [0]
  lhsNonContracting := [0]
  rhsNonContracting := [1]
  lhsBatch := []
  rhsBatch := []
  wf := dot_S256x4096_S4096x1024_S256x1024_1_0_0_1_n_n_wf
def dot_S2048x512_S512x1024_S2048x1024_1_0_0_1_n_n : DotDims S2048x512 S512x1024 S2048x1024 where
  lhsContracting := [1]
  rhsContracting := [0]
  lhsNonContracting := [0]
  rhsNonContracting := [1]
  lhsBatch := []
  rhsBatch := []
  wf := dot_S2048x512_S512x1024_S2048x1024_1_0_0_1_n_n_wf
def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_v44) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v25) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v45) S512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v45) S4096x1024.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v44) S4096x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S256x4096.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v49) S256x4096.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v52) S256x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v53) S256x1024.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v34) S2048x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v54) S512x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v43) S2048x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v55) S2048x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

abbrev win3_0 : Pipeline.Window sig grid3 :=
  Pipeline.Window.ofSpec (Memref.whole main_v55) S1024x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v54) S1024x1024.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v57) S1024x1024.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v59) S1024x1024.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v62) S1x1024.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v63) S1024x1024.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v64) S512x1024.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v16) S1024x1024.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v25) S1x1024.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v65) S512x1024.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v65) S4096x1024.size cc5_transform_0 reads5_0 false true 1 stage5_0 sem5_0
    hrank5 hreads5_0 hinb5_0 nbuf5_0 (Memref.isWhole_whole _) hwx5_0 hstage5_0

abbrev win5_1 : Pipeline.Window sig grid5 :=
  Pipeline.Window.ofSpec (Memref.whole main_v64) S4096x1024.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v67) S256x4096.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v69) S256x4096.size cc5_transform_3 reads5_3 false false 2 stage5_3 sem5_3
    hrank5 hreads5_3 hinb5_3 nbuf5_3 (Memref.isWhole_whole _) hwx5_3 hstage5_3

abbrev win5_4 : Pipeline.Window sig grid5 :=
  Pipeline.Window.ofSpec (Memref.whole main_v72) S256x1.size cc5_transform_4 reads5_4 false false 2 stage5_4 sem5_4
    hrank5 hreads5_4 hinb5_4 nbuf5_4 (Memref.isWhole_whole _) hwx5_4 hstage5_4

abbrev win5_5 : Pipeline.Window sig grid5 :=
  Pipeline.Window.ofSpec (Memref.whole main_v73) S256x1024.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v34) S2048x512.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v74) S512x1024.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v43) S2048x1.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v75) S2048x1024.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev idle6 : Fin 4 → grid6.Coords → Bool := fun | 0 => fun _ => false | 1 => fun _ => false | 2 => fun _ => false | 3 => fun i => !(k6_cond2 i == 1#1) | ⟨_ + 4, h⟩ => absurd h (Nat.not_lt.2 (Nat.le_add_left _ _))

abbrev win7_0 : Pipeline.Window sig grid7 :=
  Pipeline.Window.ofSpec (Memref.whole main_v75) S1024x1024.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v74) S1024x1024.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v77) S1024x1024.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v79) S1024x1024.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v82) S1x1024.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v83) S1024x1024.size cc7_transform_5 reads7_5 true false 2 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

abbrev win8_0 : Pipeline.Window sig grid8 :=
  Pipeline.Window.ofSpec (Memref.whole main_v84) S512x1024.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v16) S1024x1024.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v25) S1x1024.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v85) S512x1024.size cc8_transform_3 reads8_3 true false 2 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

abbrev win9_0 : Pipeline.Window sig grid9 :=
  Pipeline.Window.ofSpec (Memref.whole main_v85) S4096x1024.size cc9_transform_0 reads9_0 false true 1 stage9_0 sem9_0
    hrank9 hreads9_0 hinb9_0 nbuf9_0 (Memref.isWhole_whole _) hwx9_0 hstage9_0

abbrev win9_1 : Pipeline.Window sig grid9 :=
  Pipeline.Window.ofSpec (Memref.whole main_v84) S4096x1024.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v87) S256x4096.size cc9_transform_2 reads9_2 false false 2 stage9_2 sem9_2
    hrank9 hreads9_2 hinb9_2 nbuf9_2 (Memref.isWhole_whole _) hwx9_2 hstage9_2

abbrev win9_3 : Pipeline.Window sig grid9 :=
  Pipeline.Window.ofSpec (Memref.whole main_v89) S256x4096.size cc9_transform_3 reads9_3 false false 2 stage9_3 sem9_3
    hrank9 hreads9_3 hinb9_3 nbuf9_3 (Memref.isWhole_whole _) hwx9_3 hstage9_3

abbrev win9_4 : Pipeline.Window sig grid9 :=
  Pipeline.Window.ofSpec (Memref.whole main_v92) S256x1.size cc9_transform_4 reads9_4 false false 2 stage9_4 sem9_4
    hrank9 hreads9_4 hinb9_4 nbuf9_4 (Memref.isWhole_whole _) hwx9_4 hstage9_4

abbrev win9_5 : Pipeline.Window sig grid9 :=
  Pipeline.Window.ofSpec (Memref.whole main_v93) S256x1024.size cc9_transform_5 reads9_5 true false 2 stage9_5 sem9_5
    hrank9 hreads9_5 hinb9_5 nbuf9_5 (Memref.isWhole_whole _) hwx9_5 hstage9_5

abbrev win9 : Fin 6 → Pipeline.Window sig grid9 := fun | 0 => win9_0 | 1 => win9_1 | 2 => win9_2 | 3 => win9_3 | 4 => win9_4 | 5 => win9_5 | ⟨_ + 6, h⟩ => absurd h (Nat.not_lt.2 (Nat.le_add_left _ _))
abbrev spec9 : Fin 6 → Pipeline.WinSpec sig grid9.rank := fun w => (win9 w).toWinSpec

abbrev win10_0 : Pipeline.Window sig grid10 :=
  Pipeline.Window.ofSpec (Memref.whole main_v34) S2048x512.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v94) S512x1024.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_v43) S2048x1.size cc10_transform_2 reads10_2 false false 2 stage10_2 sem10_2
    hrank10 hreads10_2 hinb10_2 nbuf10_2 (Memref.isWhole_whole _) hwx10_2 hstage10_2

abbrev win10_3 : Pipeline.Window sig grid10 :=
  Pipeline.Window.ofSpec (Memref.whole main_v95) S2048x1024.size cc10_transform_3 reads10_3 true false 2 stage10_3 sem10_3
    hrank10 hreads10_3 hinb10_3 nbuf10_3 (Memref.isWhole_whole _) hwx10_3 hstage10_3

abbrev win10 : Fin 4 → Pipeline.Window sig grid10 := fun | 0 => win10_0 | 1 => win10_1 | 2 => win10_2 | 3 => win10_3 | ⟨_ + 4, h⟩ => absurd h (Nat.not_lt.2 (Nat.le_add_left _ _))
abbrev spec10 : Fin 4 → Pipeline.WinSpec sig grid10.rank := fun w => (win10 w).toWinSpec

abbrev idle10 : Fin 4 → grid10.Coords → Bool := fun | 0 => fun _ => false | 1 => fun _ => false | 2 => fun _ => false | 3 => fun i => !(k10_cond2 i == 1#1) | ⟨_ + 4, h⟩ => absurd h (Nat.not_lt.2 (Nat.le_add_left _ _))

abbrev win11_0 : Pipeline.Window sig grid11 :=
  Pipeline.Window.ofSpec (Memref.whole main_v95) S1024x1024.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v94) S1024x1024.size cc11_transform_1 reads11_1 false false 2 stage11_1 sem11_1
    hrank11 hreads11_1 hinb11_1 nbuf11_1 (Memref.isWhole_whole _) hwx11_1 hstage11_1

abbrev win11_2 : Pipeline.Window sig grid11 :=
  Pipeline.Window.ofSpec (Memref.whole main_v97) S1024x1024.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v99) S1024x1024.size cc11_transform_3 reads11_3 false true 1 stage11_3 sem11_3
    hrank11 hreads11_3 hinb11_3 nbuf11_3 (Memref.isWhole_whole _) hwx11_3 hstage11_3

abbrev win11_4 : Pipeline.Window sig grid11 :=
  Pipeline.Window.ofSpec (Memref.whole main_v102) S1x1024.size cc11_transform_4 reads11_4 false true 1 stage11_4 sem11_4
    hrank11 hreads11_4 hinb11_4 nbuf11_4 (Memref.isWhole_whole _) hwx11_4 hstage11_4

abbrev win11_5 : Pipeline.Window sig grid11 :=
  Pipeline.Window.ofSpec (Memref.whole main_v103) S1024x1024.size cc11_transform_5 reads11_5 true false 2 stage11_5 sem11_5
    hrank11 hreads11_5 hinb11_5 nbuf11_5 (Memref.isWhole_whole _) hwx11_5 hstage11_5

abbrev win11 : Fin 6 → Pipeline.Window sig grid11 := fun | 0 => win11_0 | 1 => win11_1 | 2 => win11_2 | 3 => win11_3 | 4 => win11_4 | 5 => win11_5 | ⟨_ + 6, h⟩ => absurd h (Nat.not_lt.2 (Nat.le_add_left _ _))
abbrev spec11 : Fin 6 → Pipeline.WinSpec sig grid11.rank := fun w => (win11 w).toWinSpec

class Facts : Prop extends Facts₀ where

variable [Facts]
-- ==== ReferenceIdeal.lean ====
abbrev S4096x1024 : Shape := ⟨2, ![4096, 1024]⟩
abbrev S3x4096x4096 : Shape := ⟨3, ![3, 4096, 4096]⟩
abbrev S3x4096 : Shape := ⟨2, ![3, 4096]⟩
abbrev S3x1024x1024 : Shape := ⟨3, ![3, 1024, 1024]⟩
abbrev S3x1024 : Shape := ⟨2, ![3, 1024]⟩
abbrev S2x16384 : Shape := ⟨2, ![2, 16384]⟩
abbrev S2x131072 : Shape := ⟨2, ![2, 131072]⟩
abbrev S1x16384 : Shape := ⟨2, ![1, 16384]⟩
abbrev S16384 : Shape := ⟨1, ![16384]⟩
abbrev S1x131072 : Shape := ⟨2, ![1, 131072]⟩
abbrev S131072 : Shape := ⟨1, ![131072]⟩
abbrev S1024x4096 : Shape := ⟨2, ![1024, 4096]⟩
abbrev S1x4096x4096 : Shape := ⟨3, ![1, 4096, 4096]⟩
abbrev S4096x4096 : Shape := ⟨2, ![4096, 4096]⟩
abbrev S1x4096 : Shape := ⟨2, ![1, 4096]⟩
abbrev S4096 : Shape := ⟨1, ![4096]⟩
abbrev S_ : Shape := ⟨0, ![]⟩
abbrev S16384x1 : Shape := ⟨2, ![16384, 1]⟩
abbrev S16384x4096 : Shape := ⟨2, ![16384, 4096]⟩
abbrev S1024 : Shape := ⟨1, ![1024]⟩
abbrev S1024x1 : Shape := ⟨2, ![1024, 1]⟩
abbrev S1x1024x1024 : Shape := ⟨3, ![1, 1024, 1024]⟩
abbrev S1024x1024 : Shape := ⟨2, ![1024, 1024]⟩
abbrev S1x1024 : Shape := ⟨2, ![1, 1024]⟩
abbrev S131072x1 : Shape := ⟨2, ![131072, 1]⟩
abbrev S131072x1024 : Shape := ⟨2, ![131072, 1024]⟩
abbrev S4096x1 : Shape := ⟨2, ![4096, 1]⟩

abbrev nBuf : Space → Nat
  | .hbm => 305
  | .vmem => 0
  | .smem => 0
  | _ => 0

abbrev hbmTy0_0 (i : Nat) : BufTy := match i % 128 with
  | 0 => ⟨S4096x1024, .f32⟩
  | 1 => ⟨S3x4096x4096, .f32⟩
  | 2 => ⟨S3x4096x4096, .f32⟩
  | 3 => ⟨S3x4096, .f32⟩
  | 4 => ⟨S3x1024x1024, .f32⟩
  | 5 => ⟨S3x1024x1024, .f32⟩
  | 6 => ⟨S3x1024, .f32⟩
  | 7 => ⟨S2x16384, .i32⟩
  | 8 => ⟨S2x131072, .i32⟩
  | 9 => ⟨S1x16384, .i32⟩
  | 10 => ⟨S16384, .i32⟩
  | 11 => ⟨S1x16384, .i32⟩
  | 12 => ⟨S16384, .i32⟩
  | 13 => ⟨S1x131072, .i32⟩
  | 14 => ⟨S131072, .i32⟩
  | 15 => ⟨S1x131072, .i32⟩
  | 16 => ⟨S131072, .i32⟩
  | 17 => ⟨S1024x4096, .f32⟩
  | 18 => ⟨S1x4096x4096, .f32⟩
  | 19 => ⟨S4096x4096, .f32⟩
  | 20 => ⟨S1x4096, .f32⟩
  | 21 => ⟨S4096, .f32⟩
  | 22 => ⟨S1x4096x4096, .f32⟩
  | 23 => ⟨S4096x4096, .f32⟩
  | 24 => ⟨S_, .i32⟩
  | 25 => ⟨S16384, .i32⟩
  | 26 => ⟨S16384, .i1⟩
  | 27 => ⟨S_, .i32⟩
  | 28 => ⟨S16384, .i32⟩
  | 29 => ⟨S16384, .i32⟩
  | 30 => ⟨S16384, .i32⟩
  | 31 => ⟨S16384x1, .i32⟩
  | 32 => ⟨S16384x4096, .f32⟩
  | 33 => ⟨S_, .f32⟩
  | 34 => ⟨S1024x4096, .f32⟩
  | 35 => ⟨S16384x1, .i32⟩
  | 36 => ⟨S1024x4096, .f32⟩
  | 37 => ⟨S_, .f32⟩
  | 38 => ⟨S16384, .f32⟩
  | 39 => ⟨S_, .f32⟩
  | 40 => ⟨S1024, .f32⟩
  | 41 => ⟨S16384x1, .i32⟩
  | 42 => ⟨S1024, .f32⟩
  | 43 => ⟨S_, .f32⟩
  | 44 => ⟨S1024, .f32⟩
  | 45 => ⟨S1024, .f32⟩
  | 46 => ⟨S1024x1, .f32⟩
  | 47 => ⟨S1024x4096, .f32⟩
  | 48 => ⟨S1024x4096, .f32⟩
  | 49 => ⟨S4096x4096, .f32⟩
  | 50 => ⟨S1024x4096, .f32⟩
  | 51 => ⟨S1x4096, .f32⟩
  | 52 => ⟨S1024x4096, .f32⟩
  | 53 => ⟨S1024x4096, .f32⟩
  | 54 => ⟨S4096x4096, .f32⟩
  | 55 => ⟨S1024x4096, .f32⟩
  | 56 => ⟨S1024x4096, .f32⟩
  | 57 => ⟨S_, .f32⟩
  | 58 => ⟨S_, .f32⟩
  | 59 => ⟨S1024x4096, .f32⟩
  | 60 => ⟨S1024x4096, .i1⟩
  | 61 => ⟨S_, .f32⟩
  | 62 => ⟨S1024x4096, .f32⟩
  | 63 => ⟨S1024x4096, .f32⟩
  | 64 => ⟨S1024x4096, .f32⟩
  | 65 => ⟨S4096x1024, .f32⟩
  | 66 => ⟨S1x1024x1024, .f32⟩
  | 67 => ⟨S1024x1024, .f32⟩
  | 68 => ⟨S1x1024, .f32⟩
  | 69 => ⟨S1024, .f32⟩
  | 70 => ⟨S1x1024x1024, .f32⟩
  | 71 => ⟨S1024x1024, .f32⟩
  | 72 => ⟨S_, .i32⟩
  | 73 => ⟨S131072, .i32⟩
  | 74 => ⟨S131072, .i1⟩
  | 75 => ⟨S_, .i32⟩
  | 76 => ⟨S131072, .i32⟩
  | 77 => ⟨S131072, .i32⟩
  | 78 => ⟨S131072, .i32⟩
  | 79 => ⟨S131072x1, .i32⟩
  | 80 => ⟨S131072x1024, .f32⟩
  | 81 => ⟨S_, .f32⟩
  | 82 => ⟨S4096x1024, .f32⟩
  | 83 => ⟨S131072x1, .i32⟩
  | 84 => ⟨S4096x1024, .f32⟩
  | 85 => ⟨S_, .f32⟩
  | 86 => ⟨S131072, .f32⟩
  | 87 => ⟨S_, .f32⟩
  | 88 => ⟨S4096, .f32⟩
  | 89 => ⟨S131072x1, .i32⟩
  | 90 => ⟨S4096, .f32⟩
  | 91 => ⟨S_, .f32⟩
  | 92 => ⟨S4096, .f32⟩
  | 93 => ⟨S4096, .f32⟩
  | 94 => ⟨S4096x1, .f32⟩
  | 95 => ⟨S4096x1024, .f32⟩
  | 96 => ⟨S4096x1024, .f32⟩
  | 97 => ⟨S1024x1024, .f32⟩
  | 98 => ⟨S4096x1024, .f32⟩
  | 99 => ⟨S1x1024, .f32⟩
  | 100 => ⟨S4096x1024, .f32⟩
  | 101 => ⟨S4096x1024, .f32⟩
  | 102 => ⟨S1024x1024, .f32⟩
  | 103 => ⟨S4096x1024, .f32⟩
  | 104 => ⟨S4096x1024, .f32⟩
  | 105 => ⟨S_, .f32⟩
  | 106 => ⟨S_, .f32⟩
  | 107 => ⟨S4096x1024, .f32⟩
  | 108 => ⟨S4096x1024, .i1⟩
  | 109 => ⟨S_, .f32⟩
  | 110 => ⟨S4096x1024, .f32⟩
  | 111 => ⟨S4096x1024, .f32⟩
  | 112 => ⟨S4096x1024, .f32⟩
  | 113 => ⟨S1024x4096, .f32⟩
  | 114 => ⟨S1x4096x4096, .f32⟩
  | 115 => ⟨S4096x4096, .f32⟩
  | 116 => ⟨S1x4096, .f32⟩
  | 117 => ⟨S4096, .f32⟩
  | 118 => ⟨S1x4096x4096, .f32⟩
  | 119 => ⟨S4096x4096, .f32⟩
  | 120 => ⟨S_, .i32⟩
  | 121 => ⟨S16384, .i32⟩
  | 122 => ⟨S16384, .i1⟩
  | 123 => ⟨S_, .i32⟩
  | 124 => ⟨S16384, .i32⟩
  | 125 => ⟨S16384, .i32⟩
  | 126 => ⟨S16384, .i32⟩
  | 127 => ⟨S16384x1, .i32⟩
  | _ => ⟨S4096x1024, .f32⟩

abbrev hbmTy0_1 (i : Nat) : BufTy := match i % 128 with
  | 0 => ⟨S16384x4096, .f32⟩
  | 1 => ⟨S_, .f32⟩
  | 2 => ⟨S1024x4096, .f32⟩
  | 3 => ⟨S16384x1, .i32⟩
  | 4 => ⟨S1024x4096, .f32⟩
  | 5 => ⟨S_, .f32⟩
  | 6 => ⟨S16384, .f32⟩
  | 7 => ⟨S_, .f32⟩
  | 8 => ⟨S1024, .f32⟩
  | 9 => ⟨S16384x1, .i32⟩
  | 10 => ⟨S1024, .f32⟩
  | 11 => ⟨S_, .f32⟩
  | 12 => ⟨S1024, .f32⟩
  | 13 => ⟨S1024, .f32⟩
  | 14 => ⟨S1024x1, .f32⟩
  | 15 => ⟨S1024x4096, .f32⟩
  | 16 => ⟨S1024x4096, .f32⟩
  | 17 => ⟨S4096x4096, .f32⟩
  | 18 => ⟨S1024x4096, .f32⟩
  | 19 => ⟨S1x4096, .f32⟩
  | 20 => ⟨S1024x4096, .f32⟩
  | 21 => ⟨S1024x4096, .f32⟩
  | 22 => ⟨S4096x4096, .f32⟩
  | 23 => ⟨S1024x4096, .f32⟩
  | 24 => ⟨S1024x4096, .f32⟩
  | 25 => ⟨S_, .f32⟩
  | 26 => ⟨S_, .f32⟩
  | 27 => ⟨S1024x4096, .f32⟩
  | 28 => ⟨S1024x4096, .i1⟩
  | 29 => ⟨S_, .f32⟩
  | 30 => ⟨S1024x4096, .f32⟩
  | 31 => ⟨S1024x4096, .f32⟩
  | 32 => ⟨S1024x4096, .f32⟩
  | 33 => ⟨S4096x1024, .f32⟩
  | 34 => ⟨S1x1024x1024, .f32⟩
  | 35 => ⟨S1024x1024, .f32⟩
  | 36 => ⟨S1x1024, .f32⟩
  | 37 => ⟨S1024, .f32⟩
  | 38 => ⟨S1x1024x1024, .f32⟩
  | 39 => ⟨S1024x1024, .f32⟩
  | 40 => ⟨S_, .i32⟩
  | 41 => ⟨S131072, .i32⟩
  | 42 => ⟨S131072, .i1⟩
  | 43 => ⟨S_, .i32⟩
  | 44 => ⟨S131072, .i32⟩
  | 45 => ⟨S131072, .i32⟩
  | 46 => ⟨S131072, .i32⟩
  | 47 => ⟨S131072x1, .i32⟩
  | 48 => ⟨S131072x1024, .f32⟩
  | 49 => ⟨S_, .f32⟩
  | 50 => ⟨S4096x1024, .f32⟩
  | 51 => ⟨S131072x1, .i32⟩
  | 52 => ⟨S4096x1024, .f32⟩
  | 53 => ⟨S_, .f32⟩
  | 54 => ⟨S131072, .f32⟩
  | 55 => ⟨S_, .f32⟩
  | 56 => ⟨S4096, .f32⟩
  | 57 => ⟨S131072x1, .i32⟩
  | 58 => ⟨S4096, .f32⟩
  | 59 => ⟨S_, .f32⟩
  | 60 => ⟨S4096, .f32⟩
  | 61 => ⟨S4096, .f32⟩
  | 62 => ⟨S4096x1, .f32⟩
  | 63 => ⟨S4096x1024, .f32⟩
  | 64 => ⟨S4096x1024, .f32⟩
  | 65 => ⟨S1024x1024, .f32⟩
  | 66 => ⟨S4096x1024, .f32⟩
  | 67 => ⟨S1x1024, .f32⟩
  | 68 => ⟨S4096x1024, .f32⟩
  | 69 => ⟨S4096x1024, .f32⟩
  | 70 => ⟨S1024x1024, .f32⟩
  | 71 => ⟨S4096x1024, .f32⟩
  | 72 => ⟨S4096x1024, .f32⟩
  | 73 => ⟨S_, .f32⟩
  | 74 => ⟨S_, .f32⟩
  | 75 => ⟨S4096x1024, .f32⟩
  | 76 => ⟨S4096x1024, .i1⟩
  | 77 => ⟨S_, .f32⟩
  | 78 => ⟨S4096x1024, .f32⟩
  | 79 => ⟨S4096x1024, .f32⟩
  | 80 => ⟨S4096x1024, .f32⟩
  | 81 => ⟨S1024x4096, .f32⟩
  | 82 => ⟨S1x4096x4096, .f32⟩
  | 83 => ⟨S4096x4096, .f32⟩
  | 84 => ⟨S1x4096, .f32⟩
  | 85 => ⟨S4096, .f32⟩
  | 86 => ⟨S1x4096x4096, .f32⟩
  | 87 => ⟨S4096x4096, .f32⟩
  | 88 => ⟨S_, .i32⟩
  | 89 => ⟨S16384, .i32⟩
  | 90 => ⟨S16384, .i1⟩
  | 91 => ⟨S_, .i32⟩
  | 92 => ⟨S16384, .i32⟩
  | 93 => ⟨S16384, .i32⟩
  | 94 => ⟨S16384, .i32⟩
  | 95 => ⟨S16384x1, .i32⟩
  | 96 => ⟨S16384x4096, .f32⟩
  | 97 => ⟨S_, .f32⟩
  | 98 => ⟨S1024x4096, .f32⟩
  | 99 => ⟨S16384x1, .i32⟩
  | 100 => ⟨S1024x4096, .f32⟩
  | 101 => ⟨S_, .f32⟩
  | 102 => ⟨S16384, .f32⟩
  | 103 => ⟨S_, .f32⟩
  | 104 => ⟨S1024, .f32⟩
  | 105 => ⟨S16384x1, .i32⟩
  | 106 => ⟨S1024, .f32⟩
  | 107 => ⟨S_, .f32⟩
  | 108 => ⟨S1024, .f32⟩
  | 109 => ⟨S1024, .f32⟩
  | 110 => ⟨S1024x1, .f32⟩
  | 111 => ⟨S1024x4096, .f32⟩
  | 112 => ⟨S1024x4096, .f32⟩
  | 113 => ⟨S4096x4096, .f32⟩
  | 114 => ⟨S1024x4096, .f32⟩
  | 115 => ⟨S1x4096, .f32⟩
  | 116 => ⟨S1024x4096, .f32⟩
  | 117 => ⟨S1024x4096, .f32⟩
  | 118 => ⟨S4096x4096, .f32⟩
  | 119 => ⟨S1024x4096, .f32⟩
  | 120 => ⟨S1024x4096, .f32⟩
  | 121 => ⟨S_, .f32⟩
  | 122 => ⟨S_, .f32⟩
  | 123 => ⟨S1024x4096, .f32⟩
  | 124 => ⟨S1024x4096, .i1⟩
  | 125 => ⟨S_, .f32⟩
  | 126 => ⟨S1024x4096, .f32⟩
  | 127 => ⟨S1024x4096, .f32⟩
  | _ => ⟨S4096x1024, .f32⟩

abbrev hbmTy0_2 (i : Nat) : BufTy := match i % 128 with
  | 0 => ⟨S1024x4096, .f32⟩
  | 1 => ⟨S4096x1024, .f32⟩
  | 2 => ⟨S1x1024x1024, .f32⟩
  | 3 => ⟨S1024x1024, .f32⟩
  | 4 => ⟨S1x1024, .f32⟩
  | 5 => ⟨S1024, .f32⟩
  | 6 => ⟨S1x1024x1024, .f32⟩
  | 7 => ⟨S1024x1024, .f32⟩
  | 8 => ⟨S_, .i32⟩
  | 9 => ⟨S131072, .i32⟩
  | 10 => ⟨S131072, .i1⟩
  | 11 => ⟨S_, .i32⟩
  | 12 => ⟨S131072, .i32⟩
  | 13 => ⟨S131072, .i32⟩
  | 14 => ⟨S131072, .i32⟩
  | 15 => ⟨S131072x1, .i32⟩
  | 16 => ⟨S131072x1024, .f32⟩
  | 17 => ⟨S_, .f32⟩
  | 18 => ⟨S4096x1024, .f32⟩
  | 19 => ⟨S131072x1, .i32⟩
  | 20 => ⟨S4096x1024, .f32⟩
  | 21 => ⟨S_, .f32⟩
  | 22 => ⟨S131072, .f32⟩
  | 23 => ⟨S_, .f32⟩
  | 24 => ⟨S4096, .f32⟩
  | 25 => ⟨S131072x1, .i32⟩
  | 26 => ⟨S4096, .f32⟩
  | 27 => ⟨S_, .f32⟩
  | 28 => ⟨S4096, .f32⟩
  | 29 => ⟨S4096, .f32⟩
  | 30 => ⟨S4096x1, .f32⟩
  | 31 => ⟨S4096x1024, .f32⟩
  | 32 => ⟨S4096x1024, .f32⟩
  | 33 => ⟨S1024x1024, .f32⟩
  | 34 => ⟨S4096x1024, .f32⟩
  | 35 => ⟨S1x1024, .f32⟩
  | 36 => ⟨S4096x1024, .f32⟩
  | 37 => ⟨S4096x1024, .f32⟩
  | 38 => ⟨S1024x1024, .f32⟩
  | 39 => ⟨S4096x1024, .f32⟩
  | 40 => ⟨S4096x1024, .f32⟩
  | 41 => ⟨S_, .f32⟩
  | 42 => ⟨S_, .f32⟩
  | 43 => ⟨S4096x1024, .f32⟩
  | 44 => ⟨S4096x1024, .i1⟩
  | 45 => ⟨S_, .f32⟩
  | 46 => ⟨S4096x1024, .f32⟩
  | 47 => ⟨S4096x1024, .f32⟩
  | 48 => ⟨S4096x1024, .f32⟩
  | _ => ⟨S4096x1024, .f32⟩

abbrev hbmTy (i : Nat) : BufTy := match i / 128 with
  | 0 => hbmTy0_0 i
  | 1 => hbmTy0_1 i
  | 2 => hbmTy0_2 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c : Ref sig .tc := ⟨.hbm, 24, rfl⟩
abbrev main_v15 : Ref sig .tc := ⟨.hbm, 25, rfl⟩
abbrev main_v16 : Ref sig .tc := ⟨.hbm, 26, rfl⟩
abbrev main_c_0 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_1 : Ref sig .tc := ⟨.hbm, 37, rfl⟩
abbrev main_v25 : Ref sig .tc := ⟨.hbm, 38, rfl⟩
abbrev main_cst_2 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_3 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_4 : Ref sig .tc := ⟨.hbm, 57, rfl⟩
abbrev main_call0_cst : Ref sig .tc := ⟨.hbm, 58, rfl⟩
abbrev main_call0_v0 : Ref sig .tc := ⟨.hbm, 59, rfl⟩
abbrev main_call0_v1 : Ref sig .tc := ⟨.hbm, 60, rfl⟩
abbrev main_call0_v2 : Ref sig .tc := ⟨.hbm, 61, rfl⟩
abbrev main_call0_v3 : Ref sig .tc := ⟨.hbm, 62, rfl⟩
abbrev main_call0_v4 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_c_5 : Ref sig .tc := ⟨.hbm, 72, rfl⟩
abbrev main_v50 : Ref sig .tc := ⟨.hbm, 73, rfl⟩
abbrev main_v51 : Ref sig .tc := ⟨.hbm, 74, rfl⟩
abbrev main_c_6 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_7 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_8 : Ref sig .tc := ⟨.hbm, 85, rfl⟩
abbrev main_v60 : Ref sig .tc := ⟨.hbm, 86, rfl⟩
abbrev main_cst_9 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_cst_10 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_cst_11 : Ref sig .tc := ⟨.hbm, 105, rfl⟩
abbrev main_call1_cst : Ref sig .tc := ⟨.hbm, 106, rfl⟩
abbrev main_call1_v0 : Ref sig .tc := ⟨.hbm, 107, rfl⟩
abbrev main_call1_v1 : Ref sig .tc := ⟨.hbm, 108, rfl⟩
abbrev main_call1_v2 : Ref sig .tc := ⟨.hbm, 109, rfl⟩
abbrev main_call1_v3 : Ref sig .tc := ⟨.hbm, 110, rfl⟩
abbrev main_call1_v4 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_c_12 : Ref sig .tc := ⟨.hbm, 120, rfl⟩
abbrev main_v85 : Ref sig .tc := ⟨.hbm, 121, rfl⟩
abbrev main_v86 : Ref sig .tc := ⟨.hbm, 122, rfl⟩
abbrev main_c_13 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_cst_14 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_cst_15 : Ref sig .tc := ⟨.hbm, 133, rfl⟩
abbrev main_v95 : Ref sig .tc := ⟨.hbm, 134, rfl⟩
abbrev main_cst_16 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_cst_17 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_cst_18 : Ref sig .tc := ⟨.hbm, 153, rfl⟩
abbrev main_call2_cst : Ref sig .tc := ⟨.hbm, 154, rfl⟩
abbrev main_call2_v0 : Ref sig .tc := ⟨.hbm, 155, rfl⟩
abbrev main_call2_v1 : Ref sig .tc := ⟨.hbm, 156, rfl⟩
abbrev main_call2_v2 : Ref sig .tc := ⟨.hbm, 157, rfl⟩
abbrev main_call2_v3 : Ref sig .tc := ⟨.hbm, 158, rfl⟩
abbrev main_call2_v4 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_c_19 : Ref sig .tc := ⟨.hbm, 168, rfl⟩
abbrev main_v120 : Ref sig .tc := ⟨.hbm, 169, rfl⟩
abbrev main_v121 : Ref sig .tc := ⟨.hbm, 170, rfl⟩
abbrev main_c_20 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_cst_21 : Ref sig .tc := ⟨.hbm, 177, rfl⟩
abbrev main_v127 : Ref sig .tc := ⟨.hbm, 178, rfl⟩
abbrev main_v128 : Ref sig .tc := ⟨.hbm, 179, rfl⟩
abbrev main_v129 : Ref sig .tc := ⟨.hbm, 180, rfl⟩
abbrev main_cst_22 : Ref sig .tc := ⟨.hbm, 181, rfl⟩
abbrev main_v130 : Ref sig .tc := ⟨.hbm, 182, rfl⟩
abbrev main_cst_23 : Ref sig .tc := ⟨.hbm, 183, rfl⟩
abbrev main_v131 : Ref sig .tc := ⟨.hbm, 184, rfl⟩
abbrev main_v132 : Ref sig .tc := ⟨.hbm, 185, rfl⟩
abbrev main_v133 : Ref sig .tc := ⟨.hbm, 186, rfl⟩
abbrev main_cst_24 : Ref sig .tc := ⟨.hbm, 187, rfl⟩
abbrev main_v134 : Ref sig .tc := ⟨.hbm, 188, rfl⟩
abbrev main_v135 : Ref sig .tc := ⟨.hbm, 189, rfl⟩
abbrev main_v136 : Ref sig .tc := ⟨.hbm, 190, rfl⟩
abbrev main_v137 : Ref sig .tc := ⟨.hbm, 191, rfl⟩
abbrev main_v138 : Ref sig .tc := ⟨.hbm, 192, rfl⟩
abbrev main_v139 : Ref sig .tc := ⟨.hbm, 193, rfl⟩
abbrev main_v140 : Ref sig .tc := ⟨.hbm, 194, rfl⟩
abbrev main_v141 : Ref sig .tc := ⟨.hbm, 195, rfl⟩
abbrev main_v142 : Ref sig .tc := ⟨.hbm, 196, rfl⟩
abbrev main_v143 : Ref sig .tc := ⟨.hbm, 197, rfl⟩
abbrev main_v144 : Ref sig .tc := ⟨.hbm, 198, rfl⟩
abbrev main_v145 : Ref sig .tc := ⟨.hbm, 199, rfl⟩
abbrev main_v146 : Ref sig .tc := ⟨.hbm, 200, rfl⟩
abbrev main_cst_25 : Ref sig .tc := ⟨.hbm, 201, rfl⟩
abbrev main_call3_cst : Ref sig .tc := ⟨.hbm, 202, rfl⟩
abbrev main_call3_v0 : Ref sig .tc := ⟨.hbm, 203, rfl⟩
abbrev main_call3_v1 : Ref sig .tc := ⟨.hbm, 204, rfl⟩
abbrev main_call3_v2 : Ref sig .tc := ⟨.hbm, 205, rfl⟩
abbrev main_call3_v3 : Ref sig .tc := ⟨.hbm, 206, rfl⟩
abbrev main_call3_v4 : Ref sig .tc := ⟨.hbm, 207, rfl⟩
abbrev main_v147 : Ref sig .tc := ⟨.hbm, 208, rfl⟩
abbrev main_v148 : Ref sig .tc := ⟨.hbm, 209, rfl⟩
abbrev main_v149 : Ref sig .tc := ⟨.hbm, 210, rfl⟩
abbrev main_v150 : Ref sig .tc := ⟨.hbm, 211, rfl⟩
abbrev main_v151 : Ref sig .tc := ⟨.hbm, 212, rfl⟩
abbrev main_v152 : Ref sig .tc := ⟨.hbm, 213, rfl⟩
abbrev main_v153 : Ref sig .tc := ⟨.hbm, 214, rfl⟩
abbrev main_v154 : Ref sig .tc := ⟨.hbm, 215, rfl⟩
abbrev main_c_26 : Ref sig .tc := ⟨.hbm, 216, rfl⟩
abbrev main_v155 : Ref sig .tc := ⟨.hbm, 217, rfl⟩
abbrev main_v156 : Ref sig .tc := ⟨.hbm, 218, rfl⟩
abbrev main_c_27 : Ref sig .tc := ⟨.hbm, 219, rfl⟩
abbrev main_v157 : Ref sig .tc := ⟨.hbm, 220, rfl⟩
abbrev main_v158 : Ref sig .tc := ⟨.hbm, 221, rfl⟩
abbrev main_v159 : Ref sig .tc := ⟨.hbm, 222, rfl⟩
abbrev main_v160 : Ref sig .tc := ⟨.hbm, 223, rfl⟩
abbrev main_v161 : Ref sig .tc := ⟨.hbm, 224, rfl⟩
abbrev main_cst_28 : Ref sig .tc := ⟨.hbm, 225, rfl⟩
abbrev main_v162 : Ref sig .tc := ⟨.hbm, 226, rfl⟩
abbrev main_v163 : Ref sig .tc := ⟨.hbm, 227, rfl⟩
abbrev main_v164 : Ref sig .tc := ⟨.hbm, 228, rfl⟩
abbrev main_cst_29 : Ref sig .tc := ⟨.hbm, 229, rfl⟩
abbrev main_v165 : Ref sig .tc := ⟨.hbm, 230, rfl⟩
abbrev main_cst_30 : Ref sig .tc := ⟨.hbm, 231, rfl⟩
abbrev main_v166 : Ref sig .tc := ⟨.hbm, 232, rfl⟩
abbrev main_v167 : Ref sig .tc := ⟨.hbm, 233, rfl⟩
abbrev main_v168 : Ref sig .tc := ⟨.hbm, 234, rfl⟩
abbrev main_cst_31 : Ref sig .tc := ⟨.hbm, 235, rfl⟩
abbrev main_v169 : Ref sig .tc := ⟨.hbm, 236, rfl⟩
abbrev main_v170 : Ref sig .tc := ⟨.hbm, 237, rfl⟩
abbrev main_v171 : Ref sig .tc := ⟨.hbm, 238, rfl⟩
abbrev main_v172 : Ref sig .tc := ⟨.hbm, 239, rfl⟩
abbrev main_v173 : Ref sig .tc := ⟨.hbm, 240, rfl⟩
abbrev main_v174 : Ref sig .tc := ⟨.hbm, 241, rfl⟩
abbrev main_v175 : Ref sig .tc := ⟨.hbm, 242, rfl⟩
abbrev main_v176 : Ref sig .tc := ⟨.hbm, 243, rfl⟩
abbrev main_v177 : Ref sig .tc := ⟨.hbm, 244, rfl⟩
abbrev main_v178 : Ref sig .tc := ⟨.hbm, 245, rfl⟩
abbrev main_v179 : Ref sig .tc := ⟨.hbm, 246, rfl⟩
abbrev main_v180 : Ref sig .tc := ⟨.hbm, 247, rfl⟩
abbrev main_v181 : Ref sig .tc := ⟨.hbm, 248, rfl⟩
abbrev main_cst_32 : Ref sig .tc := ⟨.hbm, 249, rfl⟩
abbrev main_call4_cst : Ref sig .tc := ⟨.hbm, 250, rfl⟩
abbrev main_call4_v0 : Ref sig .tc := ⟨.hbm, 251, rfl⟩
abbrev main_call4_v1 : Ref sig .tc := ⟨.hbm, 252, rfl⟩
abbrev main_call4_v2 : Ref sig .tc := ⟨.hbm, 253, rfl⟩
abbrev main_call4_v3 : Ref sig .tc := ⟨.hbm, 254, rfl⟩
abbrev main_call4_v4 : Ref sig .tc := ⟨.hbm, 255, rfl⟩
abbrev main_v182 : Ref sig .tc := ⟨.hbm, 256, rfl⟩
abbrev main_v183 : Ref sig .tc := ⟨.hbm, 257, rfl⟩
abbrev main_v184 : Ref sig .tc := ⟨.hbm, 258, rfl⟩
abbrev main_v185 : Ref sig .tc := ⟨.hbm, 259, rfl⟩
abbrev main_v186 : Ref sig .tc := ⟨.hbm, 260, rfl⟩
abbrev main_v187 : Ref sig .tc := ⟨.hbm, 261, rfl⟩
abbrev main_v188 : Ref sig .tc := ⟨.hbm, 262, rfl⟩
abbrev main_v189 : Ref sig .tc := ⟨.hbm, 263, rfl⟩
abbrev main_c_33 : Ref sig .tc := ⟨.hbm, 264, rfl⟩
abbrev main_v190 : Ref sig .tc := ⟨.hbm, 265, rfl⟩
abbrev main_v191 : Ref sig .tc := ⟨.hbm, 266, rfl⟩
abbrev main_c_34 : Ref sig .tc := ⟨.hbm, 267, rfl⟩
abbrev main_v192 : Ref sig .tc := ⟨.hbm, 268, rfl⟩
abbrev main_v193 : Ref sig .tc := ⟨.hbm, 269, rfl⟩
abbrev main_v194 : Ref sig .tc := ⟨.hbm, 270, rfl⟩
abbrev main_v195 : Ref sig .tc := ⟨.hbm, 271, rfl⟩
abbrev main_v196 : Ref sig .tc := ⟨.hbm, 272, rfl⟩
abbrev main_cst_35 : Ref sig .tc := ⟨.hbm, 273, rfl⟩
abbrev main_v197 : Ref sig .tc := ⟨.hbm, 274, rfl⟩
abbrev main_v198 : Ref sig .tc := ⟨.hbm, 275, rfl⟩
abbrev main_v199 : Ref sig .tc := ⟨.hbm, 276, rfl⟩
abbrev main_cst_36 : Ref sig .tc := ⟨.hbm, 277, rfl⟩
abbrev main_v200 : Ref sig .tc := ⟨.hbm, 278, rfl⟩
abbrev main_cst_37 : Ref sig .tc := ⟨.hbm, 279, rfl⟩
abbrev main_v201 : Ref sig .tc := ⟨.hbm, 280, rfl⟩
abbrev main_v202 : Ref sig .tc := ⟨.hbm, 281, rfl⟩
abbrev main_v203 : Ref sig .tc := ⟨.hbm, 282, rfl⟩
abbrev main_cst_38 : Ref sig .tc := ⟨.hbm, 283, rfl⟩
abbrev main_v204 : Ref sig .tc := ⟨.hbm, 284, rfl⟩
abbrev main_v205 : Ref sig .tc := ⟨.hbm, 285, rfl⟩
abbrev main_v206 : Ref sig .tc := ⟨.hbm, 286, rfl⟩
abbrev main_v207 : Ref sig .tc := ⟨.hbm, 287, rfl⟩
abbrev main_v208 : Ref sig .tc := ⟨.hbm, 288, rfl⟩
abbrev main_v209 : Ref sig .tc := ⟨.hbm, 289, rfl⟩
abbrev main_v210 : Ref sig .tc := ⟨.hbm, 290, rfl⟩
abbrev main_v211 : Ref sig .tc := ⟨.hbm, 291, rfl⟩
abbrev main_v212 : Ref sig .tc := ⟨.hbm, 292, rfl⟩
abbrev main_v213 : Ref sig .tc := ⟨.hbm, 293, rfl⟩
abbrev main_v214 : Ref sig .tc := ⟨.hbm, 294, rfl⟩
abbrev main_v215 : Ref sig .tc := ⟨.hbm, 295, rfl⟩
abbrev main_v216 : Ref sig .tc := ⟨.hbm, 296, rfl⟩
abbrev main_cst_39 : Ref sig .tc := ⟨.hbm, 297, rfl⟩
abbrev main_call5_cst : Ref sig .tc := ⟨.hbm, 298, rfl⟩
abbrev main_call5_v0 : Ref sig .tc := ⟨.hbm, 299, rfl⟩
abbrev main_call5_v1 : Ref sig .tc := ⟨.hbm, 300, rfl⟩
abbrev main_call5_v2 : Ref sig .tc := ⟨.hbm, 301, rfl⟩
abbrev main_call5_v3 : Ref sig .tc := ⟨.hbm, 302, rfl⟩
abbrev main_call5_v4 : Ref sig .tc := ⟨.hbm, 303, rfl⟩
abbrev main_v217 : Ref sig .tc := ⟨.hbm, 304, rfl⟩

abbrev nD : Nat := 1
abbrev τ : Topo := Topo.v7x

variable {F : FTy → Type} [FloatOps F]

class Facts₀ : Prop where
  slices_S2x16384_S1x16384_0_0 : S2x16384.Slices ![0, 0] S1x16384
  shapeCasts_S1x16384_S16384 : S1x16384.ShapeCasts S16384
  slices_S2x16384_S1x16384_1_0 : S2x16384.Slices ![1, 0] S1x16384
  slices_S2x131072_S1x131072_0_0 : S2x131072.Slices ![0, 0] S1x131072
  shapeCasts_S1x131072_S131072 : S1x131072.ShapeCasts S131072
  slices_S2x131072_S1x131072_1_0 : S2x131072.Slices ![1, 0] S1x131072
  transposes_S4096x1024_S1024x4096_1_0 : S4096x1024.Transposes [1, 0] S1024x4096
  slices_S3x4096x4096_S1x4096x4096_0_0_0 : S3x4096x4096.Slices ![0, 0, 0] S1x4096x4096
  shapeCasts_S1x4096x4096_S4096x4096 : S1x4096x4096.ShapeCasts S4096x4096
  slices_S3x4096_S1x4096_0_0 : S3x4096.Slices ![0, 0] S1x4096
  shapeCasts_S1x4096_S4096 : S1x4096.ShapeCasts S4096
  bcast_S_S16384 : S_.BroadcastsInDim S16384 (![] : Fin 0 → Fin S16384.rank)
  bcast_S16384_S16384x1_0 : S16384.BroadcastsInDim S16384x1 (![0] : Fin 1 → Fin S16384x1.rank)
  bcast_S_S1024x4096 : S_.BroadcastsInDim S1024x4096 (![] : Fin 0 → Fin S1024x4096.rank)
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x4096_0_1 : S1024x1.BroadcastsInDim S1024x4096 (![0, 1] : Fin 2 → Fin S1024x4096.rank)
  transposes_S4096x4096_S4096x4096_1_0 : S4096x4096.Transposes [1, 0] S4096x4096
  bcast_S4096_S1x4096_1 : S4096.BroadcastsInDim S1x4096 (![1] : Fin 1 → Fin S1x4096.rank)
  bcast_S1x4096_S1024x4096_0_1 : S1x4096.BroadcastsInDim S1024x4096 (![0, 1] : Fin 2 → Fin S1024x4096.rank)
  transposes_S1024x4096_S4096x1024_1_0 : S1024x4096.Transposes [1, 0] S4096x1024
  slices_S3x1024x1024_S1x1024x1024_0_0_0 : S3x1024x1024.Slices ![0, 0, 0] S1x1024x1024
  shapeCasts_S1x1024x1024_S1024x1024 : S1x1024x1024.ShapeCasts S1024x1024
  slices_S3x1024_S1x1024_0_0 : S3x1024.Slices ![0, 0] S1x1024
  shapeCasts_S1x1024_S1024 : S1x1024.ShapeCasts S1024
  bcast_S_S131072 : S_.BroadcastsInDim S131072 (![] : Fin 0 → Fin S131072.rank)
  bcast_S131072_S131072x1_0 : S131072.BroadcastsInDim S131072x1 (![0] : Fin 1 → Fin S131072x1.rank)
  bcast_S_S4096x1024 : S_.BroadcastsInDim S4096x1024 (![] : Fin 0 → Fin S4096x1024.rank)
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x1024_0_1 : S4096x1.BroadcastsInDim S4096x1024 (![0, 1] : Fin 2 → Fin S4096x1024.rank)
  transposes_S1024x1024_S1024x1024_1_0 : S1024x1024.Transposes [1, 0] S1024x1024
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  slices_S3x4096x4096_S1x4096x4096_1_0_0 : S3x4096x4096.Slices ![1, 0, 0] S1x4096x4096
  slices_S3x4096_S1x4096_1_0 : S3x4096.Slices ![1, 0] S1x4096
  slices_S3x1024x1024_S1x1024x1024_1_0_0 : S3x1024x1024.Slices ![1, 0, 0] S1x1024x1024
  slices_S3x1024_S1x1024_1_0 : S3x1024.Slices ![1, 0] S1x1024
  slices_S3x4096x4096_S1x4096x4096_2_0_0 : S3x4096x4096.Slices ![2, 0, 0] S1x4096x4096
  slices_S3x4096_S1x4096_2_0 : S3x4096.Slices ![2, 0] S1x4096
  slices_S3x1024x1024_S1x1024x1024_2_0_0 : S3x1024x1024.Slices ![2, 0, 0] S1x1024x1024
  slices_S3x1024_S1x1024_2_0 : S3x1024.Slices ![2, 0] S1x1024
  gather_S1024x4096_S16384x1_S16384x4096_1_0_n_n_0_1_14096_wf : GatherDims.WF S1024x4096 S16384x1 S16384x4096 [1] [0] [] [0] [] 1 ![1, 4096]
  scatter_S1024x4096_S16384x1_S16384x4096_1_0_0_1_wf : ScatterDims.WF S1024x4096 S16384x1 S16384x4096 [1] [0] [0] 1
  scatter_S1024_S16384x1_S16384_n_0_0_1_wf : ScatterDims.WF S1024 S16384x1 S16384 [] [0] [0] 1
  dot_S1024x4096_S4096x4096_S1024x4096_1_0_0_1_n_n_wf : DotDims.WF S1024x4096 S4096x4096 S1024x4096 [1] [0] [0] [1] [] []
  gather_S4096x1024_S131072x1_S131072x1024_1_0_n_n_0_1_11024_wf : GatherDims.WF S4096x1024 S131072x1 S131072x1024 [1] [0] [] [0] [] 1 ![1, 1024]
  scatter_S4096x1024_S131072x1_S131072x1024_1_0_0_1_wf : ScatterDims.WF S4096x1024 S131072x1 S131072x1024 [1] [0] [0] 1
  scatter_S4096_S131072x1_S131072_n_0_0_1_wf : ScatterDims.WF S4096 S131072x1 S131072 [] [0] [0] 1
  dot_S4096x1024_S1024x1024_S4096x1024_1_0_0_1_n_n_wf : DotDims.WF S4096x1024 S1024x1024 S4096x1024 [1] [0] [0] [1] [] []

variable [Facts₀]

def gather_S1024x4096_S16384x1_S16384x4096_1_0_n_n_0_1_14096 : GatherDims S1024x4096 S16384x1 S16384x4096 where
  offsetDims := [1]
  collapsedSliceDims := [0]
  operandBatchingDims := []
  startIndicesBatchingDims := []
  startIndexMap := [0]
  indexVectorDim := 1
  sliceSizes := ![1, 4096]
  wf := gather_S1024x4096_S16384x1_S16384x4096_1_0_n_n_0_1_14096_wf
def scatter_S1024x4096_S16384x1_S16384x4096_1_0_0_1 : ScatterDims S1024x4096 S16384x1 S16384x4096 where
  updateWindowDims := [1]
  insertedWindowDims := [0]
  scatterDimsToOperandDims := [0]
  indexVectorDim := 1
  wf := scatter_S1024x4096_S16384x1_S16384x4096_1_0_0_1_wf
def scatter_S1024_S16384x1_S16384_n_0_0_1 : ScatterDims S1024 S16384x1 S16384 where
  updateWindowDims := []
  insertedWindowDims := [0]
  scatterDimsToOperandDims := [0]
  indexVectorDim := 1
  wf := scatter_S1024_S16384x1_S16384_n_0_0_1_wf
def dot_S1024x4096_S4096x4096_S1024x4096_1_0_0_1_n_n : DotDims S1024x4096 S4096x4096 S1024x4096 where
  lhsContracting := [1]
  rhsContracting := [0]
  lhsNonContracting := [0]
  rhsNonContracting := [1]
  lhsBatch := []
  rhsBatch := []
  wf := dot_S1024x4096_S4096x4096_S1024x4096_1_0_0_1_n_n_wf
def gather_S4096x1024_S131072x1_S131072x1024_1_0_n_n_0_1_11024 : GatherDims S4096x1024 S131072x1 S131072x1024 where
  offsetDims := [1]
  collapsedSliceDims := [0]
  operandBatchingDims := []
  startIndicesBatchingDims := []
  startIndexMap := [0]
  indexVectorDim := 1
  sliceSizes := ![1, 1024]
  wf := gather_S4096x1024_S131072x1_S131072x1024_1_0_n_n_0_1_11024_wf
def scatter_S4096x1024_S131072x1_S131072x1024_1_0_0_1 : ScatterDims S4096x1024 S131072x1 S131072x1024 where
  updateWindowDims := [1]
  insertedWindowDims := [0]
  scatterDimsToOperandDims := [0]
  indexVectorDim := 1
  wf := scatter_S4096x1024_S131072x1_S131072x1024_1_0_0_1_wf
def scatter_S4096_S131072x1_S131072_n_0_0_1 : ScatterDims S4096 S131072x1 S131072 where
  updateWindowDims := []
  insertedWindowDims := [0]
  scatterDimsToOperandDims := [0]
  indexVectorDim := 1
  wf := scatter_S4096_S131072x1_S131072_n_0_0_1_wf
def dot_S4096x1024_S1024x1024_S4096x1024_1_0_0_1_n_n : DotDims S4096x1024 S1024x1024 S4096x1024 where
  lhsContracting := [1]
  rhsContracting := [0]
  lhsNonContracting := [0]
  rhsNonContracting := [1]
  lhsBatch := []
  rhsBatch := []
  wf := dot_S4096x1024_S1024x1024_S4096x1024_1_0_0_1_n_n_wf

class Facts : Prop extends Facts₀ where

variable [Facts]
-- ==== Proof.Spec.lean ====
import Idealize.ShloMosaic.Lib.ValueIdx
import Idealize.ShloMosaic.PureOps.Ideal

noncomputable section

namespace Cert.Spec

open Idealize.ShloMosaic Idealize.ShloMosaic.ValueIdx

abbrev Mat (a b : Nat) : Type := Fin a → Fin b → EReal

def toMat {a b : Nat} (x : (⟨2, ![a, b]⟩ : Shape).Idx → EReal) : Mat a b := fun p q => x (ix2 p q)

def ofMat {a b : Nat} (f : Mat a b) : (⟨2, ![a, b]⟩ : Shape).Idx → EReal := fun i => f (i 0) (i 1)

theorem ofMat_ix2 {a b : Nat} (f : Mat a b) (p : Fin a) (q : Fin b) : ofMat f (ix2 p q) = f p q := rfl
theorem ofMat_toMat {a b : Nat} (x : (⟨2, ![a, b]⟩ : Shape).Idx → EReal) : ofMat (toMat x) = x := by
  funext i; exact congrArg x (eq_ix2 i).symm

def toVec {a : Nat} (x : (⟨1, ![a]⟩ : Shape).Idx → EReal) : Fin a → EReal := fun p => x (ix1 p)

def slab {a b : Nat} (x : (⟨3, ![3, a, b]⟩ : Shape).Idx → EReal) (l : Fin 3) : Mat a b := fun p q => x (ix3 l p q)

def row {a : Nat} (x : (⟨2, ![3, a]⟩ : Shape).Idx → EReal) (l : Fin 3) : Fin a → EReal := fun p => x (ix2 l p)

def tr {a b : Nat} (f : Mat a b) : Mat b a := fun q p => f p q

def leaky (v : EReal) : EReal :=
  Scalar.select (Ideal.cmp .oge v (Ideal.ofBits .f32 0x00000000#32)) v (Ideal.ofBits .f32 0x3C23D70A#32 * v)

def dec (n : Nat) [NeZero n] (v : BitVec 32) : Fin n := ⟨v.toInt.toNat % n, Nat.mod_lt _ (NeZero.pos n)⟩

def InRange (n : Nat) (v : BitVec 32) : Prop := 0 ≤ v.toInt ∧ v.toInt < n

theorem dec_val {n : Nat} [NeZero n] {v : BitVec 32} (h : InRange n v) : ((dec n v).val : Int) = v.toInt := by
  obtain ⟨h0, h1⟩ := h
  show ((v.toInt.toNat % n : Nat) : Int) = v.toInt
  rw [Nat.mod_eq_of_lt (by omega)]; omega

def edgeRow {E : Nat} (n : Nat) [NeZero n] (idx : (⟨2, ![2, E]⟩ : Shape).Idx → BitVec 32) (r : Fin 2) : Fin E → Fin n :=
  fun k => dec n (idx (ix2 r k))

section
variable {E n : Nat}

def cnt (dst : Fin E → Fin n) (j : Fin n) : EReal := ∑ k : Fin E, if dst k = j then (1 : EReal) else 0

def cntMat (fst snd : Fin E → Fin n) : Mat n n := fun a b => ∑ k : Fin E, if fst k = a ∧ snd k = b then (1 : EReal) else 0

def recip (dst : Fin E → Fin n) (j : Fin n) : EReal := Ideal.div 1 (max (cnt dst j) 1)

end

def rSage {n d E : Nat} (x : Mat n d) (src dst : Fin E → Fin n) (Wl Wr : Mat d d) (b : Fin d → EReal) : Mat n d :=
  fun j q => leaky (((∑ r : Fin d, Ideal.div (∑ k : Fin E, if dst k = j then x (src k) r else 0) (max (cnt dst j) 1) * Wl q r) + b q)
    + ∑ r : Fin d, x j r * Wr q r)

def rLayer {Ek Eg : Nat} (e : Mat 4096 1024) (ks kd : Fin Ek → Fin 1024) (gs gd : Fin Eg → Fin 4096)
    (cWl cWr : Mat 4096 4096) (cb : Fin 4096 → EReal) (rWl rWr : Mat 1024 1024) (rb : Fin 1024 → EReal) : Mat 4096 1024 :=
  rSage (tr (rSage (tr e) ks kd cWl cWr cb)) gs gd rWl rWr rb

def kColAgg (e : Mat 4096 1024) (M : Mat 1024 1024) (r : Fin 1024 → EReal) : Mat 4096 1024 :=
  fun p b => (∑ a : Fin 1024, e p a * M a b) * r b

def kColAff (mean e : Mat 4096 1024) (Wl Wr : Mat 4096 4096) (b : Fin 4096 → EReal) : Mat 4096 1024 :=
  fun q j => leaky (((∑ r : Fin 4096, Wl q r * mean r j) + ∑ r : Fin 4096, Wr q r * e r j) + b q)

def kRowAgg (adj : Mat 4096 4096) (e : Mat 4096 1024) (r : Fin 4096 → EReal) : Mat 4096 1024 :=
  fun d f => (∑ s : Fin 4096, adj d s * e s f) * r d

def kRowAff (mean e : Mat 4096 1024) (Wl Wr : Mat 1024 1024) (b : Fin 1024 → EReal) : Mat 4096 1024 :=
  fun d q => leaky (((∑ f : Fin 1024, mean d f * Wl q f) + ∑ f : Fin 1024, e d f * Wr q f) + b q)

def kLayer (e : Mat 4096 1024) (M : Mat 1024 1024) (rc : Fin 1024 → EReal) (adj : Mat 4096 4096) (rr : Fin 4096 → EReal)
    (cWl cWr : Mat 4096 4096) (cb : Fin 4096 → EReal) (rWl rWr : Mat 1024 1024) (rb : Fin 1024 → EReal) : Mat 4096 1024 :=
  let e1 := kColAff (kColAgg e M rc) e cWl cWr cb
  kRowAff (kRowAgg adj e1 rr) e1 rWl rWr rb

def rNet {Ek Eg : Nat} (x : Mat 4096 1024) (ks kd : Fin Ek → Fin 1024) (gs gd : Fin Eg → Fin 4096)
    (cWl cWr : (⟨3, ![3, 4096, 4096]⟩ : Shape).Idx → EReal) (cb : (⟨2, ![3, 4096]⟩ : Shape).Idx → EReal)
    (rWl rWr : (⟨3, ![3, 1024, 1024]⟩ : Shape).Idx → EReal) (rb : (⟨2, ![3, 1024]⟩ : Shape).Idx → EReal) : Mat 4096 1024 :=
  let L (l : Fin 3) (e : Mat 4096 1024) := rLayer e ks kd gs gd (slab cWl l) (slab cWr l) (row cb l) (slab rWl l) (slab rWr l) (row rb l)
  L 2 (L 1 (L 0 x))

def kNet {Ek Eg : Nat} (x : Mat 4096 1024) (ks kd : Fin Ek → Fin 1024) (gs gd : Fin Eg → Fin 4096)
    (cWl cWr : (⟨3, ![3, 4096, 4096]⟩ : Shape).Idx → EReal) (cb : (⟨2, ![3, 4096]⟩ : Shape).Idx → EReal)
    (rWl rWr : (⟨3, ![3, 1024, 1024]⟩ : Shape).Idx → EReal) (rb : (⟨2, ![3, 1024]⟩ : Shape).Idx → EReal) : Mat 4096 1024 :=
  let L (l : Fin 3) (e : Mat 4096 1024) := kLayer e (cntMat ks kd) (recip kd) (cntMat gd gs) (recip gd)
    (slab cWl l) (slab cWr l) (row cb l) (slab rWl l) (slab rWr l) (row rb l)
  L 2 (L 1 (L 0 x))

end Cert.Spec

end
-- ==== Proof.SpecEq.lean ====
import proofs.«415769_j962072674785_2_alg».proof.Proof.Spec
import Mathlib.Data.EReal.Basic
import Mathlib.Data.EReal.Operations
import Mathlib.Data.EReal.Inv
import Mathlib.Algebra.BigOperators.Group.Finset.Basic
import Mathlib.Algebra.BigOperators.Group.Finset.Piecewise
import Mathlib.Algebra.BigOperators.Group.Finset.Sigma
import Mathlib.Algebra.Order.BigOperators.Group.Finset

noncomputable section

namespace Cert.Spec

open Idealize.ShloMosaic

theorem mul_sum_of_nonneg {ι : Type*} (s : Finset ι) (c : EReal) (f : ι → EReal) (hf : ∀ i, 0 ≤ f i) :
    c * ∑ i ∈ s, f i = ∑ i ∈ s, c * f i := by
  classical
  induction s using Finset.induction_on with
  | empty => simp
  | insert a s ha ih =>
    rw [Finset.sum_insert ha, Finset.sum_insert ha,
      EReal.left_distrib_of_nonneg (hf a) (Finset.sum_nonneg fun i _ => hf i), ih]

theorem ite_one_zero_nonneg (p : Prop) [Decidable p] : (0 : EReal) ≤ if p then 1 else 0 := by
  split_ifs
  · exact zero_le_one
  · exact le_rfl

section
variable {E n : Nat}

theorem sum_mul_cntMat (x : Fin n → EReal) (fst snd : Fin E → Fin n) (b : Fin n) :
    ∑ a : Fin n, x a * cntMat fst snd a b = ∑ k : Fin E, if snd k = b then x (fst k) else 0 := by
  have h : ∀ a : Fin n, x a * cntMat fst snd a b
      = ∑ k : Fin E, if fst k = a then (if snd k = b then x a else 0) else 0 := by
    intro a
    unfold cntMat
    rw [mul_sum_of_nonneg _ _ _ (fun k => ite_one_zero_nonneg _)]
    refine Finset.sum_congr rfl fun k _ => ?_
    by_cases h1 : fst k = a <;> by_cases h2 : snd k = b <;> simp [h1, h2]
  rw [Finset.sum_congr rfl fun a _ => h a, Finset.sum_comm]
  refine Finset.sum_congr rfl fun k _ => ?_
  rw [Finset.sum_ite_eq, if_pos (Finset.mem_univ _)]

theorem cntMat_swap (fst snd : Fin E → Fin n) (a b : Fin n) : cntMat fst snd a b = cntMat snd fst b a := by
  unfold cntMat
  refine Finset.sum_congr rfl fun k _ => ?_
  simp only [and_comm]

theorem sum_cntMat_mul (x : Fin n → EReal) (fst snd : Fin E → Fin n) (d : Fin n) :
    ∑ s : Fin n, cntMat fst snd d s * x s = ∑ k : Fin E, if fst k = d then x (snd k) else 0 := by
  rw [← sum_mul_cntMat x snd fst d]
  refine Finset.sum_congr rfl fun s _ => ?_
  rw [cntMat_swap, mul_comm]

theorem cnt_eq_coe (dst : Fin E → Fin n) (j : Fin n) : ∃ m : ℕ, cnt dst j = ((m : ℝ) : EReal) := by
  unfold cnt
  generalize (Finset.univ : Finset (Fin E)) = s
  classical
  induction s using Finset.induction_on with
  | empty => exact ⟨0, by simp⟩
  | insert a s ha ih =>
    obtain ⟨m, hm⟩ := ih
    rw [Finset.sum_insert ha, hm]
    by_cases h : dst a = j
    · refine ⟨m + 1, ?_⟩
      rw [if_pos h, Nat.cast_add, Nat.cast_one, EReal.coe_add, EReal.coe_one, add_comm]
    · exact ⟨m, by rw [if_neg h, zero_add]⟩

theorem mul_recip (S : EReal) (dst : Fin E → Fin n) (j : Fin n) :
    S * recip dst j = Ideal.div S (max (cnt dst j) 1) := by
  obtain ⟨m, hm⟩ := cnt_eq_coe dst j
  have hmax : max (cnt dst j) 1 = ((max (m : ℝ) 1 : ℝ) : EReal) := by
    rw [hm]
    rcases le_total (m : ℝ) 1 with h | h
    · rw [max_eq_right h, max_eq_right (by exact_mod_cast h), EReal.coe_one]
    · rw [max_eq_left h, max_eq_left (by exact_mod_cast h)]
  have hne : max (m : ℝ) 1 ≠ 0 := ne_of_gt (lt_of_lt_of_le one_pos (le_max_right _ _))
  rw [recip, hmax, Ideal.div_coe hne, Ideal.div_coe hne, one_mul]

end

theorem kCol_eq {Ek : Nat} (e : Mat 4096 1024) (ks kd : Fin Ek → Fin 1024)
    (cWl cWr : Mat 4096 4096) (cb : Fin 4096 → EReal) :
    kColAff (kColAgg e (cntMat ks kd) (recip kd)) e cWl cWr cb = tr (rSage (tr e) ks kd cWl cWr cb) := by
  funext q j
  simp only [kColAff, kColAgg, tr, rSage]
  refine congrArg leaky ?_
  rw [add_right_comm]
  refine congrArg₂ (· + ·) (congrArg (· + cb q) ?_) ?_
  · refine Finset.sum_congr rfl fun r _ => ?_
    rw [sum_mul_cntMat (e r) ks kd j, mul_recip, mul_comm]
  · exact Finset.sum_congr rfl fun r _ => mul_comm _ _

theorem kRow_eq {Eg : Nat} (e1 : Mat 4096 1024) (gs gd : Fin Eg → Fin 4096)
    (rWl rWr : Mat 1024 1024) (rb : Fin 1024 → EReal) :
    kRowAff (kRowAgg (cntMat gd gs) e1 (recip gd)) e1 rWl rWr rb = rSage e1 gs gd rWl rWr rb := by
  funext d q
  simp only [kRowAff, kRowAgg, rSage]
  refine congrArg leaky ?_
  rw [add_right_comm]
  refine congrArg₂ (· + ·) (congrArg (· + rb q) ?_) rfl
  refine Finset.sum_congr rfl fun f _ => ?_
  rw [sum_cntMat_mul (fun s => e1 s f) gd gs d, mul_recip]

theorem kNet_eq_rNet {Ek Eg : Nat} (x : Mat 4096 1024) (ks kd : Fin Ek → Fin 1024) (gs gd : Fin Eg → Fin 4096)
    (cWl cWr : (⟨3, ![3, 4096, 4096]⟩ : Shape).Idx → EReal) (cb : (⟨2, ![3, 4096]⟩ : Shape).Idx → EReal)
    (rWl rWr : (⟨3, ![3, 1024, 1024]⟩ : Shape).Idx → EReal) (rb : (⟨2, ![3, 1024]⟩ : Shape).Idx → EReal) :
    kNet x ks kd gs gd cWl cWr cb rWl rWr rb = rNet x ks kd gs gd cWl cWr cb rWl rWr rb := by
  simp only [kNet, rNet, kLayer, rLayer, kCol_eq, kRow_eq]

end Cert.Spec

end
-- ==== Proof.PreDecode.lean ====
import proofs.«415769_j962072674785_2_alg».proof.Defs
import proofs.«415769_j962072674785_2_alg».proof.Proof.Gen.Pre_finite_inputs
import proofs.«415769_j962072674785_2_alg».proof.Proof.Spec
import Idealize.ShloMosaic.Lib.ReduceAll
import Idealize.ShloMosaic.Lib.StableHlo.Predicate

namespace Cert.Proof.Pre

open Idealize.ShloMosaic Idealize.ShloMosaic.ValueIdx
open Cert.Pre_finite_inputs

instance : Subsingleton S_.Idx := ⟨fun a b => funext fun d => d.elim0⟩

theorem inRange_of_word (n : Nat) (hn : n < 2 ^ 31) (v : BitVec 32)
    (h : IntOp.andi (IntOp.cmpi .sge v 0#32) (IntOp.cmpi .slt v (BitVec.ofNat 32 n)) = 1#1) :
    Cert.Spec.InRange n v := by
  obtain ⟨h0, h1⟩ := IntOp.andi_eq_one.1 h
  rw [IntOp.cmpi_sge, show (0#32 : BitVec 32).toInt = 0 from by decide] at h0
  rw [IntOp.cmpi_slt, StableHlo.Predicate.toInt_ofNat_small n hn] at h1
  exact ⟨h0, h1⟩

variable [Cert.Pre_finite_inputs.Facts]

theorem ranges_part2 {F : FTy → Type} [FloatOps F] (a7 : IVec S2x16384 32) (a8 : IVec S2x131072 32) (V : IVec S_ 1)
    (h : Cert.Pre_finite_inputs.fn_part2 (F := F) a7 a8 V = fun _ => 1#1) :
    (∀ i, Cert.Spec.InRange 1024 (a7 i)) ∧ (∀ i, Cert.Spec.InRange 4096 (a8 i)) := by
  have h0 := congrFun h ix0
  dsimp only [Cert.Pre_finite_inputs.fn_part2] at h0
  obtain ⟨h1, h46⟩ := IntOp.andi_eq_one.1 h0
  obtain ⟨-, h39⟩ := IntOp.andi_eq_one.1 h1
  refine ⟨fun i => ?_, fun i => ?_⟩
  · exact inRange_of_word 1024 (by norm_num) (a7 i) (Host.reduce_andi_all _ _ _ _ _ h39 i)
  · exact inRange_of_word 4096 (by norm_num) (a8 i) (Host.reduce_andi_all _ _ _ _ _ h46 i)

theorem ranges_of {F : FTy → Type} [FloatOps F]
    (a0 : FVec F S4096x1024 .f32) (a1 a2 : FVec F S3x4096x4096 .f32) (a3 : FVec F S3x4096 .f32)
    (a4 a5 : FVec F S3x1024x1024 .f32) (a6 : FVec F S3x1024 .f32)
    (a7 : IVec S2x16384 32) (a8 : IVec S2x131072 32)
    (h : Cert.Pre_finite_inputs.fn (F := F) a0 a1 a2 a3 a4 a5 a6 a7 a8 = fun _ => 1#1) :
    (∀ i, Cert.Spec.InRange 1024 (a7 i)) ∧ (∀ i, Cert.Spec.InRange 4096 (a8 i)) :=
  ranges_part2 (F := F) a7 a8 _ h

end Cert.Proof.Pre
-- ==== Proof.Claims.lean ====
import proofs.«415769_j962072674785_2_alg».proof.Defs
import proofs.«415769_j962072674785_2_alg».proof.Proof.Gen.Kernel
import proofs.«415769_j962072674785_2_alg».proof.Proof.Gen.KernelIdeal
import proofs.«415769_j962072674785_2_alg».proof.Proof.Gen.ReferenceIdeal
import proofs.«415769_j962072674785_2_alg».proof.Proof.Gen.Pre_finite_inputs
import proofs.«415769_j962072674785_2_alg».proof.Proof.Spec
import proofs.«415769_j962072674785_2_alg».proof.Proof.SpecEq
import proofs.«415769_j962072674785_2_alg».proof.Proof.PreDecode
import Idealize.ShloMosaic.Lib.Pipeline.Frame
import Idealize.ShloMosaic.Lib.StableHlo.Run

noncomputable section

namespace Cert.Proof.Claims

open Idealize.ShloMosaic Idealize.ShloMosaic.TcCoe Idealize.SL.Sem Idealize.ShloMosaic.ValueIdx
open Cert.Spec

abbrev KMem : Type :=
  (ℓ : Loc Cert.KernelIdeal.nD Cert.KernelIdeal.τ Cert.KernelIdeal.sig) → Buf (Elt Ideal) ℓ

abbrev RMem : Type :=
  (ℓ : Loc Cert.ReferenceIdeal.nD Cert.ReferenceIdeal.τ Cert.ReferenceIdeal.sig) → Buf (Elt Ideal) ℓ

section
variable (x : (⟨2, ![4096, 1024]⟩ : Shape).Idx → EReal)
  (cWl cWr : (⟨3, ![3, 4096, 4096]⟩ : Shape).Idx → EReal) (cb : (⟨2, ![3, 4096]⟩ : Shape).Idx → EReal)
  (rWl rWr : (⟨3, ![3, 1024, 1024]⟩ : Shape).Idx → EReal) (rb : (⟨2, ![3, 1024]⟩ : Shape).Idx → EReal)
  (knn : (⟨2, ![2, 16384]⟩ : Shape).Idx → BitVec 32) (genet : (⟨2, ![2, 131072]⟩ : Shape).Idx → BitVec 32)

def net : Mat 4096 1024 :=
  rNet (toMat x) (edgeRow 1024 knn 0) (edgeRow 1024 knn 1) (edgeRow 4096 genet 0) (edgeRow 4096 genet 1)
    cWl cWr cb rWl rWr rb

def knet : Mat 4096 1024 :=
  kNet (toMat x) (edgeRow 1024 knn 0) (edgeRow 1024 knn 1) (edgeRow 4096 genet 0) (edgeRow 4096 genet 1)
    cWl cWr cb rWl rWr rb

theorem knet_eq_net : knet x cWl cWr cb rWl rWr rb knn genet = net x cWl cWr cb rWl rWr rb knn genet :=
  kNet_eq_rNet _ _ _ _ _ _ _ _ _ _ _

end

section
open Cert.KernelIdeal

theorem mem_uc (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

structure KernelSide where

  W : KMem → (Dev nD → PrngReg) → Dev nD → Valuation τ sig (Elt Ideal)
  run : ∀ (m : KMem) (ρ : Dev nD → PrngReg),
    θ_run (defs (F := Ideal)) (onTc (τ := τ) (main (F := Ideal))) ⟨m, fun _ => 0, ρ⟩
      (fun r => ∀ c : Dev nD, ∀ b ∈ Pipeline.ucRefs τ sig, r.2.mem ((c : Thread nD τ).1, b) = W m ρ c b)
  arg0 : ∀ m ρ c, W m ρ c (Proc.devRef .tc main_arg0) = m ((c : Thread nD τ).loc main_arg0)
  arg1 : ∀ m ρ c, W m ρ c (Proc.devRef .tc main_arg1) = m ((c : Thread nD τ).loc main_arg1)
  arg2 : ∀ m ρ c, W m ρ c (Proc.devRef .tc main_arg2) = m ((c : Thread nD τ).loc main_arg2)
  arg3 : ∀ m ρ c, W m ρ c (Proc.devRef .tc main_arg3) = m ((c : Thread nD τ).loc main_arg3)
  arg4 : ∀ m ρ c, W m ρ c (Proc.devRef .tc main_arg4) = m ((c : Thread nD τ).loc main_arg4)
  arg5 : ∀ m ρ c, W m ρ c (Proc.devRef .tc main_arg5) = m ((c : Thread nD τ).loc main_arg5)
  arg6 : ∀ m ρ c, W m ρ c (Proc.devRef .tc main_arg6) = m ((c : Thread nD τ).loc main_arg6)
  arg7 : ∀ m ρ c, W m ρ c (Proc.devRef .tc main_arg7) = m ((c : Thread nD τ).loc main_arg7)
  arg8 : ∀ m ρ c, W m ρ c (Proc.devRef .tc main_arg8) = m ((c : Thread nD τ).loc main_arg8)
  value : ∀ (m : KMem) (ρ : Dev nD → PrngReg) (c : Dev nD),
    (∀ i, InRange 1024 (m ((c : Thread nD τ).loc main_arg7) i)) →
    (∀ i, InRange 4096 (m ((c : Thread nD τ).loc main_arg8) i)) →
    toMat (W m ρ c (Proc.devRef .tc main_v103))
      = knet (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) (m ((c : Thread nD τ).loc main_arg7))
          (m ((c : Thread nD τ).loc main_arg8))

end

section
open Cert.ReferenceIdeal

structure ReferenceSide where

  ops : List (HloOp τ sig (Elt Ideal))
  run : ∀ (m : RMem) (ρ : Dev nD → PrngReg),
    θ_run (defs (F := Ideal)) (onTc (τ := τ) (main (F := Ideal))) ⟨m, fun _ => 0, ρ⟩
      (fun r => ∀ c : Dev nD,
        r.2.mem ((c.tc : Thread nD τ).loc main_v217)
            = StableHlo.after ops (fun b => m (c, b)) (Proc.devRef .tc main_v217)
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8))
  value : ∀ (W : Valuation τ sig (Elt Ideal)),
    (∀ i, InRange 1024 (W (Proc.devRef .tc main_arg7) i)) →
    (∀ i, InRange 4096 (W (Proc.devRef .tc main_arg8) i)) →
    toMat (StableHlo.after ops W (Proc.devRef .tc main_v217))
      = net (W (Proc.devRef .tc main_arg0)) (W (Proc.devRef .tc main_arg1)) (W (Proc.devRef .tc main_arg2))
          (W (Proc.devRef .tc main_arg3)) (W (Proc.devRef .tc main_arg4)) (W (Proc.devRef .tc main_arg5))
          (W (Proc.devRef .tc main_arg6)) (W (Proc.devRef .tc main_arg7)) (W (Proc.devRef .tc main_arg8))

end

theorem frame_kernelIdeal (K : KernelSide) : Cert.frame_KernelIdeal := fun m g _ =>
  (θ_run (Cert.KernelIdeal.defs (F := Ideal)) _ _).mono (fun _ h c =>
    ⟨(h c _ (mem_uc Cert.KernelIdeal.main_arg0 (by decide))).trans (K.arg0 m g c),
     (h c _ (mem_uc Cert.KernelIdeal.main_arg1 (by decide))).trans (K.arg1 m g c),
     (h c _ (mem_uc Cert.KernelIdeal.main_arg2 (by decide))).trans (K.arg2 m g c),
     (h c _ (mem_uc Cert.KernelIdeal.main_arg3 (by decide))).trans (K.arg3 m g c),
     (h c _ (mem_uc Cert.KernelIdeal.main_arg4 (by decide))).trans (K.arg4 m g c),
     (h c _ (mem_uc Cert.KernelIdeal.main_arg5 (by decide))).trans (K.arg5 m g c),
     (h c _ (mem_uc Cert.KernelIdeal.main_arg6 (by decide))).trans (K.arg6 m g c),
     (h c _ (mem_uc Cert.KernelIdeal.main_arg7 (by decide))).trans (K.arg7 m g c),
     (h c _ (mem_uc Cert.KernelIdeal.main_arg8 (by decide))).trans (K.arg8 m g c)⟩) (K.run m g)

theorem frame_referenceIdeal (R : ReferenceSide) : Cert.frame_ReferenceIdeal := fun m g _ =>
  (θ_run (Cert.ReferenceIdeal.defs (F := Ideal)) _ _).mono (fun _ h c => (h c).2) (R.run m g)

theorem preserves : Cert.preserves_Kernel_KernelIdeal := trivial

theorem algebraic (K : KernelSide) (R : ReferenceSide) : Cert.algebraic_KernelIdeal_ReferenceIdeal := by
  intro m g m' g' hpre hagree
  refine ⟨fun c => K.W m g c (Proc.devRef .tc Cert.KernelIdeal.main_v103), ?_, ?_⟩
  · exact (θ_run (Cert.KernelIdeal.defs (F := Ideal)) _ _).mono (fun _ h c =>
      ⟨h c _ (mem_uc Cert.KernelIdeal.main_v103 (by decide)),
       (h c _ (mem_uc Cert.KernelIdeal.main_arg0 (by decide))).trans (K.arg0 m g c),
       (h c _ (mem_uc Cert.KernelIdeal.main_arg1 (by decide))).trans (K.arg1 m g c),
       (h c _ (mem_uc Cert.KernelIdeal.main_arg2 (by decide))).trans (K.arg2 m g c),
       (h c _ (mem_uc Cert.KernelIdeal.main_arg3 (by decide))).trans (K.arg3 m g c),
       (h c _ (mem_uc Cert.KernelIdeal.main_arg4 (by decide))).trans (K.arg4 m g c),
       (h c _ (mem_uc Cert.KernelIdeal.main_arg5 (by decide))).trans (K.arg5 m g c),
       (h c _ (mem_uc Cert.KernelIdeal.main_arg6 (by decide))).trans (K.arg6 m g c),
       (h c _ (mem_uc Cert.KernelIdeal.main_arg7 (by decide))).trans (K.arg7 m g c),
       (h c _ (mem_uc Cert.KernelIdeal.main_arg8 (by decide))).trans (K.arg8 m g c)⟩) (K.run m g)
  · refine (θ_run (Cert.ReferenceIdeal.defs (F := Ideal)) _ _).mono (fun _ h c => ⟨(h c).1.trans ?_, (h c).2⟩)
      (R.run m' g')
    obtain ⟨h7, h8⟩ := Cert.Proof.Pre.ranges_of _ _ _ _ _ _ _ _ _ (hpre c)
    obtain ⟨e0, e1, e2, e3, e4, e5, e6, e7, e8⟩ := hagree c
    have hr := R.value (fun b => m' (c, b)) (by intro i; rw [e7]; exact h7 i) (by intro i; rw [e8]; exact h8 i)
    calc (StableHlo.after R.ops (fun b => m' (c, b)) (Proc.devRef .tc Cert.ReferenceIdeal.main_v217)
            : (⟨2, ![4096, 1024]⟩ : Shape).Idx → EReal)
        = ofMat (toMat (StableHlo.after R.ops (fun b => m' (c, b)) (Proc.devRef .tc Cert.ReferenceIdeal.main_v217))) :=
          (ofMat_toMat _).symm
      _ = ofMat (toMat (K.W m g c (Proc.devRef .tc Cert.KernelIdeal.main_v103))) := by
          rw [hr, K.value m g c h7 h8, knet_eq_net, e0, e1, e2, e3, e4, e5, e6, e7, e8]
      _ = K.W m g c (Proc.devRef .tc Cert.KernelIdeal.main_v103) := ofMat_toMat _

end Cert.Proof.Claims

end
-- ==== Proof.KReg0.lean ====
import proofs.«415769_j962072674785_2_alg».proof.Proof.Gen.Kernel.Launch
import proofs.«415769_j962072674785_2_alg».proof.Proof.Gen.Kernel.Skeleton
import proofs.«415769_j962072674785_2_alg».proof.Proof.Gen.Kernel.Points
import Idealize.ShloMosaic.Lib.Pipeline.FrameBody
import Idealize.ShloMosaic.Lib.Pipeline.RegionsLoop
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev r0_0 : Rect S512x1024 := Rect.unit (s := S512x1024) ![0, 0] S512x1024.size inb_S512x1024_S512x1024_0_0
abbrev r0_1 : Rect S1024x1024 := Rect.unit (s := S1024x1024) ![0, 0] S1024x1024.size inb_S1024x1024_S1024x1024_0_0
abbrev r0_2 : Rect S1x1024 := Rect.unit (s := S1x1024) ![0, 0] S1x1024.size inb_S1x1024_S1x1024_0_0

def out0_3 (x0 : Vec F S512x1024 .bf16) (x1 : Vec F S1024x1024 .bf16) (x2 : Vec F S1x1024 .f32) : Vec F S512x1024 .bf16 :=
  View.canon [⟨r0_0, k0_pay1 (View.ld x0 r0_0) (View.ld x1 r0_1) (View.ld x2 r0_2)⟩]

theorem cover0_3 (p0 : Vec F S512x1024 .bf16) (y : S512x1024.Idx) :
    ∃ pc ∈ ([⟨r0_0, p0⟩] : List (View.Piece (Elt F) S512x1024 .bf16)), y ∈ pc.1.set :=
  View.cover_of_tiled [⟨r0_0, p0⟩] S512x1024.size (by rfl) y

set_option maxHeartbeats 1000000 in
theorem sound_kernel0 (c : Dev nD) (E : Set ℕ) (i : grid0.Coords) (arg1 : Memref sig .tc .vmem S512x1024 .bf16) (harg1 : arg1.IsWhole) (arg2 : Memref sig .tc .vmem S1024x1024 .bf16) (harg2 : arg2.IsWhole) (arg3 : Memref sig .tc .vmem S1x1024 .f32) (harg3 : arg3.IsWhole) (arg4 : Memref sig .tc .vmem S512x1024 .bf16) (harg4 : arg4.IsWhole)
    (x0 : Vec F S512x1024 .bf16) (x1 : Vec F S1024x1024 .bf16) (x2 : Vec F S1x1024 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__col_agg_kernel i arg1 harg1 arg2 harg2 arg3 harg3 arg4 harg4) K := by
  simp only [cc0__col_agg_kernel_eq_skeleton]; unfold cc0__col_agg_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- Any function equal to region 0's body, between resources `P ∗ Q` it does not read: the inputs stay and the output ends at `out0_3` of them. -/
theorem colAgg_body {k} (hk : k = cc0__col_agg_kernel (F := F)) (c : Dev nD) (i : grid0.Coords) (arg1 : Memref sig .tc .vmem S512x1024 .bf16) (harg1 : arg1.IsWhole) (arg2 : Memref sig .tc .vmem S1024x1024 .bf16) (harg2 : arg2.IsWhole) (arg3 : Memref sig .tc .vmem S1x1024 .f32) (harg3 : arg3.IsWhole) (arg4 : Memref sig .tc .vmem S512x1024 .bf16) (harg4 : arg4.IsWhole)
    (x0 : Vec F S512x1024 .bf16) (x1 : Vec F S1024x1024 .bf16) (x2 : Vec F S1x1024 .f32) {D0 D1 D2 D3 : Type} (b : D3 → Vec F S512x1024 .bf16) (P Q : sProp 𝕄) :
    iprop(P ∗ Q ∗ (∃ _ : D0, owns (c : Thread nD τ) arg1 fullShare x0) ∗ (∃ _ : D1, owns (c : Thread nD τ) arg2 fullShare x1) ∗ (∃ _ : D2, owns (c : Thread nD τ) arg3 fullShare x2) ∗ (∃ d, owns (c : Thread nD τ) arg4 fullShare (b d)))
      ⊢ wp frame (wpE (defs₀ (F := F)) Variants.none c none) Set.univ (k i arg1 harg1 arg2 harg2 arg3 harg3 arg4 harg4) (fun _ =>
        iprop(P ∗ Q ∗ owns (c : Thread nD τ) arg1 fullShare x0 ∗ owns (c : Thread nD τ) arg2 fullShare x1 ∗ owns (c : Thread nD τ) arg3 fullShare x2 ∗ owns (c : Thread nD τ) arg4 fullShare (out0_3 x0 x1 x2))) := by
  subst hk
  iintro ⟨HP, HQ, ⟨%d0, H0⟩, ⟨%d1, H1⟩, ⟨%d2, H2⟩, ⟨%d3, H3⟩⟩
  iapply (sound_kernel0 c Set.univ i arg1 harg1 arg2 harg2 arg3 harg3 arg4 harg4 x0 x1 x2 _)
  isplitl [H0]; · iexact H0
  isplitl [H1]; · iexact H1
  isplitl [H2]; · iexact H2
  isplitl [H3]; · iexists _; iexact H3
  iintro ⟨H0, H1, H2, H3⟩
  isplitl [HP]; · iexact HP
  isplitl [HQ]; · iexact HQ
  isplitl [H0]; · iexact H0
  isplitl [H1]; · iexact H1
  isplitl [H2]; · iexact H2
  iexact H3

section Region
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_3 (c : Dev nD) (t : Fin cfg0.N) :
    (dat0 V c).after 3 t = out0_3 (iblk0 V c 0 t) (iblk0 V c 1 t) (iblk0 V c 2 t) := by dsimp only [dat0]

/-- The body hands every input back as it found it, so what it finds there at any point is the array's block. -/
theorem before0_0 (c : Dev nD) (t : Fin cfg0.N) (d) : (dat0 V c).before 0 t d = iblk0 V c 0 t :=
  (dat0 V c).before_in_eq_fetched 0 rfl (fun _ => rfl) (fun _ _ _ => rfl) (fun _ => by dsimp only [dat0]; rfl) t d
theorem before0_1 (c : Dev nD) (t : Fin cfg0.N) (d) : (dat0 V c).before 1 t d = iblk0 V c 1 t :=
  (dat0 V c).before_in_eq_fetched 1 rfl (fun _ => rfl) (fun _ _ _ => rfl) (fun _ => by dsimp only [dat0]; rfl) t d
theorem before0_2 (c : Dev nD) (t : Fin cfg0.N) (d) : (dat0 V c).before 2 t d = iblk0 V c 2 t :=
  (dat0 V c).before_in_eq_fetched 2 rfl (fun _ => rfl) (fun _ _ _ => rfl) (fun _ => by dsimp only [dat0]; rfl) t d

theorem body_obligation0 (c : Dev nD) : BodyObligation (dat0 (F := F) V c) (defs₀ (F := F)) Variants.none () Set.univ := fun t => by
  rw [bigSep_W0, bigSep_W0]
  simp only [before0_0, before0_1, before0_2]
  dsimp only [dat0]
  exact colAgg_body rfl c (grid0.coords t) _ (hstage0_0 _) _ (hstage0_1 _) _ (hstage0_2 _) _ (hstage0_3 _) _ _ _ _ _ _

end Region

end Cert.Kernel.Hand

end
-- ==== Proof.KReg1.lean ====
import proofs.«415769_j962072674785_2_alg».proof.Proof.Gen.Kernel.Launch
import proofs.«415769_j962072674785_2_alg».proof.Proof.Gen.Kernel.Skeleton
import proofs.«415769_j962072674785_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off the array the region is entered with. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S4096x1024 := Rect.unit (s := S4096x1024) ![0, 0] S4096x1024.size inb_S4096x1024_S4096x1024_0_0
abbrev r1_2 : Rect S256x4096 := Rect.unit (s := S256x4096) ![0, 0] S256x4096.size inb_S256x4096_S256x4096_0_0
abbrev r1_4 : Rect S256x1 := Rect.unit (s := S256x1) ![0, 0] S256x1.size inb_S256x1_S256x1_0_0
abbrev r1_5 : Rect S256x1024 := Rect.unit (s := S256x1024) ![0, 0] S256x1024.size inb_S256x1024_S256x1024_0_0

/-- The output's buffer after the function, from the inputs' buffers: its one store's payload over the five loads. -/
def out1_5 (x0 x1 : Vec F S4096x1024 .bf16) (x2 x3 : Vec F S256x4096 .f32) (x4 : Vec F S256x1 .f32) : Vec F S256x1024 .f32 :=
  View.canon [⟨r1_5, k1_pay1 (View.ld x2 r1_2) (View.ld x3 r1_2) (View.ld x0 r1_0) (View.ld x1 r1_0) (View.ld x4 r1_4)⟩]

/-- The store's rectangle is the whole buffer. -/
theorem cover1_5 (p0 : Vec F S256x1024 .f32) (y : S256x1024.Idx) :
    ∃ pc ∈ ([⟨r1_5, p0⟩] : List (View.Piece (Elt F) S256x1024 .f32)), y ∈ pc.1.set :=
  View.cover_of_tiled [⟨r1_5, p0⟩] S256x1024.size (by rfl) y

set_option maxHeartbeats 1000000 in
/-- On whole buffers the function leaves the inputs as they were and the output at `out1_5` of them. -/
theorem sound_kernel1 (c : Dev nD) (E : Set ℕ) (i : grid1.Coords)
    (arg1 : Memref sig .tc .vmem S4096x1024 .bf16) (harg1 : arg1.IsWhole) (arg2 : Memref sig .tc .vmem S4096x1024 .bf16) (harg2 : arg2.IsWhole)
    (arg3 : Memref sig .tc .vmem S256x4096 .f32) (harg3 : arg3.IsWhole) (arg4 : Memref sig .tc .vmem S256x4096 .f32) (harg4 : arg4.IsWhole)
    (arg5 : Memref sig .tc .vmem S256x1 .f32) (harg5 : arg5.IsWhole) (arg6 : Memref sig .tc .vmem S256x1024 .f32) (harg6 : arg6.IsWhole)
    (x0 x1 : Vec F S4096x1024 .bf16) (x2 x3 : Vec F S256x4096 .f32) (x4 : Vec F S256x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1__col_affine_kernel i arg1 harg1 arg2 harg2 arg3 harg3 arg4 harg4 arg5 harg5 arg6 harg6) K := by
  simp only [cc1__col_affine_kernel_eq_skeleton]; unfold cc1__col_affine_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

/-- The output's buffer is left at the function's result on what is left in the inputs' buffers. -/
theorem after1_5 (c : Dev nD) (t : Fin cfg1.N) : (dat1 V c).after 5 t
    = out1_5 ((dat1 V c).after 0 t) ((dat1 V c).after 1 t) ((dat1 V c).after 2 t) ((dat1 V c).after 3 t) ((dat1 V c).after 4 t) := by
  dsimp only [dat1]

/-- The body writes no input, so an input's buffer holds the array's block at every point. -/
theorem before1 (c : Dev nD) (w : Fin cfg1.W) (hw : (cfg1.win w).isOut = false) (t : Fin cfg1.N) (d) :
    (dat1 V c).before w t d = (dat1 V c).after w t :=
  match w, hw with
  | ⟨0, _⟩, h | ⟨1, _⟩, h | ⟨2, _⟩, h | ⟨3, _⟩, h | ⟨4, _⟩, h =>
    (dat1 V c).before_in_eq_fetched _ h (fun _ => rfl) (fun _ _ _ => rfl) (fun _ => rfl) t d
  | ⟨5, _⟩, h => nomatch h

/-- The inputs' buffers hold their blocks, so the function's triple applies; the invariant and what the core owes pass through unread. -/
theorem body_obligation1 (c : Dev nD) : BodyObligation (dat1 (F := F) V c) (defs₀ (F := F)) Variants.none () Set.univ := fun t => by
  rw [bigSep_W1, bigSep_W1]
  simp only [before1 V c 0 rfl, before1 V c 1 rfl, before1 V c 2 rfl, before1 V c 3 rfl, before1 V c 4 rfl]
  rw [after1_5, show (dat1 V c).Φ t.succ = (dat1 V c).Φ t.castSucc from rfl,
    show (dat1 V c).owesAt () t.succ = (dat1 V c).owesAt () t.castSucc from rfl]
  show _ ⊢ wp frame _ _ (bodyAt1 t) _
  unfold bodyAt1
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ ((dat1 V c).after 0 t) ((dat1 V c).after 1 t) ((dat1 V c).after 2 t)
    ((dat1 V c).after 3 t) ((dat1 V c).after 4 t) _)
  iframe H0 H1 H2 H3 H4
  isplitl [H5]; · iexists _; iexact H5
  iintro H
  iframe

end Cert.Kernel.Hand

end
-- ==== Proof.KReg2.lean ====
import proofs.«415769_j962072674785_2_alg».proof.Proof.Gen.Kernel.Launch
import proofs.«415769_j962072674785_2_alg».proof.Proof.Gen.Kernel.Skeleton
import proofs.«415769_j962072674785_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev cond2_0 (i : grid2.Coords) : Prop := (Scalar.cmpi .ne (Scalar.extui (Scalar.cmpi .eq (BitVec.ofNat 32 (i 1).val) 0#32)) 0#32) = 1#1

theorem hcond2_0 : ∀ t : Fin cfg2.N, cond2_0 (grid2.coords t) ↔ t.val % 8 = 0 :=
  (by decide +kernel : ∀ t : Fin grid2.N, cond2_0 (grid2.coords t) ↔ t.val % 8 = 0)

abbrev cond2_1 (i : grid2.Coords) : Prop := k2_cond2 i = 1#1

theorem hcond2_1 : ∀ t : Fin cfg2.N, cond2_1 (grid2.coords t) ↔ t.val % 8 = 7 :=
  (by decide +kernel : ∀ t : Fin grid2.N, cond2_1 (grid2.coords t) ↔ t.val % 8 = 7)

theorem hidle2_3 : ∀ t : Fin cfg2.N, cfg2.idle 3 (cfg2.grid.coords t) = true ↔ ¬t.val % 8 = 7 :=
  (by decide +kernel : ∀ t : Fin grid2.N, idle2 3 (grid2.coords t) = true ↔ ¬t.val % 8 = 7)

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_2 : Rect S2048x1 := Rect.unit (s := S2048x1) ![0, 0] S2048x1.size inb_S2048x1_S2048x1_0_0

abbrev r2_3 : Rect S2048x1024 := Rect.unit (s := S2048x1024) ![0, 0] S2048x1024.size inb_S2048x1024_S2048x1024_0_0

theorem hz2 : (![0, 0] : Fin 2 → Nat) = fun _ => 0 := by funext a; fin_cases a <;> rfl

theorem read_writes_whole2 {Val : EltTy → Type} [∀ e, Nonempty (Val e)] {sg : RefSig} {κ : Kind} {sp : Space} {S : Shape} {e : EltTy}
    (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon _ _ _ (fun y => ⟨_, List.mem_cons_self, View.mem_set_unit_zero h inb y⟩), View.canon_cons_unit_zero h]

def out2_3 (a : Vec F S2048x1024 .f32) (x2 : Vec F S2048x1 .f32) : Vec F S2048x1024 .bf16 :=
  View.canon [⟨r2_3, k2_pay3 (View.ld a r2_3) (View.ld x2 r2_2)⟩]

theorem cover2_3 (p : Vec F S2048x1024 .bf16) (y : S2048x1024.Idx) :
    ∃ pc ∈ ([⟨r2_3, p⟩] : List (View.Piece (Elt F) S2048x1024 .bf16)), y ∈ pc.1.set :=
  ⟨_, List.mem_singleton_self _, View.mem_set_unit_zero hz2 inb_S2048x1024_S2048x1024_0_0 y⟩

theorem out2_3_eq (a : Vec F S2048x1024 .f32) (x2 : Vec F S2048x1 .f32) : out2_3 a x2 = k2_pay3 a x2 := by
  unfold out2_3
  rw [View.canon_unit_zero hz2]
  simp only [View.ld_unit_zero (S := S2048x1024) hz2, View.ld_unit_zero (S := S2048x1) hz2]

set_option maxHeartbeats 1000000 in
theorem sound_kernel2_A (c : Dev nD) (E : Set ℕ) (i : grid2.Coords)
    (arg2 : Memref sig .tc .vmem S2048x512 .bf16) (harg2 : arg2.IsWhole) (arg3 : Memref sig .tc .vmem S512x1024 .bf16) (harg3 : arg3.IsWhole)
    (arg4 : Memref sig .tc .vmem S2048x1 .f32) (harg4 : arg4.IsWhole) (arg5 : Memref sig .tc .vmem S2048x1024 .bf16) (harg5 : arg5.IsWhole)
    (arg6 : Memref sig .tc .vmem S2048x1024 .f32) (harg6 : arg6.IsWhole)
    (h0 : cond2_0 i) (h1 : ¬cond2_1 i)
    (x0 : Vec F S2048x512 .bf16) (x1 : Vec F S512x1024 .bf16) (x2 : Vec F S2048x1 .f32) (d3 : Vec F S2048x1024 .bf16)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare d3 ∗ (∃ a, owns (c : Thread nD τ) arg6 fullShare a)
        ∗ (iprop(owns (c : Thread nD τ) arg2 fullShare x0 ∗ owns (c : Thread nD τ) arg3 fullShare x1 ∗ owns (c : Thread nD τ) arg4 fullShare x2
            ∗ owns (c : Thread nD τ) arg5 fullShare d3 ∗ owns (c : Thread nD τ) arg6 fullShare (k2_pay2 (k2_pay1 (F := F)) x0 x1)) -∗ K ⟨⟩))
      ⊢ wp frame (wpE (defs₀ (F := F)) Variants.none c none) E (cc2__row_agg_kernel i arg2 harg2 arg3 harg3 arg4 harg4 arg5 harg5 arg6 harg6) K := by
  simp only [cc2__row_agg_kernel_eq_skeleton]; unfold cc2__row_agg_kernel_skel
  unfold owns
  iintro ⟨⟨%f0, %hf0, H0⟩, ⟨%f1, %hf1, H1⟩, ⟨%f2, %hf2, H2⟩, ⟨%f3, %hf3, H3⟩, ⟨%a, %f6, -, H6⟩, Hk⟩
  subst hf0 hf1 hf2 hf3
  sl_exec (disch := first | exact h0 | exact h1)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  iexists _; isplitr
  swap; · iexact H6
  ipureintro
  sl_unfold_words
  rw [read_writes_whole2 _ _ hz2]
  simp only [View.readAt_eq_ld, View.ld_unit_zero (S := S2048x1024) hz2, View.ld_unit_zero (S := S2048x512) hz2, View.ld_unit_zero (S := S512x1024) hz2,
    View.readCov_unit_zero (S := S2048x1024) _ hz2]

set_option maxHeartbeats 1000000 in
theorem sound_kernel2_B (c : Dev nD) (E : Set ℕ) (i : grid2.Coords)
    (arg2 : Memref sig .tc .vmem S2048x512 .bf16) (harg2 : arg2.IsWhole) (arg3 : Memref sig .tc .vmem S512x1024 .bf16) (harg3 : arg3.IsWhole)
    (arg4 : Memref sig .tc .vmem S2048x1 .f32) (harg4 : arg4.IsWhole) (arg5 : Memref sig .tc .vmem S2048x1024 .bf16) (harg5 : arg5.IsWhole)
    (arg6 : Memref sig .tc .vmem S2048x1024 .f32) (harg6 : arg6.IsWhole)
    (h0 : ¬cond2_0 i) (h1 : ¬cond2_1 i)
    (x0 : Vec F S2048x512 .bf16) (x1 : Vec F S512x1024 .bf16) (x2 : Vec F S2048x1 .f32) (d3 : Vec F S2048x1024 .bf16) (a : Vec F S2048x1024 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare d3 ∗ owns (c : Thread nD τ) arg6 fullShare a
        ∗ (iprop(owns (c : Thread nD τ) arg2 fullShare x0 ∗ owns (c : Thread nD τ) arg3 fullShare x1 ∗ owns (c : Thread nD τ) arg4 fullShare x2
            ∗ owns (c : Thread nD τ) arg5 fullShare d3 ∗ owns (c : Thread nD τ) arg6 fullShare (k2_pay2 a x0 x1)) -∗ K ⟨⟩))
      ⊢ wp frame (wpE (defs₀ (F := F)) Variants.none c none) E (cc2__row_agg_kernel i arg2 harg2 arg3 harg3 arg4 harg4 arg5 harg5 arg6 harg6) K := by
  simp only [cc2__row_agg_kernel_eq_skeleton]; unfold cc2__row_agg_kernel_skel
  unfold owns
  iintro ⟨⟨%f0, %hf0, H0⟩, ⟨%f1, %hf1, H1⟩, ⟨%f2, %hf2, H2⟩, ⟨%f3, %hf3, H3⟩, ⟨%f6, %hf6, H6⟩, Hk⟩
  subst hf0 hf1 hf2 hf3 hf6
  sl_exec (disch := first | exact h0 | exact h1)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  iexists _; isplitr
  swap; · iexact H6
  ipureintro
  sl_unfold_words
  rw [read_writes_whole2 _ _ hz2]
  simp only [View.readAt_eq_ld, View.ld_unit_zero (S := S2048x1024) hz2, View.ld_unit_zero (S := S2048x512) hz2, View.ld_unit_zero (S := S512x1024) hz2,
    View.readCov_unit_zero (S := S2048x1024) _ hz2]

set_option maxHeartbeats 1000000 in
theorem sound_kernel2_C (c : Dev nD) (E : Set ℕ) (i : grid2.Coords)
    (arg2 : Memref sig .tc .vmem S2048x512 .bf16) (harg2 : arg2.IsWhole) (arg3 : Memref sig .tc .vmem S512x1024 .bf16) (harg3 : arg3.IsWhole)
    (arg4 : Memref sig .tc .vmem S2048x1 .f32) (harg4 : arg4.IsWhole) (arg5 : Memref sig .tc .vmem S2048x1024 .bf16) (harg5 : arg5.IsWhole)
    (arg6 : Memref sig .tc .vmem S2048x1024 .f32) (harg6 : arg6.IsWhole)
    (h0 : ¬cond2_0 i) (h1 : cond2_1 i)
    (x0 : Vec F S2048x512 .bf16) (x1 : Vec F S512x1024 .bf16) (x2 : Vec F S2048x1 .f32) (a : Vec F S2048x1024 .f32)
    (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare a
        ∗ (iprop(owns (c : Thread nD τ) arg2 fullShare x0 ∗ owns (c : Thread nD τ) arg3 fullShare x1 ∗ owns (c : Thread nD τ) arg4 fullShare x2
            ∗ owns (c : Thread nD τ) arg5 fullShare (out2_3 (k2_pay2 a x0 x1) x2) ∗ owns (c : Thread nD τ) arg6 fullShare (k2_pay2 a x0 x1)) -∗ K ⟨⟩))
      ⊢ wp frame (wpE (defs₀ (F := F)) Variants.none c none) E (cc2__row_agg_kernel i arg2 harg2 arg3 harg3 arg4 harg4 arg5 harg5 arg6 harg6) K := by
  simp only [cc2__row_agg_kernel_eq_skeleton]; unfold cc2__row_agg_kernel_skel
  unfold owns
  iintro ⟨⟨%f0, %hf0, H0⟩, ⟨%f1, %hf1, H1⟩, ⟨%f2, %hf2, H2⟩, ⟨%d3, %f3, -, H3⟩, ⟨%f6, %hf6, H6⟩, Hk⟩
  subst hf0 hf1 hf2 hf6
  sl_exec (disch := first | exact h0 | exact h1)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]
  · iexists _; isplitr
    swap; · iexact H3
    ipureintro
    sl_unfold_words
    rw [View.read_writes_eq_canon _ _ _ (cover2_3 _)]
    unfold out2_3
    simp only [View.readAt_eq_ld, View.ld_unit_zero (S := S2048x1024) hz2, View.ld_unit_zero (S := S2048x512) hz2, View.ld_unit_zero (S := S512x1024) hz2,
      View.ld_unit_zero (S := S2048x1) hz2, View.readCov_unit_zero (S := S2048x1024) _ hz2]
  iexists _; isplitr
  swap; · iexact H6
  ipureintro
  sl_unfold_words
  rw [read_writes_whole2 _ _ hz2]
  simp only [View.readAt_eq_ld, View.ld_unit_zero (S := S2048x1024) hz2, View.ld_unit_zero (S := S2048x512) hz2, View.ld_unit_zero (S := S512x1024) hz2,
    View.readCov_unit_zero (S := S2048x1024) _ hz2]

def accAt2 (c : Dev nD) : (n : ℕ) → n < cfg2.N → Vec F S2048x1024 .f32
  | 0, hn => k2_pay2 (k2_pay1 (F := F)) (iblk2 V c 0 ⟨0, hn⟩) (iblk2 V c 1 ⟨0, hn⟩)
  | n + 1, hn =>
    if (n + 1) % 8 = 0 then k2_pay2 (k2_pay1 (F := F)) (iblk2 V c 0 ⟨n + 1, hn⟩) (iblk2 V c 1 ⟨n + 1, hn⟩)
    else k2_pay2 (accAt2 c n (Nat.lt_of_succ_lt hn)) (iblk2 V c 0 ⟨n + 1, hn⟩) (iblk2 V c 1 ⟨n + 1, hn⟩)

theorem accAt2_A (c : Dev nD) (t : Fin cfg2.N) (h0 : t.val % 8 = 0) :
    accAt2 V c t.val t.isLt = k2_pay2 (k2_pay1 (F := F)) (iblk2 V c 0 t) (iblk2 V c 1 t) := by
  obtain ⟨n, hn⟩ := t
  cases n with
  | zero => exact rfl
  | succ n => exact (if_pos h0).trans rfl

theorem accAt2_B (c : Dev nD) (t : Fin cfg2.N) (h0 : ¬t.val % 8 = 0) :
    accAt2 V c t.val t.isLt
      = k2_pay2 (accAt2 V c (t.val - 1) (Nat.lt_of_le_of_lt (Nat.sub_le _ _) t.isLt)) (iblk2 V c 0 t) (iblk2 V c 1 t) := by
  obtain ⟨n, hn⟩ := t
  cases n with
  | zero => exact absurd (Nat.zero_mod _) h0
  | succ n => exact (if_neg h0).trans rfl

theorem accAt2_congr (c : Dev nD) {n n' : ℕ} (h : n = n') (hn : n < cfg2.N) (hn' : n' < cfg2.N) :
    accAt2 V c n hn = accAt2 V c n' hn' := by subst h; rfl

def Φ2 (c : Dev nD) (t : Fin (cfg2.N + 1)) : sProp 𝕄 :=
  iprop((∃ X : Vec F S2048x1024 .f32, ⌜∀ h : 0 < t.val, X = accAt2 V c (t.val - 1) (by have := t.isLt; omega)⌝
        ∗ owns (c : Thread nD τ) (Memref.whole cc2_scratch0 : Memref sig .tc .vmem S2048x1024 .f32) fullShare X)
    ∗ Pipeline.scopedRestBut (Ix := Unit) (Name := ℕ) (U := UR sig nD τ) (Lvl := ℕ) (Val := Elt F) spec2 c [cc2_scratch0]
    ∗ ∃ r, prngReg c r)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (accAt2 V c t.val t.isLt) (iblk2 V c 2 t)
  Φ t := Φ2 V c t
  q _ := fullShare
  owed _ := 0

theorem A_eq2 (c : Dev nD) (w : Fin cfg2.W) : (dat2 V c).A w = V c (Pipeline.arrRef spec2 w) := by
  dsimp only [dat2]

theorem Φ_eq2 (c : Dev nD) (t : Fin (cfg2.N + 1)) : (dat2 V c).Φ t = Φ2 V c t := by dsimp only [dat2]

theorem after2_0 (c : Dev nD) (t : Fin cfg2.N) : (dat2 V c).after 0 t = iblk2 V c 0 t := by dsimp only [dat2]

theorem after2_1 (c : Dev nD) (t : Fin cfg2.N) : (dat2 V c).after 1 t = iblk2 V c 1 t := by dsimp only [dat2]

theorem after2_2 (c : Dev nD) (t : Fin cfg2.N) : (dat2 V c).after 2 t = iblk2 V c 2 t := by dsimp only [dat2]

theorem after2_3 (c : Dev nD) (t : Fin cfg2.N) :
    (dat2 V c).after 3 t = out2_3 (accAt2 V c t.val t.isLt) (iblk2 V c 2 t) := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl) (fun _ => rfl) t d).trans rfl
theorem before2_1 (c : Dev nD) (t : Fin cfg2.N) (d) : (dat2 V c).before 1 t d = iblk2 V c 1 t :=
  ((dat2 V c).before_in_eq_fetched 1 rfl (fun _ => rfl) (fun _ _ _ => rfl) (fun _ => rfl) t d).trans rfl
theorem before2_2 (c : Dev nD) (t : Fin cfg2.N) (d) : (dat2 V c).before 2 t d = iblk2 V c 2 t :=
  ((dat2 V c).before_in_eq_fetched 2 rfl (fun _ => rfl) (fun _ _ _ => rfl) (fun _ => rfl) t d).trans rfl

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ (dat2 V c).leavesExact 3 t)

set_option maxHeartbeats 1000000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl,
    after2_0, after2_1, after2_2, Φ_eq2, Φ_eq2]
  have hN : t.val < 16 := lt_of_lt_of_eq t.isLt (show cfg2.N = 16 from N_2)
  have hsucc : ∀ h, accAt2 V c (t.succ.val - 1) h = accAt2 V c t.val t.isLt := fun h =>
    accAt2_congr V c (by rw [Fin.val_succ]; omega) _ _
  unfold Φ2
  by_cases h7 : t.val % 8 = 7
  · have h0 : ¬t.val % 8 = 0 := by omega
    have hi : cfg2.idle 3 (cfg2.grid.coords t) = false := by
      rw [← Bool.not_eq_true]; exact fun h => (hidle2_3 t).mp h h7
    rw [show (dat2 V c).leavesExact 3 t = owns (c : Thread nD τ) (st2_3 t) fullShare ((dat2 V c).after 3 t) from by
      unfold Dat.leavesExact; rw [hi]]
    rw [after2_3, accAt2_B V c t h0]
    iintro ⟨⟨⟨%X, %hX, Hs⟩, Hrest, Hprng⟩, Ho, ⟨%d0, H0⟩, ⟨%d1, H1⟩, ⟨%d2, H2⟩, ⟨%d3, H3⟩⟩
    obtain rfl := hX (by rw [Fin.coe_castSucc]; omega)
    iapply (sound_kernel2_C c Set.univ (grid2.coords t) _ _ _ _ _ _ _ _ _ _ (fun h => h0 ((hcond2_0 t).mp h)) ((hcond2_1 t).mpr h7)
      (iblk2 V c 0 t) (iblk2 V c 1 t) (iblk2 V c 2 t) _ _)
    iframe H0 H1 H2 Hs
    isplitl [H3]; · iexists _; iexact H3
    iintro ⟨H0, H1, H2, H3, Hs⟩
    iframe Hrest Hprng Ho H0 H1 H2
    isplitl [Hs]
    · iexists _; isplitr
      swap; · iexact Hs
      ipureintro; intro h; rw [hsucc, accAt2_B V c t h0]; rfl
    iexact H3
  · have hi : cfg2.idle 3 (cfg2.grid.coords t) = true := (hidle2_3 t).mpr h7
    have hf : (cfg2.win 3).flush t = false := by
      rw [← Bool.not_eq_true]; exact fun h => h7 ((flush2_3 t).mp h)
    rw [(dat2 V c).leavesExact_idle 3 t hi hf]
    by_cases h0 : t.val % 8 = 0
    · iintro ⟨⟨⟨%X, %hX, Hs⟩, Hrest, Hprng⟩, Ho, ⟨%d0, H0⟩, ⟨%d1, H1⟩, ⟨%d2, H2⟩, ⟨%d3, H3⟩⟩
      iapply (sound_kernel2_A c Set.univ (grid2.coords t) _ _ _ _ _ _ _ _ _ _ ((hcond2_0 t).mpr h0) (fun h => h7 ((hcond2_1 t).mp h))
        (iblk2 V c 0 t) (iblk2 V c 1 t) (iblk2 V c 2 t) _ _)
      iframe H0 H1 H2 H3
      isplitl [Hs]; · iexists _; iexact Hs
      iintro ⟨H0, H1, H2, H3, Hs⟩
      iframe Hrest Hprng Ho H0 H1 H2
      isplitl [Hs]
      · iexists _; isplitr
        swap; · iexact Hs
        ipureintro; intro h; rw [hsucc, accAt2_A V c t h0]
      iexists _; iexact H3
    · iintro ⟨⟨⟨%X, %hX, Hs⟩, Hrest, Hprng⟩, Ho, ⟨%d0, H0⟩, ⟨%d1, H1⟩, ⟨%d2, H2⟩, ⟨%d3, H3⟩⟩
      obtain rfl := hX (by rw [Fin.coe_castSucc]; omega)
      iapply (sound_kernel2_B c Set.univ (grid2.coords t) _ _ _ _ _ _ _ _ _ _ (fun h => h0 ((hcond2_0 t).mp h)) (fun h => h7 ((hcond2_1 t).mp h))
        (iblk2 V c 0 t) (iblk2 V c 1 t) (iblk2 V c 2 t) _ _ _)
      iframe H0 H1 H2 H3 Hs
      iintro ⟨H0, H1, H2, H3, Hs⟩
      iframe Hrest Hprng Ho H0 H1 H2
      isplitl [Hs]
      · iexists _; isplitr
        swap; · iexact Hs
        ipureintro; intro h; rw [hsucc, accAt2_B V c t h0]; rfl
      iexists _; iexact H3

theorem body_obligation2 (c : Dev nD) : BodyObligation (dat2 (F := F) V c) (defs₀ (F := F)) Variants.none () Set.univ := fun t => by
  rw [bigSep_W2, bigSep_W2]
  exact sound_body2 V c t

theorem Φ_in2 (c : Dev nD) :
    iprop((∃ r, prngReg c r) ∗ Pipeline.scopedRest (Ix := Unit) (Name := ℕ) (U := UR sig nD τ) (Lvl := ℕ) (Val := Elt F) spec2 c)
      ⊢ (dat2 V c).Φ 0 := by
  rw [Φ_eq2, scopedRest2_split]; unfold Φ2
  simp only [owns_whole]
  iintro ⟨Hprng, ⟨%f, Hs⟩, Hrest⟩
  isplitl [Hs]
  · iexists f; isplitr
    · ipureintro; intro h; exact absurd h (Nat.lt_irrefl 0)
    iexact Hs
  isplitl [Hrest]; · iexact Hrest
  iexact Hprng

theorem Φ_out2 (c : Dev nD) :
    (dat2 V c).Φ (Fin.last cfg2.N)
      ⊢ iprop((∃ r, prngReg c r) ∗ Pipeline.scopedRest (Ix := Unit) (Name := ℕ) (U := UR sig nD τ) (Lvl := ℕ) (Val := Elt F) spec2 c) := by
  rw [Φ_eq2, scopedRest2_split]; unfold Φ2
  simp only [owns_whole]
  iintro ⟨⟨%X, -, Hs⟩, Hrest, Hprng⟩
  isplitl [Hprng]; · iexact Hprng
  isplitl [Hs]
  · iexists X; iexact Hs
  iexact Hrest

end Cert.Kernel.Hand

end
-- ==== Proof.KReg3.lean ====
import proofs.«415769_j962072674785_2_alg».proof.Proof.Gen.Kernel.Launch
import proofs.«415769_j962072674785_2_alg».proof.Proof.Gen.Kernel.Skeleton
import proofs.«415769_j962072674785_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region3

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_0 : Rect S1024x1024 := Rect.unit (s := S1024x1024) ![0, 0] S1024x1024.size inb_S1024x1024_S1024x1024_0_0
abbrev r3_1 : Rect S1x1024 := Rect.unit (s := S1x1024) ![0, 0] S1x1024.size inb_S1x1024_S1x1024_0_0

def out3_5 (x0 : Vec F S1024x1024 .bf16) (x1 : Vec F S1024x1024 .bf16) (x2 : Vec F S1024x1024 .f32) (x3 : Vec F S1024x1024 .f32)
    (x4 : Vec F S1x1024 .f32) : Vec F S1024x1024 .f32 :=
  View.canon [⟨r3_0, k3_pay1 (View.ld x2 r3_0) (View.ld x3 r3_0) (View.ld x0 r3_0) (View.ld x1 r3_0) (View.ld x4 r3_1)⟩]

theorem cover3_5 (p0 : Vec F S1024x1024 .f32) (y : S1024x1024.Idx) :
    ∃ pc ∈ ([⟨r3_0, p0⟩] : List (View.Piece (Elt F) S1024x1024 .f32)), y ∈ pc.1.set :=
  View.cover_of_tiled [⟨r3_0, p0⟩] S1024x1024.size (by rfl) y

set_option maxHeartbeats 1000000 in
/-- The one store is of the whole buffer, so the buffer ends at the stored value and the inputs are as they were. -/
theorem sound_kernel3 (c : Dev nD) (E : Set ℕ) (i : grid3.Coords)
    (arg1 : Memref sig .tc .vmem S1024x1024 .bf16) (harg1 : arg1.IsWhole) (arg2 : Memref sig .tc .vmem S1024x1024 .bf16) (harg2 : arg2.IsWhole)
    (arg3 : Memref sig .tc .vmem S1024x1024 .f32) (harg3 : arg3.IsWhole) (arg4 : Memref sig .tc .vmem S1024x1024 .f32) (harg4 : arg4.IsWhole)
    (arg5 : Memref sig .tc .vmem S1x1024 .f32) (harg5 : arg5.IsWhole) (arg6 : Memref sig .tc .vmem S1024x1024 .f32) (harg6 : arg6.IsWhole)
    (x0 : Vec F S1024x1024 .bf16) (x1 : Vec F S1024x1024 .bf16) (x2 : Vec F S1024x1024 .f32) (x3 : Vec F S1024x1024 .f32) (x4 : Vec F S1x1024 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out3_5 x0 x1 x2 x3 x4)) -∗ K ⟨⟩))
      ⊢ wp frame (wpE (defs₀ (F := F)) Variants.none c none) E (cc3__row_affine_kernel i arg1 harg1 arg2 harg2 arg3 harg3 arg4 harg4 arg5 harg5 arg6 harg6) K := by
  simp only [cc3__row_affine_kernel_eq_skeleton]; unfold cc3__row_affine_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t
    = out3_5 (iblk3 V c 0 t) (iblk3 V c 1 t) (iblk3 V c 2 t) (iblk3 V c 3 t) (iblk3 V c 4 t) := by dsimp only [dat3]

/-- The body leaves each input's block in place, so its buffer holds the block at every point. -/
theorem before3_0 (c : Dev nD) (t : Fin cfg3.N) (d) : (dat3 V c).before 0 t d = iblk3 V c 0 t :=
  (dat3 V c).before_in_eq_fetched 0 rfl (fun _ => rfl) (fun _ _ _ => rfl) (fun _ => rfl) t d
theorem before3_1 (c : Dev nD) (t : Fin cfg3.N) (d) : (dat3 V c).before 1 t d = iblk3 V c 1 t :=
  (dat3 V c).before_in_eq_fetched 1 rfl (fun _ => rfl) (fun _ _ _ => rfl) (fun _ => rfl) t d
theorem before3_2 (c : Dev nD) (t : Fin cfg3.N) (d) : (dat3 V c).before 2 t d = iblk3 V c 2 t :=
  (dat3 V c).before_in_eq_fetched 2 rfl (fun _ => rfl) (fun _ _ _ => rfl) (fun _ => rfl) t d
theorem before3_3 (c : Dev nD) (t : Fin cfg3.N) (d) : (dat3 V c).before 3 t d = iblk3 V c 3 t :=
  (dat3 V c).before_in_eq_fetched 3 rfl (fun _ => rfl) (fun _ _ _ => rfl) (fun _ => rfl) t d
theorem before3_4 (c : Dev nD) (t : Fin cfg3.N) (d) : (dat3 V c).before 4 t d = iblk3 V c 4 t :=
  (dat3 V c).before_in_eq_fetched 4 rfl (fun _ => rfl) (fun _ _ _ => rfl) (fun _ => rfl) t d

/-- The inputs' buffers hold their blocks, so the triple of the kernel body applies. -/
theorem body_obligation3 (c : Dev nD) : BodyObligation (dat3 (F := F) V c) (defs₀ (F := F)) Variants.none () Set.univ := fun t => by
  rw [bigSep_W3, bigSep_W3]
  simp only [before3_0, before3_1, before3_2, before3_3, before3_4]
  show _ ⊢ wp frame _ _ (bodyAt3 t) _
  unfold bodyAt3
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ)
  iframe H0 H1 H2 H3 H4
  isplitl [H5]; · iexists _; iexact H5
  iintro ⟨H0, H1, H2, H3, H4, H5⟩
  iframe

end Region3

end Cert.Kernel.Hand

end
-- ==== Proof.KReg4.lean ====
import proofs.«415769_j962072674785_2_alg».proof.Proof.KReg0

noncomputable section

namespace Cert.Kernel.Hand

open Cert.Kernel Cert.Kernel.Gen
open Idealize.ShloMosaic Idealize.ShloMosaic.TcCoe Idealize.SL.Sem Idealize.SL.RA
open Idealize.ShloMosaic.Pipeline (Dat BodyObligation)

variable {F : FTy → Type} [FloatOps F]

/-- This region and region 0 launch one kernel function: the two definitions have the same body. -/
theorem kernel4_eq : cc4__col_agg_kernel (F := F) = cc0__col_agg_kernel (F := F) := rfl

section Region
variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out0_3 (iblk4 V c 0 t) (iblk4 V c 1 t) (iblk4 V c 2 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_3 (c : Dev nD) (t : Fin cfg4.N) :
    (dat4 V c).after 3 t = out0_3 (iblk4 V c 0 t) (iblk4 V c 1 t) (iblk4 V c 2 t) := by dsimp only [dat4]

/-- The body hands every input back as it found it, so what it finds there at any point is the array's block. -/
theorem before4_0 (c : Dev nD) (t : Fin cfg4.N) (d) : (dat4 V c).before 0 t d = iblk4 V c 0 t :=
  (dat4 V c).before_in_eq_fetched 0 rfl (fun _ => rfl) (fun _ _ _ => rfl) (fun _ => by dsimp only [dat4]; rfl) t d
theorem before4_1 (c : Dev nD) (t : Fin cfg4.N) (d) : (dat4 V c).before 1 t d = iblk4 V c 1 t :=
  (dat4 V c).before_in_eq_fetched 1 rfl (fun _ => rfl) (fun _ _ _ => rfl) (fun _ => by dsimp only [dat4]; rfl) t d
theorem before4_2 (c : Dev nD) (t : Fin cfg4.N) (d) : (dat4 V c).before 2 t d = iblk4 V c 2 t :=
  (dat4 V c).before_in_eq_fetched 2 rfl (fun _ => rfl) (fun _ _ _ => rfl) (fun _ => by dsimp only [dat4]; rfl) t d

theorem body_obligation4 (c : Dev nD) : BodyObligation (dat4 (F := F) V c) (defs₀ (F := F)) Variants.none () Set.univ := fun t => by
  rw [bigSep_W4, bigSep_W4]
  simp only [before4_0, before4_1, before4_2]
  dsimp only [dat4]
  exact colAgg_body kernel4_eq c (grid4.coords t) _ (hstage4_0 _) _ (hstage4_1 _) _ (hstage4_2 _) _ (hstage4_3 _) _ _ _ _ _ _

end Region

end Cert.Kernel.Hand

end
-- ==== Proof.KReg5.lean ====
import proofs.«415769_j962072674785_2_alg».proof.Proof.KReg1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off the array the region is entered with. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- This region and region 1 launch one kernel function: the two definitions have the same body. -/
theorem cc5_eq_cc1 : cc5__col_affine_kernel (F := F) = cc1__col_affine_kernel := rfl

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out1_5 (iblk5 V c 0 t) (iblk5 V c 1 t) (iblk5 V c 2 t) (iblk5 V c 3 t) (iblk5 V c 4 t)
  Φ _ := Pipeline.ΦA spec5 c
  q _ := fullShare
  owed _ := 0

theorem A_eq5 (c : Dev nD) (w : Fin cfg5.W) : (dat5 V c).A w = V c (Pipeline.arrRef spec5 w) := by
  dsimp only [dat5]

/-- The output's buffer is left at the function's result on what is left in the inputs' buffers. -/
theorem after5_5 (c : Dev nD) (t : Fin cfg5.N) : (dat5 V c).after 5 t
    = out1_5 ((dat5 V c).after 0 t) ((dat5 V c).after 1 t) ((dat5 V c).after 2 t) ((dat5 V c).after 3 t) ((dat5 V c).after 4 t) := by
  dsimp only [dat5]

/-- The body writes no input, so an input's buffer holds the array's block at every point. -/
theorem before5 (c : Dev nD) (w : Fin cfg5.W) (hw : (cfg5.win w).isOut = false) (t : Fin cfg5.N) (d) :
    (dat5 V c).before w t d = (dat5 V c).after w t :=
  match w, hw with
  | ⟨0, _⟩, h | ⟨1, _⟩, h | ⟨2, _⟩, h | ⟨3, _⟩, h | ⟨4, _⟩, h =>
    (dat5 V c).before_in_eq_fetched _ h (fun _ => rfl) (fun _ _ _ => rfl) (fun _ => rfl) t d
  | ⟨5, _⟩, h => nomatch h

/-- The inputs' buffers hold their blocks, so the function's triple applies; the invariant and what the core owes pass through unread. -/
theorem body_obligation5 (c : Dev nD) : BodyObligation (dat5 (F := F) V c) (defs₀ (F := F)) Variants.none () Set.univ := fun t => by
  rw [bigSep_W5, bigSep_W5]
  simp only [before5 V c 0 rfl, before5 V c 1 rfl, before5 V c 2 rfl, before5 V c 3 rfl, before5 V c 4 rfl]
  rw [after5_5, show (dat5 V c).Φ t.succ = (dat5 V c).Φ t.castSucc from rfl,
    show (dat5 V c).owesAt () t.succ = (dat5 V c).owesAt () t.castSucc from rfl]
  show _ ⊢ wp frame _ _ (bodyAt5 t) _
  unfold bodyAt5
  rw [cc5_eq_cc1]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ ((dat5 V c).after 0 t) ((dat5 V c).after 1 t) ((dat5 V c).after 2 t)
    ((dat5 V c).after 3 t) ((dat5 V c).after 4 t) _)
  iframe H0 H1 H2 H3 H4
  isplitl [H5]; · iexists _; iexact H5
  iintro H
  iframe

end Cert.Kernel.Hand

end
-- ==== Proof.KReg6.lean ====
import proofs.«415769_j962072674785_2_alg».proof.Proof.KReg2

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- This region and region 2 launch one kernel function: the two definitions have the same body.
theorem kernel6_eq : cc6__row_agg_kernel (F := F) = cc2__row_agg_kernel (F := F) := rfl

theorem hcond6_0 : ∀ t : Fin cfg6.N, cond2_0 (grid6.coords t) ↔ t.val % 8 = 0 := hcond2_0

theorem hcond6_1 : ∀ t : Fin cfg6.N, cond2_1 (grid6.coords t) ↔ t.val % 8 = 7 := hcond2_1

theorem hidle6_3 : ∀ t : Fin cfg6.N, cfg6.idle 3 (cfg6.grid.coords t) = true ↔ ¬t.val % 8 = 7 :=
  (by decide +kernel : ∀ t : Fin grid6.N, idle6 3 (grid6.coords t) = true ↔ ¬t.val % 8 = 7)

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

def accAt6 (c : Dev nD) : (n : ℕ) → n < cfg6.N → Vec F S2048x1024 .f32
  | 0, hn => k2_pay2 (k2_pay1 (F := F)) (iblk6 V c 0 ⟨0, hn⟩) (iblk6 V c 1 ⟨0, hn⟩)
  | n + 1, hn =>
    if (n + 1) % 8 = 0 then k2_pay2 (k2_pay1 (F := F)) (iblk6 V c 0 ⟨n + 1, hn⟩) (iblk6 V c 1 ⟨n + 1, hn⟩)
    else k2_pay2 (accAt6 c n (Nat.lt_of_succ_lt hn)) (iblk6 V c 0 ⟨n + 1, hn⟩) (iblk6 V c 1 ⟨n + 1, hn⟩)

theorem accAt6_A (c : Dev nD) (t : Fin cfg6.N) (h0 : t.val % 8 = 0) :
    accAt6 V c t.val t.isLt = k2_pay2 (k2_pay1 (F := F)) (iblk6 V c 0 t) (iblk6 V c 1 t) := by
  obtain ⟨n, hn⟩ := t
  cases n with
  | zero => exact rfl
  | succ n => exact (if_pos h0).trans rfl

theorem accAt6_B (c : Dev nD) (t : Fin cfg6.N) (h0 : ¬t.val % 8 = 0) :
    accAt6 V c t.val t.isLt
      = k2_pay2 (accAt6 V c (t.val - 1) (Nat.lt_of_le_of_lt (Nat.sub_le _ _) t.isLt)) (iblk6 V c 0 t) (iblk6 V c 1 t) := by
  obtain ⟨n, hn⟩ := t
  cases n with
  | zero => exact absurd (Nat.zero_mod _) h0
  | succ n => exact (if_neg h0).trans rfl

theorem accAt6_congr (c : Dev nD) {n n' : ℕ} (h : n = n') (hn : n < cfg6.N) (hn' : n' < cfg6.N) :
    accAt6 V c n hn = accAt6 V c n' hn' := by subst h; rfl

def Φ6 (c : Dev nD) (t : Fin (cfg6.N + 1)) : sProp 𝕄 :=
  iprop((∃ X : Vec F S2048x1024 .f32, ⌜∀ h : 0 < t.val, X = accAt6 V c (t.val - 1) (by have := t.isLt; omega)⌝
        ∗ owns (c : Thread nD τ) (Memref.whole cc6_scratch0 : Memref sig .tc .vmem S2048x1024 .f32) fullShare X)
    ∗ Pipeline.scopedRestBut (Ix := Unit) (Name := ℕ) (U := UR sig nD τ) (Lvl := ℕ) (Val := Elt F) spec6 c [cc6_scratch0]
    ∗ ∃ r, prngReg c r)

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out2_3 (accAt6 V c t.val t.isLt) (iblk6 V c 2 t)
  Φ t := Φ6 V c t
  q _ := fullShare
  owed _ := 0

theorem A_eq6 (c : Dev nD) (w : Fin cfg6.W) : (dat6 V c).A w = V c (Pipeline.arrRef spec6 w) := by
  dsimp only [dat6]

theorem Φ_eq6 (c : Dev nD) (t : Fin (cfg6.N + 1)) : (dat6 V c).Φ t = Φ6 V c t := by dsimp only [dat6]

theorem after6_0 (c : Dev nD) (t : Fin cfg6.N) : (dat6 V c).after 0 t = iblk6 V c 0 t := by dsimp only [dat6]

theorem after6_1 (c : Dev nD) (t : Fin cfg6.N) : (dat6 V c).after 1 t = iblk6 V c 1 t := by dsimp only [dat6]

theorem after6_2 (c : Dev nD) (t : Fin cfg6.N) : (dat6 V c).after 2 t = iblk6 V c 2 t := by dsimp only [dat6]

theorem after6_3 (c : Dev nD) (t : Fin cfg6.N) :
    (dat6 V c).after 3 t = out2_3 (accAt6 V c t.val t.isLt) (iblk6 V c 2 t) := by dsimp only [dat6]

theorem before6_0 (c : Dev nD) (t : Fin cfg6.N) (d) : (dat6 V c).before 0 t d = iblk6 V c 0 t :=
  ((dat6 V c).before_in_eq_fetched 0 rfl (fun _ => rfl) (fun _ _ _ => rfl) (fun _ => rfl) t d).trans rfl
theorem before6_1 (c : Dev nD) (t : Fin cfg6.N) (d) : (dat6 V c).before 1 t d = iblk6 V c 1 t :=
  ((dat6 V c).before_in_eq_fetched 1 rfl (fun _ => rfl) (fun _ _ _ => rfl) (fun _ => rfl) t d).trans rfl
theorem before6_2 (c : Dev nD) (t : Fin cfg6.N) (d) : (dat6 V c).before 2 t d = iblk6 V c 2 t :=
  ((dat6 V c).before_in_eq_fetched 2 rfl (fun _ => rfl) (fun _ _ _ => rfl) (fun _ => rfl) t d).trans rfl

def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d)))

def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ (dat6 V c).leavesExact 3 t)

set_option maxHeartbeats 1000000 in
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  rw [kernel6_eq]
  simp only [before6_0, before6_1, before6_2]
  rw [show (dat6 V c).owesAt () t.succ = (dat6 V c).owesAt () t.castSucc from rfl,
    after6_0, after6_1, after6_2, Φ_eq6, Φ_eq6]
  have hN : t.val < 16 := lt_of_lt_of_eq t.isLt (show cfg6.N = 16 from N_6)
  have hsucc : ∀ h, accAt6 V c (t.succ.val - 1) h = accAt6 V c t.val t.isLt := fun h =>
    accAt6_congr V c (by rw [Fin.val_succ]; omega) _ _
  unfold Φ6
  by_cases h7 : t.val % 8 = 7
  · have h0 : ¬t.val % 8 = 0 := by omega
    have hi : cfg6.idle 3 (cfg6.grid.coords t) = false := by
      rw [← Bool.not_eq_true]; exact fun h => (hidle6_3 t).mp h h7
    rw [show (dat6 V c).leavesExact 3 t = owns (c : Thread nD τ) (st6_3 t) fullShare ((dat6 V c).after 3 t) from by
      unfold Dat.leavesExact; rw [hi]]
    rw [after6_3, accAt6_B V c t h0]
    iintro ⟨⟨⟨%X, %hX, Hs⟩, Hrest, Hprng⟩, Ho, ⟨%d0, H0⟩, ⟨%d1, H1⟩, ⟨%d2, H2⟩, ⟨%d3, H3⟩⟩
    obtain rfl := hX (by rw [Fin.coe_castSucc]; omega)
    iapply (sound_kernel2_C c Set.univ (grid6.coords t) _ _ _ _ _ _ _ _ _ _ (fun h => h0 ((hcond6_0 t).mp h)) ((hcond6_1 t).mpr h7)
      (iblk6 V c 0 t) (iblk6 V c 1 t) (iblk6 V c 2 t) _ _)
    iframe H0 H1 H2 Hs
    isplitl [H3]; · iexists _; iexact H3
    iintro ⟨H0, H1, H2, H3, Hs⟩
    iframe Hrest Hprng Ho H0 H1 H2
    isplitl [Hs]
    · iexists _; isplitr
      swap; · iexact Hs
      ipureintro; intro h; rw [hsucc, accAt6_B V c t h0]; rfl
    iexact H3
  · have hi : cfg6.idle 3 (cfg6.grid.coords t) = true := (hidle6_3 t).mpr h7
    have hf : (cfg6.win 3).flush t = false := by
      rw [← Bool.not_eq_true]; exact fun h => h7 ((flush6_3 t).mp h)
    rw [(dat6 V c).leavesExact_idle 3 t hi hf]
    by_cases h0 : t.val % 8 = 0
    · iintro ⟨⟨⟨%X, %hX, Hs⟩, Hrest, Hprng⟩, Ho, ⟨%d0, H0⟩, ⟨%d1, H1⟩, ⟨%d2, H2⟩, ⟨%d3, H3⟩⟩
      iapply (sound_kernel2_A c Set.univ (grid6.coords t) _ _ _ _ _ _ _ _ _ _ ((hcond6_0 t).mpr h0) (fun h => h7 ((hcond6_1 t).mp h))
        (iblk6 V c 0 t) (iblk6 V c 1 t) (iblk6 V c 2 t) _ _)
      iframe H0 H1 H2 H3
      isplitl [Hs]; · iexists _; iexact Hs
      iintro ⟨H0, H1, H2, H3, Hs⟩
      iframe Hrest Hprng Ho H0 H1 H2
      isplitl [Hs]
      · iexists _; isplitr
        swap; · iexact Hs
        ipureintro; intro h; rw [hsucc, accAt6_A V c t h0]
      iexists _; iexact H3
    · iintro ⟨⟨⟨%X, %hX, Hs⟩, Hrest, Hprng⟩, Ho, ⟨%d0, H0⟩, ⟨%d1, H1⟩, ⟨%d2, H2⟩, ⟨%d3, H3⟩⟩
      obtain rfl := hX (by rw [Fin.coe_castSucc]; omega)
      iapply (sound_kernel2_B c Set.univ (grid6.coords t) _ _ _ _ _ _ _ _ _ _ (fun h => h0 ((hcond6_0 t).mp h)) (fun h => h7 ((hcond6_1 t).mp h))
        (iblk6 V c 0 t) (iblk6 V c 1 t) (iblk6 V c 2 t) _ _ _)
      iframe H0 H1 H2 H3 Hs
      iintro ⟨H0, H1, H2, H3, Hs⟩
      iframe Hrest Hprng Ho H0 H1 H2
      isplitl [Hs]
      · iexists _; isplitr
        swap; · iexact Hs
        ipureintro; intro h; rw [hsucc, accAt6_B V c t h0]; rfl
      iexists _; iexact H3

theorem body_obligation6 (c : Dev nD) : BodyObligation (dat6 (F := F) V c) (defs₀ (F := F)) Variants.none () Set.univ := fun t => by
  rw [bigSep_W6, bigSep_W6]
  exact sound_body6 V c t

theorem Φ_in6 (c : Dev nD) :
    iprop((∃ r, prngReg c r) ∗ Pipeline.scopedRest (Ix := Unit) (Name := ℕ) (U := UR sig nD τ) (Lvl := ℕ) (Val := Elt F) spec6 c)
      ⊢ (dat6 V c).Φ 0 := by
  rw [Φ_eq6, scopedRest6_split]; unfold Φ6
  simp only [owns_whole]
  iintro ⟨Hprng, ⟨%f, Hs⟩, Hrest⟩
  isplitl [Hs]
  · iexists f; isplitr
    · ipureintro; intro h; exact absurd h (Nat.lt_irrefl 0)
    iexact Hs
  isplitl [Hrest]; · iexact Hrest
  iexact Hprng

theorem Φ_out6 (c : Dev nD) :
    (dat6 V c).Φ (Fin.last cfg6.N)
      ⊢ iprop((∃ r, prngReg c r) ∗ Pipeline.scopedRest (Ix := Unit) (Name := ℕ) (U := UR sig nD τ) (Lvl := ℕ) (Val := Elt F) spec6 c) := by
  rw [Φ_eq6, scopedRest6_split]; unfold Φ6
  simp only [owns_whole]
  iintro ⟨⟨%X, -, Hs⟩, Hrest, Hprng⟩
  isplitl [Hprng]; · iexact Hprng
  isplitl [Hs]
  · iexists X; iexact Hs
  iexact Hrest

end Cert.Kernel.Hand

end
-- ==== Proof.KReg7.lean ====
import proofs.«415769_j962072674785_2_alg».proof.Proof.KReg3

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region7

variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- This region and region 3 launch one kernel function: the two definitions have the same body. -/
theorem cc7_eq3 : cc7__row_affine_kernel (F := F) = cc3__row_affine_kernel (F := F) := rfl

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => out3_5 (iblk7 V c 0 t) (iblk7 V c 1 t) (iblk7 V c 2 t) (iblk7 V c 3 t) (iblk7 V c 4 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t
    = out3_5 (iblk7 V c 0 t) (iblk7 V c 1 t) (iblk7 V c 2 t) (iblk7 V c 3 t) (iblk7 V c 4 t) := by dsimp only [dat7]

/-- The body leaves each input's block in place, so its buffer holds the block at every point. -/
theorem before7_0 (c : Dev nD) (t : Fin cfg7.N) (d) : (dat7 V c).before 0 t d = iblk7 V c 0 t :=
  (dat7 V c).before_in_eq_fetched 0 rfl (fun _ => rfl) (fun _ _ _ => rfl) (fun _ => rfl) t d
theorem before7_1 (c : Dev nD) (t : Fin cfg7.N) (d) : (dat7 V c).before 1 t d = iblk7 V c 1 t :=
  (dat7 V c).before_in_eq_fetched 1 rfl (fun _ => rfl) (fun _ _ _ => rfl) (fun _ => rfl) t d
theorem before7_2 (c : Dev nD) (t : Fin cfg7.N) (d) : (dat7 V c).before 2 t d = iblk7 V c 2 t :=
  (dat7 V c).before_in_eq_fetched 2 rfl (fun _ => rfl) (fun _ _ _ => rfl) (fun _ => rfl) t d
theorem before7_3 (c : Dev nD) (t : Fin cfg7.N) (d) : (dat7 V c).before 3 t d = iblk7 V c 3 t :=
  (dat7 V c).before_in_eq_fetched 3 rfl (fun _ => rfl) (fun _ _ _ => rfl) (fun _ => rfl) t d
theorem before7_4 (c : Dev nD) (t : Fin cfg7.N) (d) : (dat7 V c).before 4 t d = iblk7 V c 4 t :=
  (dat7 V c).before_in_eq_fetched 4 rfl (fun _ => rfl) (fun _ _ _ => rfl) (fun _ => rfl) t d

/-- The inputs' buffers hold their blocks, so region 3's triple of the kernel body applies. -/
theorem body_obligation7 (c : Dev nD) : BodyObligation (dat7 (F := F) V c) (defs₀ (F := F)) Variants.none () Set.univ := fun t => by
  rw [bigSep_W7, bigSep_W7]
  simp only [before7_0, before7_1, before7_2, before7_3, before7_4]
  show _ ⊢ wp frame _ _ (bodyAt7 t) _
  unfold bodyAt7
  rw [cc7_eq3, show (dat7 V c).Φ t.succ = (dat7 V c).Φ t.castSucc from rfl,
    show (dat7 V c).owesAt () t.succ = (dat7 V c).owesAt () t.castSucc from rfl,
    after7_0, after7_1, after7_2, after7_3, after7_4, after7_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ)
  iframe H0 H1 H2 H3 H4
  isplitl [H5]; · iexists _; iexact H5
  iintro ⟨H0, H1, H2, H3, H4, H5⟩
  iframe

end Region7

end Cert.Kernel.Hand

end
-- ==== Proof.KReg8.lean ====
import proofs.«415769_j962072674785_2_alg».proof.Proof.KReg0

noncomputable section

namespace Cert.Kernel.Hand

open Cert.Kernel Cert.Kernel.Gen
open Idealize.ShloMosaic Idealize.ShloMosaic.TcCoe Idealize.SL.Sem Idealize.SL.RA
open Idealize.ShloMosaic.Pipeline (Dat BodyObligation)

variable {F : FTy → Type} [FloatOps F]

/-- This region and region 0 launch one kernel function: the two definitions have the same body. -/
theorem kernel8_eq : cc8__col_agg_kernel (F := F) = cc0__col_agg_kernel (F := F) := rfl

section Region
variable (V : (c : Dev nD) → (b : Ref sig .tc) → Buf (Elt F) ((c : Thread nD τ).loc b))

def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => out0_3 (iblk8 V c 0 t) (iblk8 V c 1 t) (iblk8 V c 2 t)
  Φ _ := Pipeline.ΦA spec8 c
  q _ := fullShare
  owed _ := 0

theorem A_eq8 (c : Dev nD) (w : Fin cfg8.W) : (dat8 V c).A w = V c (Pipeline.arrRef spec8 w) := by
  dsimp only [dat8]

theorem after8_3 (c : Dev nD) (t : Fin cfg8.N) :
    (dat8 V c).after 3 t = out0_3 (iblk8 V c 0 t) (iblk8 V c 1 t) (iblk8 V c 2 t) := by dsimp only [dat8]

/-- The body hands every input back as it found it, so what it finds there at any point is the array's block. -/
theorem before8_0 (c : Dev nD) (t : Fin cfg8.N) (d) : (dat8 V c).before 0 t d = iblk8 V c 0 t :=
  (dat8 V c).before_in_eq_fetched 0 rfl (fun _ => rfl) (fun _ _ _ => rfl) (fun _ => by dsimp only [dat8]; rfl) t d
theorem before8_1 (c : Dev nD) (t : Fin cfg8.N) (d) : (dat8 V c).before 1 t d = iblk8 V c 1 t :=
  (dat8 V c).before_in_eq_fetched 1 rfl (fun _ => rfl) (fun _ _ _ => rfl) (fun _ => by dsimp only [dat8]; rfl) t d
theorem before8_2 (c : Dev nD) (t : Fin cfg8.N) (d) : (dat8 V c).before 2 t d = iblk8 V c 2 t :=
  (dat8 V c).before_in_eq_fetched 2 rfl (fun _ => rfl) (fun _ _ _ => rfl) (fun _ => by dsimp only [dat8]; rfl) t d

theorem body_obligation8 (c : Dev nD) : BodyObligation (dat8 (F := F) V c) (defs₀ (F := F)) Variants.none () Set.univ := fun t => by
  rw [bigSep_W8, bigSep_W8]
  simp only [before8_0, before8_1, before8_2]
  dsimp only [dat8]
  exact colAgg_body kernel8_eq c (grid8.coords t) _ (hstage8_0 _) _ (hstage8_1 _) _ (hstage8_2 _) _ (hstage8_3 _) _ _ _ _ _ _

end Region

end Cert.Kernel.Hand

end
-- ==== Proof.KReg9.lean ====
import proofs.«415769_j962072674785_2_alg».proof.Proof.KReg1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off the array the region is entered with. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- This region and region 1 launch one kernel function: the two definitions have the same body. -/
theorem cc9_eq_cc1 : cc9__col_affine_kernel (F := F) = cc1__col_affine_kernel := rfl

def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => iblk9 V c 4 t
    | ⟨5, _⟩ => out1_5 (iblk9 V c 0 t) (iblk9 V c 1 t) (iblk9 V c 2 t) (iblk9 V c 3 t) (iblk9 V c 4 t)
  Φ _ := Pipeline.ΦA spec9 c
  q _ := fullShare
  owed _ := 0

theorem A_eq9 (c : Dev nD) (w : Fin cfg9.W) : (dat9 V c).A w = V c (Pipeline.arrRef spec9 w) := by
  dsimp only [dat9]

/-- The output's buffer is left at the function's result on what is left in the inputs' buffers. -/
theorem after9_5 (c : Dev nD) (t : Fin cfg9.N) : (dat9 V c).after 5 t
    = out1_5 ((dat9 V c).after 0 t) ((dat9 V c).after 1 t) ((dat9 V c).after 2 t) ((dat9 V c).after 3 t) ((dat9 V c).after 4 t) := by
  dsimp only [dat9]

/-- The body writes no input, so an input's buffer holds the array's block at every point. -/
theorem before9 (c : Dev nD) (w : Fin cfg9.W) (hw : (cfg9.win w).isOut = false) (t : Fin cfg9.N) (d) :
    (dat9 V c).before w t d = (dat9 V c).after w t :=
  match w, hw with
  | ⟨0, _⟩, h | ⟨1, _⟩, h | ⟨2, _⟩, h | ⟨3, _⟩, h | ⟨4, _⟩, h =>
    (dat9 V c).before_in_eq_fetched _ h (fun _ => rfl) (fun _ _ _ => rfl) (fun _ => rfl) t d
  | ⟨5, _⟩, h => nomatch h

/-- The inputs' buffers hold their blocks, so the function's triple applies; the invariant and what the core owes pass through unread. -/
theorem body_obligation9 (c : Dev nD) : BodyObligation (dat9 (F := F) V c) (defs₀ (F := F)) Variants.none () Set.univ := fun t => by
  rw [bigSep_W9, bigSep_W9]
  simp only [before9 V c 0 rfl, before9 V c 1 rfl, before9 V c 2 rfl, before9 V c 3 rfl, before9 V c 4 rfl]
  rw [after9_5, show (dat9 V c).Φ t.succ = (dat9 V c).Φ t.castSucc from rfl,
    show (dat9 V c).owesAt () t.succ = (dat9 V c).owesAt () t.castSucc from rfl]
  show _ ⊢ wp frame _ _ (bodyAt9 t) _
  unfold bodyAt9
  rw [cc9_eq_cc1]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ ((dat9 V c).after 0 t) ((dat9 V c).after 1 t) ((dat9 V c).after 2 t)
    ((dat9 V c).after 3 t) ((dat9 V c).after 4 t) _)
  iframe H0 H1 H2 H3 H4
  isplitl [H5]; · iexists _; iexact H5
  iintro H
  iframe

end Cert.Kernel.Hand

end
-- ==== Proof.KReg10.lean ====
import proofs.«415769_j962072674785_2_alg».proof.Proof.KReg2

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- This region and region 2 launch one kernel function: the two definitions have the same body.
theorem kernel10_eq : cc10__row_agg_kernel (F := F) = cc2__row_agg_kernel (F := F) := rfl

theorem hcond10_0 : ∀ t : Fin cfg10.N, cond2_0 (grid10.coords t) ↔ t.val % 8 = 0 := hcond2_0

theorem hcond10_1 : ∀ t : Fin cfg10.N, cond2_1 (grid10.coords t) ↔ t.val % 8 = 7 := hcond2_1

theorem hidle10_3 : ∀ t : Fin cfg10.N, cfg10.idle 3 (cfg10.grid.coords t) = true ↔ ¬t.val % 8 = 7 :=
  (by decide +kernel : ∀ t : Fin grid10.N, idle10 3 (grid10.coords t) = true ↔ ¬t.val % 8 = 7)

def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

def accAt10 (c : Dev nD) : (n : ℕ) → n < cfg10.N → Vec F S2048x1024 .f32
  | 0, hn => k2_pay2 (k2_pay1 (F := F)) (iblk10 V c 0 ⟨0, hn⟩) (iblk10 V c 1 ⟨0, hn⟩)
  | n + 1, hn =>
    if (n + 1) % 8 = 0 then k2_pay2 (k2_pay1 (F := F)) (iblk10 V c 0 ⟨n + 1, hn⟩) (iblk10 V c 1 ⟨n + 1, hn⟩)
    else k2_pay2 (accAt10 c n (Nat.lt_of_succ_lt hn)) (iblk10 V c 0 ⟨n + 1, hn⟩) (iblk10 V c 1 ⟨n + 1, hn⟩)

theorem accAt10_A (c : Dev nD) (t : Fin cfg10.N) (h0 : t.val % 8 = 0) :
    accAt10 V c t.val t.isLt = k2_pay2 (k2_pay1 (F := F)) (iblk10 V c 0 t) (iblk10 V c 1 t) := by
  obtain ⟨n, hn⟩ := t
  cases n with
  | zero => exact rfl
  | succ n => exact (if_pos h0).trans rfl

theorem accAt10_B (c : Dev nD) (t : Fin cfg10.N) (h0 : ¬t.val % 8 = 0) :
    accAt10 V c t.val t.isLt
      = k2_pay2 (accAt10 V c (t.val - 1) (Nat.lt_of_le_of_lt (Nat.sub_le _ _) t.isLt)) (iblk10 V c 0 t) (iblk10 V c 1 t) := by
  obtain ⟨n, hn⟩ := t
  cases n with
  | zero => exact absurd (Nat.zero_mod _) h0
  | succ n => exact (if_neg h0).trans rfl

theorem accAt10_congr (c : Dev nD) {n n' : ℕ} (h : n = n') (hn : n < cfg10.N) (hn' : n' < cfg10.N) :
    accAt10 V c n hn = accAt10 V c n' hn' := by subst h; rfl

def Φ10 (c : Dev nD) (t : Fin (cfg10.N + 1)) : sProp 𝕄 :=
  iprop((∃ X : Vec F S2048x1024 .f32, ⌜∀ h : 0 < t.val, X = accAt10 V c (t.val - 1) (by have := t.isLt; omega)⌝
        ∗ owns (c : Thread nD τ) (Memref.whole cc10_scratch0 : Memref sig .tc .vmem S2048x1024 .f32) fullShare X)
    ∗ Pipeline.scopedRestBut (Ix := Unit) (Name := ℕ) (U := UR sig nD τ) (Lvl := ℕ) (Val := Elt F) spec10 c [cc10_scratch0]
    ∗ ∃ r, prngReg c r)

def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => out2_3 (accAt10 V c t.val t.isLt) (iblk10 V c 2 t)
  Φ t := Φ10 V c t
  q _ := fullShare
  owed _ := 0

theorem A_eq10 (c : Dev nD) (w : Fin cfg10.W) : (dat10 V c).A w = V c (Pipeline.arrRef spec10 w) := by
  dsimp only [dat10]

theorem Φ_eq10 (c : Dev nD) (t : Fin (cfg10.N + 1)) : (dat10 V c).Φ t = Φ10 V c t := by dsimp only [dat10]

theorem after10_0 (c : Dev nD) (t : Fin cfg10.N) : (dat10 V c).after 0 t = iblk10 V c 0 t := by dsimp only [dat10]

theorem after10_1 (c : Dev nD) (t : Fin cfg10.N) : (dat10 V c).after 1 t = iblk10 V c 1 t := by dsimp only [dat10]

theorem after10_2 (c : Dev nD) (t : Fin cfg10.N) : (dat10 V c).after 2 t = iblk10 V c 2 t := by dsimp only [dat10]

theorem after10_3 (c : Dev nD) (t : Fin cfg10.N) :
    (dat10 V c).after 3 t = out2_3 (accAt10 V c t.val t.isLt) (iblk10 V c 2 t) := by dsimp only [dat10]

theorem before10_0 (c : Dev nD) (t : Fin cfg10.N) (d) : (dat10 V c).before 0 t d = iblk10 V c 0 t :=
  ((dat10 V c).before_in_eq_fetched 0 rfl (fun _ => rfl) (fun _ _ _ => rfl) (fun _ => rfl) t d).trans rfl
theorem before10_1 (c : Dev nD) (t : Fin cfg10.N) (d) : (dat10 V c).before 1 t d = iblk10 V c 1 t :=
  ((dat10 V c).before_in_eq_fetched 1 rfl (fun _ => rfl) (fun _ _ _ => rfl) (fun _ => rfl) t d).trans rfl
theorem before10_2 (c : Dev nD) (t : Fin cfg10.N) (d) : (dat10 V c).before 2 t d = iblk10 V c 2 t :=
  ((dat10 V c).before_in_eq_fetched 2 rfl (fun _ => rfl) (fun _ _ _ => rfl) (fun _ => rfl) t d).trans rfl

def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d))
    ∗ (∃ d, owns (c : Thread nD τ) (st10_3 t) fullShare ((dat10 V c).before 3 t d)))

def bodyPost10 (c : Dev nD) (t : Fin cfg10.N) : sProp 𝕄 :=
  iprop((dat10 V c).Φ t.succ ∗ (dat10 V c).owesAt () t.succ
    ∗ owns (c : Thread nD τ) (st10_0 t) fullShare ((dat10 V c).after 0 t)
    ∗ owns (c : Thread nD τ) (st10_1 t) fullShare ((dat10 V c).after 1 t)
    ∗ owns (c : Thread nD τ) (st10_2 t) fullShare ((dat10 V c).after 2 t)
    ∗ (dat10 V c).leavesExact 3 t)

set_option maxHeartbeats 1000000 in
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  rw [kernel10_eq]
  simp only [before10_0, before10_1, before10_2]
  rw [show (dat10 V c).owesAt () t.succ = (dat10 V c).owesAt () t.castSucc from rfl,
    after10_0, after10_1, after10_2, Φ_eq10, Φ_eq10]
  have hN : t.val < 16 := lt_of_lt_of_eq t.isLt (show cfg10.N = 16 from N_10)
  have hsucc : ∀ h, accAt10 V c (t.succ.val - 1) h = accAt10 V c t.val t.isLt := fun h =>
    accAt10_congr V c (by rw [Fin.val_succ]; omega) _ _
  unfold Φ10
  by_cases h7 : t.val % 8 = 7
  · have h0 : ¬t.val % 8 = 0 := by omega
    have hi : cfg10.idle 3 (cfg10.grid.coords t) = false := by
      rw [← Bool.not_eq_true]; exact fun h => (hidle10_3 t).mp h h7
    rw [show (dat10 V c).leavesExact 3 t = owns (c : Thread nD τ) (st10_3 t) fullShare ((dat10 V c).after 3 t) from by
      unfold Dat.leavesExact; rw [hi]]
    rw [after10_3, accAt10_B V c t h0]
    iintro ⟨⟨⟨%X, %hX, Hs⟩, Hrest, Hprng⟩, Ho, ⟨%d0, H0⟩, ⟨%d1, H1⟩, ⟨%d2, H2⟩, ⟨%d3, H3⟩⟩
    obtain rfl := hX (by rw [Fin.coe_castSucc]; omega)
    iapply (sound_kernel2_C c Set.univ (grid10.coords t) _ _ _ _ _ _ _ _ _ _ (fun h => h0 ((hcond10_0 t).mp h)) ((hcond10_1 t).mpr h7)
      (iblk10 V c 0 t) (iblk10 V c 1 t) (iblk10 V c 2 t) _ _)
    iframe H0 H1 H2 Hs
    isplitl [H3]; · iexists _; iexact H3
    iintro ⟨H0, H1, H2, H3, Hs⟩
    iframe Hrest Hprng Ho H0 H1 H2
    isplitl [Hs]
    · iexists _; isplitr
      swap; · iexact Hs
      ipureintro; intro h; rw [hsucc, accAt10_B V c t h0]; rfl
    iexact H3
  · have hi : cfg10.idle 3 (cfg10.grid.coords t) = true := (hidle10_3 t).mpr h7
    have hf : (cfg10.win 3).flush t = false := by
      rw [← Bool.not_eq_true]; exact fun h => h7 ((flush10_3 t).mp h)
    rw [(dat10 V c).leavesExact_idle 3 t hi hf]
    by_cases h0 : t.val % 8 = 0
    · iintro ⟨⟨⟨%X, %hX, Hs⟩, Hrest, Hprng⟩, Ho, ⟨%d0, H0⟩, ⟨%d1, H1⟩, ⟨%d2, H2⟩, ⟨%d3, H3⟩⟩
      iapply (sound_kernel2_A c Set.univ (grid10.coords t) _ _ _ _ _ _ _ _ _ _ ((hcond10_0 t).mpr h0) (fun h => h7 ((hcond10_1 t).mp h))
        (iblk10 V c 0 t) (iblk10 V c 1 t) (iblk10 V c 2 t) _ _)
      iframe H0 H1 H2 H3
      isplitl [Hs]; · iexists _; iexact Hs
      iintro ⟨H0, H1, H2, H3, Hs⟩
      iframe Hrest Hprng Ho H0 H1 H2
      isplitl [Hs]
      · iexists _; isplitr
        swap; · iexact Hs
        ipureintro; intro h; rw [hsucc, accAt10_A V c t h0]
      iexists _; iexact H3
    · iintro ⟨⟨⟨%X, %hX, Hs⟩, Hrest, Hprng⟩, Ho, ⟨%d0, H0⟩, ⟨%d1, H1⟩, ⟨%d2, H2⟩, ⟨%d3, H3⟩⟩
      obtain rfl := hX (by rw [Fin.coe_castSucc]; omega)
      iapply (sound_kernel2_B c Set.univ (grid10.coords t) _ _ _ _ _ _ _ _ _ _ (fun h => h0 ((hcond10_0 t).mp h)) (fun h => h7 ((hcond10_1 t).mp h))
        (iblk10 V c 0 t) (iblk10 V c 1 t) (iblk10 V c 2 t) _ _ _)
      iframe H0 H1 H2 H3 Hs
      iintro ⟨H0, H1, H2, H3, Hs⟩
      iframe Hrest Hprng Ho H0 H1 H2
      isplitl [Hs]
      · iexists _; isplitr
        swap; · iexact Hs
        ipureintro; intro h; rw [hsucc, accAt10_B V c t h0]; rfl
      iexists _; iexact H3

theorem body_obligation10 (c : Dev nD) : BodyObligation (dat10 (F := F) V c) (defs₀ (F := F)) Variants.none () Set.univ := fun t => by
  rw [bigSep_W10, bigSep_W10]
  exact sound_body10 V c t

theorem Φ_in10 (c : Dev nD) :
    iprop((∃ r, prngReg c r) ∗ Pipeline.scopedRest (Ix := Unit) (Name := ℕ) (U := UR sig nD τ) (Lvl := ℕ) (Val := Elt F) spec10 c)
      ⊢ (dat10 V c).Φ 0 := by
  rw [Φ_eq10, scopedRest10_split]; unfold Φ10
  simp only [owns_whole]
  iintro ⟨Hprng, ⟨%f, Hs⟩, Hrest⟩
  isplitl [Hs]
  · iexists f; isplitr
    · ipureintro; intro h; exact absurd h (Nat.lt_irrefl 0)
    iexact Hs
  isplitl [Hrest]; · iexact Hrest
  iexact Hprng

theorem Φ_out10 (c : Dev nD) :
    (dat10 V c).Φ (Fin.last cfg10.N)
      ⊢ iprop((∃ r, prngReg c r) ∗ Pipeline.scopedRest (Ix := Unit) (Name := ℕ) (U := UR sig nD τ) (Lvl := ℕ) (Val := Elt F) spec10 c) := by
  rw [Φ_eq10, scopedRest10_split]; unfold Φ10
  simp only [owns_whole]
  iintro ⟨⟨%X, -, Hs⟩, Hrest, Hprng⟩
  isplitl [Hprng]; · iexact Hprng
  isplitl [Hs]
  · iexists X; iexact Hs
  iexact Hrest

end Cert.Kernel.Hand

end
-- ==== Proof.KReg11.lean ====
import proofs.«415769_j962072674785_2_alg».proof.Proof.KReg3

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region11

variable (V : (c : Dev nD) → (b : Ref sig .tc) → Buf (Elt F) ((c : Thread nD τ).loc b))

def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-- This region and region 3 launch one kernel function: the two definitions have the same body. -/
theorem cc11_eq3 : cc11__row_affine_kernel (F := F) = cc3__row_affine_kernel (F := F) := rfl

def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => iblk11 V c 3 t
    | ⟨4, _⟩ => iblk11 V c 4 t
    | ⟨5, _⟩ => out3_5 (iblk11 V c 0 t) (iblk11 V c 1 t) (iblk11 V c 2 t) (iblk11 V c 3 t) (iblk11 V c 4 t)
  Φ _ := Pipeline.ΦA spec11 c
  q _ := fullShare
  owed _ := 0

theorem A_eq11 (c : Dev nD) (w : Fin cfg11.W) : (dat11 V c).A w = V c (Pipeline.arrRef spec11 w) := by
  dsimp only [dat11]

theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = iblk11 V c 2 t := by dsimp only [dat11]
theorem after11_3 (c : Dev nD) (t : Fin cfg11.N) : (dat11 V c).after 3 t = iblk11 V c 3 t := by dsimp only [dat11]
theorem after11_4 (c : Dev nD) (t : Fin cfg11.N) : (dat11 V c).after 4 t = iblk11 V c 4 t := by dsimp only [dat11]
theorem after11_5 (c : Dev nD) (t : Fin cfg11.N) : (dat11 V c).after 5 t
    = out3_5 (iblk11 V c 0 t) (iblk11 V c 1 t) (iblk11 V c 2 t) (iblk11 V c 3 t) (iblk11 V c 4 t) := by dsimp only [dat11]

/-- The body leaves each input's block in place, so its buffer holds the block at every point. -/
theorem before11_0 (c : Dev nD) (t : Fin cfg11.N) (d) : (dat11 V c).before 0 t d = iblk11 V c 0 t :=
  (dat11 V c).before_in_eq_fetched 0 rfl (fun _ => rfl) (fun _ _ _ => rfl) (fun _ => rfl) t d
theorem before11_1 (c : Dev nD) (t : Fin cfg11.N) (d) : (dat11 V c).before 1 t d = iblk11 V c 1 t :=
  (dat11 V c).before_in_eq_fetched 1 rfl (fun _ => rfl) (fun _ _ _ => rfl) (fun _ => rfl) t d
theorem before11_2 (c : Dev nD) (t : Fin cfg11.N) (d) : (dat11 V c).before 2 t d = iblk11 V c 2 t :=
  (dat11 V c).before_in_eq_fetched 2 rfl (fun _ => rfl) (fun _ _ _ => rfl) (fun _ => rfl) t d
theorem before11_3 (c : Dev nD) (t : Fin cfg11.N) (d) : (dat11 V c).before 3 t d = iblk11 V c 3 t :=
  (dat11 V c).before_in_eq_fetched 3 rfl (fun _ => rfl) (fun _ _ _ => rfl) (fun _ => rfl) t d
theorem before11_4 (c : Dev nD) (t : Fin cfg11.N) (d) : (dat11 V c).before 4 t d = iblk11 V c 4 t :=
  (dat11 V c).before_in_eq_fetched 4 rfl (fun _ => rfl) (fun _ _ _ => rfl) (fun _ => rfl) t d

/-- The inputs' buffers hold their blocks, so region 3's triple of the kernel body applies. -/
theorem body_obligation11 (c : Dev nD) : BodyObligation (dat11 (F := F) V c) (defs₀ (F := F)) Variants.none () Set.univ := fun t => by
  rw [bigSep_W11, bigSep_W11]
  simp only [before11_0, before11_1, before11_2, before11_3, before11_4]
  show _ ⊢ wp frame _ _ (bodyAt11 t) _
  unfold bodyAt11
  rw [cc11_eq3, show (dat11 V c).Φ t.succ = (dat11 V c).Φ t.castSucc from rfl,
    show (dat11 V c).owesAt () t.succ = (dat11 V c).owesAt () t.castSucc from rfl,
    after11_0, after11_1, after11_2, after11_3, after11_4, after11_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ)
  iframe H0 H1 H2 H3 H4
  isplitl [H5]; · iexists _; iexact H5
  iintro ⟨H0, H1, H2, H3, H4, H5⟩
  iframe

end Region11

end Cert.Kernel.Hand

end
-- ==== Proof.KRun.lean ====
import proofs.«415769_j962072674785_2_alg».proof.Proof.Gen.Kernel.Regions
import proofs.«415769_j962072674785_2_alg».proof.Proof.Gen.Kernel.Skeleton
import proofs.«415769_j962072674785_2_alg».proof.Proof.KReg0
import proofs.«415769_j962072674785_2_alg».proof.Proof.KReg1
import proofs.«415769_j962072674785_2_alg».proof.Proof.KReg2
import proofs.«415769_j962072674785_2_alg».proof.Proof.KReg3
import proofs.«415769_j962072674785_2_alg».proof.Proof.KReg4
import proofs.«415769_j962072674785_2_alg».proof.Proof.KReg5
import proofs.«415769_j962072674785_2_alg».proof.Proof.KReg6
import proofs.«415769_j962072674785_2_alg».proof.Proof.KReg7
import proofs.«415769_j962072674785_2_alg».proof.Proof.KReg8
import proofs.«415769_j962072674785_2_alg».proof.Proof.KReg9
import proofs.«415769_j962072674785_2_alg».proof.Proof.KReg10
import proofs.«415769_j962072674785_2_alg».proof.Proof.KReg11
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)

abbrev atTc (W : Dev nD → Valuation τ sig (Elt F)) : (c : Dev nD) → (b : Ref sig .tc) → Buf (Elt F) ((c : Thread nD τ).loc b) :=
  fun c b => W c b

theorem ΦA_in {gr W : Nat} (win : Fin W → Pipeline.WinSpec sig gr) (c : Dev nD) :
    iprop((∃ r, prngReg c r) ∗ Pipeline.scopedRest (Ix := Unit) (Name := ℕ) (U := UR sig nD τ) (Lvl := ℕ) (Val := Elt F) win c)
      ⊢ (Pipeline.ΦA win c : sProp 𝕄) := by
  unfold Pipeline.ΦA
  iintro ⟨Hp, Hr⟩
  isplitl [Hr]; · iexact Hr
  iexact Hp
theorem ΦA_out {gr W : Nat} (win : Fin W → Pipeline.WinSpec sig gr) (c : Dev nD) :
    (Pipeline.ΦA win c : sProp 𝕄)
      ⊢ iprop((∃ r, prngReg c r) ∗ Pipeline.scopedRest (Ix := Unit) (Name := ℕ) (U := UR sig nD τ) (Lvl := ℕ) (Val := Elt F) win c) := by
  unfold Pipeline.ΦA
  iintro ⟨Hr, Hp⟩
  isplitl [Hp]; · iexact Hp
  iexact Hr

section Generic

variable (p : Fin 12) (d : (c : Dev nD) → Dat τ (Elt F) Unit ℕ (UR sig nD τ) ℕ (Pipeline.pin (pcfgs (F := F)) adm p) c)
  (W : Dev nD → Valuation τ sig (Elt F))

/-- What a host stretch makes of the valuation `W`. -/
abbrev hostW (ops : List (HloOp τ sig (Elt F))) : Dev nD → Valuation τ sig (Elt F) := fun c => StableHlo.after ops (W c)

/-- Region `p`'s exit valuation from the entry valuation `W`: each array of the region at its final contents, all else as in `W`. -/
def regW (c : Dev nD) : Valuation τ sig (Elt F) :=
  Pipeline.withArrays (cfgs p).spec c (W c) fun w => (d c).arrAt w (cfgs p).N

variable {p}

theorem regW_arr (hl : Pipeline.LaunchFacts (nD := nD) (τ := τ) cfgs p) (c : Dev nD) (w : Fin (cfgs p).W) :
    regW p d W c (Proc.devRef .tc (Pipeline.arrRef (cfgs p).spec w)) = (d c).arrAt w (cfgs p).N :=
  Pipeline.withArrays_arr _ hl.win.arr_inj c _ _ w

theorem regW_of_ne (c : Dev nD) (b : Ref sig .tc) (hb : ∀ w, Pipeline.arrRef (cfgs p).spec w ≠ b) :
    regW p d W c (Proc.devRef .tc b) = W c (Proc.devRef .tc b) :=
  Pipeline.withArrays_of_ne _ c _ _ b hb

/-- A host stretch and the region after it leave alone a buffer the stretch does not write and the region has not as an array. -/
theorem regW_hostW_of {ops : List (HloOp τ sig (Elt F))} {Wl : List (Ref sig .tc)}
    (hW : ops.Forall fun op => op.writes ⊆ (Wl.map (Proc.devRef (τ := τ) .tc)).toFinset) (c : Dev nD) (r : Ref sig .tc)
    (h : r ∉ Wl ∧ ∀ w, Pipeline.arrRef (cfgs p).spec w ≠ r) :
    regW p d (hostW W ops) c (Proc.devRef .tc r) = W c (Proc.devRef .tc r) :=
  (regW_of_ne d _ c r h.2).trans (StableHlo.after_of_writes_sub ops _ hW h.1)

end Generic

section Generic

variable (pd : (p : Fin 12) → (c : Dev nD) → Dat τ (Elt F) Unit ℕ (UR sig nD τ) ℕ (Pipeline.pin (pcfgs (F := F)) adm p) c)

set_option backward.isDefEq.respectTransparency.types false in
/-- Region `p` as a segment from `Wi` to `regW p (pd p) Wi`: entry splits the region's arrays off `Wi`, exit joins their final contents back. -/
def regOf (p : Fin 12) (hl : Pipeline.LaunchFacts (nD := nD) (τ := τ) cfgs p)
    (Wi : Dev nD → Valuation τ sig (Elt F))
    (hbody : ∀ c, BodyObligation (pd p c) (defs₀ (F := F)) Variants.none () Set.univ)
    (hA : ∀ c w, (pd p c).A w = atTc Wi c (Pipeline.arrRef (cfgs p).spec w))
    (hΦin : ∀ c, iprop((∃ r, prngReg c r) ∗ Pipeline.scopedRest (Ix := Unit) (Name := ℕ) (U := UR sig nD τ) (Lvl := ℕ) (Val := Elt F) (cfgs p).spec c)
      ⊢ (pd p c).Φ 0)
    (hΦout : ∀ c, (pd p c).Φ (Fin.last (cfgs p).N)
      ⊢ iprop((∃ r, prngReg c r) ∗ Pipeline.scopedRest (Ix := Unit) (Name := ℕ) (U := UR sig nD τ) (Lvl := ℕ) (Val := Elt F) (cfgs p).spec c))
    (hq : ∀ c w, (pd p c).q w = fullShare := by exact fun _ _ => rfl)
    (howed : ∀ c t, (pd p c).owed t = 0 := by exact fun _ _ => rfl)
    (hrec : ∀ c, (pd p c).recorded 0 = Set.univ := by exact fun _ => rfl) :
    Pipeline.RegionSeg (pcfgs (F := F)) adm pd () defs₀ 𝒱₀ L lv p where
  win := hl.win.to₀
  block_pos := hl.block_pos
  stage_whole := hl.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (Wi c) ∗ R c)
  post c := iprop(StableHlo.held (c : Thread nD τ) (Pipeline.ucRefs τ sig) (regW p (pd p) Wi c) ∗ R c)
  X c := iprop(∃ r, prngReg c r)
  Y c := iprop(∃ r, prngReg c r)
  Z c := Pipeline.unscopedRest (Ix := Unit) (Name := ℕ) (U := UR sig nD τ) (Lvl := ℕ) (cfgs p).spec c (atTc Wi c)
  hentry c := by
    rw [Pipeline.ownSems0_none]
    have hsplit := Pipeline.arrays_of_unscopedBufs (p := p) (pcfgs (F := F)) adm pd hl.win hl.arr_whole c
      ((pd p c).share_full (hq c)) (atTc Wi c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c 0]
      icases HO with ⟨%W, HO⟩; iexists W; isplitr; · ipureintro; exact fun x _ => Or.inl (by rw [hrec c]; exact Set.mem_univ x)
      iexact HO
    isplitl [Hp]; · iexact Hp
    iexact Hrest
  hin c := by
    iintro ⟨Hp, -, Hr⟩
    iapply hΦin c
    isplitl [Hp]; · iexact Hp
    iexact Hr
  hout c := by
    rw [Pipeline.ownSems0_none]
    refine (hΦout c).trans ?_
    iintro ⟨Hp, Hr⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      hl.win hl.arr_whole c pd ((pd p c).share_full (hq c))
      (atTc Wi c) (atTc (regW p (pd p) Wi) c) ((pd p c).arrAt · (cfgs p).N) (fun w => (regW_arr (pd p) Wi hl c w).symm)
      fun b hb => regW_of_ne (pd p) Wi c b fun w e => hb (Finset.mem_image.mpr ⟨w, Finset.mem_univ _, e⟩)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c (Fin.last _)]
    icases HO with ⟨%W, -, HO⟩; iexists W; iexact HO

end Generic

abbrev W0 (m : (ℓ : Loc nD τ sig) → Buf (Elt F) ℓ) (ρ : Dev nD → PrngReg) : Dev nD → Valuation τ sig (Elt F) :=
  fun c b => m ((c : Dev nD), b)

abbrev W1 := hostW (W0 m ρ) hostOps0
def W2 := regW 0 (dat0 (atTc (W1 m ρ))) (W1 m ρ)
abbrev W3 := hostW (W2 m ρ) hostOps1
def W4 := regW 1 (dat1 (atTc (W3 m ρ))) (W3 m ρ)
abbrev W5 := hostW (W4 m ρ) hostOps2
def W6 := regW 2 (dat2 (atTc (W5 m ρ))) (W5 m ρ)
abbrev W7 := hostW (W6 m ρ) hostOps3
def W8 := regW 3 (dat3 (atTc (W7 m ρ))) (W7 m ρ)
abbrev W9 := hostW (W8 m ρ) hostOps4
def W10 := regW 4 (dat4 (atTc (W9 m ρ))) (W9 m ρ)
abbrev W11 := hostW (W10 m ρ) hostOps5
def W12 := regW 5 (dat5 (atTc (W11 m ρ))) (W11 m ρ)
abbrev W13 := hostW (W12 m ρ) hostOps6
def W14 := regW 6 (dat6 (atTc (W13 m ρ))) (W13 m ρ)
abbrev W15 := hostW (W14 m ρ) hostOps7
def W16 := regW 7 (dat7 (atTc (W15 m ρ))) (W15 m ρ)
abbrev W17 := hostW (W16 m ρ) hostOps8
def W18 := regW 8 (dat8 (atTc (W17 m ρ))) (W17 m ρ)
abbrev W19 := hostW (W18 m ρ) hostOps9
def W20 := regW 9 (dat9 (atTc (W19 m ρ))) (W19 m ρ)
abbrev W21 := hostW (W20 m ρ) hostOps10
def W22 := regW 10 (dat10 (atTc (W21 m ρ))) (W21 m ρ)
abbrev W23 := hostW (W22 m ρ) hostOps11
def W24 := regW 11 (dat11 (atTc (W23 m ρ))) (W23 m ρ)

/-- The references each host stretch may write. -/
abbrev opsW : Fin 12 → List (Ref sig .tc) :=
  ![hostOps0_W, hostOps1_W, hostOps2_W, hostOps3_W, hostOps4_W, hostOps5_W, hostOps6_W, hostOps7_W, hostOps8_W, hostOps9_W, hostOps10_W, hostOps11_W]

/-- A buffer that no host stretch writes and no region has as an array ends as launched. -/
theorem W24_launched (c : Dev nD) (r : Ref sig .tc) (h : ∀ p, r ∉ opsW p ∧ ∀ w, Pipeline.arrRef (cfgs p).spec w ≠ r) :
    W24 m ρ c (Proc.devRef .tc r) = m ((c : Thread nD τ).loc r) :=
  (regW_hostW_of _ _ hostOps11_writes c r (h 11)).trans <|
  (regW_hostW_of _ _ hostOps10_writes c r (h 10)).trans <|
  (regW_hostW_of _ _ hostOps9_writes c r (h 9)).trans <|
  (regW_hostW_of _ _ hostOps8_writes c r (h 8)).trans <|
  (regW_hostW_of _ _ hostOps7_writes c r (h 7)).trans <|
  (regW_hostW_of _ _ hostOps6_writes c r (h 6)).trans <|
  (regW_hostW_of _ _ hostOps5_writes c r (h 5)).trans <|
  (regW_hostW_of _ _ hostOps4_writes c r (h 4)).trans <|
  (regW_hostW_of _ _ hostOps3_writes c r (h 3)).trans <|
  (regW_hostW_of _ _ hostOps2_writes c r (h 2)).trans <|
  (regW_hostW_of _ _ hostOps1_writes c r (h 1)).trans <|
  regW_hostW_of _ _ hostOps0_writes c r (h 0)

theorem W24_main_arg0 (c : Dev nD) : W24 m ρ c (Proc.devRef .tc main_arg0) = m ((c : Thread nD τ).loc main_arg0) :=
  W24_launched m ρ c _ (by decide)
theorem W24_main_arg1 (c : Dev nD) : W24 m ρ c (Proc.devRef .tc main_arg1) = m ((c : Thread nD τ).loc main_arg1) :=
  W24_launched m ρ c _ (by decide)
theorem W24_main_arg2 (c : Dev nD) : W24 m ρ c (Proc.devRef .tc main_arg2) = m ((c : Thread nD τ).loc main_arg2) :=
  W24_launched m ρ c _ (by decide)
theorem W24_main_arg3 (c : Dev nD) : W24 m ρ c (Proc.devRef .tc main_arg3) = m ((c : Thread nD τ).loc main_arg3) :=
  W24_launched m ρ c _ (by decide)
theorem W24_main_arg4 (c : Dev nD) : W24 m ρ c (Proc.devRef .tc main_arg4) = m ((c : Thread nD τ).loc main_arg4) :=
  W24_launched m ρ c _ (by decide)
theorem W24_main_arg5 (c : Dev nD) : W24 m ρ c (Proc.devRef .tc main_arg5) = m ((c : Thread nD τ).loc main_arg5) :=
  W24_launched m ρ c _ (by decide)
theorem W24_main_arg6 (c : Dev nD) : W24 m ρ c (Proc.devRef .tc main_arg6) = m ((c : Thread nD τ).loc main_arg6) :=
  W24_launched m ρ c _ (by decide)
theorem W24_main_arg7 (c : Dev nD) : W24 m ρ c (Proc.devRef .tc main_arg7) = m ((c : Thread nD τ).loc main_arg7) :=
  W24_launched m ρ c _ (by decide)
theorem W24_main_arg8 (c : Dev nD) : W24 m ρ c (Proc.devRef .tc main_arg8) = m ((c : Thread nD τ).loc main_arg8) :=
  W24_launched m ρ c _ (by decide)

def pdats : (p : Fin 12) → (c : Dev nD) → Dat τ (Elt F) Unit ℕ (UR sig nD τ) ℕ (Pipeline.pin (pcfgs (F := F)) adm p) c
  | ⟨0, _⟩ => dat0 (atTc (W1 m ρ))
  | ⟨1, _⟩ => dat1 (atTc (W3 m ρ))
  | ⟨2, _⟩ => dat2 (atTc (W5 m ρ))
  | ⟨3, _⟩ => dat3 (atTc (W7 m ρ))
  | ⟨4, _⟩ => dat4 (atTc (W9 m ρ))
  | ⟨5, _⟩ => dat5 (atTc (W11 m ρ))
  | ⟨6, _⟩ => dat6 (atTc (W13 m ρ))
  | ⟨7, _⟩ => dat7 (atTc (W15 m ρ))
  | ⟨8, _⟩ => dat8 (atTc (W17 m ρ))
  | ⟨9, _⟩ => dat9 (atTc (W19 m ρ))
  | ⟨10, _⟩ => dat10 (atTc (W21 m ρ))
  | ⟨11, _⟩ => dat11 (atTc (W23 m ρ))

/-- The host stretch `ops` as a segment from `W` to `hostW W ops`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W24 m ρ c) ∗ ∃ r, prngReg c r)

def reg0 := regOf (pdats m ρ) 0 launch0 (W1 m ρ) (body_obligation0 _) (A_eq0 _) (ΦA_in spec0) (ΦA_out spec0)
def reg1 := regOf (pdats m ρ) 1 launch1 (W3 m ρ) (body_obligation1 _) (A_eq1 _) (ΦA_in spec1) (ΦA_out spec1)
def reg2 := regOf (pdats m ρ) 2 launch2 (W5 m ρ) (body_obligation2 _) (A_eq2 _) (Φ_in2 _) (Φ_out2 _)
def reg3 := regOf (pdats m ρ) 3 launch3 (W7 m ρ) (body_obligation3 _) (A_eq3 _) (ΦA_in spec3) (ΦA_out spec3)
def reg4 := regOf (pdats m ρ) 4 launch4 (W9 m ρ) (body_obligation4 _) (A_eq4 _) (ΦA_in spec4) (ΦA_out spec4)
def reg5 := regOf (pdats m ρ) 5 launch5 (W11 m ρ) (body_obligation5 _) (A_eq5 _) (ΦA_in spec5) (ΦA_out spec5)
def reg6 := regOf (pdats m ρ) 6 launch6 (W13 m ρ) (body_obligation6 _) (A_eq6 _) (Φ_in6 _) (Φ_out6 _)
def reg7 := regOf (pdats m ρ) 7 launch7 (W15 m ρ) (body_obligation7 _) (A_eq7 _) (ΦA_in spec7) (ΦA_out spec7)
def reg8 := regOf (pdats m ρ) 8 launch8 (W17 m ρ) (body_obligation8 _) (A_eq8 _) (ΦA_in spec8) (ΦA_out spec8)
def reg9 := regOf (pdats m ρ) 9 launch9 (W19 m ρ) (body_obligation9 _) (A_eq9 _) (ΦA_in spec9) (ΦA_out spec9)
def reg10 := regOf (pdats m ρ) 10 launch10 (W21 m ρ) (body_obligation10 _) (A_eq10 _) (Φ_in10 _) (Φ_out10 _)
def reg11 := regOf (pdats m ρ) 11 launch11 (W23 m ρ) (body_obligation11 _) (A_eq11 _) (ΦA_in spec11) (ΦA_out spec11)

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)),
    .region (reg5 m ρ),
    .host (hseg hostOps6 hostOps6_sub hostOps6_fresh (W12 m ρ)),
    .region (reg6 m ρ),
    .host (hseg hostOps7 hostOps7_sub hostOps7_fresh (W14 m ρ)),
    .region (reg7 m ρ),
    .host (hseg hostOps8 hostOps8_sub hostOps8_fresh (W16 m ρ)),
    .region (reg8 m ρ),
    .host (hseg hostOps9 hostOps9_sub hostOps9_fresh (W18 m ρ)),
    .region (reg9 m ρ),
    .host (hseg hostOps10 hostOps10_sub hostOps10_fresh (W20 m ρ)),
    .region (reg10 m ρ),
    .host (hseg hostOps11 hostOps11_sub hostOps11_fresh (W22 m ρ)),
    .region (reg11 m ρ) ]
theorem main_run (c : Dev nD) : main (F := F) c = Pipeline.Seg.run (segs m ρ) := (main_chain c).trans (by chain_rfl)

set_option backward.isDefEq.respectTransparency.types false in
theorem run_of {Q : PUnit × MemSt nD τ sig (Elt F) → Prop}
    (hQ : ∀ s : MemSt nD τ sig (Elt F),
      (∀ c : Dev nD, ∀ b ∈ Pipeline.ucRefs τ sig, s.mem (((c : Thread nD τ)).1, b) = W24 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (W24 m ρ c) ∗ R c)
          ⊢ iprop(Tₙ m ρ c ∗ ∃ W, owes (c : Thread nD τ) (0 : CellTallies nD τ sig Unit) W)
        iintro ⟨Hh, Hp, HO⟩
        isplitl [Hh Hp]
        · isplitl [Hh] <;> iassumption
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W24 m ρ c b)
    (hfin := fun c s' => by
      iintro ⟨⟨Hh, -⟩, HSI⟩
      unfold StableHlo.held
      imodintro
      iapply (pointsTo_read_all (Pipeline.ucRefs τ sig) (fun b => (((c : Thread nD τ)).1, b)) (W24 m ρ c) s')
      isplitl [Hh] <;> iassumption)
    (hQ := hQ)

theorem run : θ_run defs (onTc (τ := τ) (main (F := F))) ⟨m, fun _ => 0, ρ⟩
    (fun r => ∀ c : Dev nD, ∀ b ∈ Pipeline.ucRefs τ sig, r.2.mem (((c : Thread nD τ)).1, b) = W24 m ρ c b) :=
  run_of m ρ fun _ h => h

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  run_of m ρ fun s h c =>
    ⟨(h c _ (mem_uc main_arg0 (by decide))).trans (W24_main_arg0 m ρ c),
     (h c _ (mem_uc main_arg1 (by decide))).trans (W24_main_arg1 m ρ c),
     (h c _ (mem_uc main_arg2 (by decide))).trans (W24_main_arg2 m ρ c),
     (h c _ (mem_uc main_arg3 (by decide))).trans (W24_main_arg3 m ρ c),
     (h c _ (mem_uc main_arg4 (by decide))).trans (W24_main_arg4 m ρ c),
     (h c _ (mem_uc main_arg5 (by decide))).trans (W24_main_arg5 m ρ c),
     (h c _ (mem_uc main_arg6 (by decide))).trans (W24_main_arg6 m ρ c),
     (h c _ (mem_uc main_arg7 (by decide))).trans (W24_main_arg7 m ρ c),
     (h c _ (mem_uc main_arg8 (by decide))).trans (W24_main_arg8 m ρ c)⟩

/-- info: 'Cert.Kernel.Hand.frame' depends on axioms: [propext, Classical.choice, Quot.sound] -/
#guard_msgs in #print axioms frame

end Cert.Kernel.Hand

end
-- ==== Proof.KIReg0.lean ====
import proofs.«415769_j962072674785_2_alg».proof.Proof.Gen.KernelIdeal.Launch
import proofs.«415769_j962072674785_2_alg».proof.Proof.Gen.KernelIdeal.Skeleton
import proofs.«415769_j962072674785_2_alg».proof.Proof.Gen.KernelIdeal.Points
import Idealize.ShloMosaic.Lib.Pipeline.FrameBody
import Idealize.ShloMosaic.Lib.Pipeline.RegionsLoop
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev r0_0 : Rect S512x1024 := Rect.unit (s := S512x1024) ![0, 0] S512x1024.size inb_S512x1024_S512x1024_0_0
abbrev r0_1 : Rect S1024x1024 := Rect.unit (s := S1024x1024) ![0, 0] S1024x1024.size inb_S1024x1024_S1024x1024_0_0
abbrev r0_2 : Rect S1x1024 := Rect.unit (s := S1x1024) ![0, 0] S1x1024.size inb_S1x1024_S1x1024_0_0

def out0_3 (x0 : Vec F S512x1024 .bf16) (x1 : Vec F S1024x1024 .bf16) (x2 : Vec F S1x1024 .f32) : Vec F S512x1024 .bf16 :=
  View.canon [⟨r0_0, k0_pay1 (View.ld x0 r0_0) (View.ld x1 r0_1) (View.ld x2 r0_2)⟩]

theorem cover0_3 (p0 : Vec F S512x1024 .bf16) (y : S512x1024.Idx) :
    ∃ pc ∈ ([⟨r0_0, p0⟩] : List (View.Piece (Elt F) S512x1024 .bf16)), y ∈ pc.1.set :=
  View.cover_of_tiled [⟨r0_0, p0⟩] S512x1024.size (by rfl) y

set_option maxHeartbeats 1000000 in
theorem sound_kernel0 (c : Dev nD) (E : Set ℕ) (i : grid0.Coords) (arg1 : Memref sig .tc .vmem S512x1024 .bf16) (harg1 : arg1.IsWhole) (arg2 : Memref sig .tc .vmem S1024x1024 .bf16) (harg2 : arg2.IsWhole) (arg3 : Memref sig .tc .vmem S1x1024 .f32) (harg3 : arg3.IsWhole) (arg4 : Memref sig .tc .vmem S512x1024 .bf16) (harg4 : arg4.IsWhole)
    (x0 : Vec F S512x1024 .bf16) (x1 : Vec F S1024x1024 .bf16) (x2 : Vec F S1x1024 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__col_agg_kernel i arg1 harg1 arg2 harg2 arg3 harg3 arg4 harg4) K := by
  simp only [cc0__col_agg_kernel_eq_skeleton]; unfold cc0__col_agg_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- Any function equal to region 0's body, between resources `P ∗ Q` it does not read: the inputs stay and the output ends at `out0_3` of them. -/
theorem colAgg_body {k} (hk : k = cc0__col_agg_kernel (F := F)) (c : Dev nD) (i : grid0.Coords) (arg1 : Memref sig .tc .vmem S512x1024 .bf16) (harg1 : arg1.IsWhole) (arg2 : Memref sig .tc .vmem S1024x1024 .bf16) (harg2 : arg2.IsWhole) (arg3 : Memref sig .tc .vmem S1x1024 .f32) (harg3 : arg3.IsWhole) (arg4 : Memref sig .tc .vmem S512x1024 .bf16) (harg4 : arg4.IsWhole)
    (x0 : Vec F S512x1024 .bf16) (x1 : Vec F S1024x1024 .bf16) (x2 : Vec F S1x1024 .f32) {D0 D1 D2 D3 : Type} (b : D3 → Vec F S512x1024 .bf16) (P Q : sProp 𝕄) :
    iprop(P ∗ Q ∗ (∃ _ : D0, owns (c : Thread nD τ) arg1 fullShare x0) ∗ (∃ _ : D1, owns (c : Thread nD τ) arg2 fullShare x1) ∗ (∃ _ : D2, owns (c : Thread nD τ) arg3 fullShare x2) ∗ (∃ d, owns (c : Thread nD τ) arg4 fullShare (b d)))
      ⊢ wp frame (wpE (defs₀ (F := F)) Variants.none c none) Set.univ (k i arg1 harg1 arg2 harg2 arg3 harg3 arg4 harg4) (fun _ =>
        iprop(P ∗ Q ∗ owns (c : Thread nD τ) arg1 fullShare x0 ∗ owns (c : Thread nD τ) arg2 fullShare x1 ∗ owns (c : Thread nD τ) arg3 fullShare x2 ∗ owns (c : Thread nD τ) arg4 fullShare (out0_3 x0 x1 x2))) := by
  subst hk
  iintro ⟨HP, HQ, ⟨%d0, H0⟩, ⟨%d1, H1⟩, ⟨%d2, H2⟩, ⟨%d3, H3⟩⟩
  iapply (sound_kernel0 c Set.univ i arg1 harg1 arg2 harg2 arg3 harg3 arg4 harg4 x0 x1 x2 _)
  isplitl [H0]; · iexact H0
  isplitl [H1]; · iexact H1
  isplitl [H2]; · iexact H2
  isplitl [H3]; · iexists _; iexact H3
  iintro ⟨H0, H1, H2, H3⟩
  isplitl [HP]; · iexact HP
  isplitl [HQ]; · iexact HQ
  isplitl [H0]; · iexact H0
  isplitl [H1]; · iexact H1
  isplitl [H2]; · iexact H2
  iexact H3

section Region
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_3 (c : Dev nD) (t : Fin cfg0.N) :
    (dat0 V c).after 3 t = out0_3 (iblk0 V c 0 t) (iblk0 V c 1 t) (iblk0 V c 2 t) := by dsimp only [dat0]

/-- The body hands every input back as it found it, so what it finds there at any point is the array's block. -/
theorem before0_0 (c : Dev nD) (t : Fin cfg0.N) (d) : (dat0 V c).before 0 t d = iblk0 V c 0 t :=
  (dat0 V c).before_in_eq_fetched 0 rfl (fun _ => rfl) (fun _ _ _ => rfl) (fun _ => by dsimp only [dat0]; rfl) t d
theorem before0_1 (c : Dev nD) (t : Fin cfg0.N) (d) : (dat0 V c).before 1 t d = iblk0 V c 1 t :=
  (dat0 V c).before_in_eq_fetched 1 rfl (fun _ => rfl) (fun _ _ _ => rfl) (fun _ => by dsimp only [dat0]; rfl) t d
theorem before0_2 (c : Dev nD) (t : Fin cfg0.N) (d) : (dat0 V c).before 2 t d = iblk0 V c 2 t :=
  (dat0 V c).before_in_eq_fetched 2 rfl (fun _ => rfl) (fun _ _ _ => rfl) (fun _ => by dsimp only [dat0]; rfl) t d

theorem body_obligation0 (c : Dev nD) : BodyObligation (dat0 (F := F) V c) (defs₀ (F := F)) Variants.none () Set.univ := fun t => by
  rw [bigSep_W0, bigSep_W0]
  simp only [before0_0, before0_1, before0_2]
  dsimp only [dat0]
  exact colAgg_body rfl c (grid0.coords t) _ (hstage0_0 _) _ (hstage0_1 _) _ (hstage0_2 _) _ (hstage0_3 _) _ _ _ _ _ _

end Region

end Cert.KernelIdeal.Hand

end
-- ==== Proof.KIReg1.lean ====
import proofs.«415769_j962072674785_2_alg».proof.Proof.Gen.KernelIdeal.Launch
import proofs.«415769_j962072674785_2_alg».proof.Proof.Gen.KernelIdeal.Skeleton
import proofs.«415769_j962072674785_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off the array the region is entered with. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S4096x1024 := Rect.unit (s := S4096x1024) ![0, 0] S4096x1024.size inb_S4096x1024_S4096x1024_0_0
abbrev r1_2 : Rect S256x4096 := Rect.unit (s := S256x4096) ![0, 0] S256x4096.size inb_S256x4096_S256x4096_0_0
abbrev r1_4 : Rect S256x1 := Rect.unit (s := S256x1) ![0, 0] S256x1.size inb_S256x1_S256x1_0_0
abbrev r1_5 : Rect S256x1024 := Rect.unit (s := S256x1024) ![0, 0] S256x1024.size inb_S256x1024_S256x1024_0_0

/-- The output's buffer after the function, from the inputs' buffers: its one store's payload over the five loads. -/
def out1_5 (x0 x1 : Vec F S4096x1024 .bf16) (x2 x3 : Vec F S256x4096 .f32) (x4 : Vec F S256x1 .f32) : Vec F S256x1024 .f32 :=
  View.canon [⟨r1_5, k1_pay1 (View.ld x2 r1_2) (View.ld x3 r1_2) (View.ld x0 r1_0) (View.ld x1 r1_0) (View.ld x4 r1_4)⟩]

/-- The store's rectangle is the whole buffer. -/
theorem cover1_5 (p0 : Vec F S256x1024 .f32) (y : S256x1024.Idx) :
    ∃ pc ∈ ([⟨r1_5, p0⟩] : List (View.Piece (Elt F) S256x1024 .f32)), y ∈ pc.1.set :=
  View.cover_of_tiled [⟨r1_5, p0⟩] S256x1024.size (by rfl) y

set_option maxHeartbeats 1000000 in
/-- On whole buffers the function leaves the inputs as they were and the output at `out1_5` of them. -/
theorem sound_kernel1 (c : Dev nD) (E : Set ℕ) (i : grid1.Coords)
    (arg1 : Memref sig .tc .vmem S4096x1024 .bf16) (harg1 : arg1.IsWhole) (arg2 : Memref sig .tc .vmem S4096x1024 .bf16) (harg2 : arg2.IsWhole)
    (arg3 : Memref sig .tc .vmem S256x4096 .f32) (harg3 : arg3.IsWhole) (arg4 : Memref sig .tc .vmem S256x4096 .f32) (harg4 : arg4.IsWhole)
    (arg5 : Memref sig .tc .vmem S256x1 .f32) (harg5 : arg5.IsWhole) (arg6 : Memref sig .tc .vmem S256x1024 .f32) (harg6 : arg6.IsWhole)
    (x0 x1 : Vec F S4096x1024 .bf16) (x2 x3 : Vec F S256x4096 .f32) (x4 : Vec F S256x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1__col_affine_kernel i arg1 harg1 arg2 harg2 arg3 harg3 arg4 harg4 arg5 harg5 arg6 harg6) K := by
  simp only [cc1__col_affine_kernel_eq_skeleton]; unfold cc1__col_affine_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

/-- The output's buffer is left at the function's result on what is left in the inputs' buffers. -/
theorem after1_5 (c : Dev nD) (t : Fin cfg1.N) : (dat1 V c).after 5 t
    = out1_5 ((dat1 V c).after 0 t) ((dat1 V c).after 1 t) ((dat1 V c).after 2 t) ((dat1 V c).after 3 t) ((dat1 V c).after 4 t) := by
  dsimp only [dat1]

/-- The body writes no input, so an input's buffer holds the array's block at every point. -/
theorem before1 (c : Dev nD) (w : Fin cfg1.W) (hw : (cfg1.win w).isOut = false) (t : Fin cfg1.N) (d) :
    (dat1 V c).before w t d = (dat1 V c).after w t :=
  match w, hw with
  | ⟨0, _⟩, h | ⟨1, _⟩, h | ⟨2, _⟩, h | ⟨3, _⟩, h | ⟨4, _⟩, h =>
    (dat1 V c).before_in_eq_fetched _ h (fun _ => rfl) (fun _ _ _ => rfl) (fun _ => rfl) t d
  | ⟨5, _⟩, h => nomatch h

/-- The inputs' buffers hold their blocks, so the function's triple applies; the invariant and what the core owes pass through unread. -/
theorem body_obligation1 (c : Dev nD) : BodyObligation (dat1 (F := F) V c) (defs₀ (F := F)) Variants.none () Set.univ := fun t => by
  rw [bigSep_W1, bigSep_W1]
  simp only [before1 V c 0 rfl, before1 V c 1 rfl, before1 V c 2 rfl, before1 V c 3 rfl, before1 V c 4 rfl]
  rw [after1_5, show (dat1 V c).Φ t.succ = (dat1 V c).Φ t.castSucc from rfl,
    show (dat1 V c).owesAt () t.succ = (dat1 V c).owesAt () t.castSucc from rfl]
  show _ ⊢ wp frame _ _ (bodyAt1 t) _
  unfold bodyAt1
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ ((dat1 V c).after 0 t) ((dat1 V c).after 1 t) ((dat1 V c).after 2 t)
    ((dat1 V c).after 3 t) ((dat1 V c).after 4 t) _)
  iframe H0 H1 H2 H3 H4
  isplitl [H5]; · iexists _; iexact H5
  iintro H
  iframe

end Cert.KernelIdeal.Hand

end
-- ==== Proof.KIReg2.lean ====
import proofs.«415769_j962072674785_2_alg».proof.Proof.Gen.KernelIdeal.Launch
import proofs.«415769_j962072674785_2_alg».proof.Proof.Gen.KernelIdeal.Skeleton
import proofs.«415769_j962072674785_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev cond2_0 (i : grid2.Coords) : Prop := (Scalar.cmpi .ne (Scalar.extui (Scalar.cmpi .eq (BitVec.ofNat 32 (i 1).val) 0#32)) 0#32) = 1#1

theorem hcond2_0 : ∀ t : Fin cfg2.N, cond2_0 (grid2.coords t) ↔ t.val % 8 = 0 :=
  (by decide +kernel : ∀ t : Fin grid2.N, cond2_0 (grid2.coords t) ↔ t.val % 8 = 0)

abbrev cond2_1 (i : grid2.Coords) : Prop := k2_cond2 i = 1#1

theorem hcond2_1 : ∀ t : Fin cfg2.N, cond2_1 (grid2.coords t) ↔ t.val % 8 = 7 :=
  (by decide +kernel : ∀ t : Fin grid2.N, cond2_1 (grid2.coords t) ↔ t.val % 8 = 7)

theorem hidle2_3 : ∀ t : Fin cfg2.N, cfg2.idle 3 (cfg2.grid.coords t) = true ↔ ¬t.val % 8 = 7 :=
  (by decide +kernel : ∀ t : Fin grid2.N, idle2 3 (grid2.coords t) = true ↔ ¬t.val % 8 = 7)

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_2 : Rect S2048x1 := Rect.unit (s := S2048x1) ![0, 0] S2048x1.size inb_S2048x1_S2048x1_0_0

abbrev r2_3 : Rect S2048x1024 := Rect.unit (s := S2048x1024) ![0, 0] S2048x1024.size inb_S2048x1024_S2048x1024_0_0

theorem hz2 : (![0, 0] : Fin 2 → Nat) = fun _ => 0 := by funext a; fin_cases a <;> rfl

theorem read_writes_whole2 {Val : EltTy → Type} [∀ e, Nonempty (Val e)] {sg : RefSig} {κ : Kind} {sp : Space} {S : Shape} {e : EltTy}
    (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon _ _ _ (fun y => ⟨_, List.mem_cons_self, View.mem_set_unit_zero h inb y⟩), View.canon_cons_unit_zero h]

def out2_3 (a : Vec F S2048x1024 .f32) (x2 : Vec F S2048x1 .f32) : Vec F S2048x1024 .bf16 :=
  View.canon [⟨r2_3, k2_pay3 (View.ld a r2_3) (View.ld x2 r2_2)⟩]

theorem cover2_3 (p : Vec F S2048x1024 .bf16) (y : S2048x1024.Idx) :
    ∃ pc ∈ ([⟨r2_3, p⟩] : List (View.Piece (Elt F) S2048x1024 .bf16)), y ∈ pc.1.set :=
  ⟨_, List.mem_singleton_self _, View.mem_set_unit_zero hz2 inb_S2048x1024_S2048x1024_0_0 y⟩

theorem out2_3_eq (a : Vec F S2048x1024 .f32) (x2 : Vec F S2048x1 .f32) : out2_3 a x2 = k2_pay3 a x2 := by
  unfold out2_3
  rw [View.canon_unit_zero hz2]
  simp only [View.ld_unit_zero (S := S2048x1024) hz2, View.ld_unit_zero (S := S2048x1) hz2]

set_option maxHeartbeats 1000000 in
theorem sound_kernel2_A (c : Dev nD) (E : Set ℕ) (i : grid2.Coords)
    (arg2 : Memref sig .tc .vmem S2048x512 .bf16) (harg2 : arg2.IsWhole) (arg3 : Memref sig .tc .vmem S512x1024 .bf16) (harg3 : arg3.IsWhole)
    (arg4 : Memref sig .tc .vmem S2048x1 .f32) (harg4 : arg4.IsWhole) (arg5 : Memref sig .tc .vmem S2048x1024 .bf16) (harg5 : arg5.IsWhole)
    (arg6 : Memref sig .tc .vmem S2048x1024 .f32) (harg6 : arg6.IsWhole)
    (h0 : cond2_0 i) (h1 : ¬cond2_1 i)
    (x0 : Vec F S2048x512 .bf16) (x1 : Vec F S512x1024 .bf16) (x2 : Vec F S2048x1 .f32) (d3 : Vec F S2048x1024 .bf16)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare d3 ∗ (∃ a, owns (c : Thread nD τ) arg6 fullShare a)
        ∗ (iprop(owns (c : Thread nD τ) arg2 fullShare x0 ∗ owns (c : Thread nD τ) arg3 fullShare x1 ∗ owns (c : Thread nD τ) arg4 fullShare x2
            ∗ owns (c : Thread nD τ) arg5 fullShare d3 ∗ owns (c : Thread nD τ) arg6 fullShare (k2_pay2 (k2_pay1 (F := F)) x0 x1)) -∗ K ⟨⟩))
      ⊢ wp frame (wpE (defs₀ (F := F)) Variants.none c none) E (cc2__row_agg_kernel i arg2 harg2 arg3 harg3 arg4 harg4 arg5 harg5 arg6 harg6) K := by
  simp only [cc2__row_agg_kernel_eq_skeleton]; unfold cc2__row_agg_kernel_skel
  unfold owns
  iintro ⟨⟨%f0, %hf0, H0⟩, ⟨%f1, %hf1, H1⟩, ⟨%f2, %hf2, H2⟩, ⟨%f3, %hf3, H3⟩, ⟨%a, %f6, -, H6⟩, Hk⟩
  subst hf0 hf1 hf2 hf3
  sl_exec (disch := first | exact h0 | exact h1)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  iexists _; isplitr
  swap; · iexact H6
  ipureintro
  sl_unfold_words
  rw [read_writes_whole2 _ _ hz2]
  simp only [View.readAt_eq_ld, View.ld_unit_zero (S := S2048x1024) hz2, View.ld_unit_zero (S := S2048x512) hz2, View.ld_unit_zero (S := S512x1024) hz2,
    View.readCov_unit_zero (S := S2048x1024) _ hz2]

set_option maxHeartbeats 1000000 in
theorem sound_kernel2_B (c : Dev nD) (E : Set ℕ) (i : grid2.Coords)
    (arg2 : Memref sig .tc .vmem S2048x512 .bf16) (harg2 : arg2.IsWhole) (arg3 : Memref sig .tc .vmem S512x1024 .bf16) (harg3 : arg3.IsWhole)
    (arg4 : Memref sig .tc .vmem S2048x1 .f32) (harg4 : arg4.IsWhole) (arg5 : Memref sig .tc .vmem S2048x1024 .bf16) (harg5 : arg5.IsWhole)
    (arg6 : Memref sig .tc .vmem S2048x1024 .f32) (harg6 : arg6.IsWhole)
    (h0 : ¬cond2_0 i) (h1 : ¬cond2_1 i)
    (x0 : Vec F S2048x512 .bf16) (x1 : Vec F S512x1024 .bf16) (x2 : Vec F S2048x1 .f32) (d3 : Vec F S2048x1024 .bf16) (a : Vec F S2048x1024 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare d3 ∗ owns (c : Thread nD τ) arg6 fullShare a
        ∗ (iprop(owns (c : Thread nD τ) arg2 fullShare x0 ∗ owns (c : Thread nD τ) arg3 fullShare x1 ∗ owns (c : Thread nD τ) arg4 fullShare x2
            ∗ owns (c : Thread nD τ) arg5 fullShare d3 ∗ owns (c : Thread nD τ) arg6 fullShare (k2_pay2 a x0 x1)) -∗ K ⟨⟩))
      ⊢ wp frame (wpE (defs₀ (F := F)) Variants.none c none) E (cc2__row_agg_kernel i arg2 harg2 arg3 harg3 arg4 harg4 arg5 harg5 arg6 harg6) K := by
  simp only [cc2__row_agg_kernel_eq_skeleton]; unfold cc2__row_agg_kernel_skel
  unfold owns
  iintro ⟨⟨%f0, %hf0, H0⟩, ⟨%f1, %hf1, H1⟩, ⟨%f2, %hf2, H2⟩, ⟨%f3, %hf3, H3⟩, ⟨%f6, %hf6, H6⟩, Hk⟩
  subst hf0 hf1 hf2 hf3 hf6
  sl_exec (disch := first | exact h0 | exact h1)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  iexists _; isplitr
  swap; · iexact H6
  ipureintro
  sl_unfold_words
  rw [read_writes_whole2 _ _ hz2]
  simp only [View.readAt_eq_ld, View.ld_unit_zero (S := S2048x1024) hz2, View.ld_unit_zero (S := S2048x512) hz2, View.ld_unit_zero (S := S512x1024) hz2,
    View.readCov_unit_zero (S := S2048x1024) _ hz2]

set_option maxHeartbeats 1000000 in
theorem sound_kernel2_C (c : Dev nD) (E : Set ℕ) (i : grid2.Coords)
    (arg2 : Memref sig .tc .vmem S2048x512 .bf16) (harg2 : arg2.IsWhole) (arg3 : Memref sig .tc .vmem S512x1024 .bf16) (harg3 : arg3.IsWhole)
    (arg4 : Memref sig .tc .vmem S2048x1 .f32) (harg4 : arg4.IsWhole) (arg5 : Memref sig .tc .vmem S2048x1024 .bf16) (harg5 : arg5.IsWhole)
    (arg6 : Memref sig .tc .vmem S2048x1024 .f32) (harg6 : arg6.IsWhole)
    (h0 : ¬cond2_0 i) (h1 : cond2_1 i)
    (x0 : Vec F S2048x512 .bf16) (x1 : Vec F S512x1024 .bf16) (x2 : Vec F S2048x1 .f32) (a : Vec F S2048x1024 .f32)
    (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare a
        ∗ (iprop(owns (c : Thread nD τ) arg2 fullShare x0 ∗ owns (c : Thread nD τ) arg3 fullShare x1 ∗ owns (c : Thread nD τ) arg4 fullShare x2
            ∗ owns (c : Thread nD τ) arg5 fullShare (out2_3 (k2_pay2 a x0 x1) x2) ∗ owns (c : Thread nD τ) arg6 fullShare (k2_pay2 a x0 x1)) -∗ K ⟨⟩))
      ⊢ wp frame (wpE (defs₀ (F := F)) Variants.none c none) E (cc2__row_agg_kernel i arg2 harg2 arg3 harg3 arg4 harg4 arg5 harg5 arg6 harg6) K := by
  simp only [cc2__row_agg_kernel_eq_skeleton]; unfold cc2__row_agg_kernel_skel
  unfold owns
  iintro ⟨⟨%f0, %hf0, H0⟩, ⟨%f1, %hf1, H1⟩, ⟨%f2, %hf2, H2⟩, ⟨%d3, %f3, -, H3⟩, ⟨%f6, %hf6, H6⟩, Hk⟩
  subst hf0 hf1 hf2 hf6
  sl_exec (disch := first | exact h0 | exact h1)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]
  · iexists _; isplitr
    swap; · iexact H3
    ipureintro
    sl_unfold_words
    rw [View.read_writes_eq_canon _ _ _ (cover2_3 _)]
    unfold out2_3
    simp only [View.readAt_eq_ld, View.ld_unit_zero (S := S2048x1024) hz2, View.ld_unit_zero (S := S2048x512) hz2, View.ld_unit_zero (S := S512x1024) hz2,
      View.ld_unit_zero (S := S2048x1) hz2, View.readCov_unit_zero (S := S2048x1024) _ hz2]
  iexists _; isplitr
  swap; · iexact H6
  ipureintro
  sl_unfold_words
  rw [read_writes_whole2 _ _ hz2]
  simp only [View.readAt_eq_ld, View.ld_unit_zero (S := S2048x1024) hz2, View.ld_unit_zero (S := S2048x512) hz2, View.ld_unit_zero (S := S512x1024) hz2,
    View.readCov_unit_zero (S := S2048x1024) _ hz2]

def accAt2 (c : Dev nD) : (n : ℕ) → n < cfg2.N → Vec F S2048x1024 .f32
  | 0, hn => k2_pay2 (k2_pay1 (F := F)) (iblk2 V c 0 ⟨0, hn⟩) (iblk2 V c 1 ⟨0, hn⟩)
  | n + 1, hn =>
    if (n + 1) % 8 = 0 then k2_pay2 (k2_pay1 (F := F)) (iblk2 V c 0 ⟨n + 1, hn⟩) (iblk2 V c 1 ⟨n + 1, hn⟩)
    else k2_pay2 (accAt2 c n (Nat.lt_of_succ_lt hn)) (iblk2 V c 0 ⟨n + 1, hn⟩) (iblk2 V c 1 ⟨n + 1, hn⟩)

theorem accAt2_A (c : Dev nD) (t : Fin cfg2.N) (h0 : t.val % 8 = 0) :
    accAt2 V c t.val t.isLt = k2_pay2 (k2_pay1 (F := F)) (iblk2 V c 0 t) (iblk2 V c 1 t) := by
  obtain ⟨n, hn⟩ := t
  cases n with
  | zero => exact rfl
  | succ n => exact (if_pos h0).trans rfl

theorem accAt2_B (c : Dev nD) (t : Fin cfg2.N) (h0 : ¬t.val % 8 = 0) :
    accAt2 V c t.val t.isLt
      = k2_pay2 (accAt2 V c (t.val - 1) (Nat.lt_of_le_of_lt (Nat.sub_le _ _) t.isLt)) (iblk2 V c 0 t) (iblk2 V c 1 t) := by
  obtain ⟨n, hn⟩ := t
  cases n with
  | zero => exact absurd (Nat.zero_mod _) h0
  | succ n => exact (if_neg h0).trans rfl

theorem accAt2_congr (c : Dev nD) {n n' : ℕ} (h : n = n') (hn : n < cfg2.N) (hn' : n' < cfg2.N) :
    accAt2 V c n hn = accAt2 V c n' hn' := by subst h; rfl

def Φ2 (c : Dev nD) (t : Fin (cfg2.N + 1)) : sProp 𝕄 :=
  iprop((∃ X : Vec F S2048x1024 .f32, ⌜∀ h : 0 < t.val, X = accAt2 V c (t.val - 1) (by have := t.isLt; omega)⌝
        ∗ owns (c : Thread nD τ) (Memref.whole cc2_scratch0 : Memref sig .tc .vmem S2048x1024 .f32) fullShare X)
    ∗ Pipeline.scopedRestBut (Ix := Unit) (Name := ℕ) (U := UR sig nD τ) (Lvl := ℕ) (Val := Elt F) spec2 c [cc2_scratch0]
    ∗ ∃ r, prngReg c r)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (accAt2 V c t.val t.isLt) (iblk2 V c 2 t)
  Φ t := Φ2 V c t
  q _ := fullShare
  owed _ := 0

theorem A_eq2 (c : Dev nD) (w : Fin cfg2.W) : (dat2 V c).A w = V c (Pipeline.arrRef spec2 w) := by
  dsimp only [dat2]

theorem Φ_eq2 (c : Dev nD) (t : Fin (cfg2.N + 1)) : (dat2 V c).Φ t = Φ2 V c t := by dsimp only [dat2]

theorem after2_0 (c : Dev nD) (t : Fin cfg2.N) : (dat2 V c).after 0 t = iblk2 V c 0 t := by dsimp only [dat2]

theorem after2_1 (c : Dev nD) (t : Fin cfg2.N) : (dat2 V c).after 1 t = iblk2 V c 1 t := by dsimp only [dat2]

theorem after2_2 (c : Dev nD) (t : Fin cfg2.N) : (dat2 V c).after 2 t = iblk2 V c 2 t := by dsimp only [dat2]

theorem after2_3 (c : Dev nD) (t : Fin cfg2.N) :
    (dat2 V c).after 3 t = out2_3 (accAt2 V c t.val t.isLt) (iblk2 V c 2 t) := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl) (fun _ => rfl) t d).trans rfl
theorem before2_1 (c : Dev nD) (t : Fin cfg2.N) (d) : (dat2 V c).before 1 t d = iblk2 V c 1 t :=
  ((dat2 V c).before_in_eq_fetched 1 rfl (fun _ => rfl) (fun _ _ _ => rfl) (fun _ => rfl) t d).trans rfl
theorem before2_2 (c : Dev nD) (t : Fin cfg2.N) (d) : (dat2 V c).before 2 t d = iblk2 V c 2 t :=
  ((dat2 V c).before_in_eq_fetched 2 rfl (fun _ => rfl) (fun _ _ _ => rfl) (fun _ => rfl) t d).trans rfl

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ (dat2 V c).leavesExact 3 t)

set_option maxHeartbeats 1000000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl,
    after2_0, after2_1, after2_2, Φ_eq2, Φ_eq2]
  have hN : t.val < 16 := lt_of_lt_of_eq t.isLt (show cfg2.N = 16 from N_2)
  have hsucc : ∀ h, accAt2 V c (t.succ.val - 1) h = accAt2 V c t.val t.isLt := fun h =>
    accAt2_congr V c (by rw [Fin.val_succ]; omega) _ _
  unfold Φ2
  by_cases h7 : t.val % 8 = 7
  · have h0 : ¬t.val % 8 = 0 := by omega
    have hi : cfg2.idle 3 (cfg2.grid.coords t) = false := by
      rw [← Bool.not_eq_true]; exact fun h => (hidle2_3 t).mp h h7
    rw [show (dat2 V c).leavesExact 3 t = owns (c : Thread nD τ) (st2_3 t) fullShare ((dat2 V c).after 3 t) from by
      unfold Dat.leavesExact; rw [hi]]
    rw [after2_3, accAt2_B V c t h0]
    iintro ⟨⟨⟨%X, %hX, Hs⟩, Hrest, Hprng⟩, Ho, ⟨%d0, H0⟩, ⟨%d1, H1⟩, ⟨%d2, H2⟩, ⟨%d3, H3⟩⟩
    obtain rfl := hX (by rw [Fin.coe_castSucc]; omega)
    iapply (sound_kernel2_C c Set.univ (grid2.coords t) _ _ _ _ _ _ _ _ _ _ (fun h => h0 ((hcond2_0 t).mp h)) ((hcond2_1 t).mpr h7)
      (iblk2 V c 0 t) (iblk2 V c 1 t) (iblk2 V c 2 t) _ _)
    iframe H0 H1 H2 Hs
    isplitl [H3]; · iexists _; iexact H3
    iintro ⟨H0, H1, H2, H3, Hs⟩
    iframe Hrest Hprng Ho H0 H1 H2
    isplitl [Hs]
    · iexists _; isplitr
      swap; · iexact Hs
      ipureintro; intro h; rw [hsucc, accAt2_B V c t h0]; rfl
    iexact H3
  · have hi : cfg2.idle 3 (cfg2.grid.coords t) = true := (hidle2_3 t).mpr h7
    have hf : (cfg2.win 3).flush t = false := by
      rw [← Bool.not_eq_true]; exact fun h => h7 ((flush2_3 t).mp h)
    rw [(dat2 V c).leavesExact_idle 3 t hi hf]
    by_cases h0 : t.val % 8 = 0
    · iintro ⟨⟨⟨%X, %hX, Hs⟩, Hrest, Hprng⟩, Ho, ⟨%d0, H0⟩, ⟨%d1, H1⟩, ⟨%d2, H2⟩, ⟨%d3, H3⟩⟩
      iapply (sound_kernel2_A c Set.univ (grid2.coords t) _ _ _ _ _ _ _ _ _ _ ((hcond2_0 t).mpr h0) (fun h => h7 ((hcond2_1 t).mp h))
        (iblk2 V c 0 t) (iblk2 V c 1 t) (iblk2 V c 2 t) _ _)
      iframe H0 H1 H2 H3
      isplitl [Hs]; · iexists _; iexact Hs
      iintro ⟨H0, H1, H2, H3, Hs⟩
      iframe Hrest Hprng Ho H0 H1 H2
      isplitl [Hs]
      · iexists _; isplitr
        swap; · iexact Hs
        ipureintro; intro h; rw [hsucc, accAt2_A V c t h0]
      iexists _; iexact H3
    · iintro ⟨⟨⟨%X, %hX, Hs⟩, Hrest, Hprng⟩, Ho, ⟨%d0, H0⟩, ⟨%d1, H1⟩, ⟨%d2, H2⟩, ⟨%d3, H3⟩⟩
      obtain rfl := hX (by rw [Fin.coe_castSucc]; omega)
      iapply (sound_kernel2_B c Set.univ (grid2.coords t) _ _ _ _ _ _ _ _ _ _ (fun h => h0 ((hcond2_0 t).mp h)) (fun h => h7 ((hcond2_1 t).mp h))
        (iblk2 V c 0 t) (iblk2 V c 1 t) (iblk2 V c 2 t) _ _ _)
      iframe H0 H1 H2 H3 Hs
      iintro ⟨H0, H1, H2, H3, Hs⟩
      iframe Hrest Hprng Ho H0 H1 H2
      isplitl [Hs]
      · iexists _; isplitr
        swap; · iexact Hs
        ipureintro; intro h; rw [hsucc, accAt2_B V c t h0]; rfl
      iexists _; iexact H3

theorem body_obligation2 (c : Dev nD) : BodyObligation (dat2 (F := F) V c) (defs₀ (F := F)) Variants.none () Set.univ := fun t => by
  rw [bigSep_W2, bigSep_W2]
  exact sound_body2 V c t

theorem Φ_in2 (c : Dev nD) :
    iprop((∃ r, prngReg c r) ∗ Pipeline.scopedRest (Ix := Unit) (Name := ℕ) (U := UR sig nD τ) (Lvl := ℕ) (Val := Elt F) spec2 c)
      ⊢ (dat2 V c).Φ 0 := by
  rw [Φ_eq2, scopedRest2_split]; unfold Φ2
  simp only [owns_whole]
  iintro ⟨Hprng, ⟨%f, Hs⟩, Hrest⟩
  isplitl [Hs]
  · iexists f; isplitr
    · ipureintro; intro h; exact absurd h (Nat.lt_irrefl 0)
    iexact Hs
  isplitl [Hrest]; · iexact Hrest
  iexact Hprng

theorem Φ_out2 (c : Dev nD) :
    (dat2 V c).Φ (Fin.last cfg2.N)
      ⊢ iprop((∃ r, prngReg c r) ∗ Pipeline.scopedRest (Ix := Unit) (Name := ℕ) (U := UR sig nD τ) (Lvl := ℕ) (Val := Elt F) spec2 c) := by
  rw [Φ_eq2, scopedRest2_split]; unfold Φ2
  simp only [owns_whole]
  iintro ⟨⟨%X, -, Hs⟩, Hrest, Hprng⟩
  isplitl [Hprng]; · iexact Hprng
  isplitl [Hs]
  · iexists X; iexact Hs
  iexact Hrest

end Cert.KernelIdeal.Hand

end
-- ==== Proof.KIReg3.lean ====
import proofs.«415769_j962072674785_2_alg».proof.Proof.Gen.KernelIdeal.Launch
import proofs.«415769_j962072674785_2_alg».proof.Proof.Gen.KernelIdeal.Skeleton
import proofs.«415769_j962072674785_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region3

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_0 : Rect S1024x1024 := Rect.unit (s := S1024x1024) ![0, 0] S1024x1024.size inb_S1024x1024_S1024x1024_0_0
abbrev r3_1 : Rect S1x1024 := Rect.unit (s := S1x1024) ![0, 0] S1x1024.size inb_S1x1024_S1x1024_0_0

def out3_5 (x0 : Vec F S1024x1024 .bf16) (x1 : Vec F S1024x1024 .bf16) (x2 : Vec F S1024x1024 .f32) (x3 : Vec F S1024x1024 .f32)
    (x4 : Vec F S1x1024 .f32) : Vec F S1024x1024 .f32 :=
  View.canon [⟨r3_0, k3_pay1 (View.ld x2 r3_0) (View.ld x3 r3_0) (View.ld x0 r3_0) (View.ld x1 r3_0) (View.ld x4 r3_1)⟩]

theorem cover3_5 (p0 : Vec F S1024x1024 .f32) (y : S1024x1024.Idx) :
    ∃ pc ∈ ([⟨r3_0, p0⟩] : List (View.Piece (Elt F) S1024x1024 .f32)), y ∈ pc.1.set :=
  View.cover_of_tiled [⟨r3_0, p0⟩] S1024x1024.size (by rfl) y

set_option maxHeartbeats 1000000 in
/-- The one store is of the whole buffer, so the buffer ends at the stored value and the inputs are as they were. -/
theorem sound_kernel3 (c : Dev nD) (E : Set ℕ) (i : grid3.Coords)
    (arg1 : Memref sig .tc .vmem S1024x1024 .bf16) (harg1 : arg1.IsWhole) (arg2 : Memref sig .tc .vmem S1024x1024 .bf16) (harg2 : arg2.IsWhole)
    (arg3 : Memref sig .tc .vmem S1024x1024 .f32) (harg3 : arg3.IsWhole) (arg4 : Memref sig .tc .vmem S1024x1024 .f32) (harg4 : arg4.IsWhole)
    (arg5 : Memref sig .tc .vmem S1x1024 .f32) (harg5 : arg5.IsWhole) (arg6 : Memref sig .tc .vmem S1024x1024 .f32) (harg6 : arg6.IsWhole)
    (x0 : Vec F S1024x1024 .bf16) (x1 : Vec F S1024x1024 .bf16) (x2 : Vec F S1024x1024 .f32) (x3 : Vec F S1024x1024 .f32) (x4 : Vec F S1x1024 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out3_5 x0 x1 x2 x3 x4)) -∗ K ⟨⟩))
      ⊢ wp frame (wpE (defs₀ (F := F)) Variants.none c none) E (cc3__row_affine_kernel i arg1 harg1 arg2 harg2 arg3 harg3 arg4 harg4 arg5 harg5 arg6 harg6) K := by
  simp only [cc3__row_affine_kernel_eq_skeleton]; unfold cc3__row_affine_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t
    = out3_5 (iblk3 V c 0 t) (iblk3 V c 1 t) (iblk3 V c 2 t) (iblk3 V c 3 t) (iblk3 V c 4 t) := by dsimp only [dat3]

/-- The body leaves each input's block in place, so its buffer holds the block at every point. -/
theorem before3_0 (c : Dev nD) (t : Fin cfg3.N) (d) : (dat3 V c).before 0 t d = iblk3 V c 0 t :=
  (dat3 V c).before_in_eq_fetched 0 rfl (fun _ => rfl) (fun _ _ _ => rfl) (fun _ => rfl) t d
theorem before3_1 (c : Dev nD) (t : Fin cfg3.N) (d) : (dat3 V c).before 1 t d = iblk3 V c 1 t :=
  (dat3 V c).before_in_eq_fetched 1 rfl (fun _ => rfl) (fun _ _ _ => rfl) (fun _ => rfl) t d
theorem before3_2 (c : Dev nD) (t : Fin cfg3.N) (d) : (dat3 V c).before 2 t d = iblk3 V c 2 t :=
  (dat3 V c).before_in_eq_fetched 2 rfl (fun _ => rfl) (fun _ _ _ => rfl) (fun _ => rfl) t d
theorem before3_3 (c : Dev nD) (t : Fin cfg3.N) (d) : (dat3 V c).before 3 t d = iblk3 V c 3 t :=
  (dat3 V c).before_in_eq_fetched 3 rfl (fun _ => rfl) (fun _ _ _ => rfl) (fun _ => rfl) t d
theorem before3_4 (c : Dev nD) (t : Fin cfg3.N) (d) : (dat3 V c).before 4 t d = iblk3 V c 4 t :=
  (dat3 V c).before_in_eq_fetched 4 rfl (fun _ => rfl) (fun _ _ _ => rfl) (fun _ => rfl) t d

/-- The inputs' buffers hold their blocks, so the triple of the kernel body applies. -/
theorem body_obligation3 (c : Dev nD) : BodyObligation (dat3 (F := F) V c) (defs₀ (F := F)) Variants.none () Set.univ := fun t => by
  rw [bigSep_W3, bigSep_W3]
  simp only [before3_0, before3_1, before3_2, before3_3, before3_4]
  show _ ⊢ wp frame _ _ (bodyAt3 t) _
  unfold bodyAt3
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ)
  iframe H0 H1 H2 H3 H4
  isplitl [H5]; · iexists _; iexact H5
  iintro ⟨H0, H1, H2, H3, H4, H5⟩
  iframe

end Region3

end Cert.KernelIdeal.Hand

end
-- ==== Proof.KIReg4.lean ====
import proofs.«415769_j962072674785_2_alg».proof.Proof.KIReg0

noncomputable section

namespace Cert.KernelIdeal.Hand

open Cert.KernelIdeal Cert.KernelIdeal.Gen
open Idealize.ShloMosaic Idealize.ShloMosaic.TcCoe Idealize.SL.Sem Idealize.SL.RA
open Idealize.ShloMosaic.Pipeline (Dat BodyObligation)

variable {F : FTy → Type} [FloatOps F]

/-- This region and region 0 launch one kernel function: the two definitions have the same body. -/
theorem kernel4_eq : cc4__col_agg_kernel (F := F) = cc0__col_agg_kernel (F := F) := rfl

section Region
variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out0_3 (iblk4 V c 0 t) (iblk4 V c 1 t) (iblk4 V c 2 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_3 (c : Dev nD) (t : Fin cfg4.N) :
    (dat4 V c).after 3 t = out0_3 (iblk4 V c 0 t) (iblk4 V c 1 t) (iblk4 V c 2 t) := by dsimp only [dat4]

/-- The body hands every input back as it found it, so what it finds there at any point is the array's block. -/
theorem before4_0 (c : Dev nD) (t : Fin cfg4.N) (d) : (dat4 V c).before 0 t d = iblk4 V c 0 t :=
  (dat4 V c).before_in_eq_fetched 0 rfl (fun _ => rfl) (fun _ _ _ => rfl) (fun _ => by dsimp only [dat4]; rfl) t d
theorem before4_1 (c : Dev nD) (t : Fin cfg4.N) (d) : (dat4 V c).before 1 t d = iblk4 V c 1 t :=
  (dat4 V c).before_in_eq_fetched 1 rfl (fun _ => rfl) (fun _ _ _ => rfl) (fun _ => by dsimp only [dat4]; rfl) t d
theorem before4_2 (c : Dev nD) (t : Fin cfg4.N) (d) : (dat4 V c).before 2 t d = iblk4 V c 2 t :=
  (dat4 V c).before_in_eq_fetched 2 rfl (fun _ => rfl) (fun _ _ _ => rfl) (fun _ => by dsimp only [dat4]; rfl) t d

theorem body_obligation4 (c : Dev nD) : BodyObligation (dat4 (F := F) V c) (defs₀ (F := F)) Variants.none () Set.univ := fun t => by
  rw [bigSep_W4, bigSep_W4]
  simp only [before4_0, before4_1, before4_2]
  dsimp only [dat4]
  exact colAgg_body kernel4_eq c (grid4.coords t) _ (hstage4_0 _) _ (hstage4_1 _) _ (hstage4_2 _) _ (hstage4_3 _) _ _ _ _ _ _

end Region

end Cert.KernelIdeal.Hand

end
-- ==== Proof.KIReg5.lean ====
import proofs.«415769_j962072674785_2_alg».proof.Proof.KIReg1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off the array the region is entered with. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- This region and region 1 launch one kernel function: the two definitions have the same body. -/
theorem cc5_eq_cc1 : cc5__col_affine_kernel (F := F) = cc1__col_affine_kernel := rfl

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out1_5 (iblk5 V c 0 t) (iblk5 V c 1 t) (iblk5 V c 2 t) (iblk5 V c 3 t) (iblk5 V c 4 t)
  Φ _ := Pipeline.ΦA spec5 c
  q _ := fullShare
  owed _ := 0

theorem A_eq5 (c : Dev nD) (w : Fin cfg5.W) : (dat5 V c).A w = V c (Pipeline.arrRef spec5 w) := by
  dsimp only [dat5]

/-- The output's buffer is left at the function's result on what is left in the inputs' buffers. -/
theorem after5_5 (c : Dev nD) (t : Fin cfg5.N) : (dat5 V c).after 5 t
    = out1_5 ((dat5 V c).after 0 t) ((dat5 V c).after 1 t) ((dat5 V c).after 2 t) ((dat5 V c).after 3 t) ((dat5 V c).after 4 t) := by
  dsimp only [dat5]

/-- The body writes no input, so an input's buffer holds the array's block at every point. -/
theorem before5 (c : Dev nD) (w : Fin cfg5.W) (hw : (cfg5.win w).isOut = false) (t : Fin cfg5.N) (d) :
    (dat5 V c).before w t d = (dat5 V c).after w t :=
  match w, hw with
  | ⟨0, _⟩, h | ⟨1, _⟩, h | ⟨2, _⟩, h | ⟨3, _⟩, h | ⟨4, _⟩, h =>
    (dat5 V c).before_in_eq_fetched _ h (fun _ => rfl) (fun _ _ _ => rfl) (fun _ => rfl) t d
  | ⟨5, _⟩, h => nomatch h

/-- The inputs' buffers hold their blocks, so the function's triple applies; the invariant and what the core owes pass through unread. -/
theorem body_obligation5 (c : Dev nD) : BodyObligation (dat5 (F := F) V c) (defs₀ (F := F)) Variants.none () Set.univ := fun t => by
  rw [bigSep_W5, bigSep_W5]
  simp only [before5 V c 0 rfl, before5 V c 1 rfl, before5 V c 2 rfl, before5 V c 3 rfl, before5 V c 4 rfl]
  rw [after5_5, show (dat5 V c).Φ t.succ = (dat5 V c).Φ t.castSucc from rfl,
    show (dat5 V c).owesAt () t.succ = (dat5 V c).owesAt () t.castSucc from rfl]
  show _ ⊢ wp frame _ _ (bodyAt5 t) _
  unfold bodyAt5
  rw [cc5_eq_cc1]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ ((dat5 V c).after 0 t) ((dat5 V c).after 1 t) ((dat5 V c).after 2 t)
    ((dat5 V c).after 3 t) ((dat5 V c).after 4 t) _)
  iframe H0 H1 H2 H3 H4
  isplitl [H5]; · iexists _; iexact H5
  iintro H
  iframe

end Cert.KernelIdeal.Hand

end
-- ==== Proof.KIReg6.lean ====
import proofs.«415769_j962072674785_2_alg».proof.Proof.KIReg2

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- This region and region 2 launch one kernel function: the two definitions have the same body.
theorem kernel6_eq : cc6__row_agg_kernel (F := F) = cc2__row_agg_kernel (F := F) := rfl

theorem hcond6_0 : ∀ t : Fin cfg6.N, cond2_0 (grid6.coords t) ↔ t.val % 8 = 0 := hcond2_0

theorem hcond6_1 : ∀ t : Fin cfg6.N, cond2_1 (grid6.coords t) ↔ t.val % 8 = 7 := hcond2_1

theorem hidle6_3 : ∀ t : Fin cfg6.N, cfg6.idle 3 (cfg6.grid.coords t) = true ↔ ¬t.val % 8 = 7 :=
  (by decide +kernel : ∀ t : Fin grid6.N, idle6 3 (grid6.coords t) = true ↔ ¬t.val % 8 = 7)

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

def accAt6 (c : Dev nD) : (n : ℕ) → n < cfg6.N → Vec F S2048x1024 .f32
  | 0, hn => k2_pay2 (k2_pay1 (F := F)) (iblk6 V c 0 ⟨0, hn⟩) (iblk6 V c 1 ⟨0, hn⟩)
  | n + 1, hn =>
    if (n + 1) % 8 = 0 then k2_pay2 (k2_pay1 (F := F)) (iblk6 V c 0 ⟨n + 1, hn⟩) (iblk6 V c 1 ⟨n + 1, hn⟩)
    else k2_pay2 (accAt6 c n (Nat.lt_of_succ_lt hn)) (iblk6 V c 0 ⟨n + 1, hn⟩) (iblk6 V c 1 ⟨n + 1, hn⟩)

theorem accAt6_A (c : Dev nD) (t : Fin cfg6.N) (h0 : t.val % 8 = 0) :
    accAt6 V c t.val t.isLt = k2_pay2 (k2_pay1 (F := F)) (iblk6 V c 0 t) (iblk6 V c 1 t) := by
  obtain ⟨n, hn⟩ := t
  cases n with
  | zero => exact rfl
  | succ n => exact (if_pos h0).trans rfl

theorem accAt6_B (c : Dev nD) (t : Fin cfg6.N) (h0 : ¬t.val % 8 = 0) :
    accAt6 V c t.val t.isLt
      = k2_pay2 (accAt6 V c (t.val - 1) (Nat.lt_of_le_of_lt (Nat.sub_le _ _) t.isLt)) (iblk6 V c 0 t) (iblk6 V c 1 t) := by
  obtain ⟨n, hn⟩ := t
  cases n with
  | zero => exact absurd (Nat.zero_mod _) h0
  | succ n => exact (if_neg h0).trans rfl

theorem accAt6_congr (c : Dev nD) {n n' : ℕ} (h : n = n') (hn : n < cfg6.N) (hn' : n' < cfg6.N) :
    accAt6 V c n hn = accAt6 V c n' hn' := by subst h; rfl

def Φ6 (c : Dev nD) (t : Fin (cfg6.N + 1)) : sProp 𝕄 :=
  iprop((∃ X : Vec F S2048x1024 .f32, ⌜∀ h : 0 < t.val, X = accAt6 V c (t.val - 1) (by have := t.isLt; omega)⌝
        ∗ owns (c : Thread nD τ) (Memref.whole cc6_scratch0 : Memref sig .tc .vmem S2048x1024 .f32) fullShare X)
    ∗ Pipeline.scopedRestBut (Ix := Unit) (Name := ℕ) (U := UR sig nD τ) (Lvl := ℕ) (Val := Elt F) spec6 c [cc6_scratch0]
    ∗ ∃ r, prngReg c r)

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out2_3 (accAt6 V c t.val t.isLt) (iblk6 V c 2 t)
  Φ t := Φ6 V c t
  q _ := fullShare
  owed _ := 0

theorem A_eq6 (c : Dev nD) (w : Fin cfg6.W) : (dat6 V c).A w = V c (Pipeline.arrRef spec6 w) := by
  dsimp only [dat6]

theorem Φ_eq6 (c : Dev nD) (t : Fin (cfg6.N + 1)) : (dat6 V c).Φ t = Φ6 V c t := by dsimp only [dat6]

theorem after6_0 (c : Dev nD) (t : Fin cfg6.N) : (dat6 V c).after 0 t = iblk6 V c 0 t := by dsimp only [dat6]

theorem after6_1 (c : Dev nD) (t : Fin cfg6.N) : (dat6 V c).after 1 t = iblk6 V c 1 t := by dsimp only [dat6]

theorem after6_2 (c : Dev nD) (t : Fin cfg6.N) : (dat6 V c).after 2 t = iblk6 V c 2 t := by dsimp only [dat6]

theorem after6_3 (c : Dev nD) (t : Fin cfg6.N) :
    (dat6 V c).after 3 t = out2_3 (accAt6 V c t.val t.isLt) (iblk6 V c 2 t) := by dsimp only [dat6]

theorem before6_0 (c : Dev nD) (t : Fin cfg6.N) (d) : (dat6 V c).before 0 t d = iblk6 V c 0 t :=
  ((dat6 V c).before_in_eq_fetched 0 rfl (fun _ => rfl) (fun _ _ _ => rfl) (fun _ => rfl) t d).trans rfl
theorem before6_1 (c : Dev nD) (t : Fin cfg6.N) (d) : (dat6 V c).before 1 t d = iblk6 V c 1 t :=
  ((dat6 V c).before_in_eq_fetched 1 rfl (fun _ => rfl) (fun _ _ _ => rfl) (fun _ => rfl) t d).trans rfl
theorem before6_2 (c : Dev nD) (t : Fin cfg6.N) (d) : (dat6 V c).before 2 t d = iblk6 V c 2 t :=
  ((dat6 V c).before_in_eq_fetched 2 rfl (fun _ => rfl) (fun _ _ _ => rfl) (fun _ => rfl) t d).trans rfl

def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d)))

def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ (dat6 V c).leavesExact 3 t)

set_option maxHeartbeats 1000000 in
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  rw [kernel6_eq]
  simp only [before6_0, before6_1, before6_2]
  rw [show (dat6 V c).owesAt () t.succ = (dat6 V c).owesAt () t.castSucc from rfl,
    after6_0, after6_1, after6_2, Φ_eq6, Φ_eq6]
  have hN : t.val < 16 := lt_of_lt_of_eq t.isLt (show cfg6.N = 16 from N_6)
  have hsucc : ∀ h, accAt6 V c (t.succ.val - 1) h = accAt6 V c t.val t.isLt := fun h =>
    accAt6_congr V c (by rw [Fin.val_succ]; omega) _ _
  unfold Φ6
  by_cases h7 : t.val % 8 = 7
  · have h0 : ¬t.val % 8 = 0 := by omega
    have hi : cfg6.idle 3 (cfg6.grid.coords t) = false := by
      rw [← Bool.not_eq_true]; exact fun h => (hidle6_3 t).mp h h7
    rw [show (dat6 V c).leavesExact 3 t = owns (c : Thread nD τ) (st6_3 t) fullShare ((dat6 V c).after 3 t) from by
      unfold Dat.leavesExact; rw [hi]]
    rw [after6_3, accAt6_B V c t h0]
    iintro ⟨⟨⟨%X, %hX, Hs⟩, Hrest, Hprng⟩, Ho, ⟨%d0, H0⟩, ⟨%d1, H1⟩, ⟨%d2, H2⟩, ⟨%d3, H3⟩⟩
    obtain rfl := hX (by rw [Fin.coe_castSucc]; omega)
    iapply (sound_kernel2_C c Set.univ (grid6.coords t) _ _ _ _ _ _ _ _ _ _ (fun h => h0 ((hcond6_0 t).mp h)) ((hcond6_1 t).mpr h7)
      (iblk6 V c 0 t) (iblk6 V c 1 t) (iblk6 V c 2 t) _ _)
    iframe H0 H1 H2 Hs
    isplitl [H3]; · iexists _; iexact H3
    iintro ⟨H0, H1, H2, H3, Hs⟩
    iframe Hrest Hprng Ho H0 H1 H2
    isplitl [Hs]
    · iexists _; isplitr
      swap; · iexact Hs
      ipureintro; intro h; rw [hsucc, accAt6_B V c t h0]; rfl
    iexact H3
  · have hi : cfg6.idle 3 (cfg6.grid.coords t) = true := (hidle6_3 t).mpr h7
    have hf : (cfg6.win 3).flush t = false := by
      rw [← Bool.not_eq_true]; exact fun h => h7 ((flush6_3 t).mp h)
    rw [(dat6 V c).leavesExact_idle 3 t hi hf]
    by_cases h0 : t.val % 8 = 0
    · iintro ⟨⟨⟨%X, %hX, Hs⟩, Hrest, Hprng⟩, Ho, ⟨%d0, H0⟩, ⟨%d1, H1⟩, ⟨%d2, H2⟩, ⟨%d3, H3⟩⟩
      iapply (sound_kernel2_A c Set.univ (grid6.coords t) _ _ _ _ _ _ _ _ _ _ ((hcond6_0 t).mpr h0) (fun h => h7 ((hcond6_1 t).mp h))
        (iblk6 V c 0 t) (iblk6 V c 1 t) (iblk6 V c 2 t) _ _)
      iframe H0 H1 H2 H3
      isplitl [Hs]; · iexists _; iexact Hs
      iintro ⟨H0, H1, H2, H3, Hs⟩
      iframe Hrest Hprng Ho H0 H1 H2
      isplitl [Hs]
      · iexists _; isplitr
        swap; · iexact Hs
        ipureintro; intro h; rw [hsucc, accAt6_A V c t h0]
      iexists _; iexact H3
    · iintro ⟨⟨⟨%X, %hX, Hs⟩, Hrest, Hprng⟩, Ho, ⟨%d0, H0⟩, ⟨%d1, H1⟩, ⟨%d2, H2⟩, ⟨%d3, H3⟩⟩
      obtain rfl := hX (by rw [Fin.coe_castSucc]; omega)
      iapply (sound_kernel2_B c Set.univ (grid6.coords t) _ _ _ _ _ _ _ _ _ _ (fun h => h0 ((hcond6_0 t).mp h)) (fun h => h7 ((hcond6_1 t).mp h))
        (iblk6 V c 0 t) (iblk6 V c 1 t) (iblk6 V c 2 t) _ _ _)
      iframe H0 H1 H2 H3 Hs
      iintro ⟨H0, H1, H2, H3, Hs⟩
      iframe Hrest Hprng Ho H0 H1 H2
      isplitl [Hs]
      · iexists _; isplitr
        swap; · iexact Hs
        ipureintro; intro h; rw [hsucc, accAt6_B V c t h0]; rfl
      iexists _; iexact H3

theorem body_obligation6 (c : Dev nD) : BodyObligation (dat6 (F := F) V c) (defs₀ (F := F)) Variants.none () Set.univ := fun t => by
  rw [bigSep_W6, bigSep_W6]
  exact sound_body6 V c t

theorem Φ_in6 (c : Dev nD) :
    iprop((∃ r, prngReg c r) ∗ Pipeline.scopedRest (Ix := Unit) (Name := ℕ) (U := UR sig nD τ) (Lvl := ℕ) (Val := Elt F) spec6 c)
      ⊢ (dat6 V c).Φ 0 := by
  rw [Φ_eq6, scopedRest6_split]; unfold Φ6
  simp only [owns_whole]
  iintro ⟨Hprng, ⟨%f, Hs⟩, Hrest⟩
  isplitl [Hs]
  · iexists f; isplitr
    · ipureintro; intro h; exact absurd h (Nat.lt_irrefl 0)
    iexact Hs
  isplitl [Hrest]; · iexact Hrest
  iexact Hprng

theorem Φ_out6 (c : Dev nD) :
    (dat6 V c).Φ (Fin.last cfg6.N)
      ⊢ iprop((∃ r, prngReg c r) ∗ Pipeline.scopedRest (Ix := Unit) (Name := ℕ) (U := UR sig nD τ) (Lvl := ℕ) (Val := Elt F) spec6 c) := by
  rw [Φ_eq6, scopedRest6_split]; unfold Φ6
  simp only [owns_whole]
  iintro ⟨⟨%X, -, Hs⟩, Hrest, Hprng⟩
  isplitl [Hprng]; · iexact Hprng
  isplitl [Hs]
  · iexists X; iexact Hs
  iexact Hrest

end Cert.KernelIdeal.Hand

end
-- ==== Proof.KIReg7.lean ====
import proofs.«415769_j962072674785_2_alg».proof.Proof.KIReg3

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region7

variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- This region and region 3 launch one kernel function: the two definitions have the same body. -/
theorem cc7_eq3 : cc7__row_affine_kernel (F := F) = cc3__row_affine_kernel (F := F) := rfl

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => out3_5 (iblk7 V c 0 t) (iblk7 V c 1 t) (iblk7 V c 2 t) (iblk7 V c 3 t) (iblk7 V c 4 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t
    = out3_5 (iblk7 V c 0 t) (iblk7 V c 1 t) (iblk7 V c 2 t) (iblk7 V c 3 t) (iblk7 V c 4 t) := by dsimp only [dat7]

/-- The body leaves each input's block in place, so its buffer holds the block at every point. -/
theorem before7_0 (c : Dev nD) (t : Fin cfg7.N) (d) : (dat7 V c).before 0 t d = iblk7 V c 0 t :=
  (dat7 V c).before_in_eq_fetched 0 rfl (fun _ => rfl) (fun _ _ _ => rfl) (fun _ => rfl) t d
theorem before7_1 (c : Dev nD) (t : Fin cfg7.N) (d) : (dat7 V c).before 1 t d = iblk7 V c 1 t :=
  (dat7 V c).before_in_eq_fetched 1 rfl (fun _ => rfl) (fun _ _ _ => rfl) (fun _ => rfl) t d
theorem before7_2 (c : Dev nD) (t : Fin cfg7.N) (d) : (dat7 V c).before 2 t d = iblk7 V c 2 t :=
  (dat7 V c).before_in_eq_fetched 2 rfl (fun _ => rfl) (fun _ _ _ => rfl) (fun _ => rfl) t d
theorem before7_3 (c : Dev nD) (t : Fin cfg7.N) (d) : (dat7 V c).before 3 t d = iblk7 V c 3 t :=
  (dat7 V c).before_in_eq_fetched 3 rfl (fun _ => rfl) (fun _ _ _ => rfl) (fun _ => rfl) t d
theorem before7_4 (c : Dev nD) (t : Fin cfg7.N) (d) : (dat7 V c).before 4 t d = iblk7 V c 4 t :=
  (dat7 V c).before_in_eq_fetched 4 rfl (fun _ => rfl) (fun _ _ _ => rfl) (fun _ => rfl) t d

/-- The inputs' buffers hold their blocks, so region 3's triple of the kernel body applies. -/
theorem body_obligation7 (c : Dev nD) : BodyObligation (dat7 (F := F) V c) (defs₀ (F := F)) Variants.none () Set.univ := fun t => by
  rw [bigSep_W7, bigSep_W7]
  simp only [before7_0, before7_1, before7_2, before7_3, before7_4]
  show _ ⊢ wp frame _ _ (bodyAt7 t) _
  unfold bodyAt7
  rw [cc7_eq3, show (dat7 V c).Φ t.succ = (dat7 V c).Φ t.castSucc from rfl,
    show (dat7 V c).owesAt () t.succ = (dat7 V c).owesAt () t.castSucc from rfl,
    after7_0, after7_1, after7_2, after7_3, after7_4, after7_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ)
  iframe H0 H1 H2 H3 H4
  isplitl [H5]; · iexists _; iexact H5
  iintro ⟨H0, H1, H2, H3, H4, H5⟩
  iframe

end Region7

end Cert.KernelIdeal.Hand

end
-- ==== Proof.KIReg8.lean ====
import proofs.«415769_j962072674785_2_alg».proof.Proof.KIReg0

noncomputable section

namespace Cert.KernelIdeal.Hand

open Cert.KernelIdeal Cert.KernelIdeal.Gen
open Idealize.ShloMosaic Idealize.ShloMosaic.TcCoe Idealize.SL.Sem Idealize.SL.RA
open Idealize.ShloMosaic.Pipeline (Dat BodyObligation)

variable {F : FTy → Type} [FloatOps F]

/-- This region and region 0 launch one kernel function: the two definitions have the same body. -/
theorem kernel8_eq : cc8__col_agg_kernel (F := F) = cc0__col_agg_kernel (F := F) := rfl

section Region
variable (V : (c : Dev nD) → (b : Ref sig .tc) → Buf (Elt F) ((c : Thread nD τ).loc b))

def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => out0_3 (iblk8 V c 0 t) (iblk8 V c 1 t) (iblk8 V c 2 t)
  Φ _ := Pipeline.ΦA spec8 c
  q _ := fullShare
  owed _ := 0

theorem A_eq8 (c : Dev nD) (w : Fin cfg8.W) : (dat8 V c).A w = V c (Pipeline.arrRef spec8 w) := by
  dsimp only [dat8]

theorem after8_3 (c : Dev nD) (t : Fin cfg8.N) :
    (dat8 V c).after 3 t = out0_3 (iblk8 V c 0 t) (iblk8 V c 1 t) (iblk8 V c 2 t) := by dsimp only [dat8]

/-- The body hands every input back as it found it, so what it finds there at any point is the array's block. -/
theorem before8_0 (c : Dev nD) (t : Fin cfg8.N) (d) : (dat8 V c).before 0 t d = iblk8 V c 0 t :=
  (dat8 V c).before_in_eq_fetched 0 rfl (fun _ => rfl) (fun _ _ _ => rfl) (fun _ => by dsimp only [dat8]; rfl) t d
theorem before8_1 (c : Dev nD) (t : Fin cfg8.N) (d) : (dat8 V c).before 1 t d = iblk8 V c 1 t :=
  (dat8 V c).before_in_eq_fetched 1 rfl (fun _ => rfl) (fun _ _ _ => rfl) (fun _ => by dsimp only [dat8]; rfl) t d
theorem before8_2 (c : Dev nD) (t : Fin cfg8.N) (d) : (dat8 V c).before 2 t d = iblk8 V c 2 t :=
  (dat8 V c).before_in_eq_fetched 2 rfl (fun _ => rfl) (fun _ _ _ => rfl) (fun _ => by dsimp only [dat8]; rfl) t d

theorem body_obligation8 (c : Dev nD) : BodyObligation (dat8 (F := F) V c) (defs₀ (F := F)) Variants.none () Set.univ := fun t => by
  rw [bigSep_W8, bigSep_W8]
  simp only [before8_0, before8_1, before8_2]
  dsimp only [dat8]
  exact colAgg_body kernel8_eq c (grid8.coords t) _ (hstage8_0 _) _ (hstage8_1 _) _ (hstage8_2 _) _ (hstage8_3 _) _ _ _ _ _ _

end Region

end Cert.KernelIdeal.Hand

end
-- ==== Proof.KIReg9.lean ====
import proofs.«415769_j962072674785_2_alg».proof.Proof.KIReg1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off the array the region is entered with. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- This region and region 1 launch one kernel function: the two definitions have the same body. -/
theorem cc9_eq_cc1 : cc9__col_affine_kernel (F := F) = cc1__col_affine_kernel := rfl

def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => iblk9 V c 4 t
    | ⟨5, _⟩ => out1_5 (iblk9 V c 0 t) (iblk9 V c 1 t) (iblk9 V c 2 t) (iblk9 V c 3 t) (iblk9 V c 4 t)
  Φ _ := Pipeline.ΦA spec9 c
  q _ := fullShare
  owed _ := 0

theorem A_eq9 (c : Dev nD) (w : Fin cfg9.W) : (dat9 V c).A w = V c (Pipeline.arrRef spec9 w) := by
  dsimp only [dat9]

/-- The output's buffer is left at the function's result on what is left in the inputs' buffers. -/
theorem after9_5 (c : Dev nD) (t : Fin cfg9.N) : (dat9 V c).after 5 t
    = out1_5 ((dat9 V c).after 0 t) ((dat9 V c).after 1 t) ((dat9 V c).after 2 t) ((dat9 V c).after 3 t) ((dat9 V c).after 4 t) := by
  dsimp only [dat9]

/-- The body writes no input, so an input's buffer holds the array's block at every point. -/
theorem before9 (c : Dev nD) (w : Fin cfg9.W) (hw : (cfg9.win w).isOut = false) (t : Fin cfg9.N) (d) :
    (dat9 V c).before w t d = (dat9 V c).after w t :=
  match w, hw with
  | ⟨0, _⟩, h | ⟨1, _⟩, h | ⟨2, _⟩, h | ⟨3, _⟩, h | ⟨4, _⟩, h =>
    (dat9 V c).before_in_eq_fetched _ h (fun _ => rfl) (fun _ _ _ => rfl) (fun _ => rfl) t d
  | ⟨5, _⟩, h => nomatch h

/-- The inputs' buffers hold their blocks, so the function's triple applies; the invariant and what the core owes pass through unread. -/
theorem body_obligation9 (c : Dev nD) : BodyObligation (dat9 (F := F) V c) (defs₀ (F := F)) Variants.none () Set.univ := fun t => by
  rw [bigSep_W9, bigSep_W9]
  simp only [before9 V c 0 rfl, before9 V c 1 rfl, before9 V c 2 rfl, before9 V c 3 rfl, before9 V c 4 rfl]
  rw [after9_5, show (dat9 V c).Φ t.succ = (dat9 V c).Φ t.castSucc from rfl,
    show (dat9 V c).owesAt () t.succ = (dat9 V c).owesAt () t.castSucc from rfl]
  show _ ⊢ wp frame _ _ (bodyAt9 t) _
  unfold bodyAt9
  rw [cc9_eq_cc1]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ ((dat9 V c).after 0 t) ((dat9 V c).after 1 t) ((dat9 V c).after 2 t)
    ((dat9 V c).after 3 t) ((dat9 V c).after 4 t) _)
  iframe H0 H1 H2 H3 H4
  isplitl [H5]; · iexists _; iexact H5
  iintro H
  iframe

end Cert.KernelIdeal.Hand

end
-- ==== Proof.KIReg10.lean ====
import proofs.«415769_j962072674785_2_alg».proof.Proof.KIReg2

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- This region and region 2 launch one kernel function: the two definitions have the same body.
theorem kernel10_eq : cc10__row_agg_kernel (F := F) = cc2__row_agg_kernel (F := F) := rfl

theorem hcond10_0 : ∀ t : Fin cfg10.N, cond2_0 (grid10.coords t) ↔ t.val % 8 = 0 := hcond2_0

theorem hcond10_1 : ∀ t : Fin cfg10.N, cond2_1 (grid10.coords t) ↔ t.val % 8 = 7 := hcond2_1

theorem hidle10_3 : ∀ t : Fin cfg10.N, cfg10.idle 3 (cfg10.grid.coords t) = true ↔ ¬t.val % 8 = 7 :=
  (by decide +kernel : ∀ t : Fin grid10.N, idle10 3 (grid10.coords t) = true ↔ ¬t.val % 8 = 7)

def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

def accAt10 (c : Dev nD) : (n : ℕ) → n < cfg10.N → Vec F S2048x1024 .f32
  | 0, hn => k2_pay2 (k2_pay1 (F := F)) (iblk10 V c 0 ⟨0, hn⟩) (iblk10 V c 1 ⟨0, hn⟩)
  | n + 1, hn =>
    if (n + 1) % 8 = 0 then k2_pay2 (k2_pay1 (F := F)) (iblk10 V c 0 ⟨n + 1, hn⟩) (iblk10 V c 1 ⟨n + 1, hn⟩)
    else k2_pay2 (accAt10 c n (Nat.lt_of_succ_lt hn)) (iblk10 V c 0 ⟨n + 1, hn⟩) (iblk10 V c 1 ⟨n + 1, hn⟩)

theorem accAt10_A (c : Dev nD) (t : Fin cfg10.N) (h0 : t.val % 8 = 0) :
    accAt10 V c t.val t.isLt = k2_pay2 (k2_pay1 (F := F)) (iblk10 V c 0 t) (iblk10 V c 1 t) := by
  obtain ⟨n, hn⟩ := t
  cases n with
  | zero => exact rfl
  | succ n => exact (if_pos h0).trans rfl

theorem accAt10_B (c : Dev nD) (t : Fin cfg10.N) (h0 : ¬t.val % 8 = 0) :
    accAt10 V c t.val t.isLt
      = k2_pay2 (accAt10 V c (t.val - 1) (Nat.lt_of_le_of_lt (Nat.sub_le _ _) t.isLt)) (iblk10 V c 0 t) (iblk10 V c 1 t) := by
  obtain ⟨n, hn⟩ := t
  cases n with
  | zero => exact absurd (Nat.zero_mod _) h0
  | succ n => exact (if_neg h0).trans rfl

theorem accAt10_congr (c : Dev nD) {n n' : ℕ} (h : n = n') (hn : n < cfg10.N) (hn' : n' < cfg10.N) :
    accAt10 V c n hn = accAt10 V c n' hn' := by subst h; rfl

def Φ10 (c : Dev nD) (t : Fin (cfg10.N + 1)) : sProp 𝕄 :=
  iprop((∃ X : Vec F S2048x1024 .f32, ⌜∀ h : 0 < t.val, X = accAt10 V c (t.val - 1) (by have := t.isLt; omega)⌝
        ∗ owns (c : Thread nD τ) (Memref.whole cc10_scratch0 : Memref sig .tc .vmem S2048x1024 .f32) fullShare X)
    ∗ Pipeline.scopedRestBut (Ix := Unit) (Name := ℕ) (U := UR sig nD τ) (Lvl := ℕ) (Val := Elt F) spec10 c [cc10_scratch0]
    ∗ ∃ r, prngReg c r)

def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => out2_3 (accAt10 V c t.val t.isLt) (iblk10 V c 2 t)
  Φ t := Φ10 V c t
  q _ := fullShare
  owed _ := 0

theorem A_eq10 (c : Dev nD) (w : Fin cfg10.W) : (dat10 V c).A w = V c (Pipeline.arrRef spec10 w) := by
  dsimp only [dat10]

theorem Φ_eq10 (c : Dev nD) (t : Fin (cfg10.N + 1)) : (dat10 V c).Φ t = Φ10 V c t := by dsimp only [dat10]

theorem after10_0 (c : Dev nD) (t : Fin cfg10.N) : (dat10 V c).after 0 t = iblk10 V c 0 t := by dsimp only [dat10]

theorem after10_1 (c : Dev nD) (t : Fin cfg10.N) : (dat10 V c).after 1 t = iblk10 V c 1 t := by dsimp only [dat10]

theorem after10_2 (c : Dev nD) (t : Fin cfg10.N) : (dat10 V c).after 2 t = iblk10 V c 2 t := by dsimp only [dat10]

theorem after10_3 (c : Dev nD) (t : Fin cfg10.N) :
    (dat10 V c).after 3 t = out2_3 (accAt10 V c t.val t.isLt) (iblk10 V c 2 t) := by dsimp only [dat10]

theorem before10_0 (c : Dev nD) (t : Fin cfg10.N) (d) : (dat10 V c).before 0 t d = iblk10 V c 0 t :=
  ((dat10 V c).before_in_eq_fetched 0 rfl (fun _ => rfl) (fun _ _ _ => rfl) (fun _ => rfl) t d).trans rfl
theorem before10_1 (c : Dev nD) (t : Fin cfg10.N) (d) : (dat10 V c).before 1 t d = iblk10 V c 1 t :=
  ((dat10 V c).before_in_eq_fetched 1 rfl (fun _ => rfl) (fun _ _ _ => rfl) (fun _ => rfl) t d).trans rfl
theorem before10_2 (c : Dev nD) (t : Fin cfg10.N) (d) : (dat10 V c).before 2 t d = iblk10 V c 2 t :=
  ((dat10 V c).before_in_eq_fetched 2 rfl (fun _ => rfl) (fun _ _ _ => rfl) (fun _ => rfl) t d).trans rfl

def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d))
    ∗ (∃ d, owns (c : Thread nD τ) (st10_3 t) fullShare ((dat10 V c).before 3 t d)))

def bodyPost10 (c : Dev nD) (t : Fin cfg10.N) : sProp 𝕄 :=
  iprop((dat10 V c).Φ t.succ ∗ (dat10 V c).owesAt () t.succ
    ∗ owns (c : Thread nD τ) (st10_0 t) fullShare ((dat10 V c).after 0 t)
    ∗ owns (c : Thread nD τ) (st10_1 t) fullShare ((dat10 V c).after 1 t)
    ∗ owns (c : Thread nD τ) (st10_2 t) fullShare ((dat10 V c).after 2 t)
    ∗ (dat10 V c).leavesExact 3 t)

set_option maxHeartbeats 1000000 in
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  rw [kernel10_eq]
  simp only [before10_0, before10_1, before10_2]
  rw [show (dat10 V c).owesAt () t.succ = (dat10 V c).owesAt () t.castSucc from rfl,
    after10_0, after10_1, after10_2, Φ_eq10, Φ_eq10]
  have hN : t.val < 16 := lt_of_lt_of_eq t.isLt (show cfg10.N = 16 from N_10)
  have hsucc : ∀ h, accAt10 V c (t.succ.val - 1) h = accAt10 V c t.val t.isLt := fun h =>
    accAt10_congr V c (by rw [Fin.val_succ]; omega) _ _
  unfold Φ10
  by_cases h7 : t.val % 8 = 7
  · have h0 : ¬t.val % 8 = 0 := by omega
    have hi : cfg10.idle 3 (cfg10.grid.coords t) = false := by
      rw [← Bool.not_eq_true]; exact fun h => (hidle10_3 t).mp h h7
    rw [show (dat10 V c).leavesExact 3 t = owns (c : Thread nD τ) (st10_3 t) fullShare ((dat10 V c).after 3 t) from by
      unfold Dat.leavesExact; rw [hi]]
    rw [after10_3, accAt10_B V c t h0]
    iintro ⟨⟨⟨%X, %hX, Hs⟩, Hrest, Hprng⟩, Ho, ⟨%d0, H0⟩, ⟨%d1, H1⟩, ⟨%d2, H2⟩, ⟨%d3, H3⟩⟩
    obtain rfl := hX (by rw [Fin.coe_castSucc]; omega)
    iapply (sound_kernel2_C c Set.univ (grid10.coords t) _ _ _ _ _ _ _ _ _ _ (fun h => h0 ((hcond10_0 t).mp h)) ((hcond10_1 t).mpr h7)
      (iblk10 V c 0 t) (iblk10 V c 1 t) (iblk10 V c 2 t) _ _)
    iframe H0 H1 H2 Hs
    isplitl [H3]; · iexists _; iexact H3
    iintro ⟨H0, H1, H2, H3, Hs⟩
    iframe Hrest Hprng Ho H0 H1 H2
    isplitl [Hs]
    · iexists _; isplitr
      swap; · iexact Hs
      ipureintro; intro h; rw [hsucc, accAt10_B V c t h0]; rfl
    iexact H3
  · have hi : cfg10.idle 3 (cfg10.grid.coords t) = true := (hidle10_3 t).mpr h7
    have hf : (cfg10.win 3).flush t = false := by
      rw [← Bool.not_eq_true]; exact fun h => h7 ((flush10_3 t).mp h)
    rw [(dat10 V c).leavesExact_idle 3 t hi hf]
    by_cases h0 : t.val % 8 = 0
    · iintro ⟨⟨⟨%X, %hX, Hs⟩, Hrest, Hprng⟩, Ho, ⟨%d0, H0⟩, ⟨%d1, H1⟩, ⟨%d2, H2⟩, ⟨%d3, H3⟩⟩
      iapply (sound_kernel2_A c Set.univ (grid10.coords t) _ _ _ _ _ _ _ _ _ _ ((hcond10_0 t).mpr h0) (fun h => h7 ((hcond10_1 t).mp h))
        (iblk10 V c 0 t) (iblk10 V c 1 t) (iblk10 V c 2 t) _ _)
      iframe H0 H1 H2 H3
      isplitl [Hs]; · iexists _; iexact Hs
      iintro ⟨H0, H1, H2, H3, Hs⟩
      iframe Hrest Hprng Ho H0 H1 H2
      isplitl [Hs]
      · iexists _; isplitr
        swap; · iexact Hs
        ipureintro; intro h; rw [hsucc, accAt10_A V c t h0]
      iexists _; iexact H3
    · iintro ⟨⟨⟨%X, %hX, Hs⟩, Hrest, Hprng⟩, Ho, ⟨%d0, H0⟩, ⟨%d1, H1⟩, ⟨%d2, H2⟩, ⟨%d3, H3⟩⟩
      obtain rfl := hX (by rw [Fin.coe_castSucc]; omega)
      iapply (sound_kernel2_B c Set.univ (grid10.coords t) _ _ _ _ _ _ _ _ _ _ (fun h => h0 ((hcond10_0 t).mp h)) (fun h => h7 ((hcond10_1 t).mp h))
        (iblk10 V c 0 t) (iblk10 V c 1 t) (iblk10 V c 2 t) _ _ _)
      iframe H0 H1 H2 H3 Hs
      iintro ⟨H0, H1, H2, H3, Hs⟩
      iframe Hrest Hprng Ho H0 H1 H2
      isplitl [Hs]
      · iexists _; isplitr
        swap; · iexact Hs
        ipureintro; intro h; rw [hsucc, accAt10_B V c t h0]; rfl
      iexists _; iexact H3

theorem body_obligation10 (c : Dev nD) : BodyObligation (dat10 (F := F) V c) (defs₀ (F := F)) Variants.none () Set.univ := fun t => by
  rw [bigSep_W10, bigSep_W10]
  exact sound_body10 V c t

theorem Φ_in10 (c : Dev nD) :
    iprop((∃ r, prngReg c r) ∗ Pipeline.scopedRest (Ix := Unit) (Name := ℕ) (U := UR sig nD τ) (Lvl := ℕ) (Val := Elt F) spec10 c)
      ⊢ (dat10 V c).Φ 0 := by
  rw [Φ_eq10, scopedRest10_split]; unfold Φ10
  simp only [owns_whole]
  iintro ⟨Hprng, ⟨%f, Hs⟩, Hrest⟩
  isplitl [Hs]
  · iexists f; isplitr
    · ipureintro; intro h; exact absurd h (Nat.lt_irrefl 0)
    iexact Hs
  isplitl [Hrest]; · iexact Hrest
  iexact Hprng

theorem Φ_out10 (c : Dev nD) :
    (dat10 V c).Φ (Fin.last cfg10.N)
      ⊢ iprop((∃ r, prngReg c r) ∗ Pipeline.scopedRest (Ix := Unit) (Name := ℕ) (U := UR sig nD τ) (Lvl := ℕ) (Val := Elt F) spec10 c) := by
  rw [Φ_eq10, scopedRest10_split]; unfold Φ10
  simp only [owns_whole]
  iintro ⟨⟨%X, -, Hs⟩, Hrest, Hprng⟩
  isplitl [Hprng]; · iexact Hprng
  isplitl [Hs]
  · iexists X; iexact Hs
  iexact Hrest

end Cert.KernelIdeal.Hand

end
-- ==== Proof.KIReg11.lean ====
import proofs.«415769_j962072674785_2_alg».proof.Proof.KIReg3

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region11

variable (V : (c : Dev nD) → (b : Ref sig .tc) → Buf (Elt F) ((c : Thread nD τ).loc b))

def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-- This region and region 3 launch one kernel function: the two definitions have the same body. -/
theorem cc11_eq3 : cc11__row_affine_kernel (F := F) = cc3__row_affine_kernel (F := F) := rfl

def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => iblk11 V c 3 t
    | ⟨4, _⟩ => iblk11 V c 4 t
    | ⟨5, _⟩ => out3_5 (iblk11 V c 0 t) (iblk11 V c 1 t) (iblk11 V c 2 t) (iblk11 V c 3 t) (iblk11 V c 4 t)
  Φ _ := Pipeline.ΦA spec11 c
  q _ := fullShare
  owed _ := 0

theorem A_eq11 (c : Dev nD) (w : Fin cfg11.W) : (dat11 V c).A w = V c (Pipeline.arrRef spec11 w) := by
  dsimp only [dat11]

theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = iblk11 V c 2 t := by dsimp only [dat11]
theorem after11_3 (c : Dev nD) (t : Fin cfg11.N) : (dat11 V c).after 3 t = iblk11 V c 3 t := by dsimp only [dat11]
theorem after11_4 (c : Dev nD) (t : Fin cfg11.N) : (dat11 V c).after 4 t = iblk11 V c 4 t := by dsimp only [dat11]
theorem after11_5 (c : Dev nD) (t : Fin cfg11.N) : (dat11 V c).after 5 t
    = out3_5 (iblk11 V c 0 t) (iblk11 V c 1 t) (iblk11 V c 2 t) (iblk11 V c 3 t) (iblk11 V c 4 t) := by dsimp only [dat11]

/-- The body leaves each input's block in place, so its buffer holds the block at every point. -/
theorem before11_0 (c : Dev nD) (t : Fin cfg11.N) (d) : (dat11 V c).before 0 t d = iblk11 V c 0 t :=
  (dat11 V c).before_in_eq_fetched 0 rfl (fun _ => rfl) (fun _ _ _ => rfl) (fun _ => rfl) t d
theorem before11_1 (c : Dev nD) (t : Fin cfg11.N) (d) : (dat11 V c).before 1 t d = iblk11 V c 1 t :=
  (dat11 V c).before_in_eq_fetched 1 rfl (fun _ => rfl) (fun _ _ _ => rfl) (fun _ => rfl) t d
theorem before11_2 (c : Dev nD) (t : Fin cfg11.N) (d) : (dat11 V c).before 2 t d = iblk11 V c 2 t :=
  (dat11 V c).before_in_eq_fetched 2 rfl (fun _ => rfl) (fun _ _ _ => rfl) (fun _ => rfl) t d
theorem before11_3 (c : Dev nD) (t : Fin cfg11.N) (d) : (dat11 V c).before 3 t d = iblk11 V c 3 t :=
  (dat11 V c).before_in_eq_fetched 3 rfl (fun _ => rfl) (fun _ _ _ => rfl) (fun _ => rfl) t d
theorem before11_4 (c : Dev nD) (t : Fin cfg11.N) (d) : (dat11 V c).before 4 t d = iblk11 V c 4 t :=
  (dat11 V c).before_in_eq_fetched 4 rfl (fun _ => rfl) (fun _ _ _ => rfl) (fun _ => rfl) t d

/-- The inputs' buffers hold their blocks, so region 3's triple of the kernel body applies. -/
theorem body_obligation11 (c : Dev nD) : BodyObligation (dat11 (F := F) V c) (defs₀ (F := F)) Variants.none () Set.univ := fun t => by
  rw [bigSep_W11, bigSep_W11]
  simp only [before11_0, before11_1, before11_2, before11_3, before11_4]
  show _ ⊢ wp frame _ _ (bodyAt11 t) _
  unfold bodyAt11
  rw [cc11_eq3, show (dat11 V c).Φ t.succ = (dat11 V c).Φ t.castSucc from rfl,
    show (dat11 V c).owesAt () t.succ = (dat11 V c).owesAt () t.castSucc from rfl,
    after11_0, after11_1, after11_2, after11_3, after11_4, after11_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ)
  iframe H0 H1 H2 H3 H4
  isplitl [H5]; · iexists _; iexact H5
  iintro ⟨H0, H1, H2, H3, H4, H5⟩
  iframe

end Region11

end Cert.KernelIdeal.Hand

end
-- ==== Proof.KIRun.lean ====
import proofs.«415769_j962072674785_2_alg».proof.Proof.Gen.KernelIdeal.Regions
import proofs.«415769_j962072674785_2_alg».proof.Proof.Gen.KernelIdeal.Skeleton
import proofs.«415769_j962072674785_2_alg».proof.Proof.KIReg0
import proofs.«415769_j962072674785_2_alg».proof.Proof.KIReg1
import proofs.«415769_j962072674785_2_alg».proof.Proof.KIReg2
import proofs.«415769_j962072674785_2_alg».proof.Proof.KIReg3
import proofs.«415769_j962072674785_2_alg».proof.Proof.KIReg4
import proofs.«415769_j962072674785_2_alg».proof.Proof.KIReg5
import proofs.«415769_j962072674785_2_alg».proof.Proof.KIReg6
import proofs.«415769_j962072674785_2_alg».proof.Proof.KIReg7
import proofs.«415769_j962072674785_2_alg».proof.Proof.KIReg8
import proofs.«415769_j962072674785_2_alg».proof.Proof.KIReg9
import proofs.«415769_j962072674785_2_alg».proof.Proof.KIReg10
import proofs.«415769_j962072674785_2_alg».proof.Proof.KIReg11
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)

abbrev atTc (W : Dev nD → Valuation τ sig (Elt F)) : (c : Dev nD) → (b : Ref sig .tc) → Buf (Elt F) ((c : Thread nD τ).loc b) :=
  fun c b => W c b

theorem ΦA_in {gr W : Nat} (win : Fin W → Pipeline.WinSpec sig gr) (c : Dev nD) :
    iprop((∃ r, prngReg c r) ∗ Pipeline.scopedRest (Ix := Unit) (Name := ℕ) (U := UR sig nD τ) (Lvl := ℕ) (Val := Elt F) win c)
      ⊢ (Pipeline.ΦA win c : sProp 𝕄) := by
  unfold Pipeline.ΦA
  iintro ⟨Hp, Hr⟩
  isplitl [Hr]; · iexact Hr
  iexact Hp
theorem ΦA_out {gr W : Nat} (win : Fin W → Pipeline.WinSpec sig gr) (c : Dev nD) :
    (Pipeline.ΦA win c : sProp 𝕄)
      ⊢ iprop((∃ r, prngReg c r) ∗ Pipeline.scopedRest (Ix := Unit) (Name := ℕ) (U := UR sig nD τ) (Lvl := ℕ) (Val := Elt F) win c) := by
  unfold Pipeline.ΦA
  iintro ⟨Hr, Hp⟩
  isplitl [Hp]; · iexact Hp
  iexact Hr

section Generic

variable (p : Fin 12) (d : (c : Dev nD) → Dat τ (Elt F) Unit ℕ (UR sig nD τ) ℕ (Pipeline.pin (pcfgs (F := F)) adm p) c)
  (W : Dev nD → Valuation τ sig (Elt F))

/-- What a host stretch makes of the valuation `W`. -/
abbrev hostW (ops : List (HloOp τ sig (Elt F))) : Dev nD → Valuation τ sig (Elt F) := fun c => StableHlo.after ops (W c)

/-- Region `p`'s exit valuation from the entry valuation `W`: each array of the region at its final contents, all else as in `W`. -/
def regW (c : Dev nD) : Valuation τ sig (Elt F) :=
  Pipeline.withArrays (cfgs p).spec c (W c) fun w => (d c).arrAt w (cfgs p).N

variable {p}

theorem regW_arr (hl : Pipeline.LaunchFacts (nD := nD) (τ := τ) cfgs p) (c : Dev nD) (w : Fin (cfgs p).W) :
    regW p d W c (Proc.devRef .tc (Pipeline.arrRef (cfgs p).spec w)) = (d c).arrAt w (cfgs p).N :=
  Pipeline.withArrays_arr _ hl.win.arr_inj c _ _ w

theorem regW_of_ne (c : Dev nD) (b : Ref sig .tc) (hb : ∀ w, Pipeline.arrRef (cfgs p).spec w ≠ b) :
    regW p d W c (Proc.devRef .tc b) = W c (Proc.devRef .tc b) :=
  Pipeline.withArrays_of_ne _ c _ _ b hb

/-- A host stretch and the region after it leave alone a buffer the stretch does not write and the region has not as an array. -/
theorem regW_hostW_of {ops : List (HloOp τ sig (Elt F))} {Wl : List (Ref sig .tc)}
    (hW : ops.Forall fun op => op.writes ⊆ (Wl.map (Proc.devRef (τ := τ) .tc)).toFinset) (c : Dev nD) (r : Ref sig .tc)
    (h : r ∉ Wl ∧ ∀ w, Pipeline.arrRef (cfgs p).spec w ≠ r) :
    regW p d (hostW W ops) c (Proc.devRef .tc r) = W c (Proc.devRef .tc r) :=
  (regW_of_ne d _ c r h.2).trans (StableHlo.after_of_writes_sub ops _ hW h.1)

end Generic

section Generic

variable (pd : (p : Fin 12) → (c : Dev nD) → Dat τ (Elt F) Unit ℕ (UR sig nD τ) ℕ (Pipeline.pin (pcfgs (F := F)) adm p) c)

set_option backward.isDefEq.respectTransparency.types false in
/-- Region `p` as a segment from `Wi` to `regW p (pd p) Wi`: entry splits the region's arrays off `Wi`, exit joins their final contents back. -/
def regOf (p : Fin 12) (hl : Pipeline.LaunchFacts (nD := nD) (τ := τ) cfgs p)
    (Wi : Dev nD → Valuation τ sig (Elt F))
    (hbody : ∀ c, BodyObligation (pd p c) (defs₀ (F := F)) Variants.none () Set.univ)
    (hA : ∀ c w, (pd p c).A w = atTc Wi c (Pipeline.arrRef (cfgs p).spec w))
    (hΦin : ∀ c, iprop((∃ r, prngReg c r) ∗ Pipeline.scopedRest (Ix := Unit) (Name := ℕ) (U := UR sig nD τ) (Lvl := ℕ) (Val := Elt F) (cfgs p).spec c)
      ⊢ (pd p c).Φ 0)
    (hΦout : ∀ c, (pd p c).Φ (Fin.last (cfgs p).N)
      ⊢ iprop((∃ r, prngReg c r) ∗ Pipeline.scopedRest (Ix := Unit) (Name := ℕ) (U := UR sig nD τ) (Lvl := ℕ) (Val := Elt F) (cfgs p).spec c))
    (hq : ∀ c w, (pd p c).q w = fullShare := by exact fun _ _ => rfl)
    (howed : ∀ c t, (pd p c).owed t = 0 := by exact fun _ _ => rfl)
    (hrec : ∀ c, (pd p c).recorded 0 = Set.univ := by exact fun _ => rfl) :
    Pipeline.RegionSeg (pcfgs (F := F)) adm pd () defs₀ 𝒱₀ L lv p where
  win := hl.win.to₀
  block_pos := hl.block_pos
  stage_whole := hl.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (Wi c) ∗ R c)
  post c := iprop(StableHlo.held (c : Thread nD τ) (Pipeline.ucRefs τ sig) (regW p (pd p) Wi c) ∗ R c)
  X c := iprop(∃ r, prngReg c r)
  Y c := iprop(∃ r, prngReg c r)
  Z c := Pipeline.unscopedRest (Ix := Unit) (Name := ℕ) (U := UR sig nD τ) (Lvl := ℕ) (cfgs p).spec c (atTc Wi c)
  hentry c := by
    rw [Pipeline.ownSems0_none]
    have hsplit := Pipeline.arrays_of_unscopedBufs (p := p) (pcfgs (F := F)) adm pd hl.win hl.arr_whole c
      ((pd p c).share_full (hq c)) (atTc Wi c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c 0]
      icases HO with ⟨%W, HO⟩; iexists W; isplitr; · ipureintro; exact fun x _ => Or.inl (by rw [hrec c]; exact Set.mem_univ x)
      iexact HO
    isplitl [Hp]; · iexact Hp
    iexact Hrest
  hin c := by
    iintro ⟨Hp, -, Hr⟩
    iapply hΦin c
    isplitl [Hp]; · iexact Hp
    iexact Hr
  hout c := by
    rw [Pipeline.ownSems0_none]
    refine (hΦout c).trans ?_
    iintro ⟨Hp, Hr⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      hl.win hl.arr_whole c pd ((pd p c).share_full (hq c))
      (atTc Wi c) (atTc (regW p (pd p) Wi) c) ((pd p c).arrAt · (cfgs p).N) (fun w => (regW_arr (pd p) Wi hl c w).symm)
      fun b hb => regW_of_ne (pd p) Wi c b fun w e => hb (Finset.mem_image.mpr ⟨w, Finset.mem_univ _, e⟩)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c (Fin.last _)]
    icases HO with ⟨%W, -, HO⟩; iexists W; iexact HO

end Generic

abbrev W0 (m : (ℓ : Loc nD τ sig) → Buf (Elt F) ℓ) (ρ : Dev nD → PrngReg) : Dev nD → Valuation τ sig (Elt F) :=
  fun c b => m ((c : Dev nD), b)

abbrev W1 := hostW (W0 m ρ) hostOps0
def W2 := regW 0 (dat0 (atTc (W1 m ρ))) (W1 m ρ)
abbrev W3 := hostW (W2 m ρ) hostOps1
def W4 := regW 1 (dat1 (atTc (W3 m ρ))) (W3 m ρ)
abbrev W5 := hostW (W4 m ρ) hostOps2
def W6 := regW 2 (dat2 (atTc (W5 m ρ))) (W5 m ρ)
abbrev W7 := hostW (W6 m ρ) hostOps3
def W8 := regW 3 (dat3 (atTc (W7 m ρ))) (W7 m ρ)
abbrev W9 := hostW (W8 m ρ) hostOps4
def W10 := regW 4 (dat4 (atTc (W9 m ρ))) (W9 m ρ)
abbrev W11 := hostW (W10 m ρ) hostOps5
def W12 := regW 5 (dat5 (atTc (W11 m ρ))) (W11 m ρ)
abbrev W13 := hostW (W12 m ρ) hostOps6
def W14 := regW 6 (dat6 (atTc (W13 m ρ))) (W13 m ρ)
abbrev W15 := hostW (W14 m ρ) hostOps7
def W16 := regW 7 (dat7 (atTc (W15 m ρ))) (W15 m ρ)
abbrev W17 := hostW (W16 m ρ) hostOps8
def W18 := regW 8 (dat8 (atTc (W17 m ρ))) (W17 m ρ)
abbrev W19 := hostW (W18 m ρ) hostOps9
def W20 := regW 9 (dat9 (atTc (W19 m ρ))) (W19 m ρ)
abbrev W21 := hostW (W20 m ρ) hostOps10
def W22 := regW 10 (dat10 (atTc (W21 m ρ))) (W21 m ρ)
abbrev W23 := hostW (W22 m ρ) hostOps11
def W24 := regW 11 (dat11 (atTc (W23 m ρ))) (W23 m ρ)

/-- The references each host stretch may write. -/
abbrev opsW : Fin 12 → List (Ref sig .tc) :=
  ![hostOps0_W, hostOps1_W, hostOps2_W, hostOps3_W, hostOps4_W, hostOps5_W, hostOps6_W, hostOps7_W, hostOps8_W, hostOps9_W, hostOps10_W, hostOps11_W]

/-- A buffer that no host stretch writes and no region has as an array ends as launched. -/
theorem W24_launched (c : Dev nD) (r : Ref sig .tc) (h : ∀ p, r ∉ opsW p ∧ ∀ w, Pipeline.arrRef (cfgs p).spec w ≠ r) :
    W24 m ρ c (Proc.devRef .tc r) = m ((c : Thread nD τ).loc r) :=
  (regW_hostW_of _ _ hostOps11_writes c r (h 11)).trans <|
  (regW_hostW_of _ _ hostOps10_writes c r (h 10)).trans <|
  (regW_hostW_of _ _ hostOps9_writes c r (h 9)).trans <|
  (regW_hostW_of _ _ hostOps8_writes c r (h 8)).trans <|
  (regW_hostW_of _ _ hostOps7_writes c r (h 7)).trans <|
  (regW_hostW_of _ _ hostOps6_writes c r (h 6)).trans <|
  (regW_hostW_of _ _ hostOps5_writes c r (h 5)).trans <|
  (regW_hostW_of _ _ hostOps4_writes c r (h 4)).trans <|
  (regW_hostW_of _ _ hostOps3_writes c r (h 3)).trans <|
  (regW_hostW_of _ _ hostOps2_writes c r (h 2)).trans <|
  (regW_hostW_of _ _ hostOps1_writes c r (h 1)).trans <|
  regW_hostW_of _ _ hostOps0_writes c r (h 0)

theorem W24_main_arg0 (c : Dev nD) : W24 m ρ c (Proc.devRef .tc main_arg0) = m ((c : Thread nD τ).loc main_arg0) :=
  W24_launched m ρ c _ (by decide)
theorem W24_main_arg1 (c : Dev nD) : W24 m ρ c (Proc.devRef .tc main_arg1) = m ((c : Thread nD τ).loc main_arg1) :=
  W24_launched m ρ c _ (by decide)
theorem W24_main_arg2 (c : Dev nD) : W24 m ρ c (Proc.devRef .tc main_arg2) = m ((c : Thread nD τ).loc main_arg2) :=
  W24_launched m ρ c _ (by decide)
theorem W24_main_arg3 (c : Dev nD) : W24 m ρ c (Proc.devRef .tc main_arg3) = m ((c : Thread nD τ).loc main_arg3) :=
  W24_launched m ρ c _ (by decide)
theorem W24_main_arg4 (c : Dev nD) : W24 m ρ c (Proc.devRef .tc main_arg4) = m ((c : Thread nD τ).loc main_arg4) :=
  W24_launched m ρ c _ (by decide)
theorem W24_main_arg5 (c : Dev nD) : W24 m ρ c (Proc.devRef .tc main_arg5) = m ((c : Thread nD τ).loc main_arg5) :=
  W24_launched m ρ c _ (by decide)
theorem W24_main_arg6 (c : Dev nD) : W24 m ρ c (Proc.devRef .tc main_arg6) = m ((c : Thread nD τ).loc main_arg6) :=
  W24_launched m ρ c _ (by decide)
theorem W24_main_arg7 (c : Dev nD) : W24 m ρ c (Proc.devRef .tc main_arg7) = m ((c : Thread nD τ).loc main_arg7) :=
  W24_launched m ρ c _ (by decide)
theorem W24_main_arg8 (c : Dev nD) : W24 m ρ c (Proc.devRef .tc main_arg8) = m ((c : Thread nD τ).loc main_arg8) :=
  W24_launched m ρ c _ (by decide)

def pdats : (p : Fin 12) → (c : Dev nD) → Dat τ (Elt F) Unit ℕ (UR sig nD τ) ℕ (Pipeline.pin (pcfgs (F := F)) adm p) c
  | ⟨0, _⟩ => dat0 (atTc (W1 m ρ))
  | ⟨1, _⟩ => dat1 (atTc (W3 m ρ))
  | ⟨2, _⟩ => dat2 (atTc (W5 m ρ))
  | ⟨3, _⟩ => dat3 (atTc (W7 m ρ))
  | ⟨4, _⟩ => dat4 (atTc (W9 m ρ))
  | ⟨5, _⟩ => dat5 (atTc (W11 m ρ))
  | ⟨6, _⟩ => dat6 (atTc (W13 m ρ))
  | ⟨7, _⟩ => dat7 (atTc (W15 m ρ))
  | ⟨8, _⟩ => dat8 (atTc (W17 m ρ))
  | ⟨9, _⟩ => dat9 (atTc (W19 m ρ))
  | ⟨10, _⟩ => dat10 (atTc (W21 m ρ))
  | ⟨11, _⟩ => dat11 (atTc (W23 m ρ))

/-- The host stretch `ops` as a segment from `W` to `hostW W ops`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W24 m ρ c) ∗ ∃ r, prngReg c r)

def reg0 := regOf (pdats m ρ) 0 launch0 (W1 m ρ) (body_obligation0 _) (A_eq0 _) (ΦA_in spec0) (ΦA_out spec0)
def reg1 := regOf (pdats m ρ) 1 launch1 (W3 m ρ) (body_obligation1 _) (A_eq1 _) (ΦA_in spec1) (ΦA_out spec1)
def reg2 := regOf (pdats m ρ) 2 launch2 (W5 m ρ) (body_obligation2 _) (A_eq2 _) (Φ_in2 _) (Φ_out2 _)
def reg3 := regOf (pdats m ρ) 3 launch3 (W7 m ρ) (body_obligation3 _) (A_eq3 _) (ΦA_in spec3) (ΦA_out spec3)
def reg4 := regOf (pdats m ρ) 4 launch4 (W9 m ρ) (body_obligation4 _) (A_eq4 _) (ΦA_in spec4) (ΦA_out spec4)
def reg5 := regOf (pdats m ρ) 5 launch5 (W11 m ρ) (body_obligation5 _) (A_eq5 _) (ΦA_in spec5) (ΦA_out spec5)
def reg6 := regOf (pdats m ρ) 6 launch6 (W13 m ρ) (body_obligation6 _) (A_eq6 _) (Φ_in6 _) (Φ_out6 _)
def reg7 := regOf (pdats m ρ) 7 launch7 (W15 m ρ) (body_obligation7 _) (A_eq7 _) (ΦA_in spec7) (ΦA_out spec7)
def reg8 := regOf (pdats m ρ) 8 launch8 (W17 m ρ) (body_obligation8 _) (A_eq8 _) (ΦA_in spec8) (ΦA_out spec8)
def reg9 := regOf (pdats m ρ) 9 launch9 (W19 m ρ) (body_obligation9 _) (A_eq9 _) (ΦA_in spec9) (ΦA_out spec9)
def reg10 := regOf (pdats m ρ) 10 launch10 (W21 m ρ) (body_obligation10 _) (A_eq10 _) (Φ_in10 _) (Φ_out10 _)
def reg11 := regOf (pdats m ρ) 11 launch11 (W23 m ρ) (body_obligation11 _) (A_eq11 _) (ΦA_in spec11) (ΦA_out spec11)

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)),
    .region (reg5 m ρ),
    .host (hseg hostOps6 hostOps6_sub hostOps6_fresh (W12 m ρ)),
    .region (reg6 m ρ),
    .host (hseg hostOps7 hostOps7_sub hostOps7_fresh (W14 m ρ)),
    .region (reg7 m ρ),
    .host (hseg hostOps8 hostOps8_sub hostOps8_fresh (W16 m ρ)),
    .region (reg8 m ρ),
    .host (hseg hostOps9 hostOps9_sub hostOps9_fresh (W18 m ρ)),
    .region (reg9 m ρ),
    .host (hseg hostOps10 hostOps10_sub hostOps10_fresh (W20 m ρ)),
    .region (reg10 m ρ),
    .host (hseg hostOps11 hostOps11_sub hostOps11_fresh (W22 m ρ)),
    .region (reg11 m ρ) ]
theorem main_run (c : Dev nD) : main (F := F) c = Pipeline.Seg.run (segs m ρ) := (main_chain c).trans (by chain_rfl)

set_option backward.isDefEq.respectTransparency.types false in
theorem run_of {Q : PUnit × MemSt nD τ sig (Elt F) → Prop}
    (hQ : ∀ s : MemSt nD τ sig (Elt F),
      (∀ c : Dev nD, ∀ b ∈ Pipeline.ucRefs τ sig, s.mem (((c : Thread nD τ)).1, b) = W24 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (W24 m ρ c) ∗ R c)
          ⊢ iprop(Tₙ m ρ c ∗ ∃ W, owes (c : Thread nD τ) (0 : CellTallies nD τ sig Unit) W)
        iintro ⟨Hh, Hp, HO⟩
        isplitl [Hh Hp]
        · isplitl [Hh] <;> iassumption
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W24 m ρ c b)
    (hfin := fun c s' => by
      iintro ⟨⟨Hh, -⟩, HSI⟩
      unfold StableHlo.held
      imodintro
      iapply (pointsTo_read_all (Pipeline.ucRefs τ sig) (fun b => (((c : Thread nD τ)).1, b)) (W24 m ρ c) s')
      isplitl [Hh] <;> iassumption)
    (hQ := hQ)

theorem run : θ_run defs (onTc (τ := τ) (main (F := F))) ⟨m, fun _ => 0, ρ⟩
    (fun r => ∀ c : Dev nD, ∀ b ∈ Pipeline.ucRefs τ sig, r.2.mem (((c : Thread nD τ)).1, b) = W24 m ρ c b) :=
  run_of m ρ fun _ h => h

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  run_of m ρ fun s h c =>
    ⟨(h c _ (mem_uc main_arg0 (by decide))).trans (W24_main_arg0 m ρ c),
     (h c _ (mem_uc main_arg1 (by decide))).trans (W24_main_arg1 m ρ c),
     (h c _ (mem_uc main_arg2 (by decide))).trans (W24_main_arg2 m ρ c),
     (h c _ (mem_uc main_arg3 (by decide))).trans (W24_main_arg3 m ρ c),
     (h c _ (mem_uc main_arg4 (by decide))).trans (W24_main_arg4 m ρ c),
     (h c _ (mem_uc main_arg5 (by decide))).trans (W24_main_arg5 m ρ c),
     (h c _ (mem_uc main_arg6 (by decide))).trans (W24_main_arg6 m ρ c),
     (h c _ (mem_uc main_arg7 (by decide))).trans (W24_main_arg7 m ρ c),
     (h c _ (mem_uc main_arg8 (by decide))).trans (W24_main_arg8 m ρ c)⟩

/-- info: 'Cert.KernelIdeal.Hand.frame' depends on axioms: [propext, Classical.choice, Quot.sound] -/
#guard_msgs in #print axioms frame

end Cert.KernelIdeal.Hand

end
-- ==== Proof.KIVal0.lean ====
import proofs.«415769_j962072674785_2_alg».proof.Proof.KIReg0
import proofs.«415769_j962072674785_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

theorem lhs_agg0_0 (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem lhs_agg0_1 (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q
theorem rhs_agg0_0 (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q
theorem rhs_agg0_1 (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

theorem matmul_agg0_apply (a : FVec Ideal S512x1024 .bf16) (b : FVec Ideal S1024x1024 .bf16) (p : Fin 512) (q : Fin 1024) :
    matmul dot_S512x1024_S1024x1024_S512x1024_1_0_0_1_n_n none a b (constant (F := Ideal) S512x1024 .f32 0x00000000#32) (ix2 p q)
      = ∑ k : Fin 1024, a (ix2 p k) * b (ix2 k q) := by
  simp only [matmul]
  rw [Ideal.matmul_constant_zero_apply, ← Equiv.sum_comp (contrEquiv1 dot_S512x1024_S1024x1024_S512x1024_1_0_0_1_n_n 1024 rfl rfl).symm]
  refine Finset.sum_congr rfl fun k _ => ?_
  have hk := contrEquiv1_symm_val dot_S512x1024_S1024x1024_S512x1024_1_0_0_1_n_n 1024 rfl rfl k
  have el : dot_S512x1024_S1024x1024_S512x1024_1_0_0_1_n_n.lhsIdx (ix2 p q) ((contrEquiv1 dot_S512x1024_S1024x1024_S512x1024_1_0_0_1_n_n 1024 rfl rfl).symm k) = ix2 p k := funext fun a => Fin.ext (by
    match a with
    | ⟨0, _⟩ => exact lhs_agg0_0 _ _
    | ⟨1, _⟩ => exact (lhs_agg0_1 _ _).trans hk)
  have er : dot_S512x1024_S1024x1024_S512x1024_1_0_0_1_n_n.rhsIdx (ix2 p q) ((contrEquiv1 dot_S512x1024_S1024x1024_S512x1024_1_0_0_1_n_n 1024 rfl rfl).symm k) = ix2 k q := funext fun a => Fin.ext (by
    match a with
    | ⟨0, _⟩ => exact (rhs_agg0_0 _ _).trans hk
    | ⟨1, _⟩ => exact rhs_agg0_1 _ _)
  rw [el, er]

theorem pay0_apply (x0 : Vec Ideal S512x1024 .bf16) (x1 : Vec Ideal S1024x1024 .bf16) (x2 : Vec Ideal S1x1024 .f32) (p : Fin 512) (q : Fin 1024) :
    k0_pay1 (F := Ideal) x0 x1 x2 (ix2 p q) = (∑ k : Fin 1024, x0 (ix2 p k) * x1 (ix2 k q)) * x2 (ix2 (0 : Fin 1) q) := by
  unfold k0_pay1
  rw [truncf_apply, mulf_apply, shapeCast_self, shapeCast_self, shapeCast_self]
  refine congrArg₂ (· * ·) (matmul_agg0_apply x0 x1 p q) ?_
  exact broadcastTo_1b_ab_apply x2 _ p q

theorem pay0_eq_spec (e : S4096x1024.Idx → EReal) (M : S1024x1024.Idx → EReal) (r : S1x1024.Idx → EReal)
    (x0 : Vec Ideal S512x1024 .bf16) (x1 : Vec Ideal S1024x1024 .bf16) (x2 : Vec Ideal S1x1024 .f32)
    (p : Fin 512) (q : Fin 1024) (i : S4096x1024.Idx)
    (h0 : ∀ k : Fin 1024, x0 (ix2 p k) = e (ix2 (i 0) k)) (h1 : x1 = M) (h2 : x2 = r) (hi : i 1 = q) :
    k0_pay1 (F := Ideal) x0 x1 x2 (ix2 p q)
      = Cert.Spec.ofMat (Cert.Spec.kColAgg (Cert.Spec.toMat e) (Cert.Spec.toMat M) (fun b => r (ix2 (0 : Fin 1) b))) i := by
  subst h1 h2
  rw [pay0_apply]
  show _ = (∑ a : Fin 1024, e (ix2 (i 0) a) * x1 (ix2 a (i 1))) * x2 (ix2 (0 : Fin 1) (i 1))
  rw [hi]
  exact congrArg (· * x2 (ix2 (0 : Fin 1) q)) (Finset.sum_congr rfl fun k _ => by rw [h0 k])

section Region
variable (V : (c : Dev nD) → (b : Ref sig .tc) → Buf (Elt Ideal) ((c : Thread nD τ).loc b))

theorem hz0 : (![0, 0] : Fin 2 → Nat) = fun _ => 0 := funext fun a => by fin_cases a <;> rfl

theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem iblk0_0_apply (c : Dev nD) (t : Fin cfg0.N) (y : S512x1024.Idx) (i : S4096x1024.Idx)
    (hi0 : (i 0).val = t.val * 512 + (y 0).val) (hi1 : (i 1).val = (y 1).val) :
    (iblk0 V c 0 t : Vec Ideal S512x1024 .bf16) y = (V c main_v44 : S4096x1024.Idx → EReal) i := by
  obtain ⟨e0, e1, -⟩ := idx_facts0 t
  show (V c main_v44 : S4096x1024.Idx → EReal) (((cfg0.win 0).blk t).view.emb y) = (V c main_v44 : S4096x1024.Idx → EReal) i
  refine congrArg _ (funext fun a => Fin.ext ?_)
  match a with
  | ⟨0, _⟩ => show win0_0.index t (0 : Fin 2) * 512 + 1 * (y 0).val = (i 0).val; omega
  | ⟨1, _⟩ => show win0_0.index t (1 : Fin 2) * 1024 + 1 * (y 1).val = (i 1).val; omega

theorem iblk0_1_eq (c : Dev nD) (t : Fin cfg0.N) :
    (iblk0 V c 1 t : Vec Ideal S1024x1024 .bf16) = (V c main_v16 : S1024x1024.Idx → EReal) := by
  obtain ⟨-, -, e2, e3, -⟩ := idx_facts0 t
  funext y
  show (V c main_v16 : S1024x1024.Idx → EReal) (((cfg0.win 1).blk t).view.emb y) = (V c main_v16 : S1024x1024.Idx → EReal) y
  refine congrArg _ (funext fun a => Fin.ext ?_)
  match a with
  | ⟨0, _⟩ => show win0_1.index t (0 : Fin 2) * 1024 + 1 * (y 0).val = (y 0).val; omega
  | ⟨1, _⟩ => show win0_1.index t (1 : Fin 2) * 1024 + 1 * (y 1).val = (y 1).val; omega

theorem iblk0_2_eq (c : Dev nD) (t : Fin cfg0.N) :
    (iblk0 V c 2 t : Vec Ideal S1x1024 .f32) = (V c main_v25 : S1x1024.Idx → EReal) := by
  obtain ⟨-, -, -, -, e4, e5, -⟩ := idx_facts0 t
  funext y
  show (V c main_v25 : S1x1024.Idx → EReal) (((cfg0.win 2).blk t).view.emb y) = (V c main_v25 : S1x1024.Idx → EReal) y
  refine congrArg _ (funext fun a => Fin.ext ?_)
  match a with
  | ⟨0, _⟩ => show win0_2.index t (0 : Fin 2) * 1 + 1 * (y 0).val = (y 0).val; omega
  | ⟨1, _⟩ => show win0_2.index t (1 : Fin 2) * 1024 + 1 * (y 1).val = (y 1).val; omega

abbrev G0 (c : Dev nD) : S4096x1024.Idx → EReal :=
  Cert.Spec.ofMat (Cert.Spec.kColAgg (Cert.Spec.toMat (V c main_v44 : S4096x1024.Idx → EReal))
    (Cert.Spec.toMat (V c main_v16 : S1024x1024.Idx → EReal)) (fun b => (V c main_v25 : S1x1024.Idx → EReal) (ix2 (0 : Fin 1) b)))

theorem flushed0_eq (c : Dev nD) (t : Fin cfg0.N) :
    (dat0 (F := Ideal) V c).flushed 3 t = ((cfg0.win 3).blk t).view.read (Elt Ideal) (G0 V c) := by
  show (cfg0.win 3).cut (grid0.coords t) ((dat0 (F := Ideal) V c).after 3 t) = _
  rw [after0_3]
  unfold out0_3
  rw [View.canon_unit_zero hz0]
  simp only [View.ld_unit_zero (S := S512x1024) hz0, View.ld_unit_zero (S := S1024x1024) hz0, View.ld_unit_zero (S := S1x1024) hz0]
  obtain ⟨-, -, -, -, -, -, e6, e7⟩ := idx_facts0 t
  funext j
  obtain ⟨p, q, rfl⟩ : ∃ (p : Fin 512) (q : Fin 1024), j = ix2 p q := ⟨j 0, j 1, eq_ix2 j⟩
  show k0_pay1 (F := Ideal) (iblk0 V c 0 t) (iblk0 V c 1 t) (iblk0 V c 2 t) (ix2 p q) = G0 V c (((cfg0.win 3).blk t).view.emb (ix2 p q))
  have hj0 : ((((cfg0.win 3).blk t).view.emb (ix2 p q)) 0).val = t.val * 512 + p.val := by
    show win0_3.index t (0 : Fin 2) * 512 + 1 * p.val = _; omega
  have hj1 : ((((cfg0.win 3).blk t).view.emb (ix2 p q)) 1).val = q.val := by
    show win0_3.index t (1 : Fin 2) * 1024 + 1 * q.val = _; omega
  refine pay0_eq_spec _ _ _ _ _ _ p q _ (fun k => ?_) (iblk0_1_eq V c t) (iblk0_2_eq V c t) (Fin.ext hj1)
  exact iblk0_0_apply V c t (ix2 p k) _ hj0 rfl

theorem cover0 (i : S4096x1024.Idx) : ∃ t : Fin cfg0.N, (cfg0.win 3).flush t = true ∧ i ∈ ((cfg0.win 3).blk t).view.set := by
  have hi0 : (i 0).val < 4096 := (i 0).isLt
  have hi1 : (i 1).val < 1024 := (i 1).isLt
  have hN : cfg0.N = 8 := N_0
  obtain ⟨t, ht⟩ : ∃ t : Fin cfg0.N, t.val = (i 0).val / 512 := ⟨⟨(i 0).val / 512, by rw [hN]; omega⟩, rfl⟩
  refine ⟨t, flush0_3 t, ?_⟩
  show i ∈ ((View.whole main_v45).slice (win0_3.rect t)).set
  rw [View.set_slice_whole, Rect.mem_set_unit]
  obtain ⟨-, -, -, -, -, -, e6, e7⟩ := idx_facts0 t
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 1024 ≤ (i 1).val ∧ (i 1).val < win0_3.index t (1 : Fin 2) * 1024 + 1024; omega

theorem arrAt0_out (c : Dev nD) :
    ((dat0 (F := Ideal) V c).arrAt 3 cfg0.N : S4096x1024.Idx → EReal)
      = Cert.Spec.ofMat (Cert.Spec.kColAgg (Cert.Spec.toMat (V c main_v44 : S4096x1024.Idx → EReal))
          (Cert.Spec.toMat (V c main_v16 : S1024x1024.Idx → EReal)) (fun b => (V c main_v25 : S1x1024.Idx → EReal) (ix2 (0 : Fin 1) b))) :=
  (dat0 (F := Ideal) V c).arrAt_eq_of_cover 3 (G0 V c) (fun t _ => flushed0_eq V c t) cover0

end Region

end Cert.KernelIdeal.Hand

end
-- ==== Proof.KIVal1.lean ====
import proofs.«415769_j962072674785_2_alg».proof.Proof.KIReg1
import proofs.«415769_j962072674785_2_alg».proof.Proof.Spec
import Idealize.ShloMosaic.Lib.Pipeline.Value
import Idealize.ShloMosaic.Lib.ValueIdx
import Idealize.ShloMosaic.PureOps.Ideal.Laws

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)
open Cert.Spec
open scoped BigOperators

theorem lhs1_0 (j : S256x1024.Idx) (k : dot_S256x4096_S4096x1024_S256x1024_1_0_0_1_n_n.contr.Idx) :
    (dot_S256x4096_S4096x1024_S256x1024_1_0_0_1_n_n.lhsIdx j k 0 : ℕ) = j 0 := by
  simp [DotDims.lhsIdx, dot_S256x4096_S4096x1024_S256x1024_1_0_0_1_n_n]; rfl
theorem lhs1_1 (j : S256x1024.Idx) (k : dot_S256x4096_S4096x1024_S256x1024_1_0_0_1_n_n.contr.Idx) :
    (dot_S256x4096_S4096x1024_S256x1024_1_0_0_1_n_n.lhsIdx j k 1 : ℕ) = k ⟨0, by decide⟩ := by
  simp [DotDims.lhsIdx, dot_S256x4096_S4096x1024_S256x1024_1_0_0_1_n_n]; rfl
theorem rhs1_0 (j : S256x1024.Idx) (k : dot_S256x4096_S4096x1024_S256x1024_1_0_0_1_n_n.contr.Idx) :
    (dot_S256x4096_S4096x1024_S256x1024_1_0_0_1_n_n.rhsIdx j k 0 : ℕ) = k ⟨0, by decide⟩ := by
  simp [DotDims.rhsIdx, dot_S256x4096_S4096x1024_S256x1024_1_0_0_1_n_n]; rfl
theorem rhs1_1 (j : S256x1024.Idx) (k : dot_S256x4096_S4096x1024_S256x1024_1_0_0_1_n_n.contr.Idx) :
    (dot_S256x4096_S4096x1024_S256x1024_1_0_0_1_n_n.rhsIdx j k 1 : ℕ) = j 1 := by
  simp [DotDims.rhsIdx, dot_S256x4096_S4096x1024_S256x1024_1_0_0_1_n_n]; rfl

/-- A 256 × 4096 by 4096 × 1024 product from the zero accumulator, at an entry, is the sum over the inner coordinate. -/
theorem prod1_apply {φ₁ φ₂ : FTy} (A : FVec Ideal S256x4096 φ₁) (B : FVec Ideal S4096x1024 φ₂) (p : Fin 256) (q : Fin 1024) :
    matmul dot_S256x4096_S4096x1024_S256x1024_1_0_0_1_n_n none A B (constant S256x1024 .f32 0x00000000#32) (ix2 p q)
      = ∑ r : Fin 4096, A (ix2 p r) * B (ix2 r q) := by
  simp only [matmul]
  rw [Ideal.matmul_constant_zero_apply,
    ← Equiv.sum_comp (contrEquiv1 dot_S256x4096_S4096x1024_S256x1024_1_0_0_1_n_n 4096 rfl rfl).symm]
  refine Finset.sum_congr rfl fun r _ => ?_
  congr 2
  · apply Shape.idx_ext₂
    · exact lhs1_0 _ _
    · exact (lhs1_1 _ _).trans (contrEquiv1_symm_val _ _ _ _ r)
  · apply Shape.idx_ext₂
    · exact (rhs1_0 _ _).trans (contrEquiv1_symm_val _ _ _ _ r)
    · exact rhs1_1 _ _

/-- A column spread along the rows, at an entry. -/
theorem biasCol1_apply (v : S256x1.Idx → EReal) (h : S256x1.Broadcasts S256x1024) (p : Fin 256) (q : Fin 1024) :
    broadcastTo S256x1024 v h (ix2 p q) = v (ix2 p 0) := by
  refine broadcastTo_apply v h (ix2 p q) (ix2 p (0 : Fin 1)) fun ax => ?_
  match ax with
  | ⟨0, _⟩ => rfl
  | ⟨1, _⟩ => rfl

/-- The payload at an entry: the two products added, the row's bias added, through the rectifier. -/
theorem pay1_apply (x2 x3 : Vec Ideal S256x4096 .f32) (x0 x1 : Vec Ideal S4096x1024 .bf16) (x4 : Vec Ideal S256x1 .f32)
    (p : Fin 256) (q : Fin 1024) :
    k1_pay1 (F := Ideal) x2 x3 x0 x1 x4 (ix2 p q)
      = leaky (((∑ r : Fin 4096, x2 (ix2 p r) * x0 (ix2 r q)) + ∑ r : Fin 4096, x3 (ix2 p r) * x1 (ix2 r q)) + x4 (ix2 p 0)) := by
  unfold k1_pay1
  simp only [shapeCast_self, select_apply, cmpf_apply, mulf_apply, addf_apply, broadcast_apply, prod1_apply, biasCol1_apply, truncf_apply]
  rfl

variable (V : (c : Dev nD) → (b : Ref sig .tc) → Buf (Elt Ideal) ((c : Thread nD τ).loc b))

abbrev mean1 (c : Dev nD) : S4096x1024.Idx → EReal := V c (Pipeline.arrRef spec1 0)
abbrev feat1 (c : Dev nD) : S4096x1024.Idx → EReal := V c (Pipeline.arrRef spec1 1)
abbrev wl1 (c : Dev nD) : S4096x4096.Idx → EReal := V c (Pipeline.arrRef spec1 2)
abbrev wr1 (c : Dev nD) : S4096x4096.Idx → EReal := V c (Pipeline.arrRef spec1 3)
abbrev bias1 (c : Dev nD) : S4096x1.Idx → EReal := V c (Pipeline.arrRef spec1 4)

abbrev blk1_0 (c : Dev nD) (t : Fin cfg1.N) : Vec Ideal S4096x1024 .bf16 := iblk1 V c 0 t
abbrev blk1_1 (c : Dev nD) (t : Fin cfg1.N) : Vec Ideal S4096x1024 .bf16 := iblk1 V c 1 t
abbrev blk1_2 (c : Dev nD) (t : Fin cfg1.N) : Vec Ideal S256x4096 .f32 := iblk1 V c 2 t
abbrev blk1_3 (c : Dev nD) (t : Fin cfg1.N) : Vec Ideal S256x4096 .f32 := iblk1 V c 3 t
abbrev blk1_4 (c : Dev nD) (t : Fin cfg1.N) : Vec Ideal S256x1 .f32 := iblk1 V c 4 t

/-- The column affine map of the arrays the region is entered with. -/
abbrev G1 (c : Dev nD) : S4096x1024.Idx → EReal :=
  ofMat (kColAff (toMat (mean1 V c)) (toMat (feat1 V c)) (toMat (wl1 V c)) (toMat (wr1 V c)) (fun q => bias1 V c (ix2 q 0)))

theorem hz1 : (![0, 0] : Fin 2 → Nat) = fun _ => 0 := funext fun a => by fin_cases a <;> rfl

/-- The windows' block indices at point `t`: (0, 0) for the two feature windows, (t, 0) for the others. -/
theorem idx_facts1 : ∀ t : Fin cfg1.N, win1_0.index t (0 : Fin 2) = 0 ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

/-- An entry of a feature block is the same entry of its array: the block is the whole array. -/
theorem emb1_0 (t : Fin cfg1.N) (x k : S4096x1024.Idx) (hk0 : (k 0).val = (x 0).val) (hk1 : (k 1).val = (x 1).val) :
    ((cfg1.win 0).blk t).view.emb x = k := by
  obtain ⟨e00, e01, -, -, -, -, -, -, -, -, -, -⟩ := idx_facts1 t
  funext a
  apply Fin.ext
  match a with
  | ⟨0, _⟩ => show win1_0.index t 0 * 4096 + 1 * (x 0).val = (k 0).val; rw [e00, hk0]; omega
  | ⟨1, _⟩ => show win1_0.index t 1 * 1024 + 1 * (x 1).val = (k 1).val; rw [e01, hk1]; omega

/-- Row `p` of point `t`'s weight block is row `256 t + p` of the weight array. -/
theorem emb1_2 (t : Fin cfg1.N) (x : S256x4096.Idx) (k : S4096x4096.Idx)
    (hk0 : (k 0).val = 256 * t.val + (x 0).val) (hk1 : (k 1).val = (x 1).val) :
    ((cfg1.win 2).blk t).view.emb x = k := by
  obtain ⟨-, -, -, -, e20, e21, -, -, -, -, -, -⟩ := idx_facts1 t
  funext a
  apply Fin.ext
  match a with
  | ⟨0, _⟩ => show win1_2.index t 0 * 256 + 1 * (x 0).val = (k 0).val; rw [e20, hk0]; omega
  | ⟨1, _⟩ => show win1_2.index t 1 * 4096 + 1 * (x 1).val = (k 1).val; rw [e21, hk1]; omega

/-- Row `p` of point `t`'s bias block is row `256 t + p` of the bias column. -/
theorem blk1_4_apply (c : Dev nD) (t : Fin cfg1.N) (x : S256x1.Idx) (k : S4096x1.Idx)
    (hk0 : (k 0).val = 256 * t.val + (x 0).val) (hk1 : (k 1).val = (x 1).val) :
    blk1_4 V c t x = bias1 V c k := by
  obtain ⟨e00, e01, e10, e11, e20, e21, e30, e31, e40, e41, e50, e51⟩ := idx_facts1 t
  unfold blk1_4 iblk1
  rw [View.read_apply]
  show V c (Pipeline.arrRef spec1 4) _ = V c (Pipeline.arrRef spec1 4) k
  congr 1
  funext a
  apply Fin.ext
  match a with
  | ⟨0, _⟩ => show win1_4.index t 0 * 256 + 1 * (x 0).val = (k 0).val; rw [e40, hk0]; omega
  | ⟨1, _⟩ => show win1_4.index t 1 * 1 + 1 * (x 1).val = (k 1).val; rw [e41, hk1]; omega

/-- Row `p` of point `t`'s output block is row `256 t + p` of the output array. -/
theorem emb1_5 (t : Fin cfg1.N) (x : S256x1024.Idx) (k : S4096x1024.Idx)
    (hk0 : (k 0).val = 256 * t.val + (x 0).val) (hk1 : (k 1).val = (x 1).val) :
    ((cfg1.win 5).blk t).view.emb x = k := by
  obtain ⟨-, -, -, -, -, -, -, -, -, -, e50, e51⟩ := idx_facts1 t
  funext a
  apply Fin.ext
  match a with
  | ⟨0, _⟩ => show win1_5.index t 0 * 256 + 1 * (x 0).val = (k 0).val; rw [e50, hk0]; omega
  | ⟨1, _⟩ => show win1_5.index t 1 * 1024 + 1 * (x 1).val = (k 1).val; rw [e51, hk1]; omega

theorem row_lt1 (t : Fin cfg1.N) (p : Fin 256) : 256 * t.val + p.val < 4096 := by
  have h : t.val < 16 := Nat.lt_of_lt_of_eq t.isLt (show cfg1.N = 16 from N_1)
  have := p.isLt; omega

/-- What point `t` writes back is block `t` of the column affine map. -/
theorem flushed1_eq (c : Dev nD) (t : Fin cfg1.N) :
    (dat1 (F := Ideal) V c).flushed 5 t = ((cfg1.win 5).blk t).view.read (Elt Ideal) (G1 V c) := by
  show (cfg1.win 5).cut (grid1.coords t) ((dat1 (F := Ideal) V c).after 5 t) = _
  rw [after1_5]
  unfold out1_5
  rw [View.canon_unit_zero hz1]
  simp only [View.ld_unit_zero (S := S4096x1024) hz1, View.ld_unit_zero (S := S256x4096) hz1, View.ld_unit_zero (S := S256x1) hz1]
  funext j
  obtain ⟨p, q, rfl⟩ : ∃ (p : Fin 256) (q : Fin 1024), j = ix2 p q := ⟨j 0, j 1, eq_ix2 j⟩
  show k1_pay1 (F := Ideal) (blk1_2 V c t) (blk1_3 V c t) (blk1_0 V c t) (blk1_1 V c t) (blk1_4 V c t) (ix2 p q)
    = G1 V c (((cfg1.win 5).blk t).view.emb (ix2 p q))
  rw [emb1_5 t (ix2 p q) (ix2 ⟨256 * t.val + p.val, row_lt1 t p⟩ q) rfl rfl]
  refine (pay1_apply (blk1_2 V c t) (blk1_3 V c t) (blk1_0 V c t) (blk1_1 V c t) (blk1_4 V c t) p q).trans ?_
  show leaky _ = leaky (((∑ r : Fin 4096, wl1 V c (ix2 ⟨256 * t.val + p.val, row_lt1 t p⟩ r) * mean1 V c (ix2 r q))
      + ∑ r : Fin 4096, wr1 V c (ix2 ⟨256 * t.val + p.val, row_lt1 t p⟩ r) * feat1 V c (ix2 r q))
    + bias1 V c (ix2 ⟨256 * t.val + p.val, row_lt1 t p⟩ 0))
  refine congrArg leaky (congrArg₂ (· + ·) (congrArg₂ (· + ·) (Finset.sum_congr rfl fun r _ => ?_) (Finset.sum_congr rfl fun r _ => ?_)) ?_)
  · exact congrArg₂ (· * ·) (congrArg (wl1 V c) (emb1_2 t (ix2 p r) _ rfl rfl)) (congrArg (mean1 V c) (emb1_0 t (ix2 r q) _ rfl rfl))
  · exact congrArg₂ (· * ·) (congrArg (wr1 V c) (emb1_2 t (ix2 p r) _ rfl rfl)) (congrArg (feat1 V c) (emb1_0 t (ix2 r q) _ rfl rfl))
  · exact blk1_4_apply V c t (ix2 p 0) _ rfl rfl

/-- Row `r` of the output array lies in the block of point `r / 256`. -/
theorem cover1 (i : S4096x1024.Idx) : ∃ t : Fin cfg1.N, (cfg1.win 5).flush t = true ∧ i ∈ ((cfg1.win 5).blk t).view.set := by
  have hi0 : (i 0).val < 4096 := (i 0).isLt
  have hi1 : (i 1).val < 1024 := (i 1).isLt
  have ht : (i 0).val / 256 < cfg1.N := by rw [show cfg1.N = 16 from N_1]; omega
  let t : Fin cfg1.N := ⟨(i 0).val / 256, ht⟩
  obtain ⟨-, -, -, -, -, -, -, -, -, -, e50, e51⟩ := idx_facts1 t
  refine ⟨t, flush1_5 t, ?_⟩
  show i ∈ ((View.whole (Pipeline.arrRef spec1 5)).slice (win1_5.rect t)).set
  rw [View.set_slice_whole, Rect.mem_set_unit]
  intro a
  match a with
  | ⟨0, _⟩ => show win1_5.index t 0 * 256 ≤ (i 0).val ∧ (i 0).val < win1_5.index t 0 * 256 + 256; rw [e50]; show (i 0).val / 256 * 256 ≤ _ ∧ _ < (i 0).val / 256 * 256 + 256; omega
  | ⟨1, _⟩ => show win1_5.index t 1 * 1024 ≤ (i 1).val ∧ (i 1).val < win1_5.index t 1 * 1024 + 1024; rw [e51]; omega

theorem arrAt1_out (c : Dev nD) :
    ((dat1 (F := Ideal) V c).arrAt 5 cfg1.N : S4096x1024.Idx → EReal)
      = ofMat (kColAff (toMat (mean1 V c)) (toMat (feat1 V c)) (toMat (wl1 V c)) (toMat (wr1 V c)) (fun q => bias1 V c (ix2 q 0))) :=
  (dat1 (F := Ideal) V c).arrAt_eq_of_cover 5 (G1 V c) (fun t _ => flushed1_eq V c t) cover1

end Cert.KernelIdeal.Hand

end
-- ==== Proof.KIVal2.lean ====
import proofs.«415769_j962072674785_2_alg».proof.Proof.KIReg2
import proofs.«415769_j962072674785_2_alg».proof.Proof.Spec
import Idealize.ShloMosaic.Lib.Pipeline.Value
import Idealize.ShloMosaic.Lib.ValueIdx
import Idealize.ShloMosaic.Lib.ValueLayout
import Idealize.ShloMosaic.PureOps.Ideal.Laws
import Mathlib.Algebra.BigOperators.Fin

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

theorem lhs_rowagg2_0 (i : S2048x1024.Idx) (q : dot_S2048x512_S512x1024_S2048x1024_1_0_0_1_n_n.contr.Idx) :
    (dot_S2048x512_S512x1024_S2048x1024_1_0_0_1_n_n.lhsIdx i q 0).val = (i 0).val := by
  unfold DotDims.lhsIdx
  rw [dif_neg (show ¬(0 : Fin S2048x512.rank) ∈ dot_S2048x512_S512x1024_S2048x1024_1_0_0_1_n_n.lhsBatch by decide), dif_pos (show (0 : Fin S2048x512.rank) ∈ dot_S2048x512_S512x1024_S2048x1024_1_0_0_1_n_n.lhsNonContracting by decide)]
  rfl

theorem lhs_rowagg2_1 (i : S2048x1024.Idx) (q : dot_S2048x512_S512x1024_S2048x1024_1_0_0_1_n_n.contr.Idx) :
    (dot_S2048x512_S512x1024_S2048x1024_1_0_0_1_n_n.lhsIdx i q 1).val = (q ⟨0, by decide⟩).val :=
  dot_S2048x512_S512x1024_S2048x1024_1_0_0_1_n_n.lhsIdx_val_of_single rfl i q

theorem rhs_rowagg2_0 (i : S2048x1024.Idx) (q : dot_S2048x512_S512x1024_S2048x1024_1_0_0_1_n_n.contr.Idx) :
    (dot_S2048x512_S512x1024_S2048x1024_1_0_0_1_n_n.rhsIdx i q 0).val = (q ⟨0, by decide⟩).val :=
  dot_S2048x512_S512x1024_S2048x1024_1_0_0_1_n_n.rhsIdx_val_of_single rfl i q

theorem rhs_rowagg2_1 (i : S2048x1024.Idx) (q : dot_S2048x512_S512x1024_S2048x1024_1_0_0_1_n_n.contr.Idx) :
    (dot_S2048x512_S512x1024_S2048x1024_1_0_0_1_n_n.rhsIdx i q 1).val = (i 1).val := by
  unfold DotDims.rhsIdx
  rw [dif_neg (show ¬(1 : Fin S512x1024.rank) ∈ dot_S2048x512_S512x1024_S2048x1024_1_0_0_1_n_n.rhsBatch by decide), dif_pos (show (1 : Fin S512x1024.rank) ∈ dot_S2048x512_S512x1024_S2048x1024_1_0_0_1_n_n.rhsNonContracting by decide)]
  rfl

theorem matmul_rowagg2_apply (a : FVec Ideal S2048x512 .bf16) (b : FVec Ideal S512x1024 .bf16) (p : Fin 2048) (q : Fin 1024) :
    matmul dot_S2048x512_S512x1024_S2048x1024_1_0_0_1_n_n none a b (constant (F := Ideal) S2048x1024 .f32 0x00000000#32) (ix2 p q)
      = ∑ k : Fin 512, a (ix2 p k) * b (ix2 k q) := by
  simp only [matmul]
  rw [Ideal.matmul_constant_zero_apply, ← Equiv.sum_comp (contrEquiv1 dot_S2048x512_S512x1024_S2048x1024_1_0_0_1_n_n 512 rfl rfl).symm]
  refine Finset.sum_congr rfl fun k _ => ?_
  have hk := contrEquiv1_symm_val dot_S2048x512_S512x1024_S2048x1024_1_0_0_1_n_n 512 rfl rfl k
  have el : dot_S2048x512_S512x1024_S2048x1024_1_0_0_1_n_n.lhsIdx (ix2 p q) ((contrEquiv1 dot_S2048x512_S512x1024_S2048x1024_1_0_0_1_n_n 512 rfl rfl).symm k) = ix2 p k := funext fun a => Fin.ext (by
    match a with
    | ⟨0, _⟩ => exact lhs_rowagg2_0 _ _
    | ⟨1, _⟩ => exact (lhs_rowagg2_1 _ _).trans hk)
  have er : dot_S2048x512_S512x1024_S2048x1024_1_0_0_1_n_n.rhsIdx (ix2 p q) ((contrEquiv1 dot_S2048x512_S512x1024_S2048x1024_1_0_0_1_n_n 512 rfl rfl).symm k) = ix2 k q := funext fun a => Fin.ext (by
    match a with
    | ⟨0, _⟩ => exact (rhs_rowagg2_0 _ _).trans hk
    | ⟨1, _⟩ => exact rhs_rowagg2_1 _ _)
  rw [el, er]

theorem pay1_apply2 (p : Fin 2048) (q : Fin 1024) : k2_pay1 (F := Ideal) (ix2 p q) = 0 := by
  unfold k2_pay1
  rw [shapeCast_self, broadcast_apply]
  exact Ideal.ofBits_zero_f32

theorem pay2_apply2 (a : Vec Ideal S2048x1024 .f32) (x0 : Vec Ideal S2048x512 .bf16) (x1 : Vec Ideal S512x1024 .bf16) (p : Fin 2048) (q : Fin 1024) :
    k2_pay2 (F := Ideal) a x0 x1 (ix2 p q) = a (ix2 p q) + ∑ k : Fin 512, x0 (ix2 p k) * x1 (ix2 k q) := by
  unfold k2_pay2
  rw [shapeCast_self, addf_apply, shapeCast_self, shapeCast_self]
  exact congrArg (a (ix2 p q) + ·) (matmul_rowagg2_apply x0 x1 p q)

theorem pay3_apply2 (a : Vec Ideal S2048x1024 .f32) (x2 : Vec Ideal S2048x1 .f32) (p : Fin 2048) (q : Fin 1024) :
    k2_pay3 (F := Ideal) a x2 (ix2 p q) = a (ix2 p q) * x2 (ix2 p (0 : Fin 1)) := by
  unfold k2_pay3
  rw [truncf_apply, mulf_apply, shapeCast_self]
  refine congrArg (a (ix2 p q) * ·) ?_
  refine broadcastTo_apply x2 _ (ix2 p q) (ix2 p (0 : Fin 1)) fun ax => ?_
  match ax with
  | ⟨0, _⟩ => rfl
  | ⟨1, _⟩ => rfl

def termAt2 (adj : S4096x4096.Idx → EReal) (e : S4096x1024.Idx → EReal) (d : Fin 4096) (f : Fin 1024) (i : ℕ) : EReal :=
  if h : i < 4096 then adj (ix2 d ⟨i, h⟩) * e (ix2 ⟨i, h⟩ f) else 0

def partAt2 (adj : S4096x4096.Idx → EReal) (e : S4096x1024.Idx → EReal) (d : Fin 4096) (f : Fin 1024) (n : ℕ) : EReal :=
  ∑ i ∈ Finset.range n, termAt2 adj e d f i

theorem part_step2 (adj : S4096x4096.Idx → EReal) (e : S4096x1024.Idx → EReal) (d : Fin 4096) (f : Fin 1024) (n : ℕ) :
    partAt2 adj e d f (n + 512) = partAt2 adj e d f n + ∑ j : Fin 512, termAt2 adj e d f (n + j.val) := by
  unfold partAt2
  rw [Finset.sum_range_add]
  exact congrArg (_ + ·) (Finset.sum_range _)

theorem part_block0_2 (adj : S4096x4096.Idx → EReal) (e : S4096x1024.Idx → EReal) (d : Fin 4096) (f : Fin 1024) :
    partAt2 adj e d f 512 = ∑ j : Fin 512, termAt2 adj e d f (0 * 512 + j.val) := by
  unfold partAt2
  rw [Finset.sum_range]
  exact Finset.sum_congr rfl fun j _ => by rw [Nat.zero_mul, Nat.zero_add]

theorem part_full2 (adj : S4096x4096.Idx → EReal) (e : S4096x1024.Idx → EReal) (d : Fin 4096) (f : Fin 1024) :
    partAt2 adj e d f 4096 = ∑ s : Fin 4096, adj (ix2 d s) * e (ix2 s f) := by
  unfold partAt2
  rw [Finset.sum_range]
  exact Finset.sum_congr rfl fun s _ => by unfold termAt2; rw [dif_pos s.isLt]

def rowOf2 (m : ℕ) (p : Fin 2048) : Fin 4096 := ⟨m % 2 * 2048 + p.val, by have := p.isLt; have := Nat.mod_lt m (show 0 < 2 by decide); omega⟩

-- Induction over the grid points: the reset starts a block row's sum, every other point adds the next 512 terms.
theorem acc_eq_of {N : ℕ} (acc : (n : ℕ) → n < N → Vec Ideal S2048x1024 .f32)
    (b0 : Fin N → Vec Ideal S2048x512 .bf16) (b1 : Fin N → Vec Ideal S512x1024 .bf16)
    (adj : S4096x4096.Idx → EReal) (e : S4096x1024.Idx → EReal)
    (hA : ∀ t : Fin N, t.val % 8 = 0 → acc t.val t.isLt = k2_pay2 (k2_pay1 (F := Ideal)) (b0 t) (b1 t))
    (hB : ∀ t : Fin N, ¬t.val % 8 = 0 →
      acc t.val t.isLt = k2_pay2 (acc (t.val - 1) (Nat.lt_of_le_of_lt (Nat.sub_le _ _) t.isLt)) (b0 t) (b1 t))
    (hprod : ∀ (t : Fin N) (p : Fin 2048) (q : Fin 1024), (∑ k : Fin 512, b0 t (ix2 p k) * b1 t (ix2 k q))
      = ∑ j : Fin 512, termAt2 adj e (rowOf2 (t.val / 8) p) q (t.val % 8 * 512 + j.val)) :
    ∀ (n : ℕ) (hn : n < N) (p : Fin 2048) (q : Fin 1024),
      acc n hn (ix2 p q) = partAt2 adj e (rowOf2 (n / 8) p) q ((n % 8 + 1) * 512) := by
  intro n
  induction n with
  | zero =>
    intro hn p q
    rw [hA ⟨0, hn⟩ rfl, pay2_apply2, pay1_apply2, zero_add, hprod ⟨0, hn⟩ p q]
    exact (part_block0_2 _ _ _ _).symm
  | succ n ih =>
    intro hn p q
    by_cases h0 : (n + 1) % 8 = 0
    · rw [hA ⟨n + 1, hn⟩ h0, pay2_apply2, pay1_apply2, zero_add, hprod ⟨n + 1, hn⟩ p q]
      show _ = partAt2 _ _ _ _ (((n + 1) % 8 + 1) * 512)
      rw [h0]
      exact (part_block0_2 _ _ _ _).symm
    · rw [hB ⟨n + 1, hn⟩ h0, pay2_apply2, hprod ⟨n + 1, hn⟩ p q]
      show acc n _ (ix2 p q) + _ = partAt2 _ _ _ _ (((n + 1) % 8 + 1) * 512)
      rw [ih (Nat.lt_of_succ_lt hn) p q]
      have hd : (n + 1) / 8 = n / 8 := by omega
      have hm : (n + 1) % 8 = n % 8 + 1 := by omega
      show _ + ∑ j : Fin 512, termAt2 _ _ (rowOf2 ((n + 1) / 8) p) q ((n + 1) % 8 * 512 + j.val) = _
      rw [hd, hm, show (n % 8 + 1 + 1) * 512 = (n % 8 + 1) * 512 + 512 from by omega]
      exact (part_step2 _ _ _ _ _).symm

section Region
variable (V : (c : Dev nD) → (b : Ref sig .tc) → Buf (Elt Ideal) ((c : Thread nD τ).loc b))

abbrev adjA2 (c : Dev nD) : S4096x4096.Idx → EReal := V c (Pipeline.arrRef spec2 0)
abbrev eA2 (c : Dev nD) : S4096x1024.Idx → EReal := V c (Pipeline.arrRef spec2 1)
abbrev rcA2 (c : Dev nD) : S4096x1.Idx → EReal := V c (Pipeline.arrRef spec2 2)

abbrev blkA2 (c : Dev nD) (t : Fin cfg2.N) : Vec Ideal S2048x512 .bf16 := iblk2 V c 0 t
abbrev blkE2 (c : Dev nD) (t : Fin cfg2.N) : Vec Ideal S512x1024 .bf16 := iblk2 V c 1 t
abbrev blkR2 (c : Dev nD) (t : Fin cfg2.N) : Vec Ideal S2048x1 .f32 := iblk2 V c 2 t

theorem idx_facts2 : ∀ t : Fin cfg2.N, win2_0.index t (0 : Fin 2) = t.val / 8 ∧ win2_0.index t (1 : Fin 2) = t.val % 8
    ∧ win2_1.index t (0 : Fin 2) = t.val % 8 ∧ win2_1.index t (1 : Fin 2) = 0
    ∧ win2_2.index t (0 : Fin 2) = t.val / 8 ∧ win2_2.index t (1 : Fin 2) = 0
    ∧ win2_3.index t (0 : Fin 2) = t.val / 8 ∧ win2_3.index t (1 : Fin 2) = 0 :=
  (by decide +kernel : ∀ t : Fin grid2.N, _)

theorem blk0_apply2 (c : Dev nD) (t : Fin cfg2.N) (y : S2048x512.Idx) (i : S4096x4096.Idx)
    (hi0 : (i 0).val = t.val / 8 * 2048 + (y 0).val) (hi1 : (i 1).val = t.val % 8 * 512 + (y 1).val) :
    blkA2 V c t y = adjA2 V c i := by
  obtain ⟨e0, e1, -⟩ := idx_facts2 t
  show adjA2 V c (((cfg2.win 0).blk t).view.emb y) = adjA2 V c i
  refine congrArg _ (funext fun a => Fin.ext ?_)
  match a with
  | ⟨0, _⟩ => show win2_0.index t (0 : Fin 2) * 2048 + 1 * (y 0).val = (i 0).val; omega
  | ⟨1, _⟩ => show win2_0.index t (1 : Fin 2) * 512 + 1 * (y 1).val = (i 1).val; omega

theorem blk1_apply2 (c : Dev nD) (t : Fin cfg2.N) (y : S512x1024.Idx) (i : S4096x1024.Idx)
    (hi0 : (i 0).val = t.val % 8 * 512 + (y 0).val) (hi1 : (i 1).val = (y 1).val) :
    blkE2 V c t y = eA2 V c i := by
  obtain ⟨-, -, e2, e3, -⟩ := idx_facts2 t
  show eA2 V c (((cfg2.win 1).blk t).view.emb y) = eA2 V c i
  refine congrArg _ (funext fun a => Fin.ext ?_)
  match a with
  | ⟨0, _⟩ => show win2_1.index t (0 : Fin 2) * 512 + 1 * (y 0).val = (i 0).val; omega
  | ⟨1, _⟩ => show win2_1.index t (1 : Fin 2) * 1024 + 1 * (y 1).val = (i 1).val; omega

theorem blk2_apply2 (c : Dev nD) (t : Fin cfg2.N) (y : S2048x1.Idx) (i : S4096x1.Idx)
    (hi0 : (i 0).val = t.val / 8 * 2048 + (y 0).val) (hi1 : (i 1).val = (y 1).val) :
    blkR2 V c t y = rcA2 V c i := by
  obtain ⟨-, -, -, -, e4, e5, -⟩ := idx_facts2 t
  show rcA2 V c (((cfg2.win 2).blk t).view.emb y) = rcA2 V c i
  refine congrArg _ (funext fun a => Fin.ext ?_)
  match a with
  | ⟨0, _⟩ => show win2_2.index t (0 : Fin 2) * 2048 + 1 * (y 0).val = (i 0).val; omega
  | ⟨1, _⟩ => show win2_2.index t (1 : Fin 2) * 1 + 1 * (y 1).val = (i 1).val; omega

theorem blockprod_eq2 (c : Dev nD) (t : Fin cfg2.N) (p : Fin 2048) (q : Fin 1024) :
    (∑ k : Fin 512, blkA2 V c t (ix2 p k) * blkE2 V c t (ix2 k q))
      = ∑ j : Fin 512, termAt2 (adjA2 V c) (eA2 V c) (rowOf2 (t.val / 8) p) q (t.val % 8 * 512 + j.val) := by
  have hN : t.val < 16 := lt_of_lt_of_eq t.isLt (show cfg2.N = 16 from N_2)
  refine Finset.sum_congr rfl fun k _ => ?_
  have hk : t.val % 8 * 512 + k.val < 4096 := by have := k.isLt; omega
  unfold termAt2
  rw [dif_pos hk]
  refine congrArg₂ (· * ·) ?_ ?_
  · exact blk0_apply2 V c t (ix2 p k) _ (by show t.val / 8 % 2 * 2048 + p.val = t.val / 8 * 2048 + p.val; omega) rfl
  · exact blk1_apply2 V c t (ix2 k q) _ rfl rfl

theorem acc_eq2 (c : Dev nD) : ∀ (n : ℕ) (hn : n < cfg2.N) (p : Fin 2048) (q : Fin 1024),
    accAt2 (F := Ideal) V c n hn (ix2 p q) = partAt2 (adjA2 V c) (eA2 V c) (rowOf2 (n / 8) p) q ((n % 8 + 1) * 512) :=
  acc_eq_of (accAt2 V c) (blkA2 V c) (blkE2 V c) _ _ (accAt2_A V c) (accAt2_B V c) (blockprod_eq2 V c)

abbrev G2 (c : Dev nD) : S4096x1024.Idx → EReal :=
  Cert.Spec.ofMat (Cert.Spec.kRowAgg (Cert.Spec.toMat (adjA2 V c)) (Cert.Spec.toMat (eA2 V c)) (fun d => rcA2 V c (ix2 d (0 : Fin 1))))

theorem flushed_eq2 (c : Dev nD) (t : Fin cfg2.N) (hf : (cfg2.win 3).flush t = true) :
    (dat2 (F := Ideal) V c).flushed 3 t = ((cfg2.win 3).blk t).view.read (Elt Ideal) (G2 V c) := by
  have h7 : t.val % 8 = 7 := (flush2_3 t).mp hf
  have hN : t.val < 16 := lt_of_lt_of_eq t.isLt (show cfg2.N = 16 from N_2)
  show (cfg2.win 3).cut (grid2.coords t) ((dat2 (F := Ideal) V c).after 3 t) = _
  rw [after2_3, out2_3_eq]
  obtain ⟨-, -, -, -, -, -, e6, e7⟩ := idx_facts2 t
  funext j
  obtain ⟨p, q, rfl⟩ : ∃ (p : Fin 2048) (q : Fin 1024), j = ix2 p q := ⟨j 0, j 1, eq_ix2 j⟩
  show k2_pay3 (F := Ideal) (accAt2 (F := Ideal) V c t.val t.isLt) (blkR2 V c t) (ix2 p q) = G2 V c (((cfg2.win 3).blk t).view.emb (ix2 p q))
  have hj0 : ((((cfg2.win 3).blk t).view.emb (ix2 p q)) 0) = rowOf2 (t.val / 8) p := Fin.ext (by
    show win2_3.index t (0 : Fin 2) * 2048 + 1 * p.val = t.val / 8 % 2 * 2048 + p.val; omega)
  have hj1 : ((((cfg2.win 3).blk t).view.emb (ix2 p q)) 1) = q := Fin.ext (by
    show win2_3.index t (1 : Fin 2) * 1024 + 1 * q.val = q.val; omega)
  rw [pay3_apply2, acc_eq2 V c t.val t.isLt p q, h7, part_full2]
  show _ = (∑ s : Fin 4096, adjA2 V c (ix2 ((((cfg2.win 3).blk t).view.emb (ix2 p q)) 0) s) * eA2 V c (ix2 s ((((cfg2.win 3).blk t).view.emb (ix2 p q)) 1)))
      * rcA2 V c (ix2 ((((cfg2.win 3).blk t).view.emb (ix2 p q)) 0) (0 : Fin 1))
  rw [hj0, hj1]
  refine congrArg (_ * ·) ?_
  exact blk2_apply2 V c t (ix2 p (0 : Fin 1)) _ (by show t.val / 8 % 2 * 2048 + p.val = t.val / 8 * 2048 + p.val; omega) rfl

theorem mem_blk2 (t : Fin cfg2.N) (i : S4096x1024.Idx) :
    i ∈ ((cfg2.win 3).blk t).view.set ↔ ∀ a : Fin 2, win2_3.index t a * S2048x1024.size a ≤ (i a).val ∧ (i a).val < win2_3.index t a * S2048x1024.size a + S2048x1024.size a := by
  show i ∈ ((View.whole (Pipeline.arrRef spec2 3)).slice (win2_3.rect t)).set ↔ _
  rw [View.set_slice_whole, Rect.mem_set_unit]
  exact Iff.rfl

theorem cover_out2 (i : S4096x1024.Idx) : ∃ t : Fin cfg2.N, (cfg2.win 3).flush t = true ∧ i ∈ ((cfg2.win 3).blk t).view.set := by
  have hi0 : (i 0).val < 4096 := (i 0).isLt
  have hi1 : (i 1).val < 1024 := (i 1).isLt
  have hN : cfg2.N = 16 := N_2
  have ht : (i 0).val / 2048 * 8 + 7 < cfg2.N := by rw [hN]; omega
  refine ⟨⟨(i 0).val / 2048 * 8 + 7, ht⟩, (flush2_3 _).mpr (by show ((i 0).val / 2048 * 8 + 7) % 8 = 7; omega), ?_⟩
  rw [mem_blk2]
  obtain ⟨-, -, -, -, -, -, e6, e7⟩ := idx_facts2 ⟨(i 0).val / 2048 * 8 + 7, ht⟩
  intro a
  match a with
  | ⟨0, _⟩ => show win2_3.index _ (0 : Fin 2) * 2048 ≤ (i 0).val ∧ (i 0).val < win2_3.index _ (0 : Fin 2) * 2048 + 2048; rw [e6]; show ((i 0).val / 2048 * 8 + 7) / 8 * 2048 ≤ (i 0).val ∧ (i 0).val < ((i 0).val / 2048 * 8 + 7) / 8 * 2048 + 2048; omega
  | ⟨1, _⟩ => show win2_3.index _ (1 : Fin 2) * 1024 ≤ (i 1).val ∧ (i 1).val < win2_3.index _ (1 : Fin 2) * 1024 + 1024; rw [e7]; omega

theorem arrAt2_out (c : Dev nD) :
    ((dat2 (F := Ideal) V c).arrAt 3 cfg2.N : S4096x1024.Idx → EReal)
      = Cert.Spec.ofMat (Cert.Spec.kRowAgg (Cert.Spec.toMat (V c (Pipeline.arrRef spec2 0) : S4096x4096.Idx → EReal))
          (Cert.Spec.toMat (V c (Pipeline.arrRef spec2 1) : S4096x1024.Idx → EReal))
          (fun d => (V c (Pipeline.arrRef spec2 2) : S4096x1.Idx → EReal) (ix2 d (0 : Fin 1)))) :=
  (dat2 (F := Ideal) V c).arrAt_eq_of_cover 3 (G2 V c) (flushed_eq2 V c) cover_out2

end Region

end Cert.KernelIdeal.Hand

end
-- ==== Proof.KIVal3.lean ====
import proofs.«415769_j962072674785_2_alg».proof.Proof.KIReg3
import proofs.«415769_j962072674785_2_alg».proof.Proof.Spec
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

section Value3

theorem matmul_nt3_apply {φ₁ φ₂ : FTy} (A : FVec Ideal S1024x1024 φ₁) (B : FVec Ideal S1024x1024 φ₂) (a b : Fin 1024) :
    matmul dot_S1024x1024_S1024x1024_S1024x1024_1_1_0_0_n_n none A B (constant (F := Ideal) S1024x1024 .f32 0x00000000#32) (ix2 a b)
      = ∑ f : Fin 1024, A (ix2 a f) * B (ix2 b f) := by
  show FloatOps.matmul _ none A B _ (ix2 a b) = _
  rw [Ideal.matmul_constant_zero_apply,
    ← Equiv.sum_comp (contrEquiv1 dot_S1024x1024_S1024x1024_S1024x1024_1_1_0_0_n_n 1024 rfl rfl).symm]
  refine Finset.sum_congr rfl fun f _ => ?_
  have cf := contrEquiv1_symm_val dot_S1024x1024_S1024x1024_S1024x1024_1_1_0_0_n_n 1024 rfl rfl f
  have hl : dot_S1024x1024_S1024x1024_S1024x1024_1_1_0_0_n_n.lhsIdx (ix2 a b) ((contrEquiv1 _ 1024 rfl rfl).symm f) = ix2 a f := by
    funext ax; apply Fin.ext
    match ax with
    | ⟨0, _⟩ => simp [DotDims.lhsIdx, dot_S1024x1024_S1024x1024_S1024x1024_1_1_0_0_n_n]; rfl
    | ⟨1, _⟩ => simp [DotDims.lhsIdx, dot_S1024x1024_S1024x1024_S1024x1024_1_1_0_0_n_n]; exact cf
  have hr : dot_S1024x1024_S1024x1024_S1024x1024_1_1_0_0_n_n.rhsIdx (ix2 a b) ((contrEquiv1 _ 1024 rfl rfl).symm f) = ix2 b f := by
    funext ax; apply Fin.ext
    match ax with
    | ⟨0, _⟩ => simp [DotDims.rhsIdx, dot_S1024x1024_S1024x1024_S1024x1024_1_1_0_0_n_n]; rfl
    | ⟨1, _⟩ => simp [DotDims.rhsIdx, dot_S1024x1024_S1024x1024_S1024x1024_1_1_0_0_n_n]; exact cf
  rw [hl, hr]

/-- Narrowing is the identity at the ideal values, so the payload is the two row products plus the bias, through the rectifier. -/
theorem k3_pay1_apply (v0 v3 : Vec Ideal S1024x1024 .f32) (v6 v9 : Vec Ideal S1024x1024 .bf16) (v13 : Vec Ideal S1x1024 .f32)
    (a b : Fin 1024) :
    k3_pay1 (F := Ideal) v0 v3 v6 v9 v13 (ix2 a b)
      = Cert.Spec.leaky (((∑ f : Fin 1024, v6 (ix2 a f) * v0 (ix2 b f)) + ∑ f : Fin 1024, v9 (ix2 a f) * v3 (ix2 b f)) + v13 (ix2 0 b)) := by
  unfold k3_pay1
  simp only [shapeCast_self]
  rw [select_apply, cmpf_apply, mulf_apply, broadcast_apply, broadcast_apply, addf_apply, addf_apply, matmul_nt3_apply, matmul_nt3_apply]
  simp only [truncf_apply]
  rw [broadcastTo_apply v13 broadcasts_S1x1024_S1024x1024 (ix2 a b) (ix2 0 b) (fun ax => by
    match ax with
    | ⟨0, _⟩ => rfl
    | ⟨1, _⟩ => rfl)]
  rfl

variable (V : (c : Dev nD) → (b : Ref sig .tc) → Buf (Elt Ideal) ((c : Thread nD τ).loc b))

theorem hz3 : (![0, 0] : Fin 2 → Nat) = fun _ => 0 := funext fun a => by fin_cases a <;> rfl

theorem idx_facts3 : ∀ t : Fin cfg3.N, win3_0.index t (0 : Fin 2) = t.val ∧ win3_0.index t (1 : Fin 2) = 0
    ∧ win3_2.index t (0 : Fin 2) = 0 ∧ win3_2.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- The loads are of whole buffers and the one store is of the whole buffer, so the stored value is the payload of the inputs. -/
theorem out3_5_apply (x0 x1 : Vec Ideal S1024x1024 .bf16) (x2 x3 : Vec Ideal S1024x1024 .f32) (x4 : Vec Ideal S1x1024 .f32) (a b : Fin 1024) :
    out3_5 (F := Ideal) x0 x1 x2 x3 x4 (ix2 a b)
      = Cert.Spec.leaky (((∑ f : Fin 1024, x0 (ix2 a f) * x2 (ix2 b f)) + ∑ f : Fin 1024, x1 (ix2 a f) * x3 (ix2 b f)) + x4 (ix2 0 b)) := by
  unfold out3_5
  rw [View.canon_unit_zero hz3]
  simp only [View.ld_unit_zero (S := S1024x1024) hz3, View.ld_unit_zero (S := S1x1024) hz3]
  exact k3_pay1_apply _ _ _ _ _ a b

/-- The three row-blocked windows have one index map: block t starts at row 1024 t of the array. -/
theorem emb3_0 (t : Fin cfg3.N) (a f : Fin 1024) (r : Fin 4096) (hr : r.val = t.val * 1024 + a.val) :
    ((cfg3.win 0).blk t).view.emb (ix2 a f) = (ix2 r f : S4096x1024.Idx) := by
  obtain ⟨e0, e1, -⟩ := idx_facts3 t
  funext ax; apply Fin.ext
  match ax with
  | ⟨0, _⟩ => show win3_0.index t (0 : Fin 2) * 1024 + 1 * a.val = r.val; rw [e0, hr]; omega
  | ⟨1, _⟩ => show win3_0.index t (1 : Fin 2) * 1024 + 1 * f.val = f.val; rw [e1]; omega
theorem emb3_1 (t : Fin cfg3.N) (a f : Fin 1024) (r : Fin 4096) (hr : r.val = t.val * 1024 + a.val) :
    ((cfg3.win 1).blk t).view.emb (ix2 a f) = (ix2 r f : S4096x1024.Idx) := emb3_0 t a f r hr
theorem emb3_5 (t : Fin cfg3.N) (a f : Fin 1024) (r : Fin 4096) (hr : r.val = t.val * 1024 + a.val) :
    ((cfg3.win 5).blk t).view.emb (ix2 a f) = (ix2 r f : S4096x1024.Idx) := emb3_0 t a f r hr

/-- The two weight windows take their whole array as the one block, so the embedding is the identity. -/
theorem emb3_2 (t : Fin cfg3.N) (b f : Fin 1024) : ((cfg3.win 2).blk t).view.emb (ix2 b f) = (ix2 b f : S1024x1024.Idx) := by
  obtain ⟨-, -, e0, e1, -⟩ := idx_facts3 t
  funext ax; apply Fin.ext
  match ax with
  | ⟨0, _⟩ => show win3_2.index t (0 : Fin 2) * 1024 + 1 * b.val = b.val; rw [e0]; omega
  | ⟨1, _⟩ => show win3_2.index t (1 : Fin 2) * 1024 + 1 * f.val = f.val; rw [e1]; omega
theorem emb3_3 (t : Fin cfg3.N) (b f : Fin 1024) : ((cfg3.win 3).blk t).view.emb (ix2 b f) = (ix2 b f : S1024x1024.Idx) := emb3_2 t b f
theorem emb3_4 (t : Fin cfg3.N) (b : Fin 1024) : ((cfg3.win 4).blk t).view.emb (ix2 0 b) = (ix2 0 b : S1x1024.Idx) := by
  obtain ⟨-, -, -, -, e0, e1, -⟩ := idx_facts3 t
  funext ax; apply Fin.ext
  match ax with
  | ⟨0, _⟩ => show win3_4.index t (0 : Fin 2) * 1 + 1 * 0 = 0; rw [e0]
  | ⟨1, _⟩ => show win3_4.index t (1 : Fin 2) * 1024 + 1 * b.val = b.val; rw [e1]; omega

/-- On the blocks of five arrays at point t the stored value is block t of the arrays' row affine map: a fact about the index maps, whatever the arrays. -/
theorem rowAff_blk3 (t : Fin cfg3.N) (X0 X1 : S4096x1024.Idx → EReal) (X2 X3 : S1024x1024.Idx → EReal) (X4 : S1x1024.Idx → EReal) (j : S1024x1024.Idx) :
    out3_5 (F := Ideal) (fun i => X0 (((cfg3.win 0).blk t).view.emb i)) (fun i => X1 (((cfg3.win 1).blk t).view.emb i))
        (fun i => X2 (((cfg3.win 2).blk t).view.emb i)) (fun i => X3 (((cfg3.win 3).blk t).view.emb i))
        (fun i => X4 (((cfg3.win 4).blk t).view.emb i)) j
      = Cert.Spec.ofMat (Cert.Spec.kRowAff (Cert.Spec.toMat X0) (Cert.Spec.toMat X1) (Cert.Spec.toMat X2) (Cert.Spec.toMat X3) (fun q => X4 (ix2 0 q)))
          (((cfg3.win 5).blk t).view.emb j) := by
  obtain ⟨a, b, rfl⟩ : ∃ (a b : Fin 1024), j = ix2 a b := ⟨j 0, j 1, eq_ix2 j⟩
  have ht : t.val < 4 := lt_of_lt_of_eq t.isLt N_3
  obtain ⟨r, hr⟩ : ∃ r : Fin 4096, r.val = t.val * 1024 + a.val := ⟨⟨t.val * 1024 + a.val, by omega⟩, rfl⟩
  rw [emb3_5 t a b r hr, out3_5_apply, Cert.Spec.ofMat_ix2]
  unfold Cert.Spec.kRowAff Cert.Spec.toMat
  simp only [emb3_0 t a _ r hr, emb3_1 t a _ r hr, emb3_2 t b, emb3_3 t b, emb3_4 t b]

/-- Row i of the output array lies in row block i / 1024. -/
theorem cover3 (i : S4096x1024.Idx) : ∃ t : Fin cfg3.N, (cfg3.win 5).flush t = true ∧ i ∈ ((cfg3.win 5).blk t).view.set := by
  have hi0 : (i 0).val < 4096 := (i 0).isLt
  have hi1 : (i 1).val < 1024 := (i 1).isLt
  have hN : cfg3.N = 4 := N_3
  obtain ⟨t, ht⟩ : ∃ t : Fin cfg3.N, t.val = (i 0).val / 1024 := ⟨⟨(i 0).val / 1024, by rw [hN]; omega⟩, rfl⟩
  refine ⟨t, flush3_5 t, ?_⟩
  show i ∈ ((View.whole (Pipeline.arrRef spec3 5)).slice (win3_5.rect t)).set
  rw [View.set_slice_whole, Rect.mem_set_unit]
  obtain ⟨-, -, -, -, -, -, e0, e1⟩ := idx_facts3 t
  intro a
  match a with
  | ⟨0, _⟩ => show win3_5.index t (0 : Fin 2) * 1024 ≤ (i 0).val ∧ (i 0).val < win3_5.index t (0 : Fin 2) * 1024 + 1024; rw [e0]; omega
  | ⟨1, _⟩ => show win3_5.index t (1 : Fin 2) * 1024 ≤ (i 1).val ∧ (i 1).val < win3_5.index t (1 : Fin 2) * 1024 + 1024; rw [e1]; omega

theorem arrAt3_out (c : Dev nD) :
    (dat3 (F := Ideal) V c).arrAt 5 cfg3.N = Cert.Spec.ofMat (Cert.Spec.kRowAff
      (Cert.Spec.toMat (V c (Pipeline.arrRef spec3 0) : S4096x1024.Idx → EReal))
      (Cert.Spec.toMat (V c (Pipeline.arrRef spec3 1) : S4096x1024.Idx → EReal))
      (Cert.Spec.toMat (V c (Pipeline.arrRef spec3 2) : S1024x1024.Idx → EReal))
      (Cert.Spec.toMat (V c (Pipeline.arrRef spec3 3) : S1024x1024.Idx → EReal))
      (fun q => (V c (Pipeline.arrRef spec3 4) : S1x1024.Idx → EReal) (ix2 0 q))) :=
  (dat3 (F := Ideal) V c).arrAt_eq_of_cover 5 _ (fun t _ => by
    show (cfg3.win 5).cut (grid3.coords t) ((dat3 (F := Ideal) V c).after 5 t) = _
    rw [after3_5]
    exact funext (rowAff_blk3 t _ _ _ _ _)) cover3

end Value3

end Cert.KernelIdeal.Hand

end
-- ==== Proof.KIVal4.lean ====
import proofs.«415769_j962072674785_2_alg».proof.Proof.KIReg4
import proofs.«415769_j962072674785_2_alg».proof.Proof.KIVal0
import proofs.«415769_j962072674785_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

section Region
variable (V : (c : Dev nD) → (b : Ref sig .tc) → Buf (Elt Ideal) ((c : Thread nD τ).loc b))

theorem iblk4_0_apply (c : Dev nD) (t : Fin cfg4.N) (y : S512x1024.Idx) (i : S4096x1024.Idx)
    (hi0 : (i 0).val = t.val * 512 + (y 0).val) (hi1 : (i 1).val = (y 1).val) :
    (iblk4 V c 0 t : Vec Ideal S512x1024 .bf16) y = (V c main_v64 : S4096x1024.Idx → EReal) i := by
  obtain ⟨e0, e1, -⟩ := idx_facts0 t
  show (V c main_v64 : S4096x1024.Idx → EReal) (((cfg4.win 0).blk t).view.emb y) = (V c main_v64 : S4096x1024.Idx → EReal) i
  refine congrArg _ (funext fun a => Fin.ext ?_)
  match a with
  | ⟨0, _⟩ => show win0_0.index t (0 : Fin 2) * 512 + 1 * (y 0).val = (i 0).val; omega
  | ⟨1, _⟩ => show win0_0.index t (1 : Fin 2) * 1024 + 1 * (y 1).val = (i 1).val; omega

theorem iblk4_1_eq (c : Dev nD) (t : Fin cfg4.N) :
    (iblk4 V c 1 t : Vec Ideal S1024x1024 .bf16) = (V c main_v16 : S1024x1024.Idx → EReal) := by
  obtain ⟨-, -, e2, e3, -⟩ := idx_facts0 t
  funext y
  show (V c main_v16 : S1024x1024.Idx → EReal) (((cfg4.win 1).blk t).view.emb y) = (V c main_v16 : S1024x1024.Idx → EReal) y
  refine congrArg _ (funext fun a => Fin.ext ?_)
  match a with
  | ⟨0, _⟩ => show win0_1.index t (0 : Fin 2) * 1024 + 1 * (y 0).val = (y 0).val; omega
  | ⟨1, _⟩ => show win0_1.index t (1 : Fin 2) * 1024 + 1 * (y 1).val = (y 1).val; omega

theorem iblk4_2_eq (c : Dev nD) (t : Fin cfg4.N) :
    (iblk4 V c 2 t : Vec Ideal S1x1024 .f32) = (V c main_v25 : S1x1024.Idx → EReal) := by
  obtain ⟨-, -, -, -, e4, e5, -⟩ := idx_facts0 t
  funext y
  show (V c main_v25 : S1x1024.Idx → EReal) (((cfg4.win 2).blk t).view.emb y) = (V c main_v25 : S1x1024.Idx → EReal) y
  refine congrArg _ (funext fun a => Fin.ext ?_)
  match a with
  | ⟨0, _⟩ => show win0_2.index t (0 : Fin 2) * 1 + 1 * (y 0).val = (y 0).val; omega
  | ⟨1, _⟩ => show win0_2.index t (1 : Fin 2) * 1024 + 1 * (y 1).val = (y 1).val; omega

abbrev G4 (c : Dev nD) : S4096x1024.Idx → EReal :=
  Cert.Spec.ofMat (Cert.Spec.kColAgg (Cert.Spec.toMat (V c main_v64 : S4096x1024.Idx → EReal))
    (Cert.Spec.toMat (V c main_v16 : S1024x1024.Idx → EReal)) (fun b => (V c main_v25 : S1x1024.Idx → EReal) (ix2 (0 : Fin 1) b)))

theorem flushed4_eq (c : Dev nD) (t : Fin cfg4.N) :
    (dat4 (F := Ideal) V c).flushed 3 t = ((cfg4.win 3).blk t).view.read (Elt Ideal) (G4 V c) := by
  show (cfg4.win 3).cut (grid4.coords t) ((dat4 (F := Ideal) V c).after 3 t) = _
  rw [after4_3]
  unfold out0_3
  rw [View.canon_unit_zero hz0]
  simp only [View.ld_unit_zero (S := S512x1024) hz0, View.ld_unit_zero (S := S1024x1024) hz0, View.ld_unit_zero (S := S1x1024) hz0]
  obtain ⟨-, -, -, -, -, -, e6, e7⟩ := idx_facts0 t
  funext j
  obtain ⟨p, q, rfl⟩ : ∃ (p : Fin 512) (q : Fin 1024), j = ix2 p q := ⟨j 0, j 1, eq_ix2 j⟩
  show k0_pay1 (F := Ideal) (iblk4 V c 0 t) (iblk4 V c 1 t) (iblk4 V c 2 t) (ix2 p q) = G4 V c (((cfg4.win 3).blk t).view.emb (ix2 p q))
  have hj0 : ((((cfg4.win 3).blk t).view.emb (ix2 p q)) 0).val = t.val * 512 + p.val := by
    show win0_3.index t (0 : Fin 2) * 512 + 1 * p.val = _; omega
  have hj1 : ((((cfg4.win 3).blk t).view.emb (ix2 p q)) 1).val = q.val := by
    show win0_3.index t (1 : Fin 2) * 1024 + 1 * q.val = _; omega
  refine pay0_eq_spec _ _ _ _ _ _ p q _ (fun k => ?_) (iblk4_1_eq V c t) (iblk4_2_eq V c t) (Fin.ext hj1)
  exact iblk4_0_apply V c t (ix2 p k) _ hj0 rfl

theorem cover4 (i : S4096x1024.Idx) : ∃ t : Fin cfg4.N, (cfg4.win 3).flush t = true ∧ i ∈ ((cfg4.win 3).blk t).view.set := by
  have hi0 : (i 0).val < 4096 := (i 0).isLt
  have hi1 : (i 1).val < 1024 := (i 1).isLt
  have hN : cfg4.N = 8 := N_4
  obtain ⟨t, ht⟩ : ∃ t : Fin cfg4.N, t.val = (i 0).val / 512 := ⟨⟨(i 0).val / 512, by rw [hN]; omega⟩, rfl⟩
  refine ⟨t, flush4_3 t, ?_⟩
  show i ∈ ((View.whole main_v65).slice (win4_3.rect t)).set
  rw [View.set_slice_whole, Rect.mem_set_unit]
  obtain ⟨-, -, -, -, -, -, e6, e7⟩ := idx_facts0 t
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 1024 ≤ (i 1).val ∧ (i 1).val < win0_3.index t (1 : Fin 2) * 1024 + 1024; omega

theorem arrAt4_out (c : Dev nD) :
    ((dat4 (F := Ideal) V c).arrAt 3 cfg4.N : S4096x1024.Idx → EReal)
      = Cert.Spec.ofMat (Cert.Spec.kColAgg (Cert.Spec.toMat (V c main_v64 : S4096x1024.Idx → EReal))
          (Cert.Spec.toMat (V c main_v16 : S1024x1024.Idx → EReal)) (fun b => (V c main_v25 : S1x1024.Idx → EReal) (ix2 (0 : Fin 1) b))) :=
  (dat4 (F := Ideal) V c).arrAt_eq_of_cover 3 (G4 V c) (fun t _ => flushed4_eq V c t) cover4

end Region

end Cert.KernelIdeal.Hand

end
-- ==== Proof.KIVal5.lean ====
import proofs.«415769_j962072674785_2_alg».proof.Proof.KIReg5
import proofs.«415769_j962072674785_2_alg».proof.Proof.KIVal1

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)
open Cert.Spec
open scoped BigOperators

variable (V : (c : Dev nD) → (b : Ref sig .tc) → Buf (Elt Ideal) ((c : Thread nD τ).loc b))

abbrev mean5 (c : Dev nD) : S4096x1024.Idx → EReal := V c (Pipeline.arrRef spec5 0)
abbrev feat5 (c : Dev nD) : S4096x1024.Idx → EReal := V c (Pipeline.arrRef spec5 1)
abbrev wl5 (c : Dev nD) : S4096x4096.Idx → EReal := V c (Pipeline.arrRef spec5 2)
abbrev wr5 (c : Dev nD) : S4096x4096.Idx → EReal := V c (Pipeline.arrRef spec5 3)
abbrev bias5 (c : Dev nD) : S4096x1.Idx → EReal := V c (Pipeline.arrRef spec5 4)

abbrev blk5_0 (c : Dev nD) (t : Fin cfg5.N) : Vec Ideal S4096x1024 .bf16 := iblk5 V c 0 t
abbrev blk5_1 (c : Dev nD) (t : Fin cfg5.N) : Vec Ideal S4096x1024 .bf16 := iblk5 V c 1 t
abbrev blk5_2 (c : Dev nD) (t : Fin cfg5.N) : Vec Ideal S256x4096 .f32 := iblk5 V c 2 t
abbrev blk5_3 (c : Dev nD) (t : Fin cfg5.N) : Vec Ideal S256x4096 .f32 := iblk5 V c 3 t
abbrev blk5_4 (c : Dev nD) (t : Fin cfg5.N) : Vec Ideal S256x1 .f32 := iblk5 V c 4 t

/-- The column affine map of the arrays the region is entered with. -/
abbrev G5 (c : Dev nD) : S4096x1024.Idx → EReal :=
  ofMat (kColAff (toMat (mean5 V c)) (toMat (feat5 V c)) (toMat (wl5 V c)) (toMat (wr5 V c)) (fun q => bias5 V c (ix2 q 0)))

/-- The windows' block indices at point `t`: (0, 0) for the two feature windows, (t, 0) for the others. -/
theorem idx_facts5 : ∀ t : Fin cfg5.N, win5_0.index t (0 : Fin 2) = 0 ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0
    ∧ win5_3.index t (0 : Fin 2) = t.val ∧ win5_3.index t (1 : Fin 2) = 0
    ∧ win5_4.index t (0 : Fin 2) = t.val ∧ win5_4.index t (1 : Fin 2) = 0
    ∧ win5_5.index t (0 : Fin 2) = t.val ∧ win5_5.index t (1 : Fin 2) = 0 :=
  (by decide +kernel : ∀ t : Fin grid5.N, _)

/-- An entry of a feature block is the same entry of its array: the block is the whole array. -/
theorem emb5_0 (t : Fin cfg5.N) (x k : S4096x1024.Idx) (hk0 : (k 0).val = (x 0).val) (hk1 : (k 1).val = (x 1).val) :
    ((cfg5.win 0).blk t).view.emb x = k := by
  obtain ⟨e00, e01, -, -, -, -, -, -, -, -, -, -⟩ := idx_facts5 t
  funext a
  apply Fin.ext
  match a with
  | ⟨0, _⟩ => show win5_0.index t 0 * 4096 + 1 * (x 0).val = (k 0).val; rw [e00, hk0]; omega
  | ⟨1, _⟩ => show win5_0.index t 1 * 1024 + 1 * (x 1).val = (k 1).val; rw [e01, hk1]; omega

/-- Row `p` of point `t`'s weight block is row `256 t + p` of the weight array. -/
theorem emb5_2 (t : Fin cfg5.N) (x : S256x4096.Idx) (k : S4096x4096.Idx)
    (hk0 : (k 0).val = 256 * t.val + (x 0).val) (hk1 : (k 1).val = (x 1).val) :
    ((cfg5.win 2).blk t).view.emb x = k := by
  obtain ⟨-, -, -, -, e20, e21, -, -, -, -, -, -⟩ := idx_facts5 t
  funext a
  apply Fin.ext
  match a with
  | ⟨0, _⟩ => show win5_2.index t 0 * 256 + 1 * (x 0).val = (k 0).val; rw [e20, hk0]; omega
  | ⟨1, _⟩ => show win5_2.index t 1 * 4096 + 1 * (x 1).val = (k 1).val; rw [e21, hk1]; omega

/-- Row `p` of point `t`'s bias block is row `256 t + p` of the bias column. -/
theorem blk5_4_apply (c : Dev nD) (t : Fin cfg5.N) (x : S256x1.Idx) (k : S4096x1.Idx)
    (hk0 : (k 0).val = 256 * t.val + (x 0).val) (hk1 : (k 1).val = (x 1).val) :
    blk5_4 V c t x = bias5 V c k := by
  obtain ⟨e00, e01, e10, e11, e20, e21, e30, e31, e40, e41, e50, e51⟩ := idx_facts5 t
  unfold blk5_4 iblk5
  rw [View.read_apply]
  show V c (Pipeline.arrRef spec5 4) _ = V c (Pipeline.arrRef spec5 4) k
  congr 1
  funext a
  apply Fin.ext
  match a with
  | ⟨0, _⟩ => show win5_4.index t 0 * 256 + 1 * (x 0).val = (k 0).val; rw [e40, hk0]; omega
  | ⟨1, _⟩ => show win5_4.index t 1 * 1 + 1 * (x 1).val = (k 1).val; rw [e41, hk1]; omega

/-- Row `p` of point `t`'s output block is row `256 t + p` of the output array. -/
theorem emb5_5 (t : Fin cfg5.N) (x : S256x1024.Idx) (k : S4096x1024.Idx)
    (hk0 : (k 0).val = 256 * t.val + (x 0).val) (hk1 : (k 1).val = (x 1).val) :
    ((cfg5.win 5).blk t).view.emb x = k := by
  obtain ⟨-, -, -, -, -, -, -, -, -, -, e50, e51⟩ := idx_facts5 t
  funext a
  apply Fin.ext
  match a with
  | ⟨0, _⟩ => show win5_5.index t 0 * 256 + 1 * (x 0).val = (k 0).val; rw [e50, hk0]; omega
  | ⟨1, _⟩ => show win5_5.index t 1 * 1024 + 1 * (x 1).val = (k 1).val; rw [e51, hk1]; omega

/-- What point `t` writes back is block `t` of the column affine map. -/
theorem flushed5_eq (c : Dev nD) (t : Fin cfg5.N) :
    (dat5 (F := Ideal) V c).flushed 5 t = ((cfg5.win 5).blk t).view.read (Elt Ideal) (G5 V c) := by
  show (cfg5.win 5).cut (grid5.coords t) ((dat5 (F := Ideal) V c).after 5 t) = _
  rw [after5_5]
  unfold out1_5
  rw [View.canon_unit_zero hz1]
  simp only [View.ld_unit_zero (S := S4096x1024) hz1, View.ld_unit_zero (S := S256x4096) hz1, View.ld_unit_zero (S := S256x1) hz1]
  funext j
  obtain ⟨p, q, rfl⟩ : ∃ (p : Fin 256) (q : Fin 1024), j = ix2 p q := ⟨j 0, j 1, eq_ix2 j⟩
  show k1_pay1 (F := Ideal) (blk5_2 V c t) (blk5_3 V c t) (blk5_0 V c t) (blk5_1 V c t) (blk5_4 V c t) (ix2 p q)
    = G5 V c (((cfg5.win 5).blk t).view.emb (ix2 p q))
  rw [emb5_5 t (ix2 p q) (ix2 ⟨256 * t.val + p.val, row_lt1 t p⟩ q) rfl rfl]
  refine (pay1_apply (blk5_2 V c t) (blk5_3 V c t) (blk5_0 V c t) (blk5_1 V c t) (blk5_4 V c t) p q).trans ?_
  show leaky _ = leaky (((∑ r : Fin 4096, wl5 V c (ix2 ⟨256 * t.val + p.val, row_lt1 t p⟩ r) * mean5 V c (ix2 r q))
      + ∑ r : Fin 4096, wr5 V c (ix2 ⟨256 * t.val + p.val, row_lt1 t p⟩ r) * feat5 V c (ix2 r q))
    + bias5 V c (ix2 ⟨256 * t.val + p.val, row_lt1 t p⟩ 0))
  refine congrArg leaky (congrArg₂ (· + ·) (congrArg₂ (· + ·) (Finset.sum_congr rfl fun r _ => ?_) (Finset.sum_congr rfl fun r _ => ?_)) ?_)
  · exact congrArg₂ (· * ·) (congrArg (wl5 V c) (emb5_2 t (ix2 p r) _ rfl rfl)) (congrArg (mean5 V c) (emb5_0 t (ix2 r q) _ rfl rfl))
  · exact congrArg₂ (· * ·) (congrArg (wr5 V c) (emb5_2 t (ix2 p r) _ rfl rfl)) (congrArg (feat5 V c) (emb5_0 t (ix2 r q) _ rfl rfl))
  · exact blk5_4_apply V c t (ix2 p 0) _ rfl rfl

/-- Row `r` of the output array lies in the block of point `r / 256`. -/
theorem cover5 (i : S4096x1024.Idx) : ∃ t : Fin cfg5.N, (cfg5.win 5).flush t = true ∧ i ∈ ((cfg5.win 5).blk t).view.set := by
  have hi0 : (i 0).val < 4096 := (i 0).isLt
  have hi1 : (i 1).val < 1024 := (i 1).isLt
  have ht : (i 0).val / 256 < cfg5.N := by rw [show cfg5.N = 16 from N_5]; omega
  let t : Fin cfg5.N := ⟨(i 0).val / 256, ht⟩
  obtain ⟨-, -, -, -, -, -, -, -, -, -, e50, e51⟩ := idx_facts5 t
  refine ⟨t, flush5_5 t, ?_⟩
  show i ∈ ((View.whole (Pipeline.arrRef spec5 5)).slice (win5_5.rect t)).set
  rw [View.set_slice_whole, Rect.mem_set_unit]
  intro a
  match a with
  | ⟨0, _⟩ => show win5_5.index t 0 * 256 ≤ (i 0).val ∧ (i 0).val < win5_5.index t 0 * 256 + 256; rw [e50]; show (i 0).val / 256 * 256 ≤ _ ∧ _ < (i 0).val / 256 * 256 + 256; omega
  | ⟨1, _⟩ => show win5_5.index t 1 * 1024 ≤ (i 1).val ∧ (i 1).val < win5_5.index t 1 * 1024 + 1024; rw [e51]; omega

theorem arrAt5_out (c : Dev nD) :
    ((dat5 (F := Ideal) V c).arrAt 5 cfg5.N : S4096x1024.Idx → EReal)
      = ofMat (kColAff (toMat (mean5 V c)) (toMat (feat5 V c)) (toMat (wl5 V c)) (toMat (wr5 V c)) (fun q => bias5 V c (ix2 q 0))) :=
  (dat5 (F := Ideal) V c).arrAt_eq_of_cover 5 (G5 V c) (fun t _ => flushed5_eq V c t) cover5

end Cert.KernelIdeal.Hand

end
-- ==== Proof.KIVal6.lean ====
import proofs.«415769_j962072674785_2_alg».proof.Proof.KIVal2
import proofs.«415769_j962072674785_2_alg».proof.Proof.KIReg6

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

abbrev adjA6 (c : Dev nD) : S4096x4096.Idx → EReal := V c (Pipeline.arrRef spec6 0)

abbrev eA6 (c : Dev nD) : S4096x1024.Idx → EReal := V c (Pipeline.arrRef spec6 1)

abbrev rcA6 (c : Dev nD) : S4096x1.Idx → EReal := V c (Pipeline.arrRef spec6 2)

abbrev blkA6 (c : Dev nD) (t : Fin cfg6.N) : Vec Ideal S2048x512 .bf16 := iblk6 V c 0 t

abbrev blkE6 (c : Dev nD) (t : Fin cfg6.N) : Vec Ideal S512x1024 .bf16 := iblk6 V c 1 t

abbrev blkR6 (c : Dev nD) (t : Fin cfg6.N) : Vec Ideal S2048x1 .f32 := iblk6 V c 2 t

theorem idx_facts6 : ∀ t : Fin cfg6.N, win6_0.index t (0 : Fin 2) = t.val / 8 ∧ win6_0.index t (1 : Fin 2) = t.val % 8
    ∧ win6_1.index t (0 : Fin 2) = t.val % 8 ∧ win6_1.index t (1 : Fin 2) = 0
    ∧ win6_2.index t (0 : Fin 2) = t.val / 8 ∧ win6_2.index t (1 : Fin 2) = 0
    ∧ win6_3.index t (0 : Fin 2) = t.val / 8 ∧ win6_3.index t (1 : Fin 2) = 0 :=
  (by decide +kernel : ∀ t : Fin grid6.N, _)

theorem blk0_apply6 (c : Dev nD) (t : Fin cfg6.N) (y : S2048x512.Idx) (i : S4096x4096.Idx)
    (hi0 : (i 0).val = t.val / 8 * 2048 + (y 0).val) (hi1 : (i 1).val = t.val % 8 * 512 + (y 1).val) :
    blkA6 V c t y = adjA6 V c i := by
  obtain ⟨e0, e1, -⟩ := idx_facts6 t
  show adjA6 V c (((cfg6.win 0).blk t).view.emb y) = adjA6 V c i
  refine congrArg _ (funext fun a => Fin.ext ?_)
  match a with
  | ⟨0, _⟩ => show win6_0.index t (0 : Fin 2) * 2048 + 1 * (y 0).val = (i 0).val; omega
  | ⟨1, _⟩ => show win6_0.index t (1 : Fin 2) * 512 + 1 * (y 1).val = (i 1).val; omega

theorem blk1_apply6 (c : Dev nD) (t : Fin cfg6.N) (y : S512x1024.Idx) (i : S4096x1024.Idx)
    (hi0 : (i 0).val = t.val % 8 * 512 + (y 0).val) (hi1 : (i 1).val = (y 1).val) :
    blkE6 V c t y = eA6 V c i := by
  obtain ⟨-, -, e2, e3, -⟩ := idx_facts6 t
  show eA6 V c (((cfg6.win 1).blk t).view.emb y) = eA6 V c i
  refine congrArg _ (funext fun a => Fin.ext ?_)
  match a with
  | ⟨0, _⟩ => show win6_1.index t (0 : Fin 2) * 512 + 1 * (y 0).val = (i 0).val; omega
  | ⟨1, _⟩ => show win6_1.index t (1 : Fin 2) * 1024 + 1 * (y 1).val = (i 1).val; omega

theorem blk2_apply6 (c : Dev nD) (t : Fin cfg6.N) (y : S2048x1.Idx) (i : S4096x1.Idx)
    (hi0 : (i 0).val = t.val / 8 * 2048 + (y 0).val) (hi1 : (i 1).val = (y 1).val) :
    blkR6 V c t y = rcA6 V c i := by
  obtain ⟨-, -, -, -, e4, e5, -⟩ := idx_facts6 t
  show rcA6 V c (((cfg6.win 2).blk t).view.emb y) = rcA6 V c i
  refine congrArg _ (funext fun a => Fin.ext ?_)
  match a with
  | ⟨0, _⟩ => show win6_2.index t (0 : Fin 2) * 2048 + 1 * (y 0).val = (i 0).val; omega
  | ⟨1, _⟩ => show win6_2.index t (1 : Fin 2) * 1 + 1 * (y 1).val = (i 1).val; omega

theorem blockprod_eq6 (c : Dev nD) (t : Fin cfg6.N) (p : Fin 2048) (q : Fin 1024) :
    (∑ k : Fin 512, blkA6 V c t (ix2 p k) * blkE6 V c t (ix2 k q))
      = ∑ j : Fin 512, termAt2 (adjA6 V c) (eA6 V c) (rowOf2 (t.val / 8) p) q (t.val % 8 * 512 + j.val) := by
  have hN : t.val < 16 := lt_of_lt_of_eq t.isLt (show cfg6.N = 16 from N_6)
  refine Finset.sum_congr rfl fun k _ => ?_
  have hk : t.val % 8 * 512 + k.val < 4096 := by have := k.isLt; omega
  unfold termAt2
  rw [dif_pos hk]
  refine congrArg₂ (· * ·) ?_ ?_
  · exact blk0_apply6 V c t (ix2 p k) _ (by show t.val / 8 % 2 * 2048 + p.val = t.val / 8 * 2048 + p.val; omega) rfl
  · exact blk1_apply6 V c t (ix2 k q) _ rfl rfl

theorem acc_eq6 (c : Dev nD) : ∀ (n : ℕ) (hn : n < cfg6.N) (p : Fin 2048) (q : Fin 1024),
    accAt6 (F := Ideal) V c n hn (ix2 p q) = partAt2 (adjA6 V c) (eA6 V c) (rowOf2 (n / 8) p) q ((n % 8 + 1) * 512) :=
  acc_eq_of (accAt6 V c) (blkA6 V c) (blkE6 V c) _ _ (accAt6_A V c) (accAt6_B V c) (blockprod_eq6 V c)

abbrev G6 (c : Dev nD) : S4096x1024.Idx → EReal :=
  Cert.Spec.ofMat (Cert.Spec.kRowAgg (Cert.Spec.toMat (adjA6 V c)) (Cert.Spec.toMat (eA6 V c)) (fun d => rcA6 V c (ix2 d (0 : Fin 1))))

theorem flushed_eq6 (c : Dev nD) (t : Fin cfg6.N) (hf : (cfg6.win 3).flush t = true) :
    (dat6 (F := Ideal) V c).flushed 3 t = ((cfg6.win 3).blk t).view.read (Elt Ideal) (G6 V c) := by
  have h7 : t.val % 8 = 7 := (flush6_3 t).mp hf
  have hN : t.val < 16 := lt_of_lt_of_eq t.isLt (show cfg6.N = 16 from N_6)
  show (cfg6.win 3).cut (grid6.coords t) ((dat6 (F := Ideal) V c).after 3 t) = _
  rw [after6_3, out2_3_eq]
  obtain ⟨-, -, -, -, -, -, e6, e7⟩ := idx_facts6 t
  funext j
  obtain ⟨p, q, rfl⟩ : ∃ (p : Fin 2048) (q : Fin 1024), j = ix2 p q := ⟨j 0, j 1, eq_ix2 j⟩
  show k2_pay3 (F := Ideal) (accAt6 (F := Ideal) V c t.val t.isLt) (blkR6 V c t) (ix2 p q) = G6 V c (((cfg6.win 3).blk t).view.emb (ix2 p q))
  have hj0 : ((((cfg6.win 3).blk t).view.emb (ix2 p q)) 0) = rowOf2 (t.val / 8) p := Fin.ext (by
    show win6_3.index t (0 : Fin 2) * 2048 + 1 * p.val = t.val / 8 % 2 * 2048 + p.val; omega)
  have hj1 : ((((cfg6.win 3).blk t).view.emb (ix2 p q)) 1) = q := Fin.ext (by
    show win6_3.index t (1 : Fin 2) * 1024 + 1 * q.val = q.val; omega)
  rw [pay3_apply2, acc_eq6 V c t.val t.isLt p q, h7, part_full2]
  show _ = (∑ s : Fin 4096, adjA6 V c (ix2 ((((cfg6.win 3).blk t).view.emb (ix2 p q)) 0) s) * eA6 V c (ix2 s ((((cfg6.win 3).blk t).view.emb (ix2 p q)) 1)))
      * rcA6 V c (ix2 ((((cfg6.win 3).blk t).view.emb (ix2 p q)) 0) (0 : Fin 1))
  rw [hj0, hj1]
  refine congrArg (_ * ·) ?_
  exact blk2_apply6 V c t (ix2 p (0 : Fin 1)) _ (by show t.val / 8 % 2 * 2048 + p.val = t.val / 8 * 2048 + p.val; omega) rfl

theorem mem_blk6 (t : Fin cfg6.N) (i : S4096x1024.Idx) :
    i ∈ ((cfg6.win 3).blk t).view.set ↔ ∀ a : Fin 2, win6_3.index t a * S2048x1024.size a ≤ (i a).val ∧ (i a).val < win6_3.index t a * S2048x1024.size a + S2048x1024.size a := by
  show i ∈ ((View.whole (Pipeline.arrRef spec6 3)).slice (win6_3.rect t)).set ↔ _
  rw [View.set_slice_whole, Rect.mem_set_unit]
  exact Iff.rfl

theorem cover_out6 (i : S4096x1024.Idx) : ∃ t : Fin cfg6.N, (cfg6.win 3).flush t = true ∧ i ∈ ((cfg6.win 3).blk t).view.set := by
  have hi0 : (i 0).val < 4096 := (i 0).isLt
  have hi1 : (i 1).val < 1024 := (i 1).isLt
  have hN : cfg6.N = 16 := N_6
  have ht : (i 0).val / 2048 * 8 + 7 < cfg6.N := by rw [hN]; omega
  refine ⟨⟨(i 0).val / 2048 * 8 + 7, ht⟩, (flush6_3 _).mpr (by show ((i 0).val / 2048 * 8 + 7) % 8 = 7; omega), ?_⟩
  rw [mem_blk6]
  obtain ⟨-, -, -, -, -, -, e6, e7⟩ := idx_facts6 ⟨(i 0).val / 2048 * 8 + 7, ht⟩
  intro a
  match a with
  | ⟨0, _⟩ => show win6_3.index _ (0 : Fin 2) * 2048 ≤ (i 0).val ∧ (i 0).val < win6_3.index _ (0 : Fin 2) * 2048 + 2048; rw [e6]; show ((i 0).val / 2048 * 8 + 7) / 8 * 2048 ≤ (i 0).val ∧ (i 0).val < ((i 0).val / 2048 * 8 + 7) / 8 * 2048 + 2048; omega
  | ⟨1, _⟩ => show win6_3.index _ (1 : Fin 2) * 1024 ≤ (i 1).val ∧ (i 1).val < win6_3.index _ (1 : Fin 2) * 1024 + 1024; rw [e7]; omega

theorem arrAt6_out (c : Dev nD) :
    ((dat6 (F := Ideal) V c).arrAt 3 cfg6.N : S4096x1024.Idx → EReal)
      = Cert.Spec.ofMat (Cert.Spec.kRowAgg (Cert.Spec.toMat (V c (Pipeline.arrRef spec6 0) : S4096x4096.Idx → EReal))
          (Cert.Spec.toMat (V c (Pipeline.arrRef spec6 1) : S4096x1024.Idx → EReal))
          (fun d => (V c (Pipeline.arrRef spec6 2) : S4096x1.Idx → EReal) (ix2 d (0 : Fin 1)))) :=
  (dat6 (F := Ideal) V c).arrAt_eq_of_cover 3 (G6 V c) (flushed_eq6 V c) cover_out6

end Cert.KernelIdeal.Hand

end
-- ==== Proof.KIVal7.lean ====
import proofs.«415769_j962072674785_2_alg».proof.Proof.KIReg7
import proofs.«415769_j962072674785_2_alg».proof.Proof.KIVal3

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

section Value7

variable (V : (c : Dev nD) → (b : Ref sig .tc) → Buf (Elt Ideal) ((c : Thread nD τ).loc b))

theorem idx_facts7 : ∀ t : Fin cfg7.N, win7_0.index t (0 : Fin 2) = t.val ∧ win7_0.index t (1 : Fin 2) = 0
    ∧ win7_1.index t (0 : Fin 2) = t.val ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = t.val ∧ win7_5.index t (1 : Fin 2) = 0 :=
  (by decide +kernel : ∀ t : Fin grid7.N, _)

theorem iblk7_0_apply (c : Dev nD) (t : Fin cfg7.N) (a f : Fin 1024) (r : Fin 4096) (hr : r.val = t.val * 1024 + a.val) :
    (iblk7 V c 0 t : Vec Ideal S1024x1024 .bf16) (ix2 a f) = (V c (Pipeline.arrRef spec7 0) : S4096x1024.Idx → EReal) (ix2 r f) := by
  obtain ⟨e0, e1, -⟩ := idx_facts7 t
  unfold iblk7
  rw [View.read_apply]
  refine congrArg (V c (Pipeline.arrRef spec7 0)) (funext fun ax => Fin.ext ?_)
  match ax with
  | ⟨0, _⟩ => show win7_0.index t (0 : Fin 2) * 1024 + 1 * a.val = r.val; rw [e0, hr]; omega
  | ⟨1, _⟩ => show win7_0.index t (1 : Fin 2) * 1024 + 1 * f.val = f.val; rw [e1]; omega

theorem iblk7_1_apply (c : Dev nD) (t : Fin cfg7.N) (a f : Fin 1024) (r : Fin 4096) (hr : r.val = t.val * 1024 + a.val) :
    (iblk7 V c 1 t : Vec Ideal S1024x1024 .bf16) (ix2 a f) = (V c (Pipeline.arrRef spec7 1) : S4096x1024.Idx → EReal) (ix2 r f) := by
  obtain ⟨-, -, e0, e1, -⟩ := idx_facts7 t
  unfold iblk7
  rw [View.read_apply]
  refine congrArg (V c (Pipeline.arrRef spec7 1)) (funext fun ax => Fin.ext ?_)
  match ax with
  | ⟨0, _⟩ => show win7_1.index t (0 : Fin 2) * 1024 + 1 * a.val = r.val; rw [e0, hr]; omega
  | ⟨1, _⟩ => show win7_1.index t (1 : Fin 2) * 1024 + 1 * f.val = f.val; rw [e1]; omega

theorem iblk7_2_apply (c : Dev nD) (t : Fin cfg7.N) (b f : Fin 1024) :
    (iblk7 V c 2 t : Vec Ideal S1024x1024 .f32) (ix2 b f) = (V c (Pipeline.arrRef spec7 2) : S1024x1024.Idx → EReal) (ix2 b f) := by
  obtain ⟨-, -, -, -, e0, e1, -⟩ := idx_facts7 t
  unfold iblk7
  rw [View.read_apply]
  refine congrArg (V c (Pipeline.arrRef spec7 2)) (funext fun ax => Fin.ext ?_)
  match ax with
  | ⟨0, _⟩ => show win7_2.index t (0 : Fin 2) * 1024 + 1 * b.val = b.val; rw [e0]; omega
  | ⟨1, _⟩ => show win7_2.index t (1 : Fin 2) * 1024 + 1 * f.val = f.val; rw [e1]; omega

theorem iblk7_3_apply (c : Dev nD) (t : Fin cfg7.N) (b f : Fin 1024) :
    (iblk7 V c 3 t : Vec Ideal S1024x1024 .f32) (ix2 b f) = (V c (Pipeline.arrRef spec7 3) : S1024x1024.Idx → EReal) (ix2 b f) := by
  obtain ⟨-, -, -, -, -, -, e0, e1, -⟩ := idx_facts7 t
  unfold iblk7
  rw [View.read_apply]
  refine congrArg (V c (Pipeline.arrRef spec7 3)) (funext fun ax => Fin.ext ?_)
  match ax with
  | ⟨0, _⟩ => show win7_3.index t (0 : Fin 2) * 1024 + 1 * b.val = b.val; rw [e0]; omega
  | ⟨1, _⟩ => show win7_3.index t (1 : Fin 2) * 1024 + 1 * f.val = f.val; rw [e1]; omega

theorem iblk7_4_apply (c : Dev nD) (t : Fin cfg7.N) (b : Fin 1024) :
    (iblk7 V c 4 t : Vec Ideal S1x1024 .f32) (ix2 0 b) = (V c (Pipeline.arrRef spec7 4) : S1x1024.Idx → EReal) (ix2 0 b) := by
  obtain ⟨-, -, -, -, -, -, -, -, e0, e1, -⟩ := idx_facts7 t
  unfold iblk7
  rw [View.read_apply]
  refine congrArg (V c (Pipeline.arrRef spec7 4)) (funext fun ax => Fin.ext ?_)
  match ax with
  | ⟨0, _⟩ => show win7_4.index t (0 : Fin 2) * 1 + 1 * 0 = 0; rw [e0]
  | ⟨1, _⟩ => show win7_4.index t (1 : Fin 2) * 1024 + 1 * b.val = b.val; rw [e1]; omega

def G7 (c : Dev nD) : S4096x1024.Idx → EReal :=
  Cert.Spec.ofMat (Cert.Spec.kRowAff
    (Cert.Spec.toMat (V c (Pipeline.arrRef spec7 0) : S4096x1024.Idx → EReal))
    (Cert.Spec.toMat (V c (Pipeline.arrRef spec7 1) : S4096x1024.Idx → EReal))
    (Cert.Spec.toMat (V c (Pipeline.arrRef spec7 2) : S1024x1024.Idx → EReal))
    (Cert.Spec.toMat (V c (Pipeline.arrRef spec7 3) : S1024x1024.Idx → EReal))
    (fun q => (V c (Pipeline.arrRef spec7 4) : S1x1024.Idx → EReal) (ix2 0 q)))

/-- Point t writes back block t of the row affine map of the arrays, by region 3's value of the stored payload. -/
theorem flushed7_eq (c : Dev nD) (t : Fin cfg7.N) :
    (dat7 (F := Ideal) V c).flushed 5 t = ((cfg7.win 5).blk t).view.read (Elt Ideal) (G7 V c) := by
  show (cfg7.win 5).cut (grid7.coords t) ((dat7 (F := Ideal) V c).after 5 t) = _
  rw [after7_5]
  unfold out3_5
  rw [View.canon_unit_zero hz3]
  simp only [View.ld_unit_zero (S := S1024x1024) hz3, View.ld_unit_zero (S := S1x1024) hz3]
  funext j
  obtain ⟨a, b, rfl⟩ : ∃ (a b : Fin 1024), j = ix2 a b := ⟨j 0, j 1, eq_ix2 j⟩
  show k3_pay1 (F := Ideal) (iblk7 V c 2 t) (iblk7 V c 3 t) (iblk7 V c 0 t) (iblk7 V c 1 t) (iblk7 V c 4 t) (ix2 a b)
    = G7 V c (((cfg7.win 5).blk t).view.emb (ix2 a b))
  obtain ⟨-, -, -, -, -, -, -, -, -, -, e0, e1⟩ := idx_facts7 t
  have ht : t.val < 4 := lt_of_lt_of_eq t.isLt N_7
  obtain ⟨r, hr⟩ : ∃ r : Fin 4096, r.val = t.val * 1024 + a.val := ⟨⟨t.val * 1024 + a.val, by omega⟩, rfl⟩
  have hemb : ((cfg7.win 5).blk t).view.emb (ix2 a b) = (ix2 r b : S4096x1024.Idx) := by
    funext ax; apply Fin.ext
    match ax with
    | ⟨0, _⟩ => show win7_5.index t (0 : Fin 2) * 1024 + 1 * a.val = r.val; rw [e0, hr]; omega
    | ⟨1, _⟩ => show win7_5.index t (1 : Fin 2) * 1024 + 1 * b.val = b.val; rw [e1]; omega
  rw [hemb, k3_pay1_apply]
  unfold G7
  rw [Cert.Spec.ofMat_ix2]
  unfold Cert.Spec.kRowAff Cert.Spec.toMat
  simp only [fun f => iblk7_0_apply V c t a f r hr, fun f => iblk7_1_apply V c t a f r hr, iblk7_2_apply, iblk7_3_apply, iblk7_4_apply]

/-- This region's output window has region 3's index map, so region 3's cover is a cover here. -/
theorem cover7 (i : S4096x1024.Idx) : ∃ t : Fin cfg7.N, (cfg7.win 5).flush t = true ∧ i ∈ ((cfg7.win 5).blk t).view.set :=
  let ⟨t, hf, hi⟩ := cover3 i
  ⟨t, hf, hi⟩

theorem arrAt7_out (c : Dev nD) :
    (dat7 (F := Ideal) V c).arrAt 5 cfg7.N = Cert.Spec.ofMat (Cert.Spec.kRowAff
      (Cert.Spec.toMat (V c (Pipeline.arrRef spec7 0) : S4096x1024.Idx → EReal))
      (Cert.Spec.toMat (V c (Pipeline.arrRef spec7 1) : S4096x1024.Idx → EReal))
      (Cert.Spec.toMat (V c (Pipeline.arrRef spec7 2) : S1024x1024.Idx → EReal))
      (Cert.Spec.toMat (V c (Pipeline.arrRef spec7 3) : S1024x1024.Idx → EReal))
      (fun q => (V c (Pipeline.arrRef spec7 4) : S1x1024.Idx → EReal) (ix2 0 q))) :=
  (dat7 (F := Ideal) V c).arrAt_eq_of_cover 5 (G7 V c) (fun t _ => flushed7_eq V c t) cover7

end Value7

end Cert.KernelIdeal.Hand

end
-- ==== Proof.KIVal8.lean ====
import proofs.«415769_j962072674785_2_alg».proof.Proof.KIReg8
import proofs.«415769_j962072674785_2_alg».proof.Proof.KIVal0
import proofs.«415769_j962072674785_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

section Region
variable (V : (c : Dev nD) → (b : Ref sig .tc) → Buf (Elt Ideal) ((c : Thread nD τ).loc b))

theorem iblk8_0_apply (c : Dev nD) (t : Fin cfg8.N) (y : S512x1024.Idx) (i : S4096x1024.Idx)
    (hi0 : (i 0).val = t.val * 512 + (y 0).val) (hi1 : (i 1).val = (y 1).val) :
    (iblk8 V c 0 t : Vec Ideal S512x1024 .bf16) y = (V c main_v84 : S4096x1024.Idx → EReal) i := by
  obtain ⟨e0, e1, -⟩ := idx_facts0 t
  show (V c main_v84 : S4096x1024.Idx → EReal) (((cfg8.win 0).blk t).view.emb y) = (V c main_v84 : S4096x1024.Idx → EReal) i
  refine congrArg _ (funext fun a => Fin.ext ?_)
  match a with
  | ⟨0, _⟩ => show win0_0.index t (0 : Fin 2) * 512 + 1 * (y 0).val = (i 0).val; omega
  | ⟨1, _⟩ => show win0_0.index t (1 : Fin 2) * 1024 + 1 * (y 1).val = (i 1).val; omega

theorem iblk8_1_eq (c : Dev nD) (t : Fin cfg8.N) :
    (iblk8 V c 1 t : Vec Ideal S1024x1024 .bf16) = (V c main_v16 : S1024x1024.Idx → EReal) := by
  obtain ⟨-, -, e2, e3, -⟩ := idx_facts0 t
  funext y
  show (V c main_v16 : S1024x1024.Idx → EReal) (((cfg8.win 1).blk t).view.emb y) = (V c main_v16 : S1024x1024.Idx → EReal) y
  refine congrArg _ (funext fun a => Fin.ext ?_)
  match a with
  | ⟨0, _⟩ => show win0_1.index t (0 : Fin 2) * 1024 + 1 * (y 0).val = (y 0).val; omega
  | ⟨1, _⟩ => show win0_1.index t (1 : Fin 2) * 1024 + 1 * (y 1).val = (y 1).val; omega

theorem iblk8_2_eq (c : Dev nD) (t : Fin cfg8.N) :
    (iblk8 V c 2 t : Vec Ideal S1x1024 .f32) = (V c main_v25 : S1x1024.Idx → EReal) := by
  obtain ⟨-, -, -, -, e4, e5, -⟩ := idx_facts0 t
  funext y
  show (V c main_v25 : S1x1024.Idx → EReal) (((cfg8.win 2).blk t).view.emb y) = (V c main_v25 : S1x1024.Idx → EReal) y
  refine congrArg _ (funext fun a => Fin.ext ?_)
  match a with
  | ⟨0, _⟩ => show win0_2.index t (0 : Fin 2) * 1 + 1 * (y 0).val = (y 0).val; omega
  | ⟨1, _⟩ => show win0_2.index t (1 : Fin 2) * 1024 + 1 * (y 1).val = (y 1).val; omega

abbrev G8 (c : Dev nD) : S4096x1024.Idx → EReal :=
  Cert.Spec.ofMat (Cert.Spec.kColAgg (Cert.Spec.toMat (V c main_v84 : S4096x1024.Idx → EReal))
    (Cert.Spec.toMat (V c main_v16 : S1024x1024.Idx → EReal)) (fun b => (V c main_v25 : S1x1024.Idx → EReal) (ix2 (0 : Fin 1) b)))

theorem flushed8_eq (c : Dev nD) (t : Fin cfg8.N) :
    (dat8 (F := Ideal) V c).flushed 3 t = ((cfg8.win 3).blk t).view.read (Elt Ideal) (G8 V c) := by
  show (cfg8.win 3).cut (grid8.coords t) ((dat8 (F := Ideal) V c).after 3 t) = _
  rw [after8_3]
  unfold out0_3
  rw [View.canon_unit_zero hz0]
  simp only [View.ld_unit_zero (S := S512x1024) hz0, View.ld_unit_zero (S := S1024x1024) hz0, View.ld_unit_zero (S := S1x1024) hz0]
  obtain ⟨-, -, -, -, -, -, e6, e7⟩ := idx_facts0 t
  funext j
  obtain ⟨p, q, rfl⟩ : ∃ (p : Fin 512) (q : Fin 1024), j = ix2 p q := ⟨j 0, j 1, eq_ix2 j⟩
  show k0_pay1 (F := Ideal) (iblk8 V c 0 t) (iblk8 V c 1 t) (iblk8 V c 2 t) (ix2 p q) = G8 V c (((cfg8.win 3).blk t).view.emb (ix2 p q))
  have hj0 : ((((cfg8.win 3).blk t).view.emb (ix2 p q)) 0).val = t.val * 512 + p.val := by
    show win0_3.index t (0 : Fin 2) * 512 + 1 * p.val = _; omega
  have hj1 : ((((cfg8.win 3).blk t).view.emb (ix2 p q)) 1).val = q.val := by
    show win0_3.index t (1 : Fin 2) * 1024 + 1 * q.val = _; omega
  refine pay0_eq_spec _ _ _ _ _ _ p q _ (fun k => ?_) (iblk8_1_eq V c t) (iblk8_2_eq V c t) (Fin.ext hj1)
  exact iblk8_0_apply V c t (ix2 p k) _ hj0 rfl

theorem cover8 (i : S4096x1024.Idx) : ∃ t : Fin cfg8.N, (cfg8.win 3).flush t = true ∧ i ∈ ((cfg8.win 3).blk t).view.set := by
  have hi0 : (i 0).val < 4096 := (i 0).isLt
  have hi1 : (i 1).val < 1024 := (i 1).isLt
  have hN : cfg8.N = 8 := N_8
  obtain ⟨t, ht⟩ : ∃ t : Fin cfg8.N, t.val = (i 0).val / 512 := ⟨⟨(i 0).val / 512, by rw [hN]; omega⟩, rfl⟩
  refine ⟨t, flush8_3 t, ?_⟩
  show i ∈ ((View.whole main_v85).slice (win8_3.rect t)).set
  rw [View.set_slice_whole, Rect.mem_set_unit]
  obtain ⟨-, -, -, -, -, -, e6, e7⟩ := idx_facts0 t
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 1024 ≤ (i 1).val ∧ (i 1).val < win0_3.index t (1 : Fin 2) * 1024 + 1024; omega

theorem arrAt8_out (c : Dev nD) :
    ((dat8 (F := Ideal) V c).arrAt 3 cfg8.N : S4096x1024.Idx → EReal)
      = Cert.Spec.ofMat (Cert.Spec.kColAgg (Cert.Spec.toMat (V c main_v84 : S4096x1024.Idx → EReal))
          (Cert.Spec.toMat (V c main_v16 : S1024x1024.Idx → EReal)) (fun b => (V c main_v25 : S1x1024.Idx → EReal) (ix2 (0 : Fin 1) b))) :=
  (dat8 (F := Ideal) V c).arrAt_eq_of_cover 3 (G8 V c) (fun t _ => flushed8_eq V c t) cover8

end Region

end Cert.KernelIdeal.Hand

end
-- ==== Proof.KIVal9.lean ====
import proofs.«415769_j962072674785_2_alg».proof.Proof.KIReg9
import proofs.«415769_j962072674785_2_alg».proof.Proof.KIVal1

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)
open Cert.Spec
open scoped BigOperators

variable (V : (c : Dev nD) → (b : Ref sig .tc) → Buf (Elt Ideal) ((c : Thread nD τ).loc b))

abbrev mean9 (c : Dev nD) : S4096x1024.Idx → EReal := V c (Pipeline.arrRef spec9 0)
abbrev feat9 (c : Dev nD) : S4096x1024.Idx → EReal := V c (Pipeline.arrRef spec9 1)
abbrev wl9 (c : Dev nD) : S4096x4096.Idx → EReal := V c (Pipeline.arrRef spec9 2)
abbrev wr9 (c : Dev nD) : S4096x4096.Idx → EReal := V c (Pipeline.arrRef spec9 3)
abbrev bias9 (c : Dev nD) : S4096x1.Idx → EReal := V c (Pipeline.arrRef spec9 4)

abbrev blk9_0 (c : Dev nD) (t : Fin cfg9.N) : Vec Ideal S4096x1024 .bf16 := iblk9 V c 0 t
abbrev blk9_1 (c : Dev nD) (t : Fin cfg9.N) : Vec Ideal S4096x1024 .bf16 := iblk9 V c 1 t
abbrev blk9_2 (c : Dev nD) (t : Fin cfg9.N) : Vec Ideal S256x4096 .f32 := iblk9 V c 2 t
abbrev blk9_3 (c : Dev nD) (t : Fin cfg9.N) : Vec Ideal S256x4096 .f32 := iblk9 V c 3 t
abbrev blk9_4 (c : Dev nD) (t : Fin cfg9.N) : Vec Ideal S256x1 .f32 := iblk9 V c 4 t

/-- The column affine map of the arrays the region is entered with. -/
abbrev G9 (c : Dev nD) : S4096x1024.Idx → EReal :=
  ofMat (kColAff (toMat (mean9 V c)) (toMat (feat9 V c)) (toMat (wl9 V c)) (toMat (wr9 V c)) (fun q => bias9 V c (ix2 q 0)))

/-- The windows' block indices at point `t`: (0, 0) for the two feature windows, (t, 0) for the others. -/
theorem idx_facts9 : ∀ t : Fin cfg9.N, win9_0.index t (0 : Fin 2) = 0 ∧ win9_0.index t (1 : Fin 2) = 0
    ∧ win9_1.index t (0 : Fin 2) = 0 ∧ win9_1.index t (1 : Fin 2) = 0
    ∧ win9_2.index t (0 : Fin 2) = t.val ∧ win9_2.index t (1 : Fin 2) = 0
    ∧ win9_3.index t (0 : Fin 2) = t.val ∧ win9_3.index t (1 : Fin 2) = 0
    ∧ win9_4.index t (0 : Fin 2) = t.val ∧ win9_4.index t (1 : Fin 2) = 0
    ∧ win9_5.index t (0 : Fin 2) = t.val ∧ win9_5.index t (1 : Fin 2) = 0 :=
  (by decide +kernel : ∀ t : Fin grid9.N, _)

/-- An entry of a feature block is the same entry of its array: the block is the whole array. -/
theorem emb9_0 (t : Fin cfg9.N) (x k : S4096x1024.Idx) (hk0 : (k 0).val = (x 0).val) (hk1 : (k 1).val = (x 1).val) :
    ((cfg9.win 0).blk t).view.emb x = k := by
  obtain ⟨e00, e01, -, -, -, -, -, -, -, -, -, -⟩ := idx_facts9 t
  funext a
  apply Fin.ext
  match a with
  | ⟨0, _⟩ => show win9_0.index t 0 * 4096 + 1 * (x 0).val = (k 0).val; rw [e00, hk0]; omega
  | ⟨1, _⟩ => show win9_0.index t 1 * 1024 + 1 * (x 1).val = (k 1).val; rw [e01, hk1]; omega

/-- Row `p` of point `t`'s weight block is row `256 t + p` of the weight array. -/
theorem emb9_2 (t : Fin cfg9.N) (x : S256x4096.Idx) (k : S4096x4096.Idx)
    (hk0 : (k 0).val = 256 * t.val + (x 0).val) (hk1 : (k 1).val = (x 1).val) :
    ((cfg9.win 2).blk t).view.emb x = k := by
  obtain ⟨-, -, -, -, e20, e21, -, -, -, -, -, -⟩ := idx_facts9 t
  funext a
  apply Fin.ext
  match a with
  | ⟨0, _⟩ => show win9_2.index t 0 * 256 + 1 * (x 0).val = (k 0).val; rw [e20, hk0]; omega
  | ⟨1, _⟩ => show win9_2.index t 1 * 4096 + 1 * (x 1).val = (k 1).val; rw [e21, hk1]; omega

/-- Row `p` of point `t`'s bias block is row `256 t + p` of the bias column. -/
theorem blk9_4_apply (c : Dev nD) (t : Fin cfg9.N) (x : S256x1.Idx) (k : S4096x1.Idx)
    (hk0 : (k 0).val = 256 * t.val + (x 0).val) (hk1 : (k 1).val = (x 1).val) :
    blk9_4 V c t x = bias9 V c k := by
  obtain ⟨e00, e01, e10, e11, e20, e21, e30, e31, e40, e41, e50, e51⟩ := idx_facts9 t
  unfold blk9_4 iblk9
  rw [View.read_apply]
  show V c (Pipeline.arrRef spec9 4) _ = V c (Pipeline.arrRef spec9 4) k
  congr 1
  funext a
  apply Fin.ext
  match a with
  | ⟨0, _⟩ => show win9_4.index t 0 * 256 + 1 * (x 0).val = (k 0).val; rw [e40, hk0]; omega
  | ⟨1, _⟩ => show win9_4.index t 1 * 1 + 1 * (x 1).val = (k 1).val; rw [e41, hk1]; omega

/-- Row `p` of point `t`'s output block is row `256 t + p` of the output array. -/
theorem emb9_5 (t : Fin cfg9.N) (x : S256x1024.Idx) (k : S4096x1024.Idx)
    (hk0 : (k 0).val = 256 * t.val + (x 0).val) (hk1 : (k 1).val = (x 1).val) :
    ((cfg9.win 5).blk t).view.emb x = k := by
  obtain ⟨-, -, -, -, -, -, -, -, -, -, e50, e51⟩ := idx_facts9 t
  funext a
  apply Fin.ext
  match a with
  | ⟨0, _⟩ => show win9_5.index t 0 * 256 + 1 * (x 0).val = (k 0).val; rw [e50, hk0]; omega
  | ⟨1, _⟩ => show win9_5.index t 1 * 1024 + 1 * (x 1).val = (k 1).val; rw [e51, hk1]; omega

/-- What point `t` writes back is block `t` of the column affine map. -/
theorem flushed9_eq (c : Dev nD) (t : Fin cfg9.N) :
    (dat9 (F := Ideal) V c).flushed 5 t = ((cfg9.win 5).blk t).view.read (Elt Ideal) (G9 V c) := by
  show (cfg9.win 5).cut (grid9.coords t) ((dat9 (F := Ideal) V c).after 5 t) = _
  rw [after9_5]
  unfold out1_5
  rw [View.canon_unit_zero hz1]
  simp only [View.ld_unit_zero (S := S4096x1024) hz1, View.ld_unit_zero (S := S256x4096) hz1, View.ld_unit_zero (S := S256x1) hz1]
  funext j
  obtain ⟨p, q, rfl⟩ : ∃ (p : Fin 256) (q : Fin 1024), j = ix2 p q := ⟨j 0, j 1, eq_ix2 j⟩
  show k1_pay1 (F := Ideal) (blk9_2 V c t) (blk9_3 V c t) (blk9_0 V c t) (blk9_1 V c t) (blk9_4 V c t) (ix2 p q)
    = G9 V c (((cfg9.win 5).blk t).view.emb (ix2 p q))
  rw [emb9_5 t (ix2 p q) (ix2 ⟨256 * t.val + p.val, row_lt1 t p⟩ q) rfl rfl]
  refine (pay1_apply (blk9_2 V c t) (blk9_3 V c t) (blk9_0 V c t) (blk9_1 V c t) (blk9_4 V c t) p q).trans ?_
  show leaky _ = leaky (((∑ r : Fin 4096, wl9 V c (ix2 ⟨256 * t.val + p.val, row_lt1 t p⟩ r) * mean9 V c (ix2 r q))
      + ∑ r : Fin 4096, wr9 V c (ix2 ⟨256 * t.val + p.val, row_lt1 t p⟩ r) * feat9 V c (ix2 r q))
    + bias9 V c (ix2 ⟨256 * t.val + p.val, row_lt1 t p⟩ 0))
  refine congrArg leaky (congrArg₂ (· + ·) (congrArg₂ (· + ·) (Finset.sum_congr rfl fun r _ => ?_) (Finset.sum_congr rfl fun r _ => ?_)) ?_)
  · exact congrArg₂ (· * ·) (congrArg (wl9 V c) (emb9_2 t (ix2 p r) _ rfl rfl)) (congrArg (mean9 V c) (emb9_0 t (ix2 r q) _ rfl rfl))
  · exact congrArg₂ (· * ·) (congrArg (wr9 V c) (emb9_2 t (ix2 p r) _ rfl rfl)) (congrArg (feat9 V c) (emb9_0 t (ix2 r q) _ rfl rfl))
  · exact blk9_4_apply V c t (ix2 p 0) _ rfl rfl

/-- Row `r` of the output array lies in the block of point `r / 256`. -/
theorem cover9 (i : S4096x1024.Idx) : ∃ t : Fin cfg9.N, (cfg9.win 5).flush t = true ∧ i ∈ ((cfg9.win 5).blk t).view.set := by
  have hi0 : (i 0).val < 4096 := (i 0).isLt
  have hi1 : (i 1).val < 1024 := (i 1).isLt
  have ht : (i 0).val / 256 < cfg9.N := by rw [show cfg9.N = 16 from N_9]; omega
  let t : Fin cfg9.N := ⟨(i 0).val / 256, ht⟩
  obtain ⟨-, -, -, -, -, -, -, -, -, -, e50, e51⟩ := idx_facts9 t
  refine ⟨t, flush9_5 t, ?_⟩
  show i ∈ ((View.whole (Pipeline.arrRef spec9 5)).slice (win9_5.rect t)).set
  rw [View.set_slice_whole, Rect.mem_set_unit]
  intro a
  match a with
  | ⟨0, _⟩ => show win9_5.index t 0 * 256 ≤ (i 0).val ∧ (i 0).val < win9_5.index t 0 * 256 + 256; rw [e50]; show (i 0).val / 256 * 256 ≤ _ ∧ _ < (i 0).val / 256 * 256 + 256; omega
  | ⟨1, _⟩ => show win9_5.index t 1 * 1024 ≤ (i 1).val ∧ (i 1).val < win9_5.index t 1 * 1024 + 1024; rw [e51]; omega

theorem arrAt9_out (c : Dev nD) :
    ((dat9 (F := Ideal) V c).arrAt 5 cfg9.N : S4096x1024.Idx → EReal)
      = ofMat (kColAff (toMat (mean9 V c)) (toMat (feat9 V c)) (toMat (wl9 V c)) (toMat (wr9 V c)) (fun q => bias9 V c (ix2 q 0))) :=
  (dat9 (F := Ideal) V c).arrAt_eq_of_cover 5 (G9 V c) (fun t _ => flushed9_eq V c t) cover9

end Cert.KernelIdeal.Hand

end
-- ==== Proof.KIVal10.lean ====
import proofs.«415769_j962072674785_2_alg».proof.Proof.KIVal2
import proofs.«415769_j962072674785_2_alg».proof.Proof.KIReg10

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

abbrev adjA10 (c : Dev nD) : S4096x4096.Idx → EReal := V c (Pipeline.arrRef spec10 0)

abbrev eA10 (c : Dev nD) : S4096x1024.Idx → EReal := V c (Pipeline.arrRef spec10 1)

abbrev rcA10 (c : Dev nD) : S4096x1.Idx → EReal := V c (Pipeline.arrRef spec10 2)

abbrev blkA10 (c : Dev nD) (t : Fin cfg10.N) : Vec Ideal S2048x512 .bf16 := iblk10 V c 0 t

abbrev blkE10 (c : Dev nD) (t : Fin cfg10.N) : Vec Ideal S512x1024 .bf16 := iblk10 V c 1 t

abbrev blkR10 (c : Dev nD) (t : Fin cfg10.N) : Vec Ideal S2048x1 .f32 := iblk10 V c 2 t

theorem idx_facts10 : ∀ t : Fin cfg10.N, win10_0.index t (0 : Fin 2) = t.val / 8 ∧ win10_0.index t (1 : Fin 2) = t.val % 8
    ∧ win10_1.index t (0 : Fin 2) = t.val % 8 ∧ win10_1.index t (1 : Fin 2) = 0
    ∧ win10_2.index t (0 : Fin 2) = t.val / 8 ∧ win10_2.index t (1 : Fin 2) = 0
    ∧ win10_3.index t (0 : Fin 2) = t.val / 8 ∧ win10_3.index t (1 : Fin 2) = 0 :=
  (by decide +kernel : ∀ t : Fin grid10.N, _)

theorem blk0_apply10 (c : Dev nD) (t : Fin cfg10.N) (y : S2048x512.Idx) (i : S4096x4096.Idx)
    (hi0 : (i 0).val = t.val / 8 * 2048 + (y 0).val) (hi1 : (i 1).val = t.val % 8 * 512 + (y 1).val) :
    blkA10 V c t y = adjA10 V c i := by
  obtain ⟨e0, e1, -⟩ := idx_facts10 t
  show adjA10 V c (((cfg10.win 0).blk t).view.emb y) = adjA10 V c i
  refine congrArg _ (funext fun a => Fin.ext ?_)
  match a with
  | ⟨0, _⟩ => show win10_0.index t (0 : Fin 2) * 2048 + 1 * (y 0).val = (i 0).val; omega
  | ⟨1, _⟩ => show win10_0.index t (1 : Fin 2) * 512 + 1 * (y 1).val = (i 1).val; omega

theorem blk1_apply10 (c : Dev nD) (t : Fin cfg10.N) (y : S512x1024.Idx) (i : S4096x1024.Idx)
    (hi0 : (i 0).val = t.val % 8 * 512 + (y 0).val) (hi1 : (i 1).val = (y 1).val) :
    blkE10 V c t y = eA10 V c i := by
  obtain ⟨-, -, e2, e3, -⟩ := idx_facts10 t
  show eA10 V c (((cfg10.win 1).blk t).view.emb y) = eA10 V c i
  refine congrArg _ (funext fun a => Fin.ext ?_)
  match a with
  | ⟨0, _⟩ => show win10_1.index t (0 : Fin 2) * 512 + 1 * (y 0).val = (i 0).val; omega
  | ⟨1, _⟩ => show win10_1.index t (1 : Fin 2) * 1024 + 1 * (y 1).val = (i 1).val; omega

theorem blk2_apply10 (c : Dev nD) (t : Fin cfg10.N) (y : S2048x1.Idx) (i : S4096x1.Idx)
    (hi0 : (i 0).val = t.val / 8 * 2048 + (y 0).val) (hi1 : (i 1).val = (y 1).val) :
    blkR10 V c t y = rcA10 V c i := by
  obtain ⟨-, -, -, -, e4, e5, -⟩ := idx_facts10 t
  show rcA10 V c (((cfg10.win 2).blk t).view.emb y) = rcA10 V c i
  refine congrArg _ (funext fun a => Fin.ext ?_)
  match a with
  | ⟨0, _⟩ => show win10_2.index t (0 : Fin 2) * 2048 + 1 * (y 0).val = (i 0).val; omega
  | ⟨1, _⟩ => show win10_2.index t (1 : Fin 2) * 1 + 1 * (y 1).val = (i 1).val; omega

theorem blockprod_eq10 (c : Dev nD) (t : Fin cfg10.N) (p : Fin 2048) (q : Fin 1024) :
    (∑ k : Fin 512, blkA10 V c t (ix2 p k) * blkE10 V c t (ix2 k q))
      = ∑ j : Fin 512, termAt2 (adjA10 V c) (eA10 V c) (rowOf2 (t.val / 8) p) q (t.val % 8 * 512 + j.val) := by
  have hN : t.val < 16 := lt_of_lt_of_eq t.isLt (show cfg10.N = 16 from N_10)
  refine Finset.sum_congr rfl fun k _ => ?_
  have hk : t.val % 8 * 512 + k.val < 4096 := by have := k.isLt; omega
  unfold termAt2
  rw [dif_pos hk]
  refine congrArg₂ (· * ·) ?_ ?_
  · exact blk0_apply10 V c t (ix2 p k) _ (by show t.val / 8 % 2 * 2048 + p.val = t.val / 8 * 2048 + p.val; omega) rfl
  · exact blk1_apply10 V c t (ix2 k q) _ rfl rfl

theorem acc_eq10 (c : Dev nD) : ∀ (n : ℕ) (hn : n < cfg10.N) (p : Fin 2048) (q : Fin 1024),
    accAt10 (F := Ideal) V c n hn (ix2 p q) = partAt2 (adjA10 V c) (eA10 V c) (rowOf2 (n / 8) p) q ((n % 8 + 1) * 512) :=
  acc_eq_of (accAt10 V c) (blkA10 V c) (blkE10 V c) _ _ (accAt10_A V c) (accAt10_B V c) (blockprod_eq10 V c)

abbrev G10 (c : Dev nD) : S4096x1024.Idx → EReal :=
  Cert.Spec.ofMat (Cert.Spec.kRowAgg (Cert.Spec.toMat (adjA10 V c)) (Cert.Spec.toMat (eA10 V c)) (fun d => rcA10 V c (ix2 d (0 : Fin 1))))

theorem flushed_eq10 (c : Dev nD) (t : Fin cfg10.N) (hf : (cfg10.win 3).flush t = true) :
    (dat10 (F := Ideal) V c).flushed 3 t = ((cfg10.win 3).blk t).view.read (Elt Ideal) (G10 V c) := by
  have h7 : t.val % 8 = 7 := (flush10_3 t).mp hf
  have hN : t.val < 16 := lt_of_lt_of_eq t.isLt (show cfg10.N = 16 from N_10)
  show (cfg10.win 3).cut (grid10.coords t) ((dat10 (F := Ideal) V c).after 3 t) = _
  rw [after10_3, out2_3_eq]
  obtain ⟨-, -, -, -, -, -, e6, e7⟩ := idx_facts10 t
  funext j
  obtain ⟨p, q, rfl⟩ : ∃ (p : Fin 2048) (q : Fin 1024), j = ix2 p q := ⟨j 0, j 1, eq_ix2 j⟩
  show k2_pay3 (F := Ideal) (accAt10 (F := Ideal) V c t.val t.isLt) (blkR10 V c t) (ix2 p q) = G10 V c (((cfg10.win 3).blk t).view.emb (ix2 p q))
  have hj0 : ((((cfg10.win 3).blk t).view.emb (ix2 p q)) 0) = rowOf2 (t.val / 8) p := Fin.ext (by
    show win10_3.index t (0 : Fin 2) * 2048 + 1 * p.val = t.val / 8 % 2 * 2048 + p.val; omega)
  have hj1 : ((((cfg10.win 3).blk t).view.emb (ix2 p q)) 1) = q := Fin.ext (by
    show win10_3.index t (1 : Fin 2) * 1024 + 1 * q.val = q.val; omega)
  rw [pay3_apply2, acc_eq10 V c t.val t.isLt p q, h7, part_full2]
  show _ = (∑ s : Fin 4096, adjA10 V c (ix2 ((((cfg10.win 3).blk t).view.emb (ix2 p q)) 0) s) * eA10 V c (ix2 s ((((cfg10.win 3).blk t).view.emb (ix2 p q)) 1)))
      * rcA10 V c (ix2 ((((cfg10.win 3).blk t).view.emb (ix2 p q)) 0) (0 : Fin 1))
  rw [hj0, hj1]
  refine congrArg (_ * ·) ?_
  exact blk2_apply10 V c t (ix2 p (0 : Fin 1)) _ (by show t.val / 8 % 2 * 2048 + p.val = t.val / 8 * 2048 + p.val; omega) rfl

theorem mem_blk10 (t : Fin cfg10.N) (i : S4096x1024.Idx) :
    i ∈ ((cfg10.win 3).blk t).view.set ↔ ∀ a : Fin 2, win10_3.index t a * S2048x1024.size a ≤ (i a).val ∧ (i a).val < win10_3.index t a * S2048x1024.size a + S2048x1024.size a := by
  show i ∈ ((View.whole (Pipeline.arrRef spec10 3)).slice (win10_3.rect t)).set ↔ _
  rw [View.set_slice_whole, Rect.mem_set_unit]
  exact Iff.rfl

theorem cover_out10 (i : S4096x1024.Idx) : ∃ t : Fin cfg10.N, (cfg10.win 3).flush t = true ∧ i ∈ ((cfg10.win 3).blk t).view.set := by
  have hi0 : (i 0).val < 4096 := (i 0).isLt
  have hi1 : (i 1).val < 1024 := (i 1).isLt
  have hN : cfg10.N = 16 := N_10
  have ht : (i 0).val / 2048 * 8 + 7 < cfg10.N := by rw [hN]; omega
  refine ⟨⟨(i 0).val / 2048 * 8 + 7, ht⟩, (flush10_3 _).mpr (by show ((i 0).val / 2048 * 8 + 7) % 8 = 7; omega), ?_⟩
  rw [mem_blk10]
  obtain ⟨-, -, -, -, -, -, e6, e7⟩ := idx_facts10 ⟨(i 0).val / 2048 * 8 + 7, ht⟩
  intro a
  match a with
  | ⟨0, _⟩ => show win10_3.index _ (0 : Fin 2) * 2048 ≤ (i 0).val ∧ (i 0).val < win10_3.index _ (0 : Fin 2) * 2048 + 2048; rw [e6]; show ((i 0).val / 2048 * 8 + 7) / 8 * 2048 ≤ (i 0).val ∧ (i 0).val < ((i 0).val / 2048 * 8 + 7) / 8 * 2048 + 2048; omega
  | ⟨1, _⟩ => show win10_3.index _ (1 : Fin 2) * 1024 ≤ (i 1).val ∧ (i 1).val < win10_3.index _ (1 : Fin 2) * 1024 + 1024; rw [e7]; omega

theorem arrAt10_out (c : Dev nD) :
    ((dat10 (F := Ideal) V c).arrAt 3 cfg10.N : S4096x1024.Idx → EReal)
      = Cert.Spec.ofMat (Cert.Spec.kRowAgg (Cert.Spec.toMat (V c (Pipeline.arrRef spec10 0) : S4096x4096.Idx → EReal))
          (Cert.Spec.toMat (V c (Pipeline.arrRef spec10 1) : S4096x1024.Idx → EReal))
          (fun d => (V c (Pipeline.arrRef spec10 2) : S4096x1.Idx → EReal) (ix2 d (0 : Fin 1)))) :=
  (dat10 (F := Ideal) V c).arrAt_eq_of_cover 3 (G10 V c) (flushed_eq10 V c) cover_out10

end Cert.KernelIdeal.Hand

end
-- ==== Proof.KIVal11.lean ====
import proofs.«415769_j962072674785_2_alg».proof.Proof.KIReg11
import proofs.«415769_j962072674785_2_alg».proof.Proof.KIVal3

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

section Value11

variable (V : (c : Dev nD) → (b : Ref sig .tc) → Buf (Elt Ideal) ((c : Thread nD τ).loc b))

theorem idx_facts11 : ∀ t : Fin cfg11.N, win11_0.index t (0 : Fin 2) = t.val ∧ win11_0.index t (1 : Fin 2) = 0
    ∧ win11_1.index t (0 : Fin 2) = t.val ∧ win11_1.index t (1 : Fin 2) = 0
    ∧ win11_2.index t (0 : Fin 2) = 0 ∧ win11_2.index t (1 : Fin 2) = 0
    ∧ win11_3.index t (0 : Fin 2) = 0 ∧ win11_3.index t (1 : Fin 2) = 0
    ∧ win11_4.index t (0 : Fin 2) = 0 ∧ win11_4.index t (1 : Fin 2) = 0
    ∧ win11_5.index t (0 : Fin 2) = t.val ∧ win11_5.index t (1 : Fin 2) = 0 :=
  (by decide +kernel : ∀ t : Fin grid11.N, _)

theorem iblk11_0_apply (c : Dev nD) (t : Fin cfg11.N) (a f : Fin 1024) (r : Fin 4096) (hr : r.val = t.val * 1024 + a.val) :
    (iblk11 V c 0 t : Vec Ideal S1024x1024 .bf16) (ix2 a f) = (V c (Pipeline.arrRef spec11 0) : S4096x1024.Idx → EReal) (ix2 r f) := by
  obtain ⟨e0, e1, -⟩ := idx_facts11 t
  unfold iblk11
  rw [View.read_apply]
  refine congrArg (V c (Pipeline.arrRef spec11 0)) (funext fun ax => Fin.ext ?_)
  match ax with
  | ⟨0, _⟩ => show win11_0.index t (0 : Fin 2) * 1024 + 1 * a.val = r.val; rw [e0, hr]; omega
  | ⟨1, _⟩ => show win11_0.index t (1 : Fin 2) * 1024 + 1 * f.val = f.val; rw [e1]; omega

theorem iblk11_1_apply (c : Dev nD) (t : Fin cfg11.N) (a f : Fin 1024) (r : Fin 4096) (hr : r.val = t.val * 1024 + a.val) :
    (iblk11 V c 1 t : Vec Ideal S1024x1024 .bf16) (ix2 a f) = (V c (Pipeline.arrRef spec11 1) : S4096x1024.Idx → EReal) (ix2 r f) := by
  obtain ⟨-, -, e0, e1, -⟩ := idx_facts11 t
  unfold iblk11
  rw [View.read_apply]
  refine congrArg (V c (Pipeline.arrRef spec11 1)) (funext fun ax => Fin.ext ?_)
  match ax with
  | ⟨0, _⟩ => show win11_1.index t (0 : Fin 2) * 1024 + 1 * a.val = r.val; rw [e0, hr]; omega
  | ⟨1, _⟩ => show win11_1.index t (1 : Fin 2) * 1024 + 1 * f.val = f.val; rw [e1]; omega

theorem iblk11_2_apply (c : Dev nD) (t : Fin cfg11.N) (b f : Fin 1024) :
    (iblk11 V c 2 t : Vec Ideal S1024x1024 .f32) (ix2 b f) = (V c (Pipeline.arrRef spec11 2) : S1024x1024.Idx → EReal) (ix2 b f) := by
  obtain ⟨-, -, -, -, e0, e1, -⟩ := idx_facts11 t
  unfold iblk11
  rw [View.read_apply]
  refine congrArg (V c (Pipeline.arrRef spec11 2)) (funext fun ax => Fin.ext ?_)
  match ax with
  | ⟨0, _⟩ => show win11_2.index t (0 : Fin 2) * 1024 + 1 * b.val = b.val; rw [e0]; omega
  | ⟨1, _⟩ => show win11_2.index t (1 : Fin 2) * 1024 + 1 * f.val = f.val; rw [e1]; omega

theorem iblk11_3_apply (c : Dev nD) (t : Fin cfg11.N) (b f : Fin 1024) :
    (iblk11 V c 3 t : Vec Ideal S1024x1024 .f32) (ix2 b f) = (V c (Pipeline.arrRef spec11 3) : S1024x1024.Idx → EReal) (ix2 b f) := by
  obtain ⟨-, -, -, -, -, -, e0, e1, -⟩ := idx_facts11 t
  unfold iblk11
  rw [View.read_apply]
  refine congrArg (V c (Pipeline.arrRef spec11 3)) (funext fun ax => Fin.ext ?_)
  match ax with
  | ⟨0, _⟩ => show win11_3.index t (0 : Fin 2) * 1024 + 1 * b.val = b.val; rw [e0]; omega
  | ⟨1, _⟩ => show win11_3.index t (1 : Fin 2) * 1024 + 1 * f.val = f.val; rw [e1]; omega

theorem iblk11_4_apply (c : Dev nD) (t : Fin cfg11.N) (b : Fin 1024) :
    (iblk11 V c 4 t : Vec Ideal S1x1024 .f32) (ix2 0 b) = (V c (Pipeline.arrRef spec11 4) : S1x1024.Idx → EReal) (ix2 0 b) := by
  obtain ⟨-, -, -, -, -, -, -, -, e0, e1, -⟩ := idx_facts11 t
  unfold iblk11
  rw [View.read_apply]
  refine congrArg (V c (Pipeline.arrRef spec11 4)) (funext fun ax => Fin.ext ?_)
  match ax with
  | ⟨0, _⟩ => show win11_4.index t (0 : Fin 2) * 1 + 1 * 0 = 0; rw [e0]
  | ⟨1, _⟩ => show win11_4.index t (1 : Fin 2) * 1024 + 1 * b.val = b.val; rw [e1]; omega

def G11 (c : Dev nD) : S4096x1024.Idx → EReal :=
  Cert.Spec.ofMat (Cert.Spec.kRowAff
    (Cert.Spec.toMat (V c (Pipeline.arrRef spec11 0) : S4096x1024.Idx → EReal))
    (Cert.Spec.toMat (V c (Pipeline.arrRef spec11 1) : S4096x1024.Idx → EReal))
    (Cert.Spec.toMat (V c (Pipeline.arrRef spec11 2) : S1024x1024.Idx → EReal))
    (Cert.Spec.toMat (V c (Pipeline.arrRef spec11 3) : S1024x1024.Idx → EReal))
    (fun q => (V c (Pipeline.arrRef spec11 4) : S1x1024.Idx → EReal) (ix2 0 q)))

/-- Point t writes back block t of the row affine map of the arrays, by region 3's value of the stored payload. -/
theorem flushed11_eq (c : Dev nD) (t : Fin cfg11.N) :
    (dat11 (F := Ideal) V c).flushed 5 t = ((cfg11.win 5).blk t).view.read (Elt Ideal) (G11 V c) := by
  show (cfg11.win 5).cut (grid11.coords t) ((dat11 (F := Ideal) V c).after 5 t) = _
  rw [after11_5]
  unfold out3_5
  rw [View.canon_unit_zero hz3]
  simp only [View.ld_unit_zero (S := S1024x1024) hz3, View.ld_unit_zero (S := S1x1024) hz3]
  funext j
  obtain ⟨a, b, rfl⟩ : ∃ (a b : Fin 1024), j = ix2 a b := ⟨j 0, j 1, eq_ix2 j⟩
  show k3_pay1 (F := Ideal) (iblk11 V c 2 t) (iblk11 V c 3 t) (iblk11 V c 0 t) (iblk11 V c 1 t) (iblk11 V c 4 t) (ix2 a b)
    = G11 V c (((cfg11.win 5).blk t).view.emb (ix2 a b))
  obtain ⟨-, -, -, -, -, -, -, -, -, -, e0, e1⟩ := idx_facts11 t
  have ht : t.val < 4 := lt_of_lt_of_eq t.isLt N_11
  obtain ⟨r, hr⟩ : ∃ r : Fin 4096, r.val = t.val * 1024 + a.val := ⟨⟨t.val * 1024 + a.val, by omega⟩, rfl⟩
  have hemb : ((cfg11.win 5).blk t).view.emb (ix2 a b) = (ix2 r b : S4096x1024.Idx) := by
    funext ax; apply Fin.ext
    match ax with
    | ⟨0, _⟩ => show win11_5.index t (0 : Fin 2) * 1024 + 1 * a.val = r.val; rw [e0, hr]; omega
    | ⟨1, _⟩ => show win11_5.index t (1 : Fin 2) * 1024 + 1 * b.val = b.val; rw [e1]; omega
  rw [hemb, k3_pay1_apply]
  unfold G11
  rw [Cert.Spec.ofMat_ix2]
  unfold Cert.Spec.kRowAff Cert.Spec.toMat
  simp only [fun f => iblk11_0_apply V c t a f r hr, fun f => iblk11_1_apply V c t a f r hr, iblk11_2_apply, iblk11_3_apply, iblk11_4_apply]

/-- This region's output window has region 3's index map, so region 3's cover is a cover here. -/
theorem cover11 (i : S4096x1024.Idx) : ∃ t : Fin cfg11.N, (cfg11.win 5).flush t = true ∧ i ∈ ((cfg11.win 5).blk t).view.set :=
  let ⟨t, hf, hi⟩ := cover3 i
  ⟨t, hf, hi⟩

theorem arrAt11_out (c : Dev nD) :
    (dat11 (F := Ideal) V c).arrAt 5 cfg11.N = Cert.Spec.ofMat (Cert.Spec.kRowAff
      (Cert.Spec.toMat (V c (Pipeline.arrRef spec11 0) : S4096x1024.Idx → EReal))
      (Cert.Spec.toMat (V c (Pipeline.arrRef spec11 1) : S4096x1024.Idx → EReal))
      (Cert.Spec.toMat (V c (Pipeline.arrRef spec11 2) : S1024x1024.Idx → EReal))
      (Cert.Spec.toMat (V c (Pipeline.arrRef spec11 3) : S1024x1024.Idx → EReal))
      (fun q => (V c (Pipeline.arrRef spec11 4) : S1x1024.Idx → EReal) (ix2 0 q))) :=
  (dat11 (F := Ideal) V c).arrAt_eq_of_cover 5 (G11 V c) (fun t _ => flushed11_eq V c t) cover11

end Value11

end Cert.KernelIdeal.Hand

end
-- ==== Proof.KIHostW.lean ====
import proofs.«415769_j962072674785_2_alg».proof.Proof.Gen.KernelIdeal.Launch
import proofs.«415769_j962072674785_2_alg».proof.Proof.Gen.KernelIdeal.Regions
import proofs.«415769_j962072674785_2_alg».proof.Proof.Spec
import Idealize.ShloMosaic.Lib.StableHlo.Run
import Idealize.ShloMosaic.Lib.ValueIdx
import Idealize.ShloMosaic.Lib.ValueLayout
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.StableHlo (after)
open Cert.Spec

section Layout
variable {a b : Nat} (o : Nat) (ho : o < 3)

-- A unit-stride slice of one layer with its unit axis dropped reads the stack at that layer.
theorem slab_of {x : (⟨3, ![3, a, b]⟩ : Shape).Idx → EReal} {y : (⟨2, ![a, b]⟩ : Shape).Idx → EReal}
    {hs : (⟨3, ![3, a, b]⟩ : Shape).Slices ![o, 0, 0] ⟨3, ![1, a, b]⟩} {hc : (⟨3, ![1, a, b]⟩ : Shape).ShapeCasts ⟨2, ![a, b]⟩}
    (e : y = shapeCast ⟨2, ![a, b]⟩ (extractStridedSlice ⟨3, ![1, a, b]⟩ ![o, 0, 0] x hs) hc) : toMat y = slab x ⟨o, ho⟩ := by
  subst e; funext p q
  show shapeCast ⟨2, ![a, b]⟩ _ hc (ix2 p q) = x (ix3 ⟨o, ho⟩ p q)
  rw [shapeCast_1ab_ab_apply]
  exact extractStridedSlice_apply _ x hs _ _ (fun d => match d with
    | ⟨0, _⟩ => by show o = o + 0; omega
    | ⟨1, _⟩ => by show p.val = 0 + p.val; omega
    | ⟨2, _⟩ => by show q.val = 0 + q.val; omega)

variable {x : (⟨2, ![3, a]⟩ : Shape).Idx → EReal} {hs : (⟨2, ![3, a]⟩ : Shape).Slices ![o, 0] ⟨2, ![1, a]⟩}
  {hc : (⟨2, ![1, a]⟩ : Shape).ShapeCasts ⟨1, ![a]⟩}

-- One row of a stack of vectors, flattened.
theorem vec_read (q : Fin a) :
    shapeCast ⟨1, ![a]⟩ (extractStridedSlice ⟨2, ![1, a]⟩ ![o, 0] x hs) hc (ix1 q) = x (ix2 ⟨o, ho⟩ q) := by
  rw [shapeCast_1a_a_apply]
  exact slice2_axis0_apply o x hs 0 q ⟨o, ho⟩ rfl

-- That row laid out as a column.
theorem col_of {y : (⟨2, ![a, 1]⟩ : Shape).Idx → EReal} {hc' : (⟨1, ![a]⟩ : Shape).ShapeCasts ⟨2, ![a, 1]⟩}
    (e : y = shapeCast ⟨2, ![a, 1]⟩ (shapeCast ⟨1, ![a]⟩ (extractStridedSlice ⟨2, ![1, a]⟩ ![o, 0] x hs) hc) hc') :
    (fun q : Fin a => y (ix2 q 0)) = row x ⟨o, ho⟩ := by
  subst e; funext q
  rw [shapeCast_apply _ hc' (ix2 q 0) (ix1 q) (by
    rw [Shape.rowMajor_val_one, Shape.rowMajor_val_two]
    show q.val = q.val * 1 + 0
    omega)]
  exact vec_read o ho q

-- That row laid out as a row.
theorem row_of {y : (⟨2, ![1, a]⟩ : Shape).Idx → EReal} {hc' : (⟨1, ![a]⟩ : Shape).ShapeCasts ⟨2, ![1, a]⟩}
    (e : y = shapeCast ⟨2, ![1, a]⟩ (shapeCast ⟨1, ![a]⟩ (extractStridedSlice ⟨2, ![1, a]⟩ ![o, 0] x hs) hc) hc') :
    (fun q : Fin a => y (ix2 0 q)) = row x ⟨o, ho⟩ := by
  subst e; funext q
  rw [shapeCast_a_1a_apply]
  exact vec_read o ho q

end Layout

variable (W : Valuation τ sig (Elt Ideal))

theorem host1_Wl : toMat (after hostOps1 W (Proc.devRef .tc main_v47) : S4096x4096.Idx → EReal)
    = slab (W (Proc.devRef .tc main_arg1) : S3x4096x4096.Idx → EReal) 0 :=
  slab_of 0 (by decide) (by dsimp only [hostOps1]; after_results; rfl)

theorem host1_Wr : toMat (after hostOps1 W (Proc.devRef .tc main_v49) : S4096x4096.Idx → EReal)
    = slab (W (Proc.devRef .tc main_arg2) : S3x4096x4096.Idx → EReal) 0 :=
  slab_of 0 (by decide) (by dsimp only [hostOps1]; after_results; rfl)

theorem host1_b : (fun q : Fin 4096 => (after hostOps1 W (Proc.devRef .tc main_v52) : S4096x1.Idx → EReal) (ix2 q 0))
    = row (W (Proc.devRef .tc main_arg3) : S3x4096.Idx → EReal) 0 :=
  col_of 0 (by decide) (by dsimp only [hostOps1]; after_results; rfl)

theorem host3_Wl : toMat (after hostOps3 W (Proc.devRef .tc main_v57) : S1024x1024.Idx → EReal)
    = slab (W (Proc.devRef .tc main_arg4) : S3x1024x1024.Idx → EReal) 0 :=
  slab_of 0 (by decide) (by dsimp only [hostOps3]; after_results; rfl)

theorem host3_Wr : toMat (after hostOps3 W (Proc.devRef .tc main_v59) : S1024x1024.Idx → EReal)
    = slab (W (Proc.devRef .tc main_arg5) : S3x1024x1024.Idx → EReal) 0 :=
  slab_of 0 (by decide) (by dsimp only [hostOps3]; after_results; rfl)

theorem host3_b : (fun q : Fin 1024 => (after hostOps3 W (Proc.devRef .tc main_v62) : S1x1024.Idx → EReal) (ix2 0 q))
    = row (W (Proc.devRef .tc main_arg6) : S3x1024.Idx → EReal) 0 :=
  row_of 0 (by decide) (by dsimp only [hostOps3]; after_results; rfl)

theorem host5_Wl : toMat (after hostOps5 W (Proc.devRef .tc main_v67) : S4096x4096.Idx → EReal)
    = slab (W (Proc.devRef .tc main_arg1) : S3x4096x4096.Idx → EReal) 1 :=
  slab_of 1 (by decide) (by dsimp only [hostOps5]; after_results; rfl)

theorem host5_Wr : toMat (after hostOps5 W (Proc.devRef .tc main_v69) : S4096x4096.Idx → EReal)
    = slab (W (Proc.devRef .tc main_arg2) : S3x4096x4096.Idx → EReal) 1 :=
  slab_of 1 (by decide) (by dsimp only [hostOps5]; after_results; rfl)

theorem host5_b : (fun q : Fin 4096 => (after hostOps5 W (Proc.devRef .tc main_v72) : S4096x1.Idx → EReal) (ix2 q 0))
    = row (W (Proc.devRef .tc main_arg3) : S3x4096.Idx → EReal) 1 :=
  col_of 1 (by decide) (by dsimp only [hostOps5]; after_results; rfl)

theorem host7_Wl : toMat (after hostOps7 W (Proc.devRef .tc main_v77) : S1024x1024.Idx → EReal)
    = slab (W (Proc.devRef .tc main_arg4) : S3x1024x1024.Idx → EReal) 1 :=
  slab_of 1 (by decide) (by dsimp only [hostOps7]; after_results; rfl)

theorem host7_Wr : toMat (after hostOps7 W (Proc.devRef .tc main_v79) : S1024x1024.Idx → EReal)
    = slab (W (Proc.devRef .tc main_arg5) : S3x1024x1024.Idx → EReal) 1 :=
  slab_of 1 (by decide) (by dsimp only [hostOps7]; after_results; rfl)

theorem host7_b : (fun q : Fin 1024 => (after hostOps7 W (Proc.devRef .tc main_v82) : S1x1024.Idx → EReal) (ix2 0 q))
    = row (W (Proc.devRef .tc main_arg6) : S3x1024.Idx → EReal) 1 :=
  row_of 1 (by decide) (by dsimp only [hostOps7]; after_results; rfl)

theorem host9_Wl : toMat (after hostOps9 W (Proc.devRef .tc main_v87) : S4096x4096.Idx → EReal)
    = slab (W (Proc.devRef .tc main_arg1) : S3x4096x4096.Idx → EReal) 2 :=
  slab_of 2 (by decide) (by dsimp only [hostOps9]; after_results; rfl)

theorem host9_Wr : toMat (after hostOps9 W (Proc.devRef .tc main_v89) : S4096x4096.Idx → EReal)
    = slab (W (Proc.devRef .tc main_arg2) : S3x4096x4096.Idx → EReal) 2 :=
  slab_of 2 (by decide) (by dsimp only [hostOps9]; after_results; rfl)

theorem host9_b : (fun q : Fin 4096 => (after hostOps9 W (Proc.devRef .tc main_v92) : S4096x1.Idx → EReal) (ix2 q 0))
    = row (W (Proc.devRef .tc main_arg3) : S3x4096.Idx → EReal) 2 :=
  col_of 2 (by decide) (by dsimp only [hostOps9]; after_results; rfl)

theorem host11_Wl : toMat (after hostOps11 W (Proc.devRef .tc main_v97) : S1024x1024.Idx → EReal)
    = slab (W (Proc.devRef .tc main_arg4) : S3x1024x1024.Idx → EReal) 2 :=
  slab_of 2 (by decide) (by dsimp only [hostOps11]; after_results; rfl)

theorem host11_Wr : toMat (after hostOps11 W (Proc.devRef .tc main_v99) : S1024x1024.Idx → EReal)
    = slab (W (Proc.devRef .tc main_arg5) : S3x1024x1024.Idx → EReal) 2 :=
  slab_of 2 (by decide) (by dsimp only [hostOps11]; after_results; rfl)

theorem host11_b : (fun q : Fin 1024 => (after hostOps11 W (Proc.devRef .tc main_v102) : S1x1024.Idx → EReal) (ix2 0 q))
    = row (W (Proc.devRef .tc main_arg6) : S3x1024.Idx → EReal) 2 :=
  row_of 2 (by decide) (by dsimp only [hostOps11]; after_results; rfl)

theorem host2_cvt : (after hostOps2 W (Proc.devRef .tc main_v54) : S4096x1024.Idx → EReal)
    = (W (Proc.devRef .tc main_v53) : S4096x1024.Idx → EReal) := by
  dsimp only [hostOps2]; after_results; rfl
theorem host4_cvt : (after hostOps4 W (Proc.devRef .tc main_v64) : S4096x1024.Idx → EReal)
    = (W (Proc.devRef .tc main_v63) : S4096x1024.Idx → EReal) := by
  dsimp only [hostOps4]; after_results; rfl
theorem host6_cvt : (after hostOps6 W (Proc.devRef .tc main_v74) : S4096x1024.Idx → EReal)
    = (W (Proc.devRef .tc main_v73) : S4096x1024.Idx → EReal) := by
  dsimp only [hostOps6]; after_results; rfl
theorem host8_cvt : (after hostOps8 W (Proc.devRef .tc main_v84) : S4096x1024.Idx → EReal)
    = (W (Proc.devRef .tc main_v83) : S4096x1024.Idx → EReal) := by
  dsimp only [hostOps8]; after_results; rfl
theorem host10_cvt : (after hostOps10 W (Proc.devRef .tc main_v94) : S4096x1024.Idx → EReal)
    = (W (Proc.devRef .tc main_v93) : S4096x1024.Idx → EReal) := by
  dsimp only [hostOps10]; after_results; rfl

end Cert.KernelIdeal.Hand

end
-- ==== Proof.KIHost0.lean ====
import proofs.«415769_j962072674785_2_alg».proof.Proof.Gen.KernelIdeal.Launch
import proofs.«415769_j962072674785_2_alg».proof.Proof.Gen.KernelIdeal.Regions
import proofs.«415769_j962072674785_2_alg».proof.Proof.Spec
import Idealize.ShloMosaic.Lib.StableHlo.Run
import Idealize.ShloMosaic.Lib.ValueIdx
import Idealize.ShloMosaic.Lib.ValueIdxRank1
import Idealize.ShloMosaic.Lib.ValueLayout
import Idealize.ShloMosaic.Lib.Pipeline.Value
import Idealize.ShloMosaic.Lib.IdealHost
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.StableHlo (after)
open Cert.Spec

section Scatter
variable {N E : Nat}

abbrev sd1 (wf : ScatterDims.WF (⟨1, ![N]⟩ : Shape) ⟨2, ![E, 1]⟩ ⟨1, ![E]⟩ [] [0] [0] 1) :
    ScatterDims (⟨1, ![N]⟩ : Shape) ⟨2, ![E, 1]⟩ ⟨1, ![E]⟩ := ⟨[], [0], [0], 1, wf⟩

variable (wf : ScatterDims.WF (⟨1, ![N]⟩ : Shape) ⟨2, ![E, 1]⟩ ⟨1, ![E]⟩ [] [0] [0] 1)

theorem sd1_window (j : (⟨1, ![E]⟩ : Shape).Idx) (a : Fin 1) : (sd1 wf).window j a = 0 := by
  unfold ScatterDims.window
  rw [dif_neg]
  exact List.not_mem_nil

theorem sd1_start (j : (⟨1, ![E]⟩ : Shape).Idx) (idx : IVec (⟨2, ![E, 1]⟩ : Shape) 32) (a : Fin 1) :
    (sd1 wf).start j idx a = (idx (ix2 (j 0) 0)).toInt := by
  obtain rfl : a = 0 := Subsingleton.elim _ _
  unfold ScatterDims.start
  rw [dif_pos (show (0 : Fin 1) ∈ (sd1 wf).scatterDimsToOperandDims from List.mem_singleton.2 rfl)]
  refine congrArg (fun k => (idx k).toInt) (funext fun b => ?_)
  match b with
  | ⟨0, _⟩ =>
    unfold ScatterDims.siIdx
    rw [dif_neg (show ¬ (0 : Nat) = 1 from Nat.zero_ne_one)]
    unfold ScatterDims.siCoord
    apply Fin.ext
    show (j _).val = (j 0).val
    exact congrArg (fun x => (j x).val) (Subsingleton.elim _ _)
  | ⟨1, _⟩ =>
    unfold ScatterDims.siIdx
    rw [dif_pos (show (1 : Nat) = 1 from rfl)]
    apply Fin.ext
    rfl

-- An update lands on a cell exactly when its index word, read signed, is the cell's number.
theorem sd1_resultIdx (j : (⟨1, ![E]⟩ : Shape).Idx) (idx : IVec (⟨2, ![E, 1]⟩ : Shape) 32) (i : (⟨1, ![N]⟩ : Shape).Idx) :
    (sd1 wf).resultIdx? j idx = some i ↔ (idx (ix2 (j 0) 0)).toInt = ((i 0).val : Int) := by
  unfold ScatterDims.resultIdx?
  simp only [sd1_start, sd1_window, Nat.cast_zero, add_zero]
  by_cases hh : ∀ a : Fin 1, 0 ≤ (idx (ix2 (j 0) 0)).toInt ∧ (idx (ix2 (j 0) 0)).toInt < ((![N] a : Nat) : Int)
  · rw [dif_pos hh]
    have h0 := (hh 0).1
    constructor
    · intro h
      have hv : (idx (ix2 (j 0) 0)).toInt.toNat = (i 0).val := congrArg Fin.val (congrFun (Option.some.inj h) 0)
      omega
    · intro h
      refine congrArg some (funext fun a => ?_)
      obtain rfl : a = 0 := Subsingleton.elim _ _
      apply Fin.ext
      show (idx (ix2 (j 0) 0)).toInt.toNat = (i 0).val
      omega
  · rw [dif_neg hh]
    refine ⟨fun h => (by cases h), fun h => (hh fun a => ?_).elim⟩
    obtain rfl : a = 0 := Subsingleton.elim _ _
    rw [h]
    exact ⟨Int.natCast_nonneg _, Int.ofNat_lt.2 (i 0).isLt⟩

-- Ones added onto zeros count, per cell, the updates whose index word is the cell's number.
theorem scatter_ones_zeros (idx : IVec (⟨2, ![E, 1]⟩ : Shape) 32) (x : (⟨1, ![N]⟩ : Shape).Idx → EReal) (upd : (⟨1, ![E]⟩ : Shape).Idx → EReal)
    (hx : ∀ i, x i = 0) (hu : ∀ j, upd j = 1) (i : (⟨1, ![N]⟩ : Shape).Idx) :
    Ideal.hostScatterAdd (sd1 wf) x idx upd i = ∑ k : Fin E, if (idx (ix2 k 0)).toInt = ((i 0).val : Int) then (1 : EReal) else 0 := by
  unfold Ideal.hostScatterAdd
  rw [hx, zero_add, Finset.sum_filter]
  refine Fintype.sum_equiv idxEquiv1 _ _ (fun j => ?_)
  rw [hu]
  exact if_congr (sd1_resultIdx wf j idx i) rfl rfl

end Scatter

section Words

-- In range neither the product nor the sum of the packing wraps.
theorem flat_toInt {n : Nat} (hn : n ≤ 4096) (s d c : BitVec 32) (hc : c = BitVec.ofNat 32 n)
    (hs : InRange n s) (hd : InRange n d) :
    (IntOp.addi (IntOp.muli s c) d).toInt = s.toInt * (n : Int) + d.toInt := by
  obtain ⟨hs0, hs1⟩ := hs
  obtain ⟨hd0, hd1⟩ := hd
  have hcI : c.toInt = (n : Int) := by
    rw [hc, BitVec.toInt_ofNat']
    exact Int.bmod_eq_of_le (by omega) (by omega)
  have hp0 : 0 ≤ s.toInt * (n : Int) := mul_nonneg hs0 (by omega)
  have hp1 : s.toInt * (n : Int) ≤ 4095 * 4096 := mul_le_mul (by omega) (by omega) (by omega) (by omega)
  have hm : (IntOp.muli s c).toInt = s.toInt * (n : Int) := by
    show (s * c).toInt = _
    rw [BitVec.toInt_mul, hcI]
    exact Int.bmod_eq_of_le (by omega) (by omega)
  show (IntOp.muli s c + d).toInt = _
  rw [BitVec.toInt_add, hm]
  exact Int.bmod_eq_of_le (by omega) (by omega)

theorem dec_eq_iff {n : Nat} [NeZero n] {v : BitVec 32} (h : InRange n v) (a : Fin n) : dec n v = a ↔ v.toInt = (a.val : Int) := by
  have hv := dec_val h
  constructor
  · intro e; rw [← e]; exact hv.symm
  · intro e; apply Fin.ext; omega

end Words

section Reads
variable {α : Type}

theorem bcastCol_read {E : Nat} (h : (⟨1, ![E]⟩ : Shape).BroadcastsInDim ⟨2, ![E, 1]⟩ (![0] : Fin 1 → Fin 2))
    (x : (⟨1, ![E]⟩ : Shape).Idx → α) (k : Fin E) (u : Fin 1) :
    broadcastInDim ⟨2, ![E, 1]⟩ ![0] h x (ix2 k u) = x (ix1 k) :=
  broadcastInDim_apply _ h x _ (ix1 k) (fun a => by
    obtain rfl : a = 0 := Subsingleton.elim _ _
    show k.val = if E = 1 then 0 else k.val
    split
    · have := k.isLt; omega
    · rfl)

theorem row_read {E : Nat} (o : Nat) (ho : o < 2) (x : (⟨2, ![2, E]⟩ : Shape).Idx → α)
    (hs : (⟨2, ![2, E]⟩ : Shape).Slices ![o, 0] ⟨2, ![1, E]⟩) (hc : (⟨2, ![1, E]⟩ : Shape).ShapeCasts ⟨1, ![E]⟩) (k : Fin E) :
    shapeCast ⟨1, ![E]⟩ (extractStridedSlice ⟨2, ![1, E]⟩ ![o, 0] x hs) hc (ix1 k) = x (ix2 ⟨o, ho⟩ k) := by
  rw [shapeCast_1a_a_apply]
  exact slice2_axis0_apply o x hs 0 k ⟨o, ho⟩ rfl

end Reads

section Terms
variable {n E NN : Nat} [NeZero n] {x : (⟨2, ![2, E]⟩ : Shape).Idx → BitVec 32}
  {hc : (⟨2, ![1, E]⟩ : Shape).ShapeCasts ⟨1, ![E]⟩} {hb0 : (⟨0, ![]⟩ : Shape).BroadcastsInDim ⟨1, ![E]⟩ ![]}
  {hb : (⟨1, ![E]⟩ : Shape).BroadcastsInDim ⟨2, ![E, 1]⟩ (![0] : Fin 1 → Fin 2)}

-- Packing is injective on pairs whose second member is below the base.
theorem pack_inj {n : Int} (s d a b : Int) (hd0 : 0 ≤ d) (hd1 : d < n) (hb0 : 0 ≤ b) (hb1 : b < n) :
    s * n + d = a * n + b ↔ s = a ∧ d = b := by
  constructor
  · intro h
    have hs : s = a := by
      by_contra hne
      rcases lt_or_gt_of_ne hne with hlt | hgt
      · have h1 : (s + 1) * n ≤ a * n := mul_le_mul_of_nonneg_right (by omega) (by omega)
        rw [add_mul, one_mul] at h1
        omega
      · have h1 : (a + 1) * n ≤ s * n := mul_le_mul_of_nonneg_right (by omega) (by omega)
        rw [add_mul, one_mul] at h1
        omega
    subst hs
    exact ⟨rfl, by omega⟩
  · rintro ⟨rfl, rfl⟩; rfl

theorem flatCol_toInt (hn : n ≤ 4096) (hx : ∀ i, InRange n (x i)) (o1 o2 : Nat) (ho1 : o1 < 2) (ho2 : o2 < 2)
    (hs1 : (⟨2, ![2, E]⟩ : Shape).Slices ![o1, 0] ⟨2, ![1, E]⟩) (hs2 : (⟨2, ![2, E]⟩ : Shape).Slices ![o2, 0] ⟨2, ![1, E]⟩)
    (k : Fin E) (u : Fin 1) :
    ((broadcastInDim ⟨2, ![E, 1]⟩ ![0] hb
        (addi (muli (shapeCast ⟨1, ![E]⟩ (extractStridedSlice ⟨2, ![1, E]⟩ ![o1, 0] x hs1) hc)
                    (broadcastInDim ⟨1, ![E]⟩ ![] hb0 (constantI ⟨0, ![]⟩ 32 (BitVec.ofNat 32 n))))
              (shapeCast ⟨1, ![E]⟩ (extractStridedSlice ⟨2, ![1, E]⟩ ![o2, 0] x hs2) hc))) (ix2 k u)).toInt
      = (x (ix2 ⟨o1, ho1⟩ k)).toInt * (n : Int) + (x (ix2 ⟨o2, ho2⟩ k)).toInt := by
  rw [bcastCol_read]
  show (IntOp.addi (IntOp.muli (shapeCast ⟨1, ![E]⟩ (extractStridedSlice ⟨2, ![1, E]⟩ ![o1, 0] x hs1) hc (ix1 k))
      (broadcastInDim ⟨1, ![E]⟩ ![] hb0 (constantI ⟨0, ![]⟩ 32 (BitVec.ofNat 32 n)) (ix1 k)))
      (shapeCast ⟨1, ![E]⟩ (extractStridedSlice ⟨2, ![1, E]⟩ ![o2, 0] x hs2) hc (ix1 k))).toInt = _
  rw [row_read o1 ho1, row_read o2 ho2, broadcastInDim_scalar_apply]
  exact flat_toInt hn _ _ _ rfl (hx _) (hx _)

-- Ones scattered onto zeros at the packed indices, read as a matrix: entry (a, b) counts the edges from a to b.
theorem countMat_of (hn : n ≤ 4096) (hNN : NN = n * n)
    {wf : ScatterDims.WF (⟨1, ![NN]⟩ : Shape) ⟨2, ![E, 1]⟩ ⟨1, ![E]⟩ [] [0] [0] 1} (hx : ∀ i, InRange n (x i))
    (o1 o2 : Nat) (ho1 : o1 < 2) (ho2 : o2 < 2)
    {hs1 : (⟨2, ![2, E]⟩ : Shape).Slices ![o1, 0] ⟨2, ![1, E]⟩} {hs2 : (⟨2, ![2, E]⟩ : Shape).Slices ![o2, 0] ⟨2, ![1, E]⟩}
    {hbz : (⟨0, ![]⟩ : Shape).BroadcastsInDim ⟨1, ![NN]⟩ ![]}
    {hcast : (⟨1, ![NN]⟩ : Shape).ShapeCasts ⟨2, ![n, n]⟩} {hlt : FTy.bits .bf16 < FTy.bits .f32}
    {y : (⟨2, ![n, n]⟩ : Shape).Idx → EReal}
    (e : y = truncf .bf16 (shapeCast ⟨2, ![n, n]⟩
      (Host.scatterAdd (sd1 wf)
        (broadcastInDim ⟨1, ![NN]⟩ ![] hbz (constant (F := Ideal) ⟨0, ![]⟩ .f32 0x00000000#32))
        (broadcastInDim ⟨2, ![E, 1]⟩ ![0] hb
          (addi (muli (shapeCast ⟨1, ![E]⟩ (extractStridedSlice ⟨2, ![1, E]⟩ ![o1, 0] x hs1) hc)
                      (broadcastInDim ⟨1, ![E]⟩ ![] hb0 (constantI ⟨0, ![]⟩ 32 (BitVec.ofNat 32 n))))
                (shapeCast ⟨1, ![E]⟩ (extractStridedSlice ⟨2, ![1, E]⟩ ![o2, 0] x hs2) hc)))
        (broadcastInDim ⟨1, ![E]⟩ ![] hb0 (constant (F := Ideal) ⟨0, ![]⟩ .f32 0x3F800000#32))) hcast) hlt) :
    toMat y = cntMat (edgeRow n x ⟨o1, ho1⟩) (edgeRow n x ⟨o2, ho2⟩) := by
  subst e
  funext a b
  have hm : a.val * n + b.val < NN := by
    have h1 := Nat.mul_le_mul_right n (Nat.succ_le_of_lt a.isLt)
    rw [Nat.succ_mul] at h1
    have := b.isLt
    omega
  simp only [toMat]
  rw [truncf_apply, shapeCast_apply _ hcast (ix2 a b) (ix1 ⟨a.val * n + b.val, hm⟩)
    (by rw [Shape.rowMajor_val_one, Shape.rowMajor_val_two]; rfl)]
  unfold Host.scatterAdd
  rw [Ideal.hostScatterAdd_def, scatter_ones_zeros wf _ _ _
    (fun i => by rw [broadcastInDim_scalar_apply]; exact Ideal.ofBits_zero_f32)
    (fun j => by rw [broadcastInDim_scalar_apply]; exact Ideal.ofBits_one_f32)]
  unfold cntMat edgeRow
  refine Finset.sum_congr rfl (fun k _ => if_congr ?_ rfl rfl)
  rw [flatCol_toInt hn hx o1 o2 ho1 ho2, dec_eq_iff (hx _), dec_eq_iff (hx _)]
  show _ = (((a.val * n + b.val : Nat)) : Int) ↔ _
  push_cast
  exact pack_inj _ _ _ _ (hx _).1 (hx _).2 (by omega) (by have := b.isLt; omega)

-- One over the clamped count of ones scattered at one row of the edge list, read through a reshape at the cell that holds entry j.
theorem recip_of {t : Shape} {wf : ScatterDims.WF (⟨1, ![n]⟩ : Shape) ⟨2, ![E, 1]⟩ ⟨1, ![E]⟩ [] [0] [0] 1}
    (hx : ∀ i, InRange n (x i)) (o : Nat) (ho : o < 2) {hs : (⟨2, ![2, E]⟩ : Shape).Slices ![o, 0] ⟨2, ![1, E]⟩}
    {hbn : (⟨0, ![]⟩ : Shape).BroadcastsInDim ⟨1, ![n]⟩ ![]} {ht : (⟨1, ![n]⟩ : Shape).ShapeCasts t}
    {y : t.Idx → EReal}
    (e : y = shapeCast t
      (Host.divf (broadcastInDim ⟨1, ![n]⟩ ![] hbn (constant (F := Ideal) ⟨0, ![]⟩ .f32 0x3F800000#32))
        (maximumf
          (Host.scatterAdd (sd1 wf)
            (broadcastInDim ⟨1, ![n]⟩ ![] hbn (constant (F := Ideal) ⟨0, ![]⟩ .f32 0x00000000#32))
            (broadcastInDim ⟨2, ![E, 1]⟩ ![0] hb (shapeCast ⟨1, ![E]⟩ (extractStridedSlice ⟨2, ![1, E]⟩ ![o, 0] x hs) hc))
            (broadcastInDim ⟨1, ![E]⟩ ![] hb0 (constant (F := Ideal) ⟨0, ![]⟩ .f32 0x3F800000#32)))
          (broadcastInDim ⟨1, ![n]⟩ ![] hbn (constant (F := Ideal) ⟨0, ![]⟩ .f32 0x3F800000#32)))
        : (⟨1, ![n]⟩ : Shape).Idx → EReal) ht)
    (i : t.Idx) (j : Fin n) (hij : j.val = (t.rowMajor i).val) :
    y i = recip (edgeRow n x ⟨o, ho⟩) j := by
  subst e
  rw [shapeCast_apply _ ht i (ix1 j) ((Shape.rowMajor_val_one _).trans hij), hostDivf_apply, maximumf_apply]
  unfold Host.scatterAdd
  rw [Ideal.hostScatterAdd_def, scatter_ones_zeros wf _ _ _
    (fun i => by rw [broadcastInDim_scalar_apply]; exact Ideal.ofBits_zero_f32)
    (fun j => by rw [broadcastInDim_scalar_apply]; exact Ideal.ofBits_one_f32)]
  rw [broadcastInDim_scalar_apply, constant_apply, Ideal.ofBits_one_f32]
  unfold recip cnt edgeRow
  refine congrArg (fun t => Ideal.div 1 (max t 1)) ?_
  refine Finset.sum_congr rfl (fun k _ => if_congr ?_ rfl rfl)
  rw [bcastCol_read, row_read o ho, dec_eq_iff (hx _)]
  exact Iff.rfl

end Terms

section Host0
variable (W : Valuation τ sig (Elt Ideal))

theorem host0_M
    (h7 : ∀ i, InRange 1024 ((W (Proc.devRef .tc main_arg7) : S2x16384.Idx → BitVec 32) i)) :
    toMat (after hostOps0 W (Proc.devRef .tc main_v16) : S1024x1024.Idx → EReal)
      = cntMat (edgeRow 1024 (W (Proc.devRef .tc main_arg7) : S2x16384.Idx → BitVec 32) 0)
               (edgeRow 1024 (W (Proc.devRef .tc main_arg7) : S2x16384.Idx → BitVec 32) 1) :=
  countMat_of (n := 1024) (E := 16384) (NN := 1048576) (by decide) (by decide) h7 0 1 (by decide) (by decide) (by dsimp only [hostOps0]; after_results; try rfl)

theorem host0_rc
    (h7 : ∀ i, InRange 1024 ((W (Proc.devRef .tc main_arg7) : S2x16384.Idx → BitVec 32) i)) :
    (fun b : Fin 1024 => (after hostOps0 W (Proc.devRef .tc main_v25) : S1x1024.Idx → EReal) (ix2 0 b))
      = recip (edgeRow 1024 (W (Proc.devRef .tc main_arg7) : S2x16384.Idx → BitVec 32) 1) :=
  funext fun b => recip_of (n := 1024) (E := 16384) h7 1 (by decide) (by dsimp only [hostOps0]; after_results; try rfl) _ b
    (by rw [Shape.rowMajor_val_two]; show b.val = 0 * 1024 + b.val; omega)

theorem host0_adj
    (h8 : ∀ i, InRange 4096 ((W (Proc.devRef .tc main_arg8) : S2x131072.Idx → BitVec 32) i)) :
    toMat (after hostOps0 W (Proc.devRef .tc main_v34) : S4096x4096.Idx → EReal)
      = cntMat (edgeRow 4096 (W (Proc.devRef .tc main_arg8) : S2x131072.Idx → BitVec 32) 1)
               (edgeRow 4096 (W (Proc.devRef .tc main_arg8) : S2x131072.Idx → BitVec 32) 0) :=
  countMat_of (n := 4096) (E := 131072) (NN := 16777216) (by decide) (by decide) h8 1 0 (by decide) (by decide) (by dsimp only [hostOps0]; after_results; try rfl)

theorem host0_rr
    (h8 : ∀ i, InRange 4096 ((W (Proc.devRef .tc main_arg8) : S2x131072.Idx → BitVec 32) i)) :
    (fun d : Fin 4096 => (after hostOps0 W (Proc.devRef .tc main_v43) : S4096x1.Idx → EReal) (ix2 d 0))
      = recip (edgeRow 4096 (W (Proc.devRef .tc main_arg8) : S2x131072.Idx → BitVec 32) 1) :=
  funext fun d => recip_of (n := 4096) (E := 131072) h8 1 (by decide) (by dsimp only [hostOps0]; after_results; try rfl) _ d
    (by rw [Shape.rowMajor_val_two]; show d.val = d.val * 1 + 0; omega)

theorem host0_e : (after hostOps0 W (Proc.devRef .tc main_v44) : S4096x1024.Idx → EReal)
    = (W (Proc.devRef .tc main_arg0) : S4096x1024.Idx → EReal) := by
  dsimp only [hostOps0]; after_results; try rfl

end Host0

end Cert.KernelIdeal.Hand

end
-- ==== Proof.KIVal.lean ====
import proofs.«415769_j962072674785_2_alg».proof.Proof.KIRun
import proofs.«415769_j962072674785_2_alg».proof.Proof.KIVal0
import proofs.«415769_j962072674785_2_alg».proof.Proof.KIVal1
import proofs.«415769_j962072674785_2_alg».proof.Proof.KIVal2
import proofs.«415769_j962072674785_2_alg».proof.Proof.KIVal3
import proofs.«415769_j962072674785_2_alg».proof.Proof.KIVal4
import proofs.«415769_j962072674785_2_alg».proof.Proof.KIVal5
import proofs.«415769_j962072674785_2_alg».proof.Proof.KIVal6
import proofs.«415769_j962072674785_2_alg».proof.Proof.KIVal7
import proofs.«415769_j962072674785_2_alg».proof.Proof.KIVal8
import proofs.«415769_j962072674785_2_alg».proof.Proof.KIVal9
import proofs.«415769_j962072674785_2_alg».proof.Proof.KIVal10
import proofs.«415769_j962072674785_2_alg».proof.Proof.KIVal11
import proofs.«415769_j962072674785_2_alg».proof.Proof.KIHostW
import proofs.«415769_j962072674785_2_alg».proof.Proof.KIHost0
import proofs.«415769_j962072674785_2_alg».proof.Proof.Spec

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)
open Cert.Spec

theorem kLayer_of_steps
    {E : Mat 4096 1024} {M : Mat 1024 1024} {rc : Fin 1024 → EReal} {adj : Mat 4096 4096} {rr : Fin 4096 → EReal}
    {cWl cWr : Mat 4096 4096} {cb : Fin 4096 → EReal} {rWl rWr : Mat 1024 1024} {rb : Fin 1024 → EReal}
    {xE xAgg yAgg yE xAff zE xRag uRag uE xOut : S4096x1024.Idx → EReal}
    {xM : S1024x1024.Idx → EReal} {xRc : S1x1024.Idx → EReal}
    {yWl yWr : S4096x4096.Idx → EReal} {yB : S4096x1.Idx → EReal}
    {zAdj : S4096x4096.Idx → EReal} {zRr : S4096x1.Idx → EReal}
    {uWl uWr : S1024x1024.Idx → EReal} {uB : S1x1024.Idx → EReal}
    (a0 : xAgg = ofMat (kColAgg (toMat xE) (toMat xM) (fun b => xRc (ix2 (0 : Fin 1) b))))
    (k1 : yAgg = xAgg) (k2 : yE = xE)
    (a1 : xAff = ofMat (kColAff (toMat yAgg) (toMat yE) (toMat yWl) (toMat yWr) (fun q => yB (ix2 q (0 : Fin 1)))))
    (k3 : zE = xAff)
    (a2 : xRag = ofMat (kRowAgg (toMat zAdj) (toMat zE) (fun d => zRr (ix2 d (0 : Fin 1)))))
    (k4 : uRag = xRag) (k5 : uE = zE)
    (a3 : xOut = ofMat (kRowAff (toMat uRag) (toMat uE) (toMat uWl) (toMat uWr) (fun q => uB (ix2 (0 : Fin 1) q))))
    (hE : toMat xE = E) (hM : toMat xM = M) (hRc : (fun b => xRc (ix2 (0 : Fin 1) b)) = rc)
    (hAdj : toMat zAdj = adj) (hRr : (fun d => zRr (ix2 d (0 : Fin 1))) = rr)
    (hWl : toMat yWl = cWl) (hWr : toMat yWr = cWr) (hB : (fun q => yB (ix2 q (0 : Fin 1))) = cb)
    (hWl' : toMat uWl = rWl) (hWr' : toMat uWr = rWr) (hB' : (fun q => uB (ix2 (0 : Fin 1) q)) = rb) :
    toMat xOut = kLayer E M rc adj rr cWl cWr cb rWl rWr rb := by
  subst a3 k4 k5 a2 k3 a1 k1 k2 a0 hE hM hRc hAdj hRr hWl hWr hB hWl' hWr' hB'
  rfl

section Steps
variable {F : FTy → Type} [FloatOps F]

/-- Only a region's output arrays change across it: an input array is put back as read, and a buffer that is no array of it is outside the region. -/
theorem regW_keep {p : Fin 12} (d : (c : Dev nD) → Dat τ (Elt F) Unit ℕ (UR sig nD τ) ℕ (Pipeline.pin (pcfgs (F := F)) adm p) c)
    (W : Dev nD → Valuation τ sig (Elt F)) (hl : Pipeline.LaunchFacts (nD := nD) (τ := τ) cfgs p)
    (hA : ∀ c w, (d c).A w = atTc W c (Pipeline.arrRef (cfgs p).spec w)) (c : Dev nD) (r : Ref sig .tc)
    (h : ∀ w, Pipeline.arrRef (cfgs p).spec w = r → ((cfgs p).win w).isOut = false) :
    regW p d W c (Proc.devRef .tc r) = W c (Proc.devRef .tc r) := by
  by_cases hr : ∃ w, Pipeline.arrRef (cfgs p).spec w = r
  · obtain ⟨w, rfl⟩ := hr
    exact (regW_arr d W hl c w).trans (((d c).arrAt_in w (h w rfl) _).trans (hA c w))
  · exact regW_of_ne d W c r fun w e => hr ⟨w, e⟩

/-- The same across a host stretch that does not write the buffer and the region after it. -/
theorem regW_hostW_keep {p : Fin 12} (d : (c : Dev nD) → Dat τ (Elt F) Unit ℕ (UR sig nD τ) ℕ (Pipeline.pin (pcfgs (F := F)) adm p) c)
    (W : Dev nD → Valuation τ sig (Elt F)) (hl : Pipeline.LaunchFacts (nD := nD) (τ := τ) cfgs p)
    {ops : List (HloOp τ sig (Elt F))} {Wl : List (Ref sig .tc)}
    (hW : ops.Forall fun op => op.writes ⊆ (Wl.map (Proc.devRef (τ := τ) .tc)).toFinset)
    (hA : ∀ c w, (d c).A w = atTc (hostW W ops) c (Pipeline.arrRef (cfgs p).spec w)) (c : Dev nD) (r : Ref sig .tc) (hr : r ∉ Wl)
    (h : ∀ w, Pipeline.arrRef (cfgs p).spec w = r → ((cfgs p).win w).isOut = false) :
    regW p d (hostW W ops) c (Proc.devRef .tc r) = W c (Proc.devRef .tc r) :=
  (regW_keep d _ hl hA c r h).trans (StableHlo.after_of_writes_sub ops _ hW hr)

variable (m : (ℓ : Loc nD τ sig) → Buf (Elt F) ℓ) (ρ : Dev nD → PrngReg)

/-- Read by every layer, and written by nothing once region 0 is entered. -/
abbrev kept : List (Ref sig .tc) :=
  [main_arg1, main_arg2, main_arg3, main_arg4, main_arg5, main_arg6, main_v16, main_v25, main_v34, main_v43]

theorem kept_nw : ∀ r ∈ kept, ∀ p : Fin 11, r ∉ opsW p.succ := by decide
theorem kept_in : ∀ r ∈ kept, ∀ p : Fin 12, ∀ w, Pipeline.arrRef (cfgs p).spec w = r → ((cfgs p).win w).isOut = false := by
  decide

/-- By induction along the run, each of them is at every region's exit as at region 0's entry. -/
theorem kept2 (c : Dev nD) : ∀ r ∈ kept, W2 m ρ c (Proc.devRef .tc r) = W1 m ρ c (Proc.devRef .tc r) :=
  fun r hr => regW_keep _ _ launch0 (A_eq0 _) c r (kept_in r hr 0)
theorem kept4 (c : Dev nD) : ∀ r ∈ kept, W4 m ρ c (Proc.devRef .tc r) = W1 m ρ c (Proc.devRef .tc r) :=
  fun r hr => (regW_hostW_keep _ _ launch1 hostOps1_writes (A_eq1 _) c r (kept_nw r hr 0) (kept_in r hr 1)).trans (kept2 m ρ c r hr)
theorem kept6 (c : Dev nD) : ∀ r ∈ kept, W6 m ρ c (Proc.devRef .tc r) = W1 m ρ c (Proc.devRef .tc r) :=
  fun r hr => (regW_hostW_keep _ _ launch2 hostOps2_writes (A_eq2 _) c r (kept_nw r hr 1) (kept_in r hr 2)).trans (kept4 m ρ c r hr)
theorem kept8 (c : Dev nD) : ∀ r ∈ kept, W8 m ρ c (Proc.devRef .tc r) = W1 m ρ c (Proc.devRef .tc r) :=
  fun r hr => (regW_hostW_keep _ _ launch3 hostOps3_writes (A_eq3 _) c r (kept_nw r hr 2) (kept_in r hr 3)).trans (kept6 m ρ c r hr)
theorem kept10 (c : Dev nD) : ∀ r ∈ kept, W10 m ρ c (Proc.devRef .tc r) = W1 m ρ c (Proc.devRef .tc r) :=
  fun r hr => (regW_hostW_keep _ _ launch4 hostOps4_writes (A_eq4 _) c r (kept_nw r hr 3) (kept_in r hr 4)).trans (kept8 m ρ c r hr)
theorem kept12 (c : Dev nD) : ∀ r ∈ kept, W12 m ρ c (Proc.devRef .tc r) = W1 m ρ c (Proc.devRef .tc r) :=
  fun r hr => (regW_hostW_keep _ _ launch5 hostOps5_writes (A_eq5 _) c r (kept_nw r hr 4) (kept_in r hr 5)).trans (kept10 m ρ c r hr)
theorem kept14 (c : Dev nD) : ∀ r ∈ kept, W14 m ρ c (Proc.devRef .tc r) = W1 m ρ c (Proc.devRef .tc r) :=
  fun r hr => (regW_hostW_keep _ _ launch6 hostOps6_writes (A_eq6 _) c r (kept_nw r hr 5) (kept_in r hr 6)).trans (kept12 m ρ c r hr)
theorem kept16 (c : Dev nD) : ∀ r ∈ kept, W16 m ρ c (Proc.devRef .tc r) = W1 m ρ c (Proc.devRef .tc r) :=
  fun r hr => (regW_hostW_keep _ _ launch7 hostOps7_writes (A_eq7 _) c r (kept_nw r hr 6) (kept_in r hr 7)).trans (kept14 m ρ c r hr)
theorem kept18 (c : Dev nD) : ∀ r ∈ kept, W18 m ρ c (Proc.devRef .tc r) = W1 m ρ c (Proc.devRef .tc r) :=
  fun r hr => (regW_hostW_keep _ _ launch8 hostOps8_writes (A_eq8 _) c r (kept_nw r hr 7) (kept_in r hr 8)).trans (kept16 m ρ c r hr)
theorem kept20 (c : Dev nD) : ∀ r ∈ kept, W20 m ρ c (Proc.devRef .tc r) = W1 m ρ c (Proc.devRef .tc r) :=
  fun r hr => (regW_hostW_keep _ _ launch9 hostOps9_writes (A_eq9 _) c r (kept_nw r hr 8) (kept_in r hr 9)).trans (kept18 m ρ c r hr)
theorem kept22 (c : Dev nD) : ∀ r ∈ kept, W22 m ρ c (Proc.devRef .tc r) = W1 m ρ c (Proc.devRef .tc r) :=
  fun r hr => (regW_hostW_keep _ _ launch10 hostOps10_writes (A_eq10 _) c r (kept_nw r hr 9) (kept_in r hr 10)).trans (kept20 m ρ c r hr)

end Steps

section Value
variable (m : (ℓ : Loc nD τ sig) → Buf (Elt Ideal) ℓ) (ρ : Dev nD → PrngReg) (c : Dev nD)

set_option quotPrecheck false in
local notation:max "⟪" W ", " r "⟫" => W m ρ c (Proc.devRef .tc r)
set_option quotPrecheck false in
local notation:max "𝕒[" r "]" => m ((c.tc : Thread nD τ).loc r)
set_option quotPrecheck false in
local notation "𝕜s" => edgeRow 1024 (𝕒[main_arg7] : S2x16384.Idx → BitVec 32) 0
set_option quotPrecheck false in
local notation "𝕜d" => edgeRow 1024 (𝕒[main_arg7] : S2x16384.Idx → BitVec 32) 1
set_option quotPrecheck false in
local notation "𝕘s" => edgeRow 4096 (𝕒[main_arg8] : S2x131072.Idx → BitVec 32) 0
set_option quotPrecheck false in
local notation "𝕘d" => edgeRow 4096 (𝕒[main_arg8] : S2x131072.Idx → BitVec 32) 1

/-- Layer `l` of the network over the launched weights and the two edge lists' matrices. -/
abbrev kL (l) (X : Mat 4096 1024) :=
  kLayer X (cntMat 𝕜s 𝕜d) (recip 𝕜d) (cntMat 𝕘d 𝕘s) (recip 𝕘d)
    (slab (𝕒[main_arg1] : S3x4096x4096.Idx → EReal) l) (slab (𝕒[main_arg2] : S3x4096x4096.Idx → EReal) l) (row (𝕒[main_arg3] : S3x4096.Idx → EReal) l)
    (slab (𝕒[main_arg4] : S3x1024x1024.Idx → EReal) l) (slab (𝕒[main_arg5] : S3x1024x1024.Idx → EReal) l) (row (𝕒[main_arg6] : S3x1024.Idx → EReal) l)

/-- One of them that the first host stretch does not write either is, wherever it is as at region 0's entry, as launched. -/
theorem launched_of_kept {X : Valuation τ sig (Elt Ideal)} (h : ∀ r ∈ kept, X (Proc.devRef .tc r) = ⟪W1, r⟫) (r : Ref sig .tc)
    (hr : r ∈ kept ∧ r ∉ (hostOps0_W : List (Ref sig .tc))) : X (Proc.devRef .tc r) = 𝕒[r] :=
  (h r hr.1).trans (StableHlo.after_of_writes_sub hostOps0 _ hostOps0_writes hr.2)

theorem layer0 (h7 : ∀ i, InRange 1024 ((𝕒[main_arg7] : S2x16384.Idx → BitVec 32) i))
    (h8 : ∀ i, InRange 4096 ((𝕒[main_arg8] : S2x131072.Idx → BitVec 32) i)) :
    toMat (⟪W8, main_v63⟫ : S4096x1024.Idx → EReal)
      = kL m c 0 (toMat (𝕒[main_arg0] : S4096x1024.Idx → EReal)) := by
  have a0 : (⟪W2, main_v45⟫ : S4096x1024.Idx → EReal) = ofMat (kColAgg (toMat (⟪W1, main_v44⟫ : S4096x1024.Idx → EReal)) (toMat (⟪W1, main_v16⟫ : S1024x1024.Idx → EReal))
      (fun b => (⟪W1, main_v25⟫ : S1x1024.Idx → EReal) (ix2 (0 : Fin 1) b))) :=
    (regW_arr _ _ launch0 c (3 : Fin cfg0.W)).trans (arrAt0_out _ c)
  have k1 : (⟪W3, main_v45⟫ : S4096x1024.Idx → EReal) = ⟪W2, main_v45⟫ := StableHlo.after_of_writes_sub hostOps1 _ hostOps1_writes (by decide)
  have k2 : (⟪W3, main_v44⟫ : S4096x1024.Idx → EReal) = ⟪W1, main_v44⟫ := (StableHlo.after_of_writes_sub hostOps1 _ hostOps1_writes (by decide)).trans (regW_keep _ _ launch0 (A_eq0 _) c main_v44 (by decide))
  have a1 : (⟪W4, main_v53⟫ : S4096x1024.Idx → EReal) = ofMat (kColAff (toMat (⟪W3, main_v45⟫ : S4096x1024.Idx → EReal)) (toMat (⟪W3, main_v44⟫ : S4096x1024.Idx → EReal))
      (toMat (⟪W3, main_v47⟫ : S4096x4096.Idx → EReal)) (toMat (⟪W3, main_v49⟫ : S4096x4096.Idx → EReal))
      (fun q => (⟪W3, main_v52⟫ : S4096x1.Idx → EReal) (ix2 q (0 : Fin 1)))) :=
    (regW_arr _ _ launch1 c (5 : Fin cfg1.W)).trans (arrAt1_out _ c)
  have k3 : (⟪W5, main_v54⟫ : S4096x1024.Idx → EReal) = ⟪W4, main_v53⟫ := host2_cvt (W4 m ρ c)
  have a2 : (⟪W6, main_v55⟫ : S4096x1024.Idx → EReal) = ofMat (kRowAgg (toMat (⟪W5, main_v34⟫ : S4096x4096.Idx → EReal)) (toMat (⟪W5, main_v54⟫ : S4096x1024.Idx → EReal))
      (fun d => (⟪W5, main_v43⟫ : S4096x1.Idx → EReal) (ix2 d (0 : Fin 1)))) :=
    (regW_arr _ _ launch2 c (3 : Fin cfg2.W)).trans (arrAt2_out _ c)
  have k4 : (⟪W7, main_v55⟫ : S4096x1024.Idx → EReal) = ⟪W6, main_v55⟫ := StableHlo.after_of_writes_sub hostOps3 _ hostOps3_writes (by decide)
  have k5 : (⟪W7, main_v54⟫ : S4096x1024.Idx → EReal) = ⟪W5, main_v54⟫ := (StableHlo.after_of_writes_sub hostOps3 _ hostOps3_writes (by decide)).trans (regW_keep _ _ launch2 (A_eq2 _) c main_v54 (by decide))
  have a3 : (⟪W8, main_v63⟫ : S4096x1024.Idx → EReal) = ofMat (kRowAff (toMat (⟪W7, main_v55⟫ : S4096x1024.Idx → EReal)) (toMat (⟪W7, main_v54⟫ : S4096x1024.Idx → EReal))
      (toMat (⟪W7, main_v57⟫ : S1024x1024.Idx → EReal)) (toMat (⟪W7, main_v59⟫ : S1024x1024.Idx → EReal))
      (fun q => (⟪W7, main_v62⟫ : S1x1024.Idx → EReal) (ix2 (0 : Fin 1) q))) :=
    (regW_arr _ _ launch3 c (5 : Fin cfg3.W)).trans (arrAt3_out _ c)
  exact kLayer_of_steps a0 k1 k2 a1 k3 a2 k4 k5 a3
    (congrArg (fun x : S4096x1024.Idx → EReal => toMat x) (host0_e (W0 m ρ c)))
    (host0_M (W0 m ρ c) h7) (host0_rc (W0 m ρ c) h7)
    ((congrArg (fun x : S4096x4096.Idx → EReal => toMat x) ((StableHlo.after_of_writes_sub hostOps2 _ hostOps2_writes (by decide)).trans (kept4 m ρ c main_v34 (by decide)))).trans (host0_adj (W0 m ρ c) h8))
    ((congrArg (fun (x : S4096x1.Idx → EReal) (d : Fin 4096) => x (ix2 d (0 : Fin 1))) ((StableHlo.after_of_writes_sub hostOps2 _ hostOps2_writes (by decide)).trans (kept4 m ρ c main_v43 (by decide)))).trans (host0_rr (W0 m ρ c) h8))
    ((host1_Wl (W2 m ρ c)).trans (congrArg (fun x : S3x4096x4096.Idx → EReal => slab x 0) (launched_of_kept m ρ c (kept2 m ρ c) main_arg1 (by decide))))
    ((host1_Wr (W2 m ρ c)).trans (congrArg (fun x : S3x4096x4096.Idx → EReal => slab x 0) (launched_of_kept m ρ c (kept2 m ρ c) main_arg2 (by decide))))
    ((host1_b (W2 m ρ c)).trans (congrArg (fun x : S3x4096.Idx → EReal => row x 0) (launched_of_kept m ρ c (kept2 m ρ c) main_arg3 (by decide))))
    ((host3_Wl (W6 m ρ c)).trans (congrArg (fun x : S3x1024x1024.Idx → EReal => slab x 0) (launched_of_kept m ρ c (kept6 m ρ c) main_arg4 (by decide))))
    ((host3_Wr (W6 m ρ c)).trans (congrArg (fun x : S3x1024x1024.Idx → EReal => slab x 0) (launched_of_kept m ρ c (kept6 m ρ c) main_arg5 (by decide))))
    ((host3_b (W6 m ρ c)).trans (congrArg (fun x : S3x1024.Idx → EReal => row x 0) (launched_of_kept m ρ c (kept6 m ρ c) main_arg6 (by decide))))

theorem layer1 (h7 : ∀ i, InRange 1024 ((𝕒[main_arg7] : S2x16384.Idx → BitVec 32) i))
    (h8 : ∀ i, InRange 4096 ((𝕒[main_arg8] : S2x131072.Idx → BitVec 32) i)) :
    toMat (⟪W16, main_v83⟫ : S4096x1024.Idx → EReal)
      = kL m c 1 (toMat (⟪W8, main_v63⟫ : S4096x1024.Idx → EReal)) := by
  have a0 : (⟪W10, main_v65⟫ : S4096x1024.Idx → EReal) = ofMat (kColAgg (toMat (⟪W9, main_v64⟫ : S4096x1024.Idx → EReal)) (toMat (⟪W9, main_v16⟫ : S1024x1024.Idx → EReal))
      (fun b => (⟪W9, main_v25⟫ : S1x1024.Idx → EReal) (ix2 (0 : Fin 1) b))) :=
    (regW_arr _ _ launch4 c (3 : Fin cfg4.W)).trans (arrAt4_out _ c)
  have k1 : (⟪W11, main_v65⟫ : S4096x1024.Idx → EReal) = ⟪W10, main_v65⟫ := StableHlo.after_of_writes_sub hostOps5 _ hostOps5_writes (by decide)
  have k2 : (⟪W11, main_v64⟫ : S4096x1024.Idx → EReal) = ⟪W9, main_v64⟫ := (StableHlo.after_of_writes_sub hostOps5 _ hostOps5_writes (by decide)).trans (regW_keep _ _ launch4 (A_eq4 _) c main_v64 (by decide))
  have a1 : (⟪W12, main_v73⟫ : S4096x1024.Idx → EReal) = ofMat (kColAff (toMat (⟪W11, main_v65⟫ : S4096x1024.Idx → EReal)) (toMat (⟪W11, main_v64⟫ : S4096x1024.Idx → EReal))
      (toMat (⟪W11, main_v67⟫ : S4096x4096.Idx → EReal)) (toMat (⟪W11, main_v69⟫ : S4096x4096.Idx → EReal))
      (fun q => (⟪W11, main_v72⟫ : S4096x1.Idx → EReal) (ix2 q (0 : Fin 1)))) :=
    (regW_arr _ _ launch5 c (5 : Fin cfg5.W)).trans (arrAt5_out _ c)
  have k3 : (⟪W13, main_v74⟫ : S4096x1024.Idx → EReal) = ⟪W12, main_v73⟫ := host6_cvt (W12 m ρ c)
  have a2 : (⟪W14, main_v75⟫ : S4096x1024.Idx → EReal) = ofMat (kRowAgg (toMat (⟪W13, main_v34⟫ : S4096x4096.Idx → EReal)) (toMat (⟪W13, main_v74⟫ : S4096x1024.Idx → EReal))
      (fun d => (⟪W13, main_v43⟫ : S4096x1.Idx → EReal) (ix2 d (0 : Fin 1)))) :=
    (regW_arr _ _ launch6 c (3 : Fin cfg6.W)).trans (arrAt6_out _ c)
  have k4 : (⟪W15, main_v75⟫ : S4096x1024.Idx → EReal) = ⟪W14, main_v75⟫ := StableHlo.after_of_writes_sub hostOps7 _ hostOps7_writes (by decide)
  have k5 : (⟪W15, main_v74⟫ : S4096x1024.Idx → EReal) = ⟪W13, main_v74⟫ := (StableHlo.after_of_writes_sub hostOps7 _ hostOps7_writes (by decide)).trans (regW_keep _ _ launch6 (A_eq6 _) c main_v74 (by decide))
  have a3 : (⟪W16, main_v83⟫ : S4096x1024.Idx → EReal) = ofMat (kRowAff (toMat (⟪W15, main_v75⟫ : S4096x1024.Idx → EReal)) (toMat (⟪W15, main_v74⟫ : S4096x1024.Idx → EReal))
      (toMat (⟪W15, main_v77⟫ : S1024x1024.Idx → EReal)) (toMat (⟪W15, main_v79⟫ : S1024x1024.Idx → EReal))
      (fun q => (⟪W15, main_v82⟫ : S1x1024.Idx → EReal) (ix2 (0 : Fin 1) q))) :=
    (regW_arr _ _ launch7 c (5 : Fin cfg7.W)).trans (arrAt7_out _ c)
  exact kLayer_of_steps a0 k1 k2 a1 k3 a2 k4 k5 a3
    (congrArg (fun x : S4096x1024.Idx → EReal => toMat x) (host4_cvt (W8 m ρ c)))
    ((congrArg (fun x : S1024x1024.Idx → EReal => toMat x) ((StableHlo.after_of_writes_sub hostOps4 _ hostOps4_writes (by decide)).trans (kept8 m ρ c main_v16 (by decide)))).trans (host0_M (W0 m ρ c) h7))
    ((congrArg (fun (x : S1x1024.Idx → EReal) (b : Fin 1024) => x (ix2 (0 : Fin 1) b)) ((StableHlo.after_of_writes_sub hostOps4 _ hostOps4_writes (by decide)).trans (kept8 m ρ c main_v25 (by decide)))).trans (host0_rc (W0 m ρ c) h7))
    ((congrArg (fun x : S4096x4096.Idx → EReal => toMat x) ((StableHlo.after_of_writes_sub hostOps6 _ hostOps6_writes (by decide)).trans (kept12 m ρ c main_v34 (by decide)))).trans (host0_adj (W0 m ρ c) h8))
    ((congrArg (fun (x : S4096x1.Idx → EReal) (d : Fin 4096) => x (ix2 d (0 : Fin 1))) ((StableHlo.after_of_writes_sub hostOps6 _ hostOps6_writes (by decide)).trans (kept12 m ρ c main_v43 (by decide)))).trans (host0_rr (W0 m ρ c) h8))
    ((host5_Wl (W10 m ρ c)).trans (congrArg (fun x : S3x4096x4096.Idx → EReal => slab x 1) (launched_of_kept m ρ c (kept10 m ρ c) main_arg1 (by decide))))
    ((host5_Wr (W10 m ρ c)).trans (congrArg (fun x : S3x4096x4096.Idx → EReal => slab x 1) (launched_of_kept m ρ c (kept10 m ρ c) main_arg2 (by decide))))
    ((host5_b (W10 m ρ c)).trans (congrArg (fun x : S3x4096.Idx → EReal => row x 1) (launched_of_kept m ρ c (kept10 m ρ c) main_arg3 (by decide))))
    ((host7_Wl (W14 m ρ c)).trans (congrArg (fun x : S3x1024x1024.Idx → EReal => slab x 1) (launched_of_kept m ρ c (kept14 m ρ c) main_arg4 (by decide))))
    ((host7_Wr (W14 m ρ c)).trans (congrArg (fun x : S3x1024x1024.Idx → EReal => slab x 1) (launched_of_kept m ρ c (kept14 m ρ c) main_arg5 (by decide))))
    ((host7_b (W14 m ρ c)).trans (congrArg (fun x : S3x1024.Idx → EReal => row x 1) (launched_of_kept m ρ c (kept14 m ρ c) main_arg6 (by decide))))

theorem layer2 (h7 : ∀ i, InRange 1024 ((𝕒[main_arg7] : S2x16384.Idx → BitVec 32) i))
    (h8 : ∀ i, InRange 4096 ((𝕒[main_arg8] : S2x131072.Idx → BitVec 32) i)) :
    toMat (⟪W24, main_v103⟫ : S4096x1024.Idx → EReal)
      = kL m c 2 (toMat (⟪W16, main_v83⟫ : S4096x1024.Idx → EReal)) := by
  have a0 : (⟪W18, main_v85⟫ : S4096x1024.Idx → EReal) = ofMat (kColAgg (toMat (⟪W17, main_v84⟫ : S4096x1024.Idx → EReal)) (toMat (⟪W17, main_v16⟫ : S1024x1024.Idx → EReal))
      (fun b => (⟪W17, main_v25⟫ : S1x1024.Idx → EReal) (ix2 (0 : Fin 1) b))) :=
    (regW_arr _ _ launch8 c (3 : Fin cfg8.W)).trans (arrAt8_out _ c)
  have k1 : (⟪W19, main_v85⟫ : S4096x1024.Idx → EReal) = ⟪W18, main_v85⟫ := StableHlo.after_of_writes_sub hostOps9 _ hostOps9_writes (by decide)
  have k2 : (⟪W19, main_v84⟫ : S4096x1024.Idx → EReal) = ⟪W17, main_v84⟫ := (StableHlo.after_of_writes_sub hostOps9 _ hostOps9_writes (by decide)).trans (regW_keep _ _ launch8 (A_eq8 _) c main_v84 (by decide))
  have a1 : (⟪W20, main_v93⟫ : S4096x1024.Idx → EReal) = ofMat (kColAff (toMat (⟪W19, main_v85⟫ : S4096x1024.Idx → EReal)) (toMat (⟪W19, main_v84⟫ : S4096x1024.Idx → EReal))
      (toMat (⟪W19, main_v87⟫ : S4096x4096.Idx → EReal)) (toMat (⟪W19, main_v89⟫ : S4096x4096.Idx → EReal))
      (fun q => (⟪W19, main_v92⟫ : S4096x1.Idx → EReal) (ix2 q (0 : Fin 1)))) :=
    (regW_arr _ _ launch9 c (5 : Fin cfg9.W)).trans (arrAt9_out _ c)
  have k3 : (⟪W21, main_v94⟫ : S4096x1024.Idx → EReal) = ⟪W20, main_v93⟫ := host10_cvt (W20 m ρ c)
  have a2 : (⟪W22, main_v95⟫ : S4096x1024.Idx → EReal) = ofMat (kRowAgg (toMat (⟪W21, main_v34⟫ : S4096x4096.Idx → EReal)) (toMat (⟪W21, main_v94⟫ : S4096x1024.Idx → EReal))
      (fun d => (⟪W21, main_v43⟫ : S4096x1.Idx → EReal) (ix2 d (0 : Fin 1)))) :=
    (regW_arr _ _ launch10 c (3 : Fin cfg10.W)).trans (arrAt10_out _ c)
  have k4 : (⟪W23, main_v95⟫ : S4096x1024.Idx → EReal) = ⟪W22, main_v95⟫ := StableHlo.after_of_writes_sub hostOps11 _ hostOps11_writes (by decide)
  have k5 : (⟪W23, main_v94⟫ : S4096x1024.Idx → EReal) = ⟪W21, main_v94⟫ := (StableHlo.after_of_writes_sub hostOps11 _ hostOps11_writes (by decide)).trans (regW_keep _ _ launch10 (A_eq10 _) c main_v94 (by decide))
  have a3 : (⟪W24, main_v103⟫ : S4096x1024.Idx → EReal) = ofMat (kRowAff (toMat (⟪W23, main_v95⟫ : S4096x1024.Idx → EReal)) (toMat (⟪W23, main_v94⟫ : S4096x1024.Idx → EReal))
      (toMat (⟪W23, main_v97⟫ : S1024x1024.Idx → EReal)) (toMat (⟪W23, main_v99⟫ : S1024x1024.Idx → EReal))
      (fun q => (⟪W23, main_v102⟫ : S1x1024.Idx → EReal) (ix2 (0 : Fin 1) q))) :=
    (regW_arr _ _ launch11 c (5 : Fin cfg11.W)).trans (arrAt11_out _ c)
  exact kLayer_of_steps a0 k1 k2 a1 k3 a2 k4 k5 a3
    (congrArg (fun x : S4096x1024.Idx → EReal => toMat x) (host8_cvt (W16 m ρ c)))
    ((congrArg (fun x : S1024x1024.Idx → EReal => toMat x) ((StableHlo.after_of_writes_sub hostOps8 _ hostOps8_writes (by decide)).trans (kept16 m ρ c main_v16 (by decide)))).trans (host0_M (W0 m ρ c) h7))
    ((congrArg (fun (x : S1x1024.Idx → EReal) (b : Fin 1024) => x (ix2 (0 : Fin 1) b)) ((StableHlo.after_of_writes_sub hostOps8 _ hostOps8_writes (by decide)).trans (kept16 m ρ c main_v25 (by decide)))).trans (host0_rc (W0 m ρ c) h7))
    ((congrArg (fun x : S4096x4096.Idx → EReal => toMat x) ((StableHlo.after_of_writes_sub hostOps10 _ hostOps10_writes (by decide)).trans (kept20 m ρ c main_v34 (by decide)))).trans (host0_adj (W0 m ρ c) h8))
    ((congrArg (fun (x : S4096x1.Idx → EReal) (d : Fin 4096) => x (ix2 d (0 : Fin 1))) ((StableHlo.after_of_writes_sub hostOps10 _ hostOps10_writes (by decide)).trans (kept20 m ρ c main_v43 (by decide)))).trans (host0_rr (W0 m ρ c) h8))
    ((host9_Wl (W18 m ρ c)).trans (congrArg (fun x : S3x4096x4096.Idx → EReal => slab x 2) (launched_of_kept m ρ c (kept18 m ρ c) main_arg1 (by decide))))
    ((host9_Wr (W18 m ρ c)).trans (congrArg (fun x : S3x4096x4096.Idx → EReal => slab x 2) (launched_of_kept m ρ c (kept18 m ρ c) main_arg2 (by decide))))
    ((host9_b (W18 m ρ c)).trans (congrArg (fun x : S3x4096.Idx → EReal => row x 2) (launched_of_kept m ρ c (kept18 m ρ c) main_arg3 (by decide))))
    ((host11_Wl (W22 m ρ c)).trans (congrArg (fun x : S3x1024x1024.Idx → EReal => slab x 2) (launched_of_kept m ρ c (kept22 m ρ c) main_arg4 (by decide))))
    ((host11_Wr (W22 m ρ c)).trans (congrArg (fun x : S3x1024x1024.Idx → EReal => slab x 2) (launched_of_kept m ρ c (kept22 m ρ c) main_arg5 (by decide))))
    ((host11_b (W22 m ρ c)).trans (congrArg (fun x : S3x1024.Idx → EReal => row x 2) (launched_of_kept m ρ c (kept22 m ρ c) main_arg6 (by decide))))

theorem result
    (h7 : ∀ i, InRange 1024 (m ((c.tc : Thread nD τ).loc main_arg7) i))
    (h8 : ∀ i, InRange 4096 (m ((c.tc : Thread nD τ).loc main_arg8) i)) :
    toMat (W24 (F := Ideal) m ρ c (Proc.devRef .tc main_v103))
      = kNet (toMat (m ((c.tc : Thread nD τ).loc main_arg0)))
          (edgeRow 1024 (m ((c.tc : Thread nD τ).loc main_arg7)) 0) (edgeRow 1024 (m ((c.tc : Thread nD τ).loc main_arg7)) 1)
          (edgeRow 4096 (m ((c.tc : Thread nD τ).loc main_arg8)) 0) (edgeRow 4096 (m ((c.tc : Thread nD τ).loc main_arg8)) 1)
          (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5)) (m ((c.tc : Thread nD τ).loc main_arg6)) := by
  refine (layer2 m ρ c h7 h8).trans ?_
  rw [layer1 m ρ c h7 h8, layer0 m ρ c h7 h8]
  rfl

end Value

end Cert.KernelIdeal.Hand

end
-- ==== Proof.RefOps.lean ====
import proofs.«415769_j962072674785_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

abbrev ops0 : List (HloOp τ sig (Elt F)) :=
  [ StableHlo.unary main_arg7 main_v0 (extractStridedSlice S1x16384 ![0, 0] · slices_S2x16384_S1x16384_0_0),
    StableHlo.reshape main_v0 main_v1 rfl shapeCasts_S1x16384_S16384,
    StableHlo.unary main_arg7 main_v2 (extractStridedSlice S1x16384 ![1, 0] · slices_S2x16384_S1x16384_1_0),
    StableHlo.reshape main_v2 main_v3 rfl shapeCasts_S1x16384_S16384,
    StableHlo.unary main_arg8 main_v4 (extractStridedSlice S1x131072 ![0, 0] · slices_S2x131072_S1x131072_0_0),
    StableHlo.reshape main_v4 main_v5 rfl shapeCasts_S1x131072_S131072,
    StableHlo.unary main_arg8 main_v6 (extractStridedSlice S1x131072 ![1, 0] · slices_S2x131072_S1x131072_1_0),
    StableHlo.reshape main_v6 main_v7 rfl shapeCasts_S1x131072_S131072,
    StableHlo.unary main_arg0 main_v8 (transpose S1024x4096 [1, 0] · transposes_S4096x1024_S1024x4096_1_0),
    StableHlo.unary main_arg1 main_v9 (extractStridedSlice S1x4096x4096 ![0, 0, 0] · slices_S3x4096x4096_S1x4096x4096_0_0_0),
    StableHlo.reshape main_v9 main_v10 rfl shapeCasts_S1x4096x4096_S4096x4096,
    StableHlo.unary main_arg3 main_v11 (extractStridedSlice S1x4096 ![0, 0] · slices_S3x4096_S1x4096_0_0),
    StableHlo.reshape main_v11 main_v12 rfl shapeCasts_S1x4096_S4096,
    StableHlo.unary main_arg2 main_v13 (extractStridedSlice S1x4096x4096 ![0, 0, 0] · slices_S3x4096x4096_S1x4096x4096_0_0_0),
    StableHlo.reshape main_v13 main_v14 rfl shapeCasts_S1x4096x4096_S4096x4096,
    StableHlo.nullary main_c (constantI S_ 32 0#32),
    StableHlo.unary main_c main_v15 (broadcastInDim S16384 ![] bcast_S_S16384),
    StableHlo.binary main_v1 main_v15 main_v16 (cmpi .slt),
    StableHlo.nullary main_c_0 (constantI S_ 32 1024#32),
    StableHlo.unary main_c_0 main_v17 (broadcastInDim S16384 ![] bcast_S_S16384),
    StableHlo.binary main_v1 main_v17 main_v18 addi,
    StableHlo.ternary main_v16 main_v18 main_v1 main_v19 select,
    StableHlo.unary main_v19 main_v20 (broadcastInDim S16384x1 ![0] bcast_S16384_S16384x1_0),
    StableHlo.binary main_v8 main_v20 main_v21 (fun x i => Host.gather gather_S1024x4096_S16384x1_S16384x4096_1_0_n_n_0_1_14096 x i),
    StableHlo.nullary main_cst (constant S_ .f32 0x00000000#32),
    StableHlo.unary main_cst main_v22 (broadcastInDim S1024x4096 ![] bcast_S_S1024x4096),
    StableHlo.unary main_v3 main_v23 (broadcastInDim S16384x1 ![0] bcast_S16384_S16384x1_0),
    StableHlo.ternary main_v22 main_v23 main_v21 main_v24 (fun x i u => Host.scatterAdd scatter_S1024x4096_S16384x1_S16384x4096_1_0_0_1 x i u),
    StableHlo.nullary main_cst_1 (constant S_ .f32 0x3F800000#32),
    StableHlo.unary main_cst_1 main_v25 (broadcastInDim S16384 ![] bcast_S_S16384),
    StableHlo.nullary main_cst_2 (constant S_ .f32 0x00000000#32),
    StableHlo.unary main_cst_2 main_v26 (broadcastInDim S1024 ![] bcast_S_S1024),
    StableHlo.unary main_v3 main_v27 (broadcastInDim S16384x1 ![0] bcast_S16384_S16384x1_0),
    StableHlo.ternary main_v26 main_v27 main_v25 main_v28 (fun x i u => Host.scatterAdd scatter_S1024_S16384x1_S16384_n_0_0_1 x i u),
    StableHlo.nullary main_cst_3 (constant S_ .f32 0x3F800000#32),
    StableHlo.unary main_cst_3 main_v29 (broadcastInDim S1024 ![] bcast_S_S1024),
    StableHlo.binary main_v28 main_v29 main_v30 maximumf,
    StableHlo.unary main_v30 main_v31 (broadcastInDim S1024x1 ![0] bcast_S1024_S1024x1_0),
    StableHlo.unary main_v31 main_v32 (broadcastInDim S1024x4096 ![0, 1] bcast_S1024x1_S1024x4096_0_1),
    StableHlo.binary main_v24 main_v32 main_v33 Host.divf,
    StableHlo.unary main_v10 main_v34 (transpose S4096x4096 [1, 0] · transposes_S4096x4096_S4096x4096_1_0),
    StableHlo.binary main_v33 main_v34 main_v35 (fun l r => Host.dotGeneral dot_S1024x4096_S4096x4096_S1024x4096_1_0_0_1_n_n none l r),
    StableHlo.unary main_v12 main_v36 (broadcastInDim S1x4096 ![1] bcast_S4096_S1x4096_1),
    StableHlo.unary main_v36 main_v37 (broadcastInDim S1024x4096 ![0, 1] bcast_S1x4096_S1024x4096_0_1),
    StableHlo.binary main_v35 main_v37 main_v38 addf,
    StableHlo.unary main_v14 main_v39 (transpose S4096x4096 [1, 0] · transposes_S4096x4096_S4096x4096_1_0),
    StableHlo.binary main_v8 main_v39 main_v40 (fun l r => Host.dotGeneral dot_S1024x4096_S4096x4096_S1024x4096_1_0_0_1_n_n none l r),
    StableHlo.binary main_v38 main_v40 main_v41 addf,
    StableHlo.nullary main_cst_4 (constant S_ .f32 0x3C23D70A#32),
    StableHlo.TRef.nullary main_call0.cst (constant S_ .f32 0x00000000#32),
    StableHlo.TRef.unary main_call0.cst main_call0.v0 (broadcastInDim S1024x4096 ![] bcast_S_S1024x4096),
    StableHlo.TRef.binary (.of main_v41 : StableHlo.TRef sig ⟨S1024x4096, .f32⟩) main_call0.v0 main_call0.v1 (cmpf .oge),
    StableHlo.TRef.unary (.of main_cst_4 : StableHlo.TRef sig ⟨S_, .f32⟩) main_call0.v2 id,
    StableHlo.TRef.unary main_call0.v2 main_call0.v3 (broadcastInDim S1024x4096 ![] bcast_S_S1024x4096),
    StableHlo.TRef.binary main_call0.v3 (.of main_v41 : StableHlo.TRef sig ⟨S1024x4096, .f32⟩) main_call0.v4 mulf,
    StableHlo.TRef.ternary main_call0.v1 (.of main_v41 : StableHlo.TRef sig ⟨S1024x4096, .f32⟩) main_call0.v4 main_call0.call0.v0 select ]

abbrev ops1 : List (HloOp τ sig (Elt F)) :=
  [ StableHlo.unary main_v42 main_v43 (transpose S4096x1024 [1, 0] · transposes_S1024x4096_S4096x1024_1_0),
    StableHlo.unary main_arg4 main_v44 (extractStridedSlice S1x1024x1024 ![0, 0, 0] · slices_S3x1024x1024_S1x1024x1024_0_0_0),
    StableHlo.reshape main_v44 main_v45 rfl shapeCasts_S1x1024x1024_S1024x1024,
    StableHlo.unary main_arg6 main_v46 (extractStridedSlice S1x1024 ![0, 0] · slices_S3x1024_S1x1024_0_0),
    StableHlo.reshape main_v46 main_v47 rfl shapeCasts_S1x1024_S1024,
    StableHlo.unary main_arg5 main_v48 (extractStridedSlice S1x1024x1024 ![0, 0, 0] · slices_S3x1024x1024_S1x1024x1024_0_0_0),
    StableHlo.reshape main_v48 main_v49 rfl shapeCasts_S1x1024x1024_S1024x1024,
    StableHlo.nullary main_c_5 (constantI S_ 32 0#32),
    StableHlo.unary main_c_5 main_v50 (broadcastInDim S131072 ![] bcast_S_S131072),
    StableHlo.binary main_v5 main_v50 main_v51 (cmpi .slt) ]

abbrev ops2 : List (HloOp τ sig (Elt F)) :=
  [ StableHlo.nullary main_c_6 (constantI S_ 32 4096#32),
    StableHlo.unary main_c_6 main_v52 (broadcastInDim S131072 ![] bcast_S_S131072),
    StableHlo.binary main_v5 main_v52 main_v53 addi,
    StableHlo.ternary main_v51 main_v53 main_v5 main_v54 select,
    StableHlo.unary main_v54 main_v55 (broadcastInDim S131072x1 ![0] bcast_S131072_S131072x1_0),
    StableHlo.binary main_v43 main_v55 main_v56 (fun x i => Host.gather gather_S4096x1024_S131072x1_S131072x1024_1_0_n_n_0_1_11024 x i),
    StableHlo.nullary main_cst_7 (constant S_ .f32 0x00000000#32),
    StableHlo.unary main_cst_7 main_v57 (broadcastInDim S4096x1024 ![] bcast_S_S4096x1024),
    StableHlo.unary main_v7 main_v58 (broadcastInDim S131072x1 ![0] bcast_S131072_S131072x1_0),
    StableHlo.ternary main_v57 main_v58 main_v56 main_v59 (fun x i u => Host.scatterAdd scatter_S4096x1024_S131072x1_S131072x1024_1_0_0_1 x i u),
    StableHlo.nullary main_cst_8 (constant S_ .f32 0x3F800000#32),
    StableHlo.unary main_cst_8 main_v60 (broadcastInDim S131072 ![] bcast_S_S131072),
    StableHlo.nullary main_cst_9 (constant S_ .f32 0x00000000#32),
    StableHlo.unary main_cst_9 main_v61 (broadcastInDim S4096 ![] bcast_S_S4096),
    StableHlo.unary main_v7 main_v62 (broadcastInDim S131072x1 ![0] bcast_S131072_S131072x1_0),
    StableHlo.ternary main_v61 main_v62 main_v60 main_v63 (fun x i u => Host.scatterAdd scatter_S4096_S131072x1_S131072_n_0_0_1 x i u),
    StableHlo.nullary main_cst_10 (constant S_ .f32 0x3F800000#32),
    StableHlo.unary main_cst_10 main_v64 (broadcastInDim S4096 ![] bcast_S_S4096),
    StableHlo.binary main_v63 main_v64 main_v65 maximumf,
    StableHlo.unary main_v65 main_v66 (broadcastInDim S4096x1 ![0] bcast_S4096_S4096x1_0),
    StableHlo.unary main_v66 main_v67 (broadcastInDim S4096x1024 ![0, 1] bcast_S4096x1_S4096x1024_0_1),
    StableHlo.binary main_v59 main_v67 main_v68 Host.divf,
    StableHlo.unary main_v45 main_v69 (transpose S1024x1024 [1, 0] · transposes_S1024x1024_S1024x1024_1_0),
    StableHlo.binary main_v68 main_v69 main_v70 (fun l r => Host.dotGeneral dot_S4096x1024_S1024x1024_S4096x1024_1_0_0_1_n_n none l r),
    StableHlo.unary main_v47 main_v71 (broadcastInDim S1x1024 ![1] bcast_S1024_S1x1024_1),
    StableHlo.unary main_v71 main_v72 (broadcastInDim S4096x1024 ![0, 1] bcast_S1x1024_S4096x1024_0_1),
    StableHlo.binary main_v70 main_v72 main_v73 addf,
    StableHlo.unary main_v49 main_v74 (transpose S1024x1024 [1, 0] · transposes_S1024x1024_S1024x1024_1_0),
    StableHlo.binary main_v43 main_v74 main_v75 (fun l r => Host.dotGeneral dot_S4096x1024_S1024x1024_S4096x1024_1_0_0_1_n_n none l r),
    StableHlo.binary main_v73 main_v75 main_v76 addf,
    StableHlo.nullary main_cst_11 (constant S_ .f32 0x3C23D70A#32),
    StableHlo.TRef.nullary main_call1.cst (constant S_ .f32 0x00000000#32),
    StableHlo.TRef.unary main_call1.cst main_call1.v0 (broadcastInDim S4096x1024 ![] bcast_S_S4096x1024),
    StableHlo.TRef.binary (.of main_v76 : StableHlo.TRef sig ⟨S4096x1024, .f32⟩) main_call1.v0 main_call1.v1 (cmpf .oge),
    StableHlo.TRef.unary (.of main_cst_11 : StableHlo.TRef sig ⟨S_, .f32⟩) main_call1.v2 id,
    StableHlo.TRef.unary main_call1.v2 main_call1.v3 (broadcastInDim S4096x1024 ![] bcast_S_S4096x1024),
    StableHlo.TRef.binary main_call1.v3 (.of main_v76 : StableHlo.TRef sig ⟨S4096x1024, .f32⟩) main_call1.v4 mulf,
    StableHlo.TRef.ternary main_call1.v1 (.of main_v76 : StableHlo.TRef sig ⟨S4096x1024, .f32⟩) main_call1.v4 main_call1.call0.v0 select ]

abbrev ops3 : List (HloOp τ sig (Elt F)) :=
  [ StableHlo.unary main_v77 main_v78 (transpose S1024x4096 [1, 0] · transposes_S4096x1024_S1024x4096_1_0),
    StableHlo.unary main_arg1 main_v79 (extractStridedSlice S1x4096x4096 ![1, 0, 0] · slices_S3x4096x4096_S1x4096x4096_1_0_0),
    StableHlo.reshape main_v79 main_v80 rfl shapeCasts_S1x4096x4096_S4096x4096,
    StableHlo.unary main_arg3 main_v81 (extractStridedSlice S1x4096 ![1, 0] · slices_S3x4096_S1x4096_1_0),
    StableHlo.reshape main_v81 main_v82 rfl shapeCasts_S1x4096_S4096,
    StableHlo.unary main_arg2 main_v83 (extractStridedSlice S1x4096x4096 ![1, 0, 0] · slices_S3x4096x4096_S1x4096x4096_1_0_0),
    StableHlo.reshape main_v83 main_v84 rfl shapeCasts_S1x4096x4096_S4096x4096,
    StableHlo.nullary main_c_12 (constantI S_ 32 0#32),
    StableHlo.unary main_c_12 main_v85 (broadcastInDim S16384 ![] bcast_S_S16384),
    StableHlo.binary main_v1 main_v85 main_v86 (cmpi .slt),
    StableHlo.nullary main_c_13 (constantI S_ 32 1024#32),
    StableHlo.unary main_c_13 main_v87 (broadcastInDim S16384 ![] bcast_S_S16384),
    StableHlo.binary main_v1 main_v87 main_v88 addi,
    StableHlo.ternary main_v86 main_v88 main_v1 main_v89 select,
    StableHlo.unary main_v89 main_v90 (broadcastInDim S16384x1 ![0] bcast_S16384_S16384x1_0),
    StableHlo.binary main_v78 main_v90 main_v91 (fun x i => Host.gather gather_S1024x4096_S16384x1_S16384x4096_1_0_n_n_0_1_14096 x i),
    StableHlo.nullary main_cst_14 (constant S_ .f32 0x00000000#32),
    StableHlo.unary main_cst_14 main_v92 (broadcastInDim S1024x4096 ![] bcast_S_S1024x4096),
    StableHlo.unary main_v3 main_v93 (broadcastInDim S16384x1 ![0] bcast_S16384_S16384x1_0),
    StableHlo.ternary main_v92 main_v93 main_v91 main_v94 (fun x i u => Host.scatterAdd scatter_S1024x4096_S16384x1_S16384x4096_1_0_0_1 x i u),
    StableHlo.nullary main_cst_15 (constant S_ .f32 0x3F800000#32),
    StableHlo.unary main_cst_15 main_v95 (broadcastInDim S16384 ![] bcast_S_S16384),
    StableHlo.nullary main_cst_16 (constant S_ .f32 0x00000000#32),
    StableHlo.unary main_cst_16 main_v96 (broadcastInDim S1024 ![] bcast_S_S1024),
    StableHlo.unary main_v3 main_v97 (broadcastInDim S16384x1 ![0] bcast_S16384_S16384x1_0),
    StableHlo.ternary main_v96 main_v97 main_v95 main_v98 (fun x i u => Host.scatterAdd scatter_S1024_S16384x1_S16384_n_0_0_1 x i u),
    StableHlo.nullary main_cst_17 (constant S_ .f32 0x3F800000#32),
    StableHlo.unary main_cst_17 main_v99 (broadcastInDim S1024 ![] bcast_S_S1024) ]

abbrev ops4 : List (HloOp τ sig (Elt F)) :=
  [ StableHlo.binary main_v98 main_v99 main_v100 maximumf,
    StableHlo.unary main_v100 main_v101 (broadcastInDim S1024x1 ![0] bcast_S1024_S1024x1_0),
    StableHlo.unary main_v101 main_v102 (broadcastInDim S1024x4096 ![0, 1] bcast_S1024x1_S1024x4096_0_1),
    StableHlo.binary main_v94 main_v102 main_v103 Host.divf,
    StableHlo.unary main_v80 main_v104 (transpose S4096x4096 [1, 0] · transposes_S4096x4096_S4096x4096_1_0),
    StableHlo.binary main_v103 main_v104 main_v105 (fun l r => Host.dotGeneral dot_S1024x4096_S4096x4096_S1024x4096_1_0_0_1_n_n none l r),
    StableHlo.unary main_v82 main_v106 (broadcastInDim S1x4096 ![1] bcast_S4096_S1x4096_1),
    StableHlo.unary main_v106 main_v107 (broadcastInDim S1024x4096 ![0, 1] bcast_S1x4096_S1024x4096_0_1),
    StableHlo.binary main_v105 main_v107 main_v108 addf,
    StableHlo.unary main_v84 main_v109 (transpose S4096x4096 [1, 0] · transposes_S4096x4096_S4096x4096_1_0),
    StableHlo.binary main_v78 main_v109 main_v110 (fun l r => Host.dotGeneral dot_S1024x4096_S4096x4096_S1024x4096_1_0_0_1_n_n none l r),
    StableHlo.binary main_v108 main_v110 main_v111 addf,
    StableHlo.nullary main_cst_18 (constant S_ .f32 0x3C23D70A#32),
    StableHlo.TRef.nullary main_call2.cst (constant S_ .f32 0x00000000#32),
    StableHlo.TRef.unary main_call2.cst main_call2.v0 (broadcastInDim S1024x4096 ![] bcast_S_S1024x4096),
    StableHlo.TRef.binary (.of main_v111 : StableHlo.TRef sig ⟨S1024x4096, .f32⟩) main_call2.v0 main_call2.v1 (cmpf .oge),
    StableHlo.TRef.unary (.of main_cst_18 : StableHlo.TRef sig ⟨S_, .f32⟩) main_call2.v2 id,
    StableHlo.TRef.unary main_call2.v2 main_call2.v3 (broadcastInDim S1024x4096 ![] bcast_S_S1024x4096),
    StableHlo.TRef.binary main_call2.v3 (.of main_v111 : StableHlo.TRef sig ⟨S1024x4096, .f32⟩) main_call2.v4 mulf,
    StableHlo.TRef.ternary main_call2.v1 (.of main_v111 : StableHlo.TRef sig ⟨S1024x4096, .f32⟩) main_call2.v4 main_call2.call0.v0 select ]

abbrev ops5 : List (HloOp τ sig (Elt F)) :=
  [ StableHlo.unary main_v112 main_v113 (transpose S4096x1024 [1, 0] · transposes_S1024x4096_S4096x1024_1_0),
    StableHlo.unary main_arg4 main_v114 (extractStridedSlice S1x1024x1024 ![1, 0, 0] · slices_S3x1024x1024_S1x1024x1024_1_0_0),
    StableHlo.reshape main_v114 main_v115 rfl shapeCasts_S1x1024x1024_S1024x1024,
    StableHlo.unary main_arg6 main_v116 (extractStridedSlice S1x1024 ![1, 0] · slices_S3x1024_S1x1024_1_0),
    StableHlo.reshape main_v116 main_v117 rfl shapeCasts_S1x1024_S1024,
    StableHlo.unary main_arg5 main_v118 (extractStridedSlice S1x1024x1024 ![1, 0, 0] · slices_S3x1024x1024_S1x1024x1024_1_0_0),
    StableHlo.reshape main_v118 main_v119 rfl shapeCasts_S1x1024x1024_S1024x1024,
    StableHlo.nullary main_c_19 (constantI S_ 32 0#32),
    StableHlo.unary main_c_19 main_v120 (broadcastInDim S131072 ![] bcast_S_S131072),
    StableHlo.binary main_v5 main_v120 main_v121 (cmpi .slt),
    StableHlo.nullary main_c_20 (constantI S_ 32 4096#32),
    StableHlo.unary main_c_20 main_v122 (broadcastInDim S131072 ![] bcast_S_S131072),
    StableHlo.binary main_v5 main_v122 main_v123 addi,
    StableHlo.ternary main_v121 main_v123 main_v5 main_v124 select,
    StableHlo.unary main_v124 main_v125 (broadcastInDim S131072x1 ![0] bcast_S131072_S131072x1_0),
    StableHlo.binary main_v113 main_v125 main_v126 (fun x i => Host.gather gather_S4096x1024_S131072x1_S131072x1024_1_0_n_n_0_1_11024 x i),
    StableHlo.nullary main_cst_21 (constant S_ .f32 0x00000000#32),
    StableHlo.unary main_cst_21 main_v127 (broadcastInDim S4096x1024 ![] bcast_S_S4096x1024),
    StableHlo.unary main_v7 main_v128 (broadcastInDim S131072x1 ![0] bcast_S131072_S131072x1_0),
    StableHlo.ternary main_v127 main_v128 main_v126 main_v129 (fun x i u => Host.scatterAdd scatter_S4096x1024_S131072x1_S131072x1024_1_0_0_1 x i u),
    StableHlo.nullary main_cst_22 (constant S_ .f32 0x3F800000#32),
    StableHlo.unary main_cst_22 main_v130 (broadcastInDim S131072 ![] bcast_S_S131072),
    StableHlo.nullary main_cst_23 (constant S_ .f32 0x00000000#32),
    StableHlo.unary main_cst_23 main_v131 (broadcastInDim S4096 ![] bcast_S_S4096),
    StableHlo.unary main_v7 main_v132 (broadcastInDim S131072x1 ![0] bcast_S131072_S131072x1_0),
    StableHlo.ternary main_v131 main_v132 main_v130 main_v133 (fun x i u => Host.scatterAdd scatter_S4096_S131072x1_S131072_n_0_0_1 x i u),
    StableHlo.nullary main_cst_24 (constant S_ .f32 0x3F800000#32),
    StableHlo.unary main_cst_24 main_v134 (broadcastInDim S4096 ![] bcast_S_S4096),
    StableHlo.binary main_v133 main_v134 main_v135 maximumf,
    StableHlo.unary main_v135 main_v136 (broadcastInDim S4096x1 ![0] bcast_S4096_S4096x1_0),
    StableHlo.unary main_v136 main_v137 (broadcastInDim S4096x1024 ![0, 1] bcast_S4096x1_S4096x1024_0_1),
    StableHlo.binary main_v129 main_v137 main_v138 Host.divf,
    StableHlo.unary main_v115 main_v139 (transpose S1024x1024 [1, 0] · transposes_S1024x1024_S1024x1024_1_0),
    StableHlo.binary main_v138 main_v139 main_v140 (fun l r => Host.dotGeneral dot_S4096x1024_S1024x1024_S4096x1024_1_0_0_1_n_n none l r),
    StableHlo.unary main_v117 main_v141 (broadcastInDim S1x1024 ![1] bcast_S1024_S1x1024_1),
    StableHlo.unary main_v141 main_v142 (broadcastInDim S4096x1024 ![0, 1] bcast_S1x1024_S4096x1024_0_1),
    StableHlo.binary main_v140 main_v142 main_v143 addf,
    StableHlo.unary main_v119 main_v144 (transpose S1024x1024 [1, 0] · transposes_S1024x1024_S1024x1024_1_0),
    StableHlo.binary main_v113 main_v144 main_v145 (fun l r => Host.dotGeneral dot_S4096x1024_S1024x1024_S4096x1024_1_0_0_1_n_n none l r),
    StableHlo.binary main_v143 main_v145 main_v146 addf,
    StableHlo.nullary main_cst_25 (constant S_ .f32 0x3C23D70A#32),
    StableHlo.TRef.nullary main_call3.cst (constant S_ .f32 0x00000000#32),
    StableHlo.TRef.unary main_call3.cst main_call3.v0 (broadcastInDim S4096x1024 ![] bcast_S_S4096x1024),
    StableHlo.TRef.binary (.of main_v146 : StableHlo.TRef sig ⟨S4096x1024, .f32⟩) main_call3.v0 main_call3.v1 (cmpf .oge),
    StableHlo.TRef.unary (.of main_cst_25 : StableHlo.TRef sig ⟨S_, .f32⟩) main_call3.v2 id,
    StableHlo.TRef.unary main_call3.v2 main_call3.v3 (broadcastInDim S4096x1024 ![] bcast_S_S4096x1024),
    StableHlo.TRef.binary main_call3.v3 (.of main_v146 : StableHlo.TRef sig ⟨S4096x1024, .f32⟩) main_call3.v4 mulf,
    StableHlo.TRef.ternary main_call3.v1 (.of main_v146 : StableHlo.TRef sig ⟨S4096x1024, .f32⟩) main_call3.v4 main_call3.call0.v0 select,
    StableHlo.unary main_v147 main_v148 (transpose S1024x4096 [1, 0] · transposes_S4096x1024_S1024x4096_1_0),
    StableHlo.unary main_arg1 main_v149 (extractStridedSlice S1x4096x4096 ![2, 0, 0] · slices_S3x4096x4096_S1x4096x4096_2_0_0),
    StableHlo.reshape main_v149 main_v150 rfl shapeCasts_S1x4096x4096_S4096x4096,
    StableHlo.unary main_arg3 main_v151 (extractStridedSlice S1x4096 ![2, 0] · slices_S3x4096_S1x4096_2_0) ]

abbrev ops6 : List (HloOp τ sig (Elt F)) :=
  [ StableHlo.reshape main_v151 main_v152 rfl shapeCasts_S1x4096_S4096,
    StableHlo.unary main_arg2 main_v153 (extractStridedSlice S1x4096x4096 ![2, 0, 0] · slices_S3x4096x4096_S1x4096x4096_2_0_0),
    StableHlo.reshape main_v153 main_v154 rfl shapeCasts_S1x4096x4096_S4096x4096,
    StableHlo.nullary main_c_26 (constantI S_ 32 0#32),
    StableHlo.unary main_c_26 main_v155 (broadcastInDim S16384 ![] bcast_S_S16384),
    StableHlo.binary main_v1 main_v155 main_v156 (cmpi .slt),
    StableHlo.nullary main_c_27 (constantI S_ 32 1024#32),
    StableHlo.unary main_c_27 main_v157 (broadcastInDim S16384 ![] bcast_S_S16384),
    StableHlo.binary main_v1 main_v157 main_v158 addi,
    StableHlo.ternary main_v156 main_v158 main_v1 main_v159 select,
    StableHlo.unary main_v159 main_v160 (broadcastInDim S16384x1 ![0] bcast_S16384_S16384x1_0),
    StableHlo.binary main_v148 main_v160 main_v161 (fun x i => Host.gather gather_S1024x4096_S16384x1_S16384x4096_1_0_n_n_0_1_14096 x i),
    StableHlo.nullary main_cst_28 (constant S_ .f32 0x00000000#32),
    StableHlo.unary main_cst_28 main_v162 (broadcastInDim S1024x4096 ![] bcast_S_S1024x4096),
    StableHlo.unary main_v3 main_v163 (broadcastInDim S16384x1 ![0] bcast_S16384_S16384x1_0),
    StableHlo.ternary main_v162 main_v163 main_v161 main_v164 (fun x i u => Host.scatterAdd scatter_S1024x4096_S16384x1_S16384x4096_1_0_0_1 x i u),
    StableHlo.nullary main_cst_29 (constant S_ .f32 0x3F800000#32),
    StableHlo.unary main_cst_29 main_v165 (broadcastInDim S16384 ![] bcast_S_S16384),
    StableHlo.nullary main_cst_30 (constant S_ .f32 0x00000000#32),
    StableHlo.unary main_cst_30 main_v166 (broadcastInDim S1024 ![] bcast_S_S1024),
    StableHlo.unary main_v3 main_v167 (broadcastInDim S16384x1 ![0] bcast_S16384_S16384x1_0),
    StableHlo.ternary main_v166 main_v167 main_v165 main_v168 (fun x i u => Host.scatterAdd scatter_S1024_S16384x1_S16384_n_0_0_1 x i u),
    StableHlo.nullary main_cst_31 (constant S_ .f32 0x3F800000#32),
    StableHlo.unary main_cst_31 main_v169 (broadcastInDim S1024 ![] bcast_S_S1024),
    StableHlo.binary main_v168 main_v169 main_v170 maximumf,
    StableHlo.unary main_v170 main_v171 (broadcastInDim S1024x1 ![0] bcast_S1024_S1024x1_0),
    StableHlo.unary main_v171 main_v172 (broadcastInDim S1024x4096 ![0, 1] bcast_S1024x1_S1024x4096_0_1),
    StableHlo.binary main_v164 main_v172 main_v173 Host.divf,
    StableHlo.unary main_v150 main_v174 (transpose S4096x4096 [1, 0] · transposes_S4096x4096_S4096x4096_1_0),
    StableHlo.binary main_v173 main_v174 main_v175 (fun l r => Host.dotGeneral dot_S1024x4096_S4096x4096_S1024x4096_1_0_0_1_n_n none l r),
    StableHlo.unary main_v152 main_v176 (broadcastInDim S1x4096 ![1] bcast_S4096_S1x4096_1),
    StableHlo.unary main_v176 main_v177 (broadcastInDim S1024x4096 ![0, 1] bcast_S1x4096_S1024x4096_0_1),
    StableHlo.binary main_v175 main_v177 main_v178 addf,
    StableHlo.unary main_v154 main_v179 (transpose S4096x4096 [1, 0] · transposes_S4096x4096_S4096x4096_1_0),
    StableHlo.binary main_v148 main_v179 main_v180 (fun l r => Host.dotGeneral dot_S1024x4096_S4096x4096_S1024x4096_1_0_0_1_n_n none l r),
    StableHlo.binary main_v178 main_v180 main_v181 addf,
    StableHlo.nullary main_cst_32 (constant S_ .f32 0x3C23D70A#32),
    StableHlo.TRef.nullary main_call4.cst (constant S_ .f32 0x00000000#32),
    StableHlo.TRef.unary main_call4.cst main_call4.v0 (broadcastInDim S1024x4096 ![] bcast_S_S1024x4096),
    StableHlo.TRef.binary (.of main_v181 : StableHlo.TRef sig ⟨S1024x4096, .f32⟩) main_call4.v0 main_call4.v1 (cmpf .oge),
    StableHlo.TRef.unary (.of main_cst_32 : StableHlo.TRef sig ⟨S_, .f32⟩) main_call4.v2 id,
    StableHlo.TRef.unary main_call4.v2 main_call4.v3 (broadcastInDim S1024x4096 ![] bcast_S_S1024x4096),
    StableHlo.TRef.binary main_call4.v3 (.of main_v181 : StableHlo.TRef sig ⟨S1024x4096, .f32⟩) main_call4.v4 mulf,
    StableHlo.TRef.ternary main_call4.v1 (.of main_v181 : StableHlo.TRef sig ⟨S1024x4096, .f32⟩) main_call4.v4 main_call4.call0.v0 select ]

abbrev ops7 : List (HloOp τ sig (Elt F)) :=
  [ StableHlo.unary main_v182 main_v183 (transpose S4096x1024 [1, 0] · transposes_S1024x4096_S4096x1024_1_0),
    StableHlo.unary main_arg4 main_v184 (extractStridedSlice S1x1024x1024 ![2, 0, 0] · slices_S3x1024x1024_S1x1024x1024_2_0_0),
    StableHlo.reshape main_v184 main_v185 rfl shapeCasts_S1x1024x1024_S1024x1024,
    StableHlo.unary main_arg6 main_v186 (extractStridedSlice S1x1024 ![2, 0] · slices_S3x1024_S1x1024_2_0),
    StableHlo.reshape main_v186 main_v187 rfl shapeCasts_S1x1024_S1024,
    StableHlo.unary main_arg5 main_v188 (extractStridedSlice S1x1024x1024 ![2, 0, 0] · slices_S3x1024x1024_S1x1024x1024_2_0_0),
    StableHlo.reshape main_v188 main_v189 rfl shapeCasts_S1x1024x1024_S1024x1024,
    StableHlo.nullary main_c_33 (constantI S_ 32 0#32),
    StableHlo.unary main_c_33 main_v190 (broadcastInDim S131072 ![] bcast_S_S131072),
    StableHlo.binary main_v5 main_v190 main_v191 (cmpi .slt),
    StableHlo.nullary main_c_34 (constantI S_ 32 4096#32),
    StableHlo.unary main_c_34 main_v192 (broadcastInDim S131072 ![] bcast_S_S131072),
    StableHlo.binary main_v5 main_v192 main_v193 addi,
    StableHlo.ternary main_v191 main_v193 main_v5 main_v194 select,
    StableHlo.unary main_v194 main_v195 (broadcastInDim S131072x1 ![0] bcast_S131072_S131072x1_0),
    StableHlo.binary main_v183 main_v195 main_v196 (fun x i => Host.gather gather_S4096x1024_S131072x1_S131072x1024_1_0_n_n_0_1_11024 x i),
    StableHlo.nullary main_cst_35 (constant S_ .f32 0x00000000#32),
    StableHlo.unary main_cst_35 main_v197 (broadcastInDim S4096x1024 ![] bcast_S_S4096x1024),
    StableHlo.unary main_v7 main_v198 (broadcastInDim S131072x1 ![0] bcast_S131072_S131072x1_0),
    StableHlo.ternary main_v197 main_v198 main_v196 main_v199 (fun x i u => Host.scatterAdd scatter_S4096x1024_S131072x1_S131072x1024_1_0_0_1 x i u),
    StableHlo.nullary main_cst_36 (constant S_ .f32 0x3F800000#32),
    StableHlo.unary main_cst_36 main_v200 (broadcastInDim S131072 ![] bcast_S_S131072) ]

abbrev ops8 : List (HloOp τ sig (Elt F)) :=
  [ StableHlo.nullary main_cst_37 (constant S_ .f32 0x00000000#32),
    StableHlo.unary main_cst_37 main_v201 (broadcastInDim S4096 ![] bcast_S_S4096),
    StableHlo.unary main_v7 main_v202 (broadcastInDim S131072x1 ![0] bcast_S131072_S131072x1_0),
    StableHlo.ternary main_v201 main_v202 main_v200 main_v203 (fun x i u => Host.scatterAdd scatter_S4096_S131072x1_S131072_n_0_0_1 x i u),
    StableHlo.nullary main_cst_38 (constant S_ .f32 0x3F800000#32),
    StableHlo.unary main_cst_38 main_v204 (broadcastInDim S4096 ![] bcast_S_S4096),
    StableHlo.binary main_v203 main_v204 main_v205 maximumf,
    StableHlo.unary main_v205 main_v206 (broadcastInDim S4096x1 ![0] bcast_S4096_S4096x1_0),
    StableHlo.unary main_v206 main_v207 (broadcastInDim S4096x1024 ![0, 1] bcast_S4096x1_S4096x1024_0_1),
    StableHlo.binary main_v199 main_v207 main_v208 Host.divf,
    StableHlo.unary main_v185 main_v209 (transpose S1024x1024 [1, 0] · transposes_S1024x1024_S1024x1024_1_0),
    StableHlo.binary main_v208 main_v209 main_v210 (fun l r => Host.dotGeneral dot_S4096x1024_S1024x1024_S4096x1024_1_0_0_1_n_n none l r),
    StableHlo.unary main_v187 main_v211 (broadcastInDim S1x1024 ![1] bcast_S1024_S1x1024_1),
    StableHlo.unary main_v211 main_v212 (broadcastInDim S4096x1024 ![0, 1] bcast_S1x1024_S4096x1024_0_1),
    StableHlo.binary main_v210 main_v212 main_v213 addf,
    StableHlo.unary main_v189 main_v214 (transpose S1024x1024 [1, 0] · transposes_S1024x1024_S1024x1024_1_0),
    StableHlo.binary main_v183 main_v214 main_v215 (fun l r => Host.dotGeneral dot_S4096x1024_S1024x1024_S4096x1024_1_0_0_1_n_n none l r),
    StableHlo.binary main_v213 main_v215 main_v216 addf,
    StableHlo.nullary main_cst_39 (constant S_ .f32 0x3C23D70A#32),
    StableHlo.TRef.nullary main_call5.cst (constant S_ .f32 0x00000000#32),
    StableHlo.TRef.unary main_call5.cst main_call5.v0 (broadcastInDim S4096x1024 ![] bcast_S_S4096x1024),
    StableHlo.TRef.binary (.of main_v216 : StableHlo.TRef sig ⟨S4096x1024, .f32⟩) main_call5.v0 main_call5.v1 (cmpf .oge),
    StableHlo.TRef.unary (.of main_cst_39 : StableHlo.TRef sig ⟨S_, .f32⟩) main_call5.v2 id,
    StableHlo.TRef.unary main_call5.v2 main_call5.v3 (broadcastInDim S4096x1024 ![] bcast_S_S4096x1024),
    StableHlo.TRef.binary main_call5.v3 (.of main_v216 : StableHlo.TRef sig ⟨S4096x1024, .f32⟩) main_call5.v4 mulf,
    StableHlo.TRef.ternary main_call5.v1 (.of main_v216 : StableHlo.TRef sig ⟨S4096x1024, .f32⟩) main_call5.v4 main_call5.call0.v0 select ]

/-- @main's operations in order, each call of the leaky rectifier unfolded at its site. -/
abbrev ops : List (HloOp τ sig (Elt F)) :=
  ops0 ++ ops1 ++ ops2 ++ ops3 ++ ops4 ++ ops5 ++ ops6 ++ ops7 ++ ops8

end Cert.ReferenceIdeal.Hand

end
-- ==== Proof.RefRun.lean ====
import proofs.«415769_j962072674785_2_alg».proof.Proof.RefOps
import Idealize.ShloMosaic.Lib.Pipeline.Frame

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
theorem main_part0_eq (c : Dev nD) : main_part0 (F := F) c = seq (ops0 ++ ops1) := by
  simp only [main_part0, fn_leaky_relu.body, fn_where.body, seq_append, seq, bind_assoc, pure_bind]
  rfl

set_option maxRecDepth 8192 in
theorem main_part1_eq (c : Dev nD) : main_part1 (F := F) c = seq (ops2 ++ ops3) := by
  simp only [main_part1, fn_leaky_relu_0.body, fn_where_1.body, seq_append, seq, bind_assoc, pure_bind]
  rfl

set_option maxRecDepth 8192 in
theorem main_part2_eq (c : Dev nD) : main_part2 (F := F) c = seq (ops4 ++ ops5) := by
  simp only [main_part2, fn_leaky_relu.body, fn_where.body, fn_leaky_relu_0.body, fn_where_1.body, seq_append, seq,
    bind_assoc, pure_bind]
  rfl

set_option maxRecDepth 8192 in
theorem main_part3_eq (c : Dev nD) : main_part3 (F := F) c = seq (ops6 ++ ops7) := by
  simp only [main_part3, fn_leaky_relu.body, fn_where.body, seq_append, seq, bind_assoc, pure_bind]
  rfl

set_option maxRecDepth 8192 in
theorem main_part4_eq (c : Dev nD) : main_part4 (F := F) c = seq ops8 := by
  simp only [main_part4, fn_leaky_relu_0.body, fn_where_1.body, seq, bind_assoc, pure_bind]
  rfl

theorem main_eq (c : Dev nD) : main (F := F) c = seq ops := by
  simp only [main, main_part0_eq, main_part1_eq, main_part2_eq, main_part3_eq, main_part4_eq, ops, seq_append, bind_assoc]

abbrev args : List (Ref sig .tc) :=
  [main_arg0, main_arg1, main_arg2, main_arg3, main_arg4, main_arg5, main_arg6, main_arg7, main_arg8]

abbrev kept : List (Ref sig .tc) := args ++ [main_v1, main_v3, main_v5, main_v7]

/-- An operation whose buffers all lie in `tcRefs` and that determines its one result, a buffer outside `K`. -/
structure Ok (K : List (Ref sig .tc)) (op : HloOp τ sig (Elt F)) : Prop where
  sub : op.bufs ⊆ tcRefs τ sig
  fresh : op.fresh = ∅
  wr : ∃ y, y ∉ K ∧ op.writes = {Proc.devRef .tc y}

theorem Ok.weaken {K K' : List (Ref sig .tc)} {op : HloOp τ sig (Elt F)} (h : Ok (K ++ K') op) : Ok K op :=
  ⟨h.sub, h.fresh, h.wr.imp fun _ hy => ⟨fun hm => hy.1 (List.mem_append_left _ hm), hy.2⟩⟩

/-- A buffer of `K` is written by no operation of the line, each writing outside `K`. -/
theorem after_keep {K : List (Ref sig .tc)} {l : List (HloOp τ sig (Elt F))} (h : l.Forall (Ok K)) {r : Ref sig .tc} (hr : r ∈ K)
    (V : Valuation τ sig (Elt F)) : after l V (Proc.devRef .tc r) = V (Proc.devRef .tc r) :=
  after_of_forall_not_mem l V fun op hop hb => by
    obtain ⟨y, hy, hw⟩ := (List.forall_iff_forall_mem.mp h op hop).wr
    rw [hw, Finset.mem_singleton] at hb
    cases Proc.devRef_injective _ hb
    exact hy hr

theorem ops0_ok : (ops0 : List (HloOp τ sig (Elt F))).Forall (Ok args) := by
  repeat' apply And.intro
  all_goals exact ⟨by simp only [unary_bufs_sub, binary_bufs_sub, reshape_bufs_sub, nullary_bufs_sub, ternary_bufs_sub], rfl, _, by decide, rfl⟩

theorem ops1_ok : (ops1 : List (HloOp τ sig (Elt F))).Forall (Ok kept) := by
  repeat' apply And.intro
  all_goals exact ⟨by simp only [unary_bufs_sub, binary_bufs_sub, reshape_bufs_sub, nullary_bufs_sub, ternary_bufs_sub], rfl, _, by decide, rfl⟩

theorem ops2_ok : (ops2 : List (HloOp τ sig (Elt F))).Forall (Ok kept) := by
  repeat' apply And.intro
  all_goals exact ⟨by simp only [unary_bufs_sub, binary_bufs_sub, reshape_bufs_sub, nullary_bufs_sub, ternary_bufs_sub], rfl, _, by decide, rfl⟩

theorem ops3_ok : (ops3 : List (HloOp τ sig (Elt F))).Forall (Ok kept) := by
  repeat' apply And.intro
  all_goals exact ⟨by simp only [unary_bufs_sub, binary_bufs_sub, reshape_bufs_sub, nullary_bufs_sub, ternary_bufs_sub], rfl, _, by decide, rfl⟩

theorem ops4_ok : (ops4 : List (HloOp τ sig (Elt F))).Forall (Ok kept) := by
  repeat' apply And.intro
  all_goals exact ⟨by simp only [unary_bufs_sub, binary_bufs_sub, reshape_bufs_sub, nullary_bufs_sub, ternary_bufs_sub], rfl, _, by decide, rfl⟩

theorem ops5_ok : (ops5 : List (HloOp τ sig (Elt F))).Forall (Ok kept) := by
  repeat' apply And.intro
  all_goals exact ⟨by simp only [unary_bufs_sub, binary_bufs_sub, reshape_bufs_sub, nullary_bufs_sub, ternary_bufs_sub], rfl, _, by decide, rfl⟩

theorem ops6_ok : (ops6 : List (HloOp τ sig (Elt F))).Forall (Ok kept) := by
  repeat' apply And.intro
  all_goals exact ⟨by simp only [unary_bufs_sub, binary_bufs_sub, reshape_bufs_sub, nullary_bufs_sub, ternary_bufs_sub], rfl, _, by decide, rfl⟩

theorem ops7_ok : (ops7 : List (HloOp τ sig (Elt F))).Forall (Ok kept) := by
  repeat' apply And.intro
  all_goals exact ⟨by simp only [unary_bufs_sub, binary_bufs_sub, reshape_bufs_sub, nullary_bufs_sub, ternary_bufs_sub], rfl, _, by decide, rfl⟩

theorem ops8_ok : (ops8 : List (HloOp τ sig (Elt F))).Forall (Ok kept) := by
  repeat' apply And.intro
  all_goals exact ⟨by simp only [unary_bufs_sub, binary_bufs_sub, reshape_bufs_sub, nullary_bufs_sub, ternary_bufs_sub], rfl, _, by decide, rfl⟩

theorem ops_ok : (ops : List (HloOp τ sig (Elt F))).Forall (Ok args) := by
  simp only [ops, List.forall_append]
  exact ⟨⟨⟨⟨⟨⟨⟨⟨ops0_ok, ops1_ok.imp fun _ => Ok.weaken⟩, ops2_ok.imp fun _ => Ok.weaken⟩, ops3_ok.imp fun _ => Ok.weaken⟩,
    ops4_ok.imp fun _ => Ok.weaken⟩, ops5_ok.imp fun _ => Ok.weaken⟩, ops6_ok.imp fun _ => Ok.weaken⟩, ops7_ok.imp fun _ => Ok.weaken⟩,
    ops8_ok.imp fun _ => Ok.weaken⟩

theorem scopedRefs_eq : (Finset.univ.filter fun b : Ref sig .tc => b.isScoped) = ∅ := by decide
theorem scopedSems_eq : (Finset.univ.filter fun sm : SemLoc sig => sm.isScoped .tc) = ∅ := by decide

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v217) = after ops (fun b => m (c, b)) (Proc.devRef .tc main_v217)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨h c main_v217,
      (h c main_arg0).trans (after_keep ops_ok (by decide) _),
      (h c main_arg1).trans (after_keep ops_ok (by decide) _),
      (h c main_arg2).trans (after_keep ops_ok (by decide) _),
      (h c main_arg3).trans (after_keep ops_ok (by decide) _),
      (h c main_arg4).trans (after_keep ops_ok (by decide) _),
      (h c main_arg5).trans (after_keep ops_ok (by decide) _),
      (h c main_arg6).trans (after_keep ops_ok (by decide) _),
      (h c main_arg7).trans (after_keep ops_ok (by decide) _),
      (h c main_arg8).trans (after_keep ops_ok (by decide) _)⟩)
    (run_seq scopedRefs_eq scopedSems_eq defs main (fun _ => ops) main_eq (fun _ => ops_ok.imp fun _ h => h.sub) m ρ
      (fun _ op h => (List.forall_iff_forall_mem.mp ops_ok op h).fresh))

end Cert.ReferenceIdeal.Hand

end
-- ==== Proof.RefLayer.lean ====
import proofs.«415769_j962072674785_2_alg».proof.Proof.Spec
import proofs.«415769_j962072674785_2_alg».proof.Proof.Gen.ReferenceIdeal
import Idealize.ShloMosaic.Lib.IdealHost
import Idealize.ShloMosaic.Lib.ValueIdxRank1
import Idealize.ShloMosaic.Lib.Pipeline.Value

noncomputable section

open scoped BigOperators

namespace Cert.ReferenceIdeal.Hand

open Idealize.ShloMosaic Idealize.ShloMosaic.ValueIdx Cert.Spec

section Generic
variable {N D E : Nat}

abbrev rowGather (N D E : Nat) (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

theorem rowGather_coord0 {w : Nat}
    (wf : GatherDims.WF ⟨2, ![N, D]⟩ ⟨2, ![E, 1]⟩ ⟨2, ![E, D]⟩ [1] [0] [] [0] [] 1 ![1, D])
    (idx : IVec ⟨2, ![E, 1]⟩ w) (k : Fin E) (r : Fin D) :
    (rowGather N D E wf).start (ix2 k r) idx (0 : Fin 2) + (rowGather N D E wf).batchCoord (ix2 k r) (0 : Fin 2)
      + (rowGather N D E wf).offCoord (ix2 k r) (0 : Fin 2) = min (idx (ix2 k (0 : Fin 1))).toInt.toNat (N - 1) := by
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowGather N D E wf).startIndexMap from (List.mem_singleton.mpr rfl))]
  have hsi : (rowGather N D E wf).siIdx (ix2 k r) ⟨List.idxOf (0 : Fin 2) (rowGather N D E wf).startIndexMap,
      List.idxOf_lt_length_iff.2 (List.mem_singleton.mpr rfl)⟩ = ix2 k (0 : Fin 1) := by
    funext b; refine Fin.ext ?_
    match b with
    | ⟨0, _⟩ => rfl
    | ⟨1, _⟩ => rfl
  rw [hsi]
  rfl

theorem rowGather_coord1 {w : Nat}
    (wf : GatherDims.WF ⟨2, ![N, D]⟩ ⟨2, ![E, 1]⟩ ⟨2, ![E, D]⟩ [1] [0] [] [0] [] 1 ![1, D])
    (idx : IVec ⟨2, ![E, 1]⟩ w) (k : Fin E) (r : Fin D) :
    (rowGather N D E wf).start (ix2 k r) idx (1 : Fin 2) + (rowGather N D E wf).batchCoord (ix2 k r) (1 : Fin 2)
      + (rowGather N D E wf).offCoord (ix2 k r) (1 : Fin 2) = r.val := by
  rw [GatherDims.batchCoord_eq_zero _ _ _ List.not_mem_nil]
  unfold GatherDims.start
  rw [dif_neg (show (1 : Fin 2) ∉ (rowGather N D E wf).startIndexMap from (by decide : (1 : Fin 2) ∉ ([0] : List (Fin 2))))]
  simp only [Nat.zero_add, Nat.add_zero]
  unfold GatherDims.offCoord
  rw [dif_pos (show (1 : Fin 2) ∈ (rowGather N D E wf).sKept from (GatherDims.mem_sKept _ _).mpr ⟨(by decide : (1 : Fin 2) ∉ ([0] : List (Fin 2))), List.not_mem_nil⟩)]
  rfl

theorem gather_row_apply {α : Type} {w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (k : Fin E) (r : Fin D) :
    Host.gather (rowGather N D E wf) x idx (ix2 k r)
      = x (ix2 ⟨min (idx (ix2 k (0 : Fin 1))).toInt.toNat (N - 1), by omega⟩ r) := by
  unfold Host.gather
  congr 1
  funext a
  refine Fin.ext ?_
  match a with
  | ⟨0, _⟩ => exact rowGather_coord0 wf idx k r
  | ⟨1, _⟩ => exact rowGather_coord1 wf idx k r

abbrev rowScatter (N D E : Nat) (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

theorem rowScatter_start0 {w : Nat} (wf : ScatterDims.WF ⟨2, ![N, D]⟩ ⟨2, ![E, 1]⟩ ⟨2, ![E, D]⟩ [1] [0] [0] 1)
    (idx : IVec ⟨2, ![E, 1]⟩ w) (k : Fin E) (r' : Fin D) :
    (rowScatter N D E wf).start (ix2 k r') idx (0 : Fin 2) = (idx (ix2 k (0 : Fin 1))).toInt := by
  unfold ScatterDims.start
  rw [dif_pos (show (0 : Fin 2) ∈ (rowScatter N D E wf).scatterDimsToOperandDims from (List.mem_singleton.mpr rfl))]
  congr 2
  funext b; refine Fin.ext ?_
  match b with
  | ⟨0, _⟩ => rfl
  | ⟨1, _⟩ => rfl

theorem rowScatter_start1 {w : Nat} (wf : ScatterDims.WF ⟨2, ![N, D]⟩ ⟨2, ![E, 1]⟩ ⟨2, ![E, D]⟩ [1] [0] [0] 1)
    (idx : IVec ⟨2, ![E, 1]⟩ w) (k : Fin E) (r' : Fin D) :
    (rowScatter N D E wf).start (ix2 k r') idx (1 : Fin 2) = 0 := by
  unfold ScatterDims.start
  rw [dif_neg (show (1 : Fin 2) ∉ (rowScatter N D E wf).scatterDimsToOperandDims from (by decide : (1 : Fin 2) ∉ ([0] : List (Fin 2))))]

theorem rowScatter_window0 (wf : ScatterDims.WF ⟨2, ![N, D]⟩ ⟨2, ![E, 1]⟩ ⟨2, ![E, D]⟩ [1] [0] [0] 1)
    (k : Fin E) (r' : Fin D) : (rowScatter N D E wf).window (ix2 k r') (0 : Fin 2) = 0 := by
  unfold ScatterDims.window
  rw [dif_neg (show (0 : Fin 2) ∉ (rowScatter N D E wf).sKept by simp [ScatterDims.sKept, Shape.kept])]

theorem rowScatter_window1 (wf : ScatterDims.WF ⟨2, ![N, D]⟩ ⟨2, ![E, 1]⟩ ⟨2, ![E, D]⟩ [1] [0] [0] 1)
    (k : Fin E) (r' : Fin D) : (rowScatter N D E wf).window (ix2 k r') (1 : Fin 2) = r'.val := by
  unfold ScatterDims.window
  rw [dif_pos (show (1 : Fin 2) ∈ (rowScatter N D E wf).sKept by simp [ScatterDims.sKept, Shape.kept, List.finRange])]
  rfl

theorem rowScatter_resultIdx? {w : Nat} (wf : ScatterDims.WF ⟨2, ![N, D]⟩ ⟨2, ![E, 1]⟩ ⟨2, ![E, D]⟩ [1] [0] [0] 1)
    (idx : IVec ⟨2, ![E, 1]⟩ w) (k : Fin E) (r' : Fin D) (q : Fin N) (r : Fin D) :
    (rowScatter N D E wf).resultIdx? (ix2 k r') idx = some (ix2 q r)
      ↔ (idx (ix2 k (0 : Fin 1))).toInt = (q.val : Int) ∧ r' = r := by
  have s0 := rowScatter_start0 wf idx k r'
  have s1 := rowScatter_start1 wf idx k r'
  have w0 := rowScatter_window0 wf k r'
  have w1 := rowScatter_window1 wf k r'
  unfold ScatterDims.resultIdx?
  constructor
  · intro h
    split at h
    · rename_i hh
      have e := Option.some.inj h
      have e0 := congrArg (fun f => (f (0 : Fin 2)).val) e
      have e1 := congrArg (fun f => (f (1 : Fin 2)).val) e
      simp only [s0, s1, w0, w1] at e0 e1
      have h0 := (hh (0 : Fin 2)).1
      rw [s0, w0] at h0
      refine ⟨?_, Fin.ext ?_⟩
      · change ((idx (ix2 k (0 : Fin 1))).toInt + ((0 : Nat) : Int)).toNat = q.val at e0
        omega
      · change ((0 : Int) + (r'.val : Int)).toNat = r.val at e1
        omega
    · exact absurd h (by simp)
  · rintro ⟨h0, rfl⟩
    have hh : ∀ a : Fin 2, 0 ≤ (rowScatter N D E wf).start (ix2 k r') idx a + ((rowScatter N D E wf).window (ix2 k r') a : Int)
        ∧ (rowScatter N D E wf).start (ix2 k r') idx a + ((rowScatter N D E wf).window (ix2 k r') a : Int) < ((⟨2, ![N, D]⟩ : Shape).size a : Int) := by
      intro a
      match a with
      | ⟨0, _⟩ =>
        change 0 ≤ (rowScatter N D E wf).start (ix2 k r') idx (0 : Fin 2) + ((rowScatter N D E wf).window (ix2 k r') (0 : Fin 2) : Int)
          ∧ (rowScatter N D E wf).start (ix2 k r') idx (0 : Fin 2) + ((rowScatter N D E wf).window (ix2 k r') (0 : Fin 2) : Int) < (N : Int)
        rw [s0, w0, h0]; have := q.isLt; omega
      | ⟨1, _⟩ =>
        change 0 ≤ (rowScatter N D E wf).start (ix2 k r') idx (1 : Fin 2) + ((rowScatter N D E wf).window (ix2 k r') (1 : Fin 2) : Int)
          ∧ (rowScatter N D E wf).start (ix2 k r') idx (1 : Fin 2) + ((rowScatter N D E wf).window (ix2 k r') (1 : Fin 2) : Int) < (D : Int)
        rw [s1, w1]; have := r'.isLt; omega
    rw [dif_pos hh]
    congr 1
    funext a; refine Fin.ext ?_
    match a with
    | ⟨0, _⟩ =>
      change ((rowScatter N D E wf).start (ix2 k r') idx (0 : Fin 2) + ((rowScatter N D E wf).window (ix2 k r') (0 : Fin 2) : Int)).toNat = q.val
      rw [s0, w0, h0]; omega
    | ⟨1, _⟩ =>
      change ((rowScatter N D E wf).start (ix2 k r') idx (1 : Fin 2) + ((rowScatter N D E wf).window (ix2 k r') (1 : Fin 2) : Int)).toNat = r'.val
      rw [s1, w1]; omega

theorem scatter_row_apply {w : Nat} (wf : ScatterDims.WF ⟨2, ![N, D]⟩ ⟨2, ![E, 1]⟩ ⟨2, ![E, D]⟩ [1] [0] [0] 1)
    (z : (⟨2, ![N, D]⟩ : Shape).Idx → EReal) (idx : IVec ⟨2, ![E, 1]⟩ w) (upd : (⟨2, ![E, D]⟩ : Shape).Idx → EReal)
    (q : Fin N) (r : Fin D) :
    Ideal.hostScatterAdd (rowScatter N D E wf) z idx upd (ix2 q r)
      = z (ix2 q r) + ∑ k : Fin E, if (idx (ix2 k (0 : Fin 1))).toInt = (q.val : Int) then upd (ix2 k r) else 0 := by
  unfold Ideal.hostScatterAdd
  congr 1
  rw [Finset.sum_filter, sum_idx2]
  refine Finset.sum_congr rfl fun k _ => ?_
  simp only [rowScatter_resultIdx?]
  by_cases h : (idx (ix2 k (0 : Fin 1))).toInt = (q.val : Int)
  · simp [h]
  · simp [h]

end Generic

section Generic2
variable {N E : Nat}

abbrev cntScatter (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

theorem cntScatter_start0 {w : Nat} (wf : ScatterDims.WF ⟨1, ![N]⟩ ⟨2, ![E, 1]⟩ ⟨1, ![E]⟩ [] [0] [0] 1)
    (idx : IVec ⟨2, ![E, 1]⟩ w) (k : Fin E) :
    (cntScatter N E wf).start (ix1 k) idx (0 : Fin 1) = (idx (ix2 k (0 : Fin 1))).toInt := by
  unfold ScatterDims.start
  rw [dif_pos (show (0 : Fin 1) ∈ (cntScatter N E wf).scatterDimsToOperandDims from (List.mem_singleton.mpr rfl))]
  congr 2
  funext b; refine Fin.ext ?_
  match b with
  | ⟨0, _⟩ => rfl
  | ⟨1, _⟩ => rfl

theorem cntScatter_window0 (wf : ScatterDims.WF ⟨1, ![N]⟩ ⟨2, ![E, 1]⟩ ⟨1, ![E]⟩ [] [0] [0] 1) (k : Fin E) :
    (cntScatter N E wf).window (ix1 k) (0 : Fin 1) = 0 := by
  unfold ScatterDims.window
  rw [dif_neg (show (0 : Fin 1) ∉ (cntScatter N E wf).sKept by simp [ScatterDims.sKept, Shape.kept])]

theorem cntScatter_resultIdx? {w : Nat} (wf : ScatterDims.WF ⟨1, ![N]⟩ ⟨2, ![E, 1]⟩ ⟨1, ![E]⟩ [] [0] [0] 1)
    (idx : IVec ⟨2, ![E, 1]⟩ w) (k : Fin E) (q : Fin N) :
    (cntScatter N E wf).resultIdx? (ix1 k) idx = some (ix1 q) ↔ (idx (ix2 k (0 : Fin 1))).toInt = (q.val : Int) := by
  have s0 := cntScatter_start0 wf idx k
  have w0 := cntScatter_window0 wf k
  unfold ScatterDims.resultIdx?
  constructor
  · intro h
    split at h
    · rename_i hh
      have e := Option.some.inj h
      have e0 := congrArg (fun f => (f (0 : Fin 1)).val) e
      simp only [s0, w0] at e0
      have h0 := (hh (0 : Fin 1)).1
      rw [s0, w0] at h0
      change ((idx (ix2 k (0 : Fin 1))).toInt + ((0 : Nat) : Int)).toNat = q.val at e0
      omega
    · exact absurd h (by simp)
  · intro h0
    have hh : ∀ a : Fin 1, 0 ≤ (cntScatter N E wf).start (ix1 k) idx a + ((cntScatter N E wf).window (ix1 k) a : Int)
        ∧ (cntScatter N E wf).start (ix1 k) idx a + ((cntScatter N E wf).window (ix1 k) a : Int) < ((⟨1, ![N]⟩ : Shape).size a : Int) := by
      intro a
      match a with
      | ⟨0, _⟩ =>
        change 0 ≤ (cntScatter N E wf).start (ix1 k) idx (0 : Fin 1) + ((cntScatter N E wf).window (ix1 k) (0 : Fin 1) : Int)
          ∧ (cntScatter N E wf).start (ix1 k) idx (0 : Fin 1) + ((cntScatter N E wf).window (ix1 k) (0 : Fin 1) : Int) < (N : Int)
        rw [s0, w0, h0]; have := q.isLt; omega
    rw [dif_pos hh]
    congr 1
    funext a; refine Fin.ext ?_
    match a with
    | ⟨0, _⟩ =>
      change ((cntScatter N E wf).start (ix1 k) idx (0 : Fin 1) + ((cntScatter N E wf).window (ix1 k) (0 : Fin 1) : Int)).toNat = q.val
      rw [s0, w0, h0]; omega

theorem scatter_cnt_apply {w : Nat} (wf : ScatterDims.WF ⟨1, ![N]⟩ ⟨2, ![E, 1]⟩ ⟨1, ![E]⟩ [] [0] [0] 1)
    (z : (⟨1, ![N]⟩ : Shape).Idx → EReal) (idx : IVec ⟨2, ![E, 1]⟩ w) (upd : (⟨1, ![E]⟩ : Shape).Idx → EReal) (q : Fin N) :
    Ideal.hostScatterAdd (cntScatter N E wf) z idx upd (ix1 q)
      = z (ix1 q) + ∑ k : Fin E, if (idx (ix2 k (0 : Fin 1))).toInt = (q.val : Int) then upd (ix1 k) else 0 := by
  unfold Ideal.hostScatterAdd
  congr 1
  rw [Finset.sum_filter, ← Equiv.sum_comp (idxEquiv1 (n := E)).symm]
  refine Finset.sum_congr rfl fun k _ => ?_
  show (if (cntScatter N E wf).resultIdx? (ix1 k) idx = some (ix1 q) then upd (ix1 k) else 0) = _
  simp only [cntScatter_resultIdx?]

end Generic2

section Dot
variable {M K P : Nat}

abbrev plainDot (M K P : Nat) (wf : DotDims.WF ⟨2, ![M, K]⟩ ⟨2, ![K, P]⟩ ⟨2, ![M, P]⟩ [1] [0] [0] [1] [] []) :
    DotDims ⟨2, ![M, K]⟩ ⟨2, ![K, P]⟩ ⟨2, ![M, P]⟩ where
  lhsContracting := [1]
  rhsContracting := [0]
  lhsNonContracting := [0]
  rhsNonContracting := [1]
  lhsBatch := []
  rhsBatch := []
  wf := wf

theorem plainDot_rank (wf : DotDims.WF ⟨2, ![M, K]⟩ ⟨2, ![K, P]⟩ ⟨2, ![M, P]⟩ [1] [0] [0] [1] [] []) :
    (plainDot M K P wf).contr.rank = 1 := rfl

theorem plainDot_size (wf : DotDims.WF ⟨2, ![M, K]⟩ ⟨2, ![K, P]⟩ ⟨2, ![M, P]⟩ [1] [0] [0] [1] [] []) :
    (plainDot M K P wf).contr.size ⟨0, by rw [plainDot_rank]; exact Nat.one_pos⟩ = K := rfl

theorem dot_plain_apply {φ₁ φ₂ : FTy} (wf : DotDims.WF ⟨2, ![M, K]⟩ ⟨2, ![K, P]⟩ ⟨2, ![M, P]⟩ [1] [0] [0] [1] [] [])
    (prec : Option ContractPrecision) (sched : HostSchedule)
    (l : FVec Ideal ⟨2, ![M, K]⟩ φ₁) (r : FVec Ideal ⟨2, ![K, P]⟩ φ₂) (a : Fin M) (b : Fin P) :
    FloatOps.dotGeneral (plainDot M K P wf) prec sched l r (ix2 a b) = ∑ c : Fin K, l (ix2 a c) * r (ix2 c b) := by
  rw [Ideal.dotGeneral_apply]
  rw [← Equiv.sum_comp (contrEquiv1 (plainDot M K P wf) K (plainDot_rank wf) (plainDot_size wf)).symm]
  refine Finset.sum_congr rfl fun c _ => ?_
  have hl : (plainDot M K P wf).lhsIdx (ix2 a b) ((contrEquiv1 (plainDot M K P wf) K (plainDot_rank wf) (plainDot_size wf)).symm c) = ix2 a c := by
    funext d; refine Fin.ext ?_
    match d with
    | ⟨0, _⟩ => simp [DotDims.lhsIdx]; rfl
    | ⟨1, _⟩ =>
      have := (plainDot M K P wf).lhsIdx_val_of_single (cl := (1 : Fin 2)) rfl (ix2 a b)
        ((contrEquiv1 (plainDot M K P wf) K (plainDot_rank wf) (plainDot_size wf)).symm c)
      rw [contrEquiv1_symm_val] at this
      exact this
  have hr : (plainDot M K P wf).rhsIdx (ix2 a b) ((contrEquiv1 (plainDot M K P wf) K (plainDot_rank wf) (plainDot_size wf)).symm c) = ix2 c b := by
    funext d; refine Fin.ext ?_
    match d with
    | ⟨0, _⟩ =>
      have := (plainDot M K P wf).rhsIdx_val_of_single (cr := (0 : Fin 2)) rfl (ix2 a b)
        ((contrEquiv1 (plainDot M K P wf) K (plainDot_rank wf) (plainDot_size wf)).symm c)
      rw [contrEquiv1_symm_val] at this
      exact this
    | ⟨1, _⟩ => simp [DotDims.rhsIdx]; rfl
  rw [hl, hr]

end Dot

section Sage
variable {N D E : Nat}

structure SageFacts (N D E : Nat) : Prop where
  bE : (⟨0, ![]⟩ : Shape).BroadcastsInDim ⟨1, ![E]⟩ (![] : Fin 0 → Fin 1)
  bE1 : (⟨1, ![E]⟩ : Shape).BroadcastsInDim ⟨2, ![E, 1]⟩ (![0] : Fin 1 → Fin 2)
  bND : (⟨0, ![]⟩ : Shape).BroadcastsInDim ⟨2, ![N, D]⟩ (![] : Fin 0 → Fin 2)
  bN : (⟨0, ![]⟩ : Shape).BroadcastsInDim ⟨1, ![N]⟩ (![] : Fin 0 → Fin 1)
  bN1 : (⟨1, ![N]⟩ : Shape).BroadcastsInDim ⟨2, ![N, 1]⟩ (![0] : Fin 1 → Fin 2)
  bN1ND : (⟨2, ![N, 1]⟩ : Shape).BroadcastsInDim ⟨2, ![N, D]⟩ (![0, 1] : Fin 2 → Fin 2)
  tDD : (⟨2, ![D, D]⟩ : Shape).Transposes [1, 0] ⟨2, ![D, D]⟩
  bD1D : (⟨1, ![D]⟩ : Shape).BroadcastsInDim ⟨2, ![1, D]⟩ (![1] : Fin 1 → Fin 2)
  b1DND : (⟨2, ![1, D]⟩ : Shape).BroadcastsInDim ⟨2, ![N, D]⟩ (![0, 1] : Fin 2 → Fin 2)
  gwf : GatherDims.WF ⟨2, ![N, D]⟩ ⟨2, ![E, 1]⟩ ⟨2, ![E, D]⟩ [1] [0] [] [0] [] 1 ![1, D]
  swf : ScatterDims.WF ⟨2, ![N, D]⟩ ⟨2, ![E, 1]⟩ ⟨2, ![E, D]⟩ [1] [0] [0] 1
  cwf : ScatterDims.WF ⟨1, ![N]⟩ ⟨2, ![E, 1]⟩ ⟨1, ![E]⟩ [] [0] [0] 1
  dwf : DotDims.WF ⟨2, ![N, D]⟩ ⟨2, ![D, D]⟩ ⟨2, ![N, D]⟩ [1] [0] [0] [1] [] []

theorem ite_extent_one {n : Nat} (k : Fin n) : (if n = 1 then 0 else k.val) = k.val := by
  have := k.isLt
  split <;> omega

variable (h : SageFacts N D E)

def sageNorm (s : IVec ⟨1, ![E]⟩ 32) : IVec ⟨1, ![E]⟩ 32 :=
  select (cmpi .slt s (broadcastInDim ⟨1, ![E]⟩ ![] h.bE (constantI ⟨0, ![]⟩ 32 0#32)))
    (addi s (broadcastInDim ⟨1, ![E]⟩ ![] h.bE (constantI ⟨0, ![]⟩ 32 (BitVec.ofNat 32 N)))) s

def sageAgg (x : FVec Ideal ⟨2, ![N, D]⟩ .f32) (s d : IVec ⟨1, ![E]⟩ 32) : FVec Ideal ⟨2, ![N, D]⟩ .f32 :=
  Host.scatterAdd (rowScatter N D E h.swf) (broadcastInDim ⟨2, ![N, D]⟩ ![] h.bND (constant ⟨0, ![]⟩ .f32 0x00000000#32))
    (broadcastInDim ⟨2, ![E, 1]⟩ ![0] h.bE1 d)
    (Host.gather (rowGather N D E h.gwf) x (broadcastInDim ⟨2, ![E, 1]⟩ ![0] h.bE1 (sageNorm h s)))

def sageDeg (d : IVec ⟨1, ![E]⟩ 32) : FVec Ideal ⟨1, ![N]⟩ .f32 :=
  maximumf
    (Host.scatterAdd (cntScatter N E h.cwf) (broadcastInDim ⟨1, ![N]⟩ ![] h.bN (constant ⟨0, ![]⟩ .f32 0x00000000#32))
      (broadcastInDim ⟨2, ![E, 1]⟩ ![0] h.bE1 d)
      (broadcastInDim ⟨1, ![E]⟩ ![] h.bE (constant ⟨0, ![]⟩ .f32 0x3F800000#32)))
    (broadcastInDim ⟨1, ![N]⟩ ![] h.bN (constant ⟨0, ![]⟩ .f32 0x3F800000#32))

def sagePre (x : FVec Ideal ⟨2, ![N, D]⟩ .f32) (Wl Wr : FVec Ideal ⟨2, ![D, D]⟩ .f32) (b : FVec Ideal ⟨1, ![D]⟩ .f32)
    (s d : IVec ⟨1, ![E]⟩ 32) : FVec Ideal ⟨2, ![N, D]⟩ .f32 :=
  addf
    (addf
      (Host.dotGeneral (plainDot N D D h.dwf) none
        (Host.divf (sageAgg h x s d)
          (broadcastInDim ⟨2, ![N, D]⟩ ![0, 1] h.bN1ND (broadcastInDim ⟨2, ![N, 1]⟩ ![0] h.bN1 (sageDeg h d))))
        (transpose ⟨2, ![D, D]⟩ [1, 0] Wl h.tDD))
      (broadcastInDim ⟨2, ![N, D]⟩ ![0, 1] h.b1DND (broadcastInDim ⟨2, ![1, D]⟩ ![1] h.bD1D b)))
    (Host.dotGeneral (plainDot N D D h.dwf) none x (transpose ⟨2, ![D, D]⟩ [1, 0] Wr h.tDD))

def sageLeaky (v : FVec Ideal ⟨2, ![N, D]⟩ .f32) : FVec Ideal ⟨2, ![N, D]⟩ .f32 :=
  select (cmpf .oge v (broadcastInDim ⟨2, ![N, D]⟩ ![] h.bND (constant ⟨0, ![]⟩ .f32 0x00000000#32))) v
    (mulf (broadcastInDim ⟨2, ![N, D]⟩ ![] h.bND (constant ⟨0, ![]⟩ .f32 0x3C23D70A#32)) v)

def sage (x : FVec Ideal ⟨2, ![N, D]⟩ .f32) (Wl Wr : FVec Ideal ⟨2, ![D, D]⟩ .f32) (b : FVec Ideal ⟨1, ![D]⟩ .f32)
    (s d : IVec ⟨1, ![E]⟩ 32) : FVec Ideal ⟨2, ![N, D]⟩ .f32 :=
  sageLeaky h (sagePre h x Wl Wr b s d)

theorem colOfList_apply {α : Type} (v : (⟨1, ![E]⟩ : Shape).Idx → α) (k : Fin E) :
    broadcastInDim ⟨2, ![E, 1]⟩ ![0] h.bE1 v (ix2 k (0 : Fin 1)) = v (ix1 k) :=
  broadcastInDim_apply _ _ _ _ (ix1 k) fun a => by
    match a with
    | ⟨0, _⟩ =>
      show k.val = if E = 1 then 0 else k.val
      exact (ite_extent_one k).symm

variable [NeZero N]

theorem sageNorm_apply (s : IVec ⟨1, ![E]⟩ 32) (k : Fin E) (hk : InRange N (s (ix1 k))) : sageNorm h s (ix1 k) = s (ix1 k) := by
  unfold sageNorm
  rw [select_apply]
  have hc : cmpi .slt s (broadcastInDim ⟨1, ![E]⟩ ![] h.bE (constantI ⟨0, ![]⟩ 32 0#32)) (ix1 k) = 0#1 := by
    show BitVec.ofBool ((s (ix1 k)).slt (broadcastInDim ⟨1, ![E]⟩ ![] h.bE (constantI ⟨0, ![]⟩ 32 0#32) (ix1 k))) = 0#1
    rw [broadcastInDim_scalar_apply]
    show BitVec.ofBool ((s (ix1 k)).slt 0#32) = 0#1
    have : (s (ix1 k)).slt 0#32 = false := by
      rw [BitVec.slt_eq_decide]; simp only [BitVec.toInt_zero, decide_eq_false_iff_not, not_lt]; exact hk.1
    rw [this]; rfl
  rw [hc, select_zero]

theorem toInt_eq_iff_dec {v : BitVec 32} (hv : InRange N v) (j : Fin N) : v.toInt = (j.val : Int) ↔ dec N v = j := by
  rw [← dec_val hv]
  constructor
  · intro e; exact Fin.ext (by exact_mod_cast e)
  · intro e; rw [e]

theorem sageAgg_apply (x : FVec Ideal ⟨2, ![N, D]⟩ .f32) (s d : IVec ⟨1, ![E]⟩ 32)
    (hs : ∀ k, InRange N (s (ix1 k))) (hd : ∀ k, InRange N (d (ix1 k))) (j : Fin N) (r : Fin D) :
    sageAgg h x s d (ix2 j r) = ∑ k : Fin E, if dec N (d (ix1 k)) = j then x (ix2 (dec N (s (ix1 k))) r) else 0 := by
  unfold sageAgg
  show Ideal.hostScatterAdd (rowScatter N D E h.swf) _ _ _ (ix2 j r) = _
  rw [scatter_row_apply, broadcastInDim_scalar_apply]
  show Ideal.ofBits .f32 0x00000000#32 + _ = _
  rw [Ideal.ofBits_zero_f32, zero_add]
  refine Finset.sum_congr rfl fun k _ => ?_
  rw [colOfList_apply h]
  simp only [toInt_eq_iff_dec (hd k) j]
  by_cases hj : dec N (d (ix1 k)) = j
  · rw [if_pos hj, if_pos hj, gather_row_apply (NeZero.pos N)]
    congr 1
    have hv := dec_val (hs k)
    have h1 := (hs k).2
    have h0 := (hs k).1
    funext a
    match a with
    | ⟨0, _⟩ =>
      refine Fin.ext ?_
      show min (broadcastInDim ⟨2, ![E, 1]⟩ ![0] h.bE1 (sageNorm h s) (ix2 k (0 : Fin 1))).toInt.toNat (N - 1) = (dec N (s (ix1 k))).val
      rw [colOfList_apply h, sageNorm_apply h s k (hs k)]
      omega
    | ⟨1, _⟩ => rfl
  · rw [if_neg hj, if_neg hj]

theorem sageDeg_apply (d : IVec ⟨1, ![E]⟩ 32) (hd : ∀ k, InRange N (d (ix1 k))) (j : Fin N) :
    sageDeg h d (ix1 j) = max (cnt (fun k : Fin E => dec N (d (ix1 k))) j) 1 := by
  unfold sageDeg
  rw [maximumf_apply, broadcastInDim_scalar_apply]
  show max (Ideal.hostScatterAdd (cntScatter N E h.cwf) _ _ _ (ix1 j)) (Ideal.ofBits .f32 0x3F800000#32) = _
  rw [Ideal.ofBits_one_f32, scatter_cnt_apply, broadcastInDim_scalar_apply]
  show max (Ideal.ofBits .f32 0x00000000#32 + _) 1 = _
  rw [Ideal.ofBits_zero_f32, zero_add]
  congr 1
  unfold cnt
  refine Finset.sum_congr rfl fun k _ => ?_
  rw [colOfList_apply h, broadcastInDim_scalar_apply]
  show (if _ then Ideal.ofBits .f32 0x3F800000#32 else 0) = _
  rw [Ideal.ofBits_one_f32]
  simp only [toInt_eq_iff_dec (hd k) j]

theorem sageLeaky_apply (v : FVec Ideal ⟨2, ![N, D]⟩ .f32) (i : (⟨2, ![N, D]⟩ : Shape).Idx) : sageLeaky h v i = leaky (v i) := by
  unfold sageLeaky leaky
  rw [select_apply, cmpf_apply, mulf_apply, broadcastInDim_scalar_apply, broadcastInDim_scalar_apply]
  rfl

theorem sage_val (x : FVec Ideal ⟨2, ![N, D]⟩ .f32) (Wl Wr : FVec Ideal ⟨2, ![D, D]⟩ .f32) (b : FVec Ideal ⟨1, ![D]⟩ .f32)
    (s d : IVec ⟨1, ![E]⟩ 32) (hs : ∀ k, InRange N (s (ix1 k))) (hd : ∀ k, InRange N (d (ix1 k))) :
    toMat (sage h x Wl Wr b s d)
      = rSage (toMat x) (fun k => dec N (s (ix1 k))) (fun k => dec N (d (ix1 k))) (toMat Wl) (toMat Wr) (toVec b) := by
  funext j q
  show sageLeaky h (sagePre h x Wl Wr b s d) (ix2 j q) = _
  rw [sageLeaky_apply]
  unfold rSage
  congr 1
  unfold sagePre
  rw [addf_apply, addf_apply]
  simp only [Host.dotGeneral]
  rw [dot_plain_apply, dot_plain_apply]
  have hT : ∀ (W : FVec Ideal ⟨2, ![D, D]⟩ .f32) (c : Fin D), transpose ⟨2, ![D, D]⟩ [1, 0] W h.tDD (ix2 c q) = W (ix2 q c) := fun W c =>
    transpose_apply _ _ _ _ (ix2 q c) fun a => by
      match a with
      | ⟨0, _⟩ => rfl
      | ⟨1, _⟩ => rfl
  have hb : broadcastInDim ⟨2, ![N, D]⟩ ![0, 1] h.b1DND (broadcastInDim ⟨2, ![1, D]⟩ ![1] h.bD1D b) (ix2 j q) = b (ix1 q) := by
    rw [broadcastInDim_apply _ _ _ _ (ix2 (0 : Fin 1) q) fun a => by
      match a with
      | ⟨0, _⟩ => rfl
      | ⟨1, _⟩ =>
        show q.val = if D = 1 then 0 else q.val
        exact (ite_extent_one q).symm]
    exact broadcastInDim_apply _ _ _ _ (ix1 q) fun a => by
      match a with
      | ⟨0, _⟩ =>
        show q.val = if D = 1 then 0 else q.val
        exact (ite_extent_one q).symm
  rw [hb]
  congr 1
  · congr 1
    refine Finset.sum_congr rfl fun c _ => ?_
    rw [hT, hostDivf_apply, sageAgg_apply h x s d hs hd]
    have hdeg : broadcastInDim ⟨2, ![N, D]⟩ ![0, 1] h.bN1ND (broadcastInDim ⟨2, ![N, 1]⟩ ![0] h.bN1 (sageDeg h d)) (ix2 j c)
        = sageDeg h d (ix1 j) := by
      rw [broadcastInDim_apply _ _ _ _ (ix2 j (0 : Fin 1)) fun a => by
        match a with
        | ⟨0, _⟩ =>
          show j.val = if N = 1 then 0 else j.val
          exact (ite_extent_one j).symm
        | ⟨1, _⟩ => rfl]
      exact broadcastInDim_apply _ _ _ _ (ix1 j) fun a => by
        match a with
        | ⟨0, _⟩ =>
          show j.val = if N = 1 then 0 else j.val
          exact (ite_extent_one j).symm
    rw [hdeg, sageDeg_apply h d hd]
    rfl
  · refine Finset.sum_congr rfl fun c _ => ?_
    rw [hT]
    rfl

end Sage

open Cert.ReferenceIdeal Cert.ReferenceIdeal.Gen

theorem colFacts : SageFacts 1024 4096 16384 where
  bE := bcast_S_S16384
  bE1 := bcast_S16384_S16384x1_0
  bND := bcast_S_S1024x4096
  bN := bcast_S_S1024
  bN1 := bcast_S1024_S1024x1_0
  bN1ND := bcast_S1024x1_S1024x4096_0_1
  tDD := transposes_S4096x4096_S4096x4096_1_0
  bD1D := bcast_S4096_S1x4096_1
  b1DND := bcast_S1x4096_S1024x4096_0_1
  gwf := gather_S1024x4096_S16384x1_S16384x4096_1_0_n_n_0_1_14096_wf
  swf := scatter_S1024x4096_S16384x1_S16384x4096_1_0_0_1_wf
  cwf := scatter_S1024_S16384x1_S16384_n_0_0_1_wf
  dwf := dot_S1024x4096_S4096x4096_S1024x4096_1_0_0_1_n_n_wf

theorem rowFacts : SageFacts 4096 1024 131072 where
  bE := bcast_S_S131072
  bE1 := bcast_S131072_S131072x1_0
  bND := bcast_S_S4096x1024
  bN := bcast_S_S4096
  bN1 := bcast_S4096_S4096x1_0
  bN1ND := bcast_S4096x1_S4096x1024_0_1
  tDD := transposes_S1024x1024_S1024x1024_1_0
  bD1D := bcast_S1024_S1x1024_1
  b1DND := bcast_S1x1024_S4096x1024_0_1
  gwf := gather_S4096x1024_S131072x1_S131072x1024_1_0_n_n_0_1_11024_wf
  swf := scatter_S4096x1024_S131072x1_S131072x1024_1_0_0_1_wf
  cwf := scatter_S4096_S131072x1_S131072_n_0_0_1_wf
  dwf := dot_S4096x1024_S1024x1024_S4096x1024_1_0_0_1_n_n_wf

def colConv (x : FVec Ideal S4096x1024 .f32) (Wl Wr : FVec Ideal S4096x4096 .f32) (b : FVec Ideal S4096 .f32)
    (ks kd : IVec S16384 32) : FVec Ideal S4096x1024 .f32 :=
  transpose S4096x1024 [1, 0]
    (sage colFacts (transpose S1024x4096 [1, 0] x transposes_S4096x1024_S1024x4096_1_0) Wl Wr b ks kd)
    transposes_S1024x4096_S4096x1024_1_0

def rowConv (x : FVec Ideal S4096x1024 .f32) (Wl Wr : FVec Ideal S1024x1024 .f32) (b : FVec Ideal S1024 .f32)
    (gs gd : IVec S131072 32) : FVec Ideal S4096x1024 .f32 :=
  sage rowFacts x Wl Wr b gs gd

theorem toMat_transpose (x : FVec Ideal S4096x1024 .f32) :
    toMat (transpose S1024x4096 [1, 0] x transposes_S4096x1024_S1024x4096_1_0) = tr (toMat x) := by
  funext a c
  exact transpose_apply _ _ _ _ (ix2 c a) fun e => by
    match e with
    | ⟨0, _⟩ => rfl
    | ⟨1, _⟩ => rfl

theorem toMat_transpose_back (y : FVec Ideal S1024x4096 .f32) :
    toMat (transpose S4096x1024 [1, 0] y transposes_S1024x4096_S4096x1024_1_0) = tr (toMat y) := by
  funext a c
  exact transpose_apply _ _ _ _ (ix2 c a) fun e => by
    match e with
    | ⟨0, _⟩ => rfl
    | ⟨1, _⟩ => rfl

theorem colConv_val (x : FVec Ideal S4096x1024 .f32) (Wl Wr : FVec Ideal S4096x4096 .f32) (b : FVec Ideal S4096 .f32)
    (ks kd : IVec S16384 32) (hks : ∀ i, InRange 1024 (ks i)) (hkd : ∀ i, InRange 1024 (kd i)) :
    toMat (colConv x Wl Wr b ks kd)
      = tr (rSage (tr (toMat x)) (fun k => dec 1024 (ks (ix1 k))) (fun k => dec 1024 (kd (ix1 k))) (toMat Wl) (toMat Wr) (toVec b)) := by
  unfold colConv
  rw [toMat_transpose_back, sage_val colFacts _ Wl Wr b ks kd (fun k => hks (ix1 k)) (fun k => hkd (ix1 k)), toMat_transpose]

theorem rowConv_val (x : FVec Ideal S4096x1024 .f32) (Wl Wr : FVec Ideal S1024x1024 .f32) (b : FVec Ideal S1024 .f32)
    (gs gd : IVec S131072 32) (hgs : ∀ i, InRange 4096 (gs i)) (hgd : ∀ i, InRange 4096 (gd i)) :
    toMat (rowConv x Wl Wr b gs gd)
      = rSage (toMat x) (fun k => dec 4096 (gs (ix1 k))) (fun k => dec 4096 (gd (ix1 k))) (toMat Wl) (toMat Wr) (toVec b) :=
  sage_val rowFacts x Wl Wr b gs gd (fun k => hgs (ix1 k)) (fun k => hgd (ix1 k))

end Cert.ReferenceIdeal.Hand
-- ==== Proof.RefVal.lean ====
import proofs.«415769_j962072674785_2_alg».proof.Proof.RefLayer
import proofs.«415769_j962072674785_2_alg».proof.Proof.RefRun

noncomputable section

open scoped BigOperators

namespace Cert.ReferenceIdeal.Hand

open Cert.ReferenceIdeal Cert.ReferenceIdeal.Gen Idealize.ShloMosaic Idealize.ShloMosaic.TcCoe Idealize.SL.Sem Idealize.ShloMosaic.StableHlo
open Idealize.ShloMosaic.ValueIdx Cert.Spec

def edgeK (a : IVec S2x16384 32) (r : Nat) (h : S2x16384.Slices ![r, 0] S1x16384) : IVec S16384 32 :=
  shapeCast S16384 (extractStridedSlice S1x16384 ![r, 0] a h) shapeCasts_S1x16384_S16384

def edgeG (a : IVec S2x131072 32) (r : Nat) (h : S2x131072.Slices ![r, 0] S1x131072) : IVec S131072 32 :=
  shapeCast S131072 (extractStridedSlice S1x131072 ![r, 0] a h) shapeCasts_S1x131072_S131072

def cMat (A : FVec Ideal S3x4096x4096 .f32) (l : Nat) (h : S3x4096x4096.Slices ![l, 0, 0] S1x4096x4096) : FVec Ideal S4096x4096 .f32 :=
  shapeCast S4096x4096 (extractStridedSlice S1x4096x4096 ![l, 0, 0] A h) shapeCasts_S1x4096x4096_S4096x4096

def cVec (A : FVec Ideal S3x4096 .f32) (l : Nat) (h : S3x4096.Slices ![l, 0] S1x4096) : FVec Ideal S4096 .f32 :=
  shapeCast S4096 (extractStridedSlice S1x4096 ![l, 0] A h) shapeCasts_S1x4096_S4096

def rMat (A : FVec Ideal S3x1024x1024 .f32) (l : Nat) (h : S3x1024x1024.Slices ![l, 0, 0] S1x1024x1024) : FVec Ideal S1024x1024 .f32 :=
  shapeCast S1024x1024 (extractStridedSlice S1x1024x1024 ![l, 0, 0] A h) shapeCasts_S1x1024x1024_S1024x1024

def rVec (A : FVec Ideal S3x1024 .f32) (l : Nat) (h : S3x1024.Slices ![l, 0] S1x1024) : FVec Ideal S1024 .f32 :=
  shapeCast S1024 (extractStridedSlice S1x1024 ![l, 0] A h) shapeCasts_S1x1024_S1024

theorem edgeK_apply (a : IVec S2x16384 32) (r : Nat) (h : S2x16384.Slices ![r, 0] S1x16384) (hr : r < 2) (k : Fin 16384) :
    edgeK a r h (ix1 k) = a (ix2 ⟨r, hr⟩ k) := by
  unfold edgeK
  rw [shapeCast_dropUnit_apply]
  exact extractStridedSlice_apply _ _ _ _ (ix2 ⟨r, hr⟩ k) fun e => by
    match e with
    | ⟨0, _⟩ => rfl
    | ⟨1, _⟩ => show k.val = 0 + k.val; omega

theorem edgeG_apply (a : IVec S2x131072 32) (r : Nat) (h : S2x131072.Slices ![r, 0] S1x131072) (hr : r < 2) (k : Fin 131072) :
    edgeG a r h (ix1 k) = a (ix2 ⟨r, hr⟩ k) := by
  unfold edgeG
  rw [shapeCast_dropUnit_apply]
  exact extractStridedSlice_apply _ _ _ _ (ix2 ⟨r, hr⟩ k) fun e => by
    match e with
    | ⟨0, _⟩ => rfl
    | ⟨1, _⟩ => show k.val = 0 + k.val; omega

theorem toMat_cMat (A : FVec Ideal S3x4096x4096 .f32) (l : Nat) (h : S3x4096x4096.Slices ![l, 0, 0] S1x4096x4096) (hl : l < 3) :
    toMat (cMat A l h) = slab A ⟨l, hl⟩ := by
  funext p q
  show cMat A l h (ix2 p q) = A (ix3 ⟨l, hl⟩ p q)
  unfold cMat
  rw [shapeCast_dropUnit_apply]
  exact extractStridedSlice_apply _ _ _ _ (ix3 ⟨l, hl⟩ p q) fun e => by
    match e with
    | ⟨0, _⟩ => rfl
    | ⟨1, _⟩ => show p.val = 0 + p.val; omega
    | ⟨2, _⟩ => show q.val = 0 + q.val; omega

theorem toMat_rMat (A : FVec Ideal S3x1024x1024 .f32) (l : Nat) (h : S3x1024x1024.Slices ![l, 0, 0] S1x1024x1024) (hl : l < 3) :
    toMat (rMat A l h) = slab A ⟨l, hl⟩ := by
  funext p q
  show rMat A l h (ix2 p q) = A (ix3 ⟨l, hl⟩ p q)
  unfold rMat
  rw [shapeCast_dropUnit_apply]
  exact extractStridedSlice_apply _ _ _ _ (ix3 ⟨l, hl⟩ p q) fun e => by
    match e with
    | ⟨0, _⟩ => rfl
    | ⟨1, _⟩ => show p.val = 0 + p.val; omega
    | ⟨2, _⟩ => show q.val = 0 + q.val; omega

theorem toVec_cVec (A : FVec Ideal S3x4096 .f32) (l : Nat) (h : S3x4096.Slices ![l, 0] S1x4096) (hl : l < 3) :
    toVec (cVec A l h) = row A ⟨l, hl⟩ := by
  funext p
  show cVec A l h (ix1 p) = A (ix2 ⟨l, hl⟩ p)
  unfold cVec
  rw [shapeCast_dropUnit_apply]
  exact extractStridedSlice_apply _ _ _ _ (ix2 ⟨l, hl⟩ p) fun e => by
    match e with
    | ⟨0, _⟩ => rfl
    | ⟨1, _⟩ => show p.val = 0 + p.val; omega

theorem toVec_rVec (A : FVec Ideal S3x1024 .f32) (l : Nat) (h : S3x1024.Slices ![l, 0] S1x1024) (hl : l < 3) :
    toVec (rVec A l h) = row A ⟨l, hl⟩ := by
  funext p
  show rVec A l h (ix1 p) = A (ix2 ⟨l, hl⟩ p)
  unfold rVec
  rw [shapeCast_dropUnit_apply]
  exact extractStridedSlice_apply _ _ _ _ (ix2 ⟨l, hl⟩ p) fun e => by
    match e with
    | ⟨0, _⟩ => rfl
    | ⟨1, _⟩ => show p.val = 0 + p.val; omega

local notation:max "⟪" r "⟫" => Proc.devRef (τ := τ) Proc.tc r

/-- A line is its first `n` operations followed by the rest. -/
theorem after_take_drop (l : List (HloOp τ sig (Elt Ideal))) (n : Nat) (V : Valuation τ sig (Elt Ideal)) :
    after l V = after (l.drop n) (after (l.take n) V) := by
  rw [← StableHlo.after_append, List.take_append_drop]

/-- The buffers every later piece only reads: the six weight stacks as launched, and the edge lists' four rows. -/
structure Keeps (W V : Valuation τ sig (Elt Ideal)) : Prop where
  a1 : V ⟪main_arg1⟫ = W ⟪main_arg1⟫
  a2 : V ⟪main_arg2⟫ = W ⟪main_arg2⟫
  a3 : V ⟪main_arg3⟫ = W ⟪main_arg3⟫
  a4 : V ⟪main_arg4⟫ = W ⟪main_arg4⟫
  a5 : V ⟪main_arg5⟫ = W ⟪main_arg5⟫
  a6 : V ⟪main_arg6⟫ = W ⟪main_arg6⟫
  k0 : V ⟪main_v1⟫ = edgeK (W ⟪main_arg7⟫) 0 slices_S2x16384_S1x16384_0_0
  k1 : V ⟪main_v3⟫ = edgeK (W ⟪main_arg7⟫) 1 slices_S2x16384_S1x16384_1_0
  g0 : V ⟪main_v5⟫ = edgeG (W ⟪main_arg8⟫) 0 slices_S2x131072_S1x131072_0_0
  g1 : V ⟪main_v7⟫ = edgeG (W ⟪main_arg8⟫) 1 slices_S2x131072_S1x131072_1_0

/-- Every operation of the line writes outside `kept`. -/
theorem Keeps.step {W V : Valuation τ sig (Elt Ideal)} (hk : Keeps W V) {l : List (HloOp τ sig (Elt Ideal))} (h : l.Forall (Ok kept)) :
    Keeps W (after l V) where
  a1 := (after_keep h (by decide) V).trans hk.a1
  a2 := (after_keep h (by decide) V).trans hk.a2
  a3 := (after_keep h (by decide) V).trans hk.a3
  a4 := (after_keep h (by decide) V).trans hk.a4
  a5 := (after_keep h (by decide) V).trans hk.a5
  a6 := (after_keep h (by decide) V).trans hk.a6
  k0 := (after_keep h (by decide) V).trans hk.k0
  k1 := (after_keep h (by decide) V).trans hk.k1
  g0 := (after_keep h (by decide) V).trans hk.g0
  g1 := (after_keep h (by decide) V).trans hk.g1

set_option maxHeartbeats 4000000 in
theorem ops0_v41 (V : Valuation τ sig (Elt Ideal)) :
    after ((ops0 (F := Ideal)).take 48) V ⟪main_v41⟫
      = sagePre colFacts (transpose S1024x4096 [1, 0] (V ⟪main_arg0⟫) transposes_S4096x1024_S1024x4096_1_0)
          (cMat (V ⟪main_arg1⟫) 0 slices_S3x4096x4096_S1x4096x4096_0_0_0)
          (cMat (V ⟪main_arg2⟫) 0 slices_S3x4096x4096_S1x4096x4096_0_0_0)
          (cVec (V ⟪main_arg3⟫) 0 slices_S3x4096_S1x4096_0_0)
          (edgeK (V ⟪main_arg7⟫) 0 slices_S2x16384_S1x16384_0_0)
          (edgeK (V ⟪main_arg7⟫) 1 slices_S2x16384_S1x16384_1_0) := by
  simp only [ops0, List.take_succ_cons, List.take_zero]
  after_results_simp
  rfl

set_option maxHeartbeats 4000000 in
theorem ops0_v42 (V : Valuation τ sig (Elt Ideal)) :
    after ((ops0 (F := Ideal)).drop 48) V ⟪main_v42⟫ = sageLeaky colFacts (V ⟪main_v41⟫) := by
  simp only [ops0, List.drop_succ_cons, List.drop_zero]
  after_results_simp
  rfl

theorem ops0_val (V : Valuation τ sig (Elt Ideal)) :
    after (ops0 (F := Ideal)) V ⟪main_v42⟫
      = sage colFacts (transpose S1024x4096 [1, 0] (V ⟪main_arg0⟫) transposes_S4096x1024_S1024x4096_1_0)
          (cMat (V ⟪main_arg1⟫) 0 slices_S3x4096x4096_S1x4096x4096_0_0_0)
          (cMat (V ⟪main_arg2⟫) 0 slices_S3x4096x4096_S1x4096x4096_0_0_0)
          (cVec (V ⟪main_arg3⟫) 0 slices_S3x4096_S1x4096_0_0)
          (edgeK (V ⟪main_arg7⟫) 0 slices_S2x16384_S1x16384_0_0)
          (edgeK (V ⟪main_arg7⟫) 1 slices_S2x16384_S1x16384_1_0) := by
  rw [after_take_drop ops0 48, ops0_v42, ops0_v41]
  rfl

set_option maxHeartbeats 4000000 in
theorem ops0_keeps (W : Valuation τ sig (Elt Ideal)) : Keeps W (after (ops0 (F := Ideal)) W) where
  a1 := after_keep ops0_ok (by decide) W
  a2 := after_keep ops0_ok (by decide) W
  a3 := after_keep ops0_ok (by decide) W
  a4 := after_keep ops0_ok (by decide) W
  a5 := after_keep ops0_ok (by decide) W
  a6 := after_keep ops0_ok (by decide) W
  k0 := by after_results_simp; rfl
  k1 := by after_results_simp; rfl
  g0 := by after_results_simp; rfl
  g1 := by after_results_simp; rfl

theorem ops1_v43 (V : Valuation τ sig (Elt Ideal)) :
    after (ops1 (F := Ideal)) V ⟪main_v43⟫ = transpose S4096x1024 [1, 0] (V ⟪main_v42⟫) transposes_S1024x4096_S4096x1024_1_0 := by
  after_results_simp
theorem ops1_v45 (V : Valuation τ sig (Elt Ideal)) :
    after (ops1 (F := Ideal)) V ⟪main_v45⟫ = rMat (V ⟪main_arg4⟫) 0 slices_S3x1024x1024_S1x1024x1024_0_0_0 := by
  after_results_simp; rfl
theorem ops1_v47 (V : Valuation τ sig (Elt Ideal)) :
    after (ops1 (F := Ideal)) V ⟪main_v47⟫ = rVec (V ⟪main_arg6⟫) 0 slices_S3x1024_S1x1024_0_0 := by
  after_results_simp; rfl
theorem ops1_v49 (V : Valuation τ sig (Elt Ideal)) :
    after (ops1 (F := Ideal)) V ⟪main_v49⟫ = rMat (V ⟪main_arg5⟫) 0 slices_S3x1024x1024_S1x1024x1024_0_0_0 := by
  after_results_simp; rfl
theorem ops1_v51 (V : Valuation τ sig (Elt Ideal)) :
    after (ops1 (F := Ideal)) V ⟪main_v51⟫
      = cmpi .slt (V ⟪main_v5⟫) (broadcastInDim S131072 ![] bcast_S_S131072 (constantI S_ 32 0#32)) := by
  after_results_simp

set_option maxHeartbeats 4000000 in
theorem ops2_v76 (V : Valuation τ sig (Elt Ideal)) (x : FVec Ideal S4096x1024 .f32) (Wl Wr : FVec Ideal S1024x1024 .f32)
    (b : FVec Ideal S1024 .f32) (s d : IVec S131072 32)
    (hx : V ⟪main_v43⟫ = x) (hl : V ⟪main_v45⟫ = Wl) (hr : V ⟪main_v49⟫ = Wr) (hb : V ⟪main_v47⟫ = b)
    (hs : V ⟪main_v5⟫ = s) (hd : V ⟪main_v7⟫ = d)
    (hc : V ⟪main_v51⟫ = cmpi .slt s (broadcastInDim S131072 ![] bcast_S_S131072 (constantI S_ 32 0#32))) :
    after ((ops2 (F := Ideal)).take 30) V ⟪main_v76⟫ = sagePre rowFacts x Wl Wr b s d := by
  simp only [ops2, List.take_succ_cons, List.take_zero]
  after_results_simp
  rw [hx, hl, hr, hb, hs, hd, hc]
  rfl

set_option maxHeartbeats 4000000 in
theorem ops2_v77 (V : Valuation τ sig (Elt Ideal)) :
    after ((ops2 (F := Ideal)).drop 30) V ⟪main_v77⟫ = sageLeaky rowFacts (V ⟪main_v76⟫) := by
  simp only [ops2, List.drop_succ_cons, List.drop_zero]
  after_results_simp
  rfl

theorem ops2_val (V : Valuation τ sig (Elt Ideal)) (x : FVec Ideal S4096x1024 .f32) (Wl Wr : FVec Ideal S1024x1024 .f32)
    (b : FVec Ideal S1024 .f32) (s d : IVec S131072 32)
    (hx : V ⟪main_v43⟫ = x) (hl : V ⟪main_v45⟫ = Wl) (hr : V ⟪main_v49⟫ = Wr) (hb : V ⟪main_v47⟫ = b)
    (hs : V ⟪main_v5⟫ = s) (hd : V ⟪main_v7⟫ = d)
    (hc : V ⟪main_v51⟫ = cmpi .slt s (broadcastInDim S131072 ![] bcast_S_S131072 (constantI S_ 32 0#32))) :
    after (ops2 (F := Ideal)) V ⟪main_v77⟫ = rowConv x Wl Wr b s d := by
  rw [after_take_drop ops2 30, ops2_v77, ops2_v76 V x Wl Wr b s d hx hl hr hb hs hd hc]
  rfl

theorem ops3_v78 (V : Valuation τ sig (Elt Ideal)) :
    after (ops3 (F := Ideal)) V ⟪main_v78⟫ = transpose S1024x4096 [1, 0] (V ⟪main_v77⟫) transposes_S4096x1024_S1024x4096_1_0 := by
  after_results_simp <;> rfl
theorem ops3_v80 (V : Valuation τ sig (Elt Ideal)) :
    after (ops3 (F := Ideal)) V ⟪main_v80⟫ = cMat (V ⟪main_arg1⟫) 1 slices_S3x4096x4096_S1x4096x4096_1_0_0 := by
  after_results_simp <;> rfl
theorem ops3_v82 (V : Valuation τ sig (Elt Ideal)) :
    after (ops3 (F := Ideal)) V ⟪main_v82⟫ = cVec (V ⟪main_arg3⟫) 1 slices_S3x4096_S1x4096_1_0 := by
  after_results_simp <;> rfl
theorem ops3_v84 (V : Valuation τ sig (Elt Ideal)) :
    after (ops3 (F := Ideal)) V ⟪main_v84⟫ = cMat (V ⟪main_arg2⟫) 1 slices_S3x4096x4096_S1x4096x4096_1_0_0 := by
  after_results_simp <;> rfl
set_option maxHeartbeats 4000000 in
theorem ops3_v94 (V : Valuation τ sig (Elt Ideal)) :
    after (ops3 (F := Ideal)) V ⟪main_v94⟫
      = sageAgg colFacts (transpose S1024x4096 [1, 0] (V ⟪main_v77⟫) transposes_S4096x1024_S1024x4096_1_0) (V ⟪main_v1⟫) (V ⟪main_v3⟫) := by
  after_results_simp <;> rfl
theorem ops3_v98 (V : Valuation τ sig (Elt Ideal)) :
    after (ops3 (F := Ideal)) V ⟪main_v98⟫
      = Host.scatterAdd (cntScatter 1024 16384 colFacts.cwf) (broadcastInDim S1024 ![] bcast_S_S1024 (constant (F := Ideal) S_ .f32 0x00000000#32))
          (broadcastInDim S16384x1 ![0] bcast_S16384_S16384x1_0 (V ⟪main_v3⟫))
          (broadcastInDim S16384 ![] bcast_S_S16384 (constant (F := Ideal) S_ .f32 0x3F800000#32)) := by
  after_results_simp <;> rfl
theorem ops3_v99 (V : Valuation τ sig (Elt Ideal)) :
    after (ops3 (F := Ideal)) V ⟪main_v99⟫ = broadcastInDim S1024 ![] bcast_S_S1024 (constant (F := Ideal) S_ .f32 0x3F800000#32) := by
  after_results_simp <;> rfl

set_option maxHeartbeats 4000000 in
theorem ops4_v111 (V : Valuation τ sig (Elt Ideal)) (x : FVec Ideal S1024x4096 .f32) (Wl Wr : FVec Ideal S4096x4096 .f32)
    (b : FVec Ideal S4096 .f32) (s d : IVec S16384 32)
    (hx : V ⟪main_v78⟫ = x) (hl : V ⟪main_v80⟫ = Wl) (hr : V ⟪main_v84⟫ = Wr) (hb : V ⟪main_v82⟫ = b)
    (ha : V ⟪main_v94⟫ = sageAgg colFacts x s d)
    (hn : V ⟪main_v98⟫ = Host.scatterAdd (cntScatter 1024 16384 colFacts.cwf)
        (broadcastInDim S1024 ![] bcast_S_S1024 (constant (F := Ideal) S_ .f32 0x00000000#32))
        (broadcastInDim S16384x1 ![0] bcast_S16384_S16384x1_0 d)
        (broadcastInDim S16384 ![] bcast_S_S16384 (constant (F := Ideal) S_ .f32 0x3F800000#32)))
    (ho : V ⟪main_v99⟫ = broadcastInDim S1024 ![] bcast_S_S1024 (constant (F := Ideal) S_ .f32 0x3F800000#32)) :
    after ((ops4 (F := Ideal)).take 12) V ⟪main_v111⟫ = sagePre colFacts x Wl Wr b s d := by
  simp only [ops4, List.take_succ_cons, List.take_zero]
  after_results_simp
  rw [hx, hl, hr, hb, ha, hn, ho]
  rfl

set_option maxHeartbeats 4000000 in
theorem ops4_v112 (V : Valuation τ sig (Elt Ideal)) :
    after ((ops4 (F := Ideal)).drop 12) V ⟪main_v112⟫ = sageLeaky colFacts (V ⟪main_v111⟫) := by
  simp only [ops4, List.drop_succ_cons, List.drop_zero]
  after_results_simp
  rfl

theorem ops4_val (V : Valuation τ sig (Elt Ideal)) (x : FVec Ideal S1024x4096 .f32) (Wl Wr : FVec Ideal S4096x4096 .f32)
    (b : FVec Ideal S4096 .f32) (s d : IVec S16384 32)
    (hx : V ⟪main_v78⟫ = x) (hl : V ⟪main_v80⟫ = Wl) (hr : V ⟪main_v84⟫ = Wr) (hb : V ⟪main_v82⟫ = b)
    (ha : V ⟪main_v94⟫ = sageAgg colFacts x s d)
    (hn : V ⟪main_v98⟫ = Host.scatterAdd (cntScatter 1024 16384 colFacts.cwf)
        (broadcastInDim S1024 ![] bcast_S_S1024 (constant (F := Ideal) S_ .f32 0x00000000#32))
        (broadcastInDim S16384x1 ![0] bcast_S16384_S16384x1_0 d)
        (broadcastInDim S16384 ![] bcast_S_S16384 (constant (F := Ideal) S_ .f32 0x3F800000#32)))
    (ho : V ⟪main_v99⟫ = broadcastInDim S1024 ![] bcast_S_S1024 (constant (F := Ideal) S_ .f32 0x3F800000#32)) :
    after (ops4 (F := Ideal)) V ⟪main_v112⟫ = sage colFacts x Wl Wr b s d := by
  rw [after_take_drop ops4 12, ops4_v112, ops4_v111 V x Wl Wr b s d hx hl hr hb ha hn ho]
  rfl

set_option maxHeartbeats 4000000 in
theorem ops5_v146 (V : Valuation τ sig (Elt Ideal)) :
    after ((ops5 (F := Ideal)).take 40) V ⟪main_v146⟫
      = sagePre rowFacts (transpose S4096x1024 [1, 0] (V ⟪main_v112⟫) transposes_S1024x4096_S4096x1024_1_0)
          (rMat (V ⟪main_arg4⟫) 1 slices_S3x1024x1024_S1x1024x1024_1_0_0)
          (rMat (V ⟪main_arg5⟫) 1 slices_S3x1024x1024_S1x1024x1024_1_0_0)
          (rVec (V ⟪main_arg6⟫) 1 slices_S3x1024_S1x1024_1_0)
          (V ⟪main_v5⟫) (V ⟪main_v7⟫) := by
  simp only [ops5, List.take_succ_cons, List.take_zero]
  after_results_simp
  rfl

set_option maxHeartbeats 4000000 in
theorem ops5_v147 (V : Valuation τ sig (Elt Ideal)) :
    after (((ops5 (F := Ideal)).drop 40).take 8) V ⟪main_v147⟫ = sageLeaky rowFacts (V ⟪main_v146⟫) := by
  simp only [ops5, List.drop_succ_cons, List.drop_zero, List.take_succ_cons, List.take_zero]
  after_results_simp
  rfl

theorem ops5_v148 (V : Valuation τ sig (Elt Ideal)) :
    after (((ops5 (F := Ideal)).drop 40).drop 8) V ⟪main_v148⟫
      = transpose S1024x4096 [1, 0] (V ⟪main_v147⟫) transposes_S4096x1024_S1024x4096_1_0 := by
  simp only [ops5, List.drop_succ_cons, List.drop_zero]
  after_results_simp <;> rfl

theorem ops5_val (V : Valuation τ sig (Elt Ideal)) :
    after (ops5 (F := Ideal)) V ⟪main_v148⟫
      = transpose S1024x4096 [1, 0]
          (rowConv (transpose S4096x1024 [1, 0] (V ⟪main_v112⟫) transposes_S1024x4096_S4096x1024_1_0)
            (rMat (V ⟪main_arg4⟫) 1 slices_S3x1024x1024_S1x1024x1024_1_0_0)
            (rMat (V ⟪main_arg5⟫) 1 slices_S3x1024x1024_S1x1024x1024_1_0_0)
            (rVec (V ⟪main_arg6⟫) 1 slices_S3x1024_S1x1024_1_0)
            (V ⟪main_v5⟫) (V ⟪main_v7⟫))
          transposes_S4096x1024_S1024x4096_1_0 := by
  rw [after_take_drop ops5 40, after_take_drop (ops5.drop 40) 8, ops5_v148, ops5_v147, ops5_v146]
  rfl

set_option maxHeartbeats 4000000 in
theorem ops5_v150 (V : Valuation τ sig (Elt Ideal)) :
    after (ops5 (F := Ideal)) V ⟪main_v150⟫ = cMat (V ⟪main_arg1⟫) 2 slices_S3x4096x4096_S1x4096x4096_2_0_0 := by
  after_results_simp <;> rfl
set_option maxHeartbeats 4000000 in
theorem ops5_v151 (V : Valuation τ sig (Elt Ideal)) :
    after (ops5 (F := Ideal)) V ⟪main_v151⟫ = extractStridedSlice S1x4096 ![2, 0] (V ⟪main_arg3⟫) slices_S3x4096_S1x4096_2_0 := by
  after_results_simp <;> rfl

set_option maxHeartbeats 4000000 in
theorem ops6_v181 (V : Valuation τ sig (Elt Ideal)) (x : FVec Ideal S1024x4096 .f32) (Wl : FVec Ideal S4096x4096 .f32)
    (A3 : FVec Ideal S3x4096 .f32) (s d : IVec S16384 32)
    (hx : V ⟪main_v148⟫ = x) (hl : V ⟪main_v150⟫ = Wl)
    (hb : V ⟪main_v151⟫ = extractStridedSlice S1x4096 ![2, 0] A3 slices_S3x4096_S1x4096_2_0)
    (hs : V ⟪main_v1⟫ = s) (hd : V ⟪main_v3⟫ = d) :
    after ((ops6 (F := Ideal)).take 36) V ⟪main_v181⟫
      = sagePre colFacts x Wl (cMat (V ⟪main_arg2⟫) 2 slices_S3x4096x4096_S1x4096x4096_2_0_0)
          (cVec A3 2 slices_S3x4096_S1x4096_2_0) s d := by
  simp only [ops6, List.take_succ_cons, List.take_zero]
  after_results_simp
  rw [hx, hl, hb, hs, hd]
  rfl

set_option maxHeartbeats 4000000 in
theorem ops6_v182 (V : Valuation τ sig (Elt Ideal)) :
    after ((ops6 (F := Ideal)).drop 36) V ⟪main_v182⟫ = sageLeaky colFacts (V ⟪main_v181⟫) := by
  simp only [ops6, List.drop_succ_cons, List.drop_zero]
  after_results_simp
  rfl

theorem ops6_val (V : Valuation τ sig (Elt Ideal)) (x : FVec Ideal S1024x4096 .f32) (Wl : FVec Ideal S4096x4096 .f32)
    (A3 : FVec Ideal S3x4096 .f32) (s d : IVec S16384 32)
    (hx : V ⟪main_v148⟫ = x) (hl : V ⟪main_v150⟫ = Wl)
    (hb : V ⟪main_v151⟫ = extractStridedSlice S1x4096 ![2, 0] A3 slices_S3x4096_S1x4096_2_0)
    (hs : V ⟪main_v1⟫ = s) (hd : V ⟪main_v3⟫ = d) :
    after (ops6 (F := Ideal)) V ⟪main_v182⟫
      = sage colFacts x Wl (cMat (V ⟪main_arg2⟫) 2 slices_S3x4096x4096_S1x4096x4096_2_0_0)
          (cVec A3 2 slices_S3x4096_S1x4096_2_0) s d := by
  rw [after_take_drop ops6 36, ops6_v182, ops6_v181 V x Wl A3 s d hx hl hb hs hd]
  rfl

theorem ops7_v183 (V : Valuation τ sig (Elt Ideal)) :
    after (ops7 (F := Ideal)) V ⟪main_v183⟫ = transpose S4096x1024 [1, 0] (V ⟪main_v182⟫) transposes_S1024x4096_S4096x1024_1_0 := by
  after_results_simp <;> rfl
theorem ops7_v185 (V : Valuation τ sig (Elt Ideal)) :
    after (ops7 (F := Ideal)) V ⟪main_v185⟫ = rMat (V ⟪main_arg4⟫) 2 slices_S3x1024x1024_S1x1024x1024_2_0_0 := by
  after_results_simp <;> rfl
theorem ops7_v187 (V : Valuation τ sig (Elt Ideal)) :
    after (ops7 (F := Ideal)) V ⟪main_v187⟫ = rVec (V ⟪main_arg6⟫) 2 slices_S3x1024_S1x1024_2_0 := by
  after_results_simp <;> rfl
theorem ops7_v189 (V : Valuation τ sig (Elt Ideal)) :
    after (ops7 (F := Ideal)) V ⟪main_v189⟫ = rMat (V ⟪main_arg5⟫) 2 slices_S3x1024x1024_S1x1024x1024_2_0_0 := by
  after_results_simp <;> rfl
set_option maxHeartbeats 4000000 in
theorem ops7_v199 (V : Valuation τ sig (Elt Ideal)) :
    after (ops7 (F := Ideal)) V ⟪main_v199⟫
      = sageAgg rowFacts (transpose S4096x1024 [1, 0] (V ⟪main_v182⟫) transposes_S1024x4096_S4096x1024_1_0) (V ⟪main_v5⟫) (V ⟪main_v7⟫) := by
  after_results_simp <;> rfl
theorem ops7_v200 (V : Valuation τ sig (Elt Ideal)) :
    after (ops7 (F := Ideal)) V ⟪main_v200⟫ = broadcastInDim S131072 ![] bcast_S_S131072 (constant (F := Ideal) S_ .f32 0x3F800000#32) := by
  after_results_simp <;> rfl

set_option maxHeartbeats 4000000 in
theorem ops8_v216 (V : Valuation τ sig (Elt Ideal)) (x : FVec Ideal S4096x1024 .f32) (Wl Wr : FVec Ideal S1024x1024 .f32)
    (b : FVec Ideal S1024 .f32) (s d : IVec S131072 32)
    (hx : V ⟪main_v183⟫ = x) (hl : V ⟪main_v185⟫ = Wl) (hr : V ⟪main_v189⟫ = Wr) (hb : V ⟪main_v187⟫ = b)
    (ha : V ⟪main_v199⟫ = sageAgg rowFacts x s d)
    (hu : V ⟪main_v200⟫ = broadcastInDim S131072 ![] bcast_S_S131072 (constant (F := Ideal) S_ .f32 0x3F800000#32))
    (hd : V ⟪main_v7⟫ = d) :
    after ((ops8 (F := Ideal)).take 18) V ⟪main_v216⟫ = sagePre rowFacts x Wl Wr b s d := by
  simp only [ops8, List.take_succ_cons, List.take_zero]
  after_results_simp
  rw [hx, hl, hr, hb, ha, hu, hd]
  rfl

set_option maxHeartbeats 4000000 in
theorem ops8_v217 (V : Valuation τ sig (Elt Ideal)) :
    after ((ops8 (F := Ideal)).drop 18) V ⟪main_v217⟫ = sageLeaky rowFacts (V ⟪main_v216⟫) := by
  simp only [ops8, List.drop_succ_cons, List.drop_zero]
  after_results_simp
  rfl

theorem ops8_val (V : Valuation τ sig (Elt Ideal)) (x : FVec Ideal S4096x1024 .f32) (Wl Wr : FVec Ideal S1024x1024 .f32)
    (b : FVec Ideal S1024 .f32) (s d : IVec S131072 32)
    (hx : V ⟪main_v183⟫ = x) (hl : V ⟪main_v185⟫ = Wl) (hr : V ⟪main_v189⟫ = Wr) (hb : V ⟪main_v187⟫ = b)
    (ha : V ⟪main_v199⟫ = sageAgg rowFacts x s d)
    (hu : V ⟪main_v200⟫ = broadcastInDim S131072 ![] bcast_S_S131072 (constant (F := Ideal) S_ .f32 0x3F800000#32))
    (hd : V ⟪main_v7⟫ = d) :
    after (ops8 (F := Ideal)) V ⟪main_v217⟫ = rowConv x Wl Wr b s d := by
  rw [after_take_drop ops8 18, ops8_v217, ops8_v216 V x Wl Wr b s d hx hl hr hb ha hu hd]
  rfl

section Chain
variable (W : Valuation τ sig (Elt Ideal))

abbrev ksW : IVec S16384 32 := edgeK (W ⟪main_arg7⟫) 0 slices_S2x16384_S1x16384_0_0
abbrev kdW : IVec S16384 32 := edgeK (W ⟪main_arg7⟫) 1 slices_S2x16384_S1x16384_1_0
abbrev gsW : IVec S131072 32 := edgeG (W ⟪main_arg8⟫) 0 slices_S2x131072_S1x131072_0_0
abbrev gdW : IVec S131072 32 := edgeG (W ⟪main_arg8⟫) 1 slices_S2x131072_S1x131072_1_0

def layerOf (l : Nat) (hc : S3x4096x4096.Slices ![l, 0, 0] S1x4096x4096) (hcb : S3x4096.Slices ![l, 0] S1x4096)
    (hr : S3x1024x1024.Slices ![l, 0, 0] S1x1024x1024) (hrb : S3x1024.Slices ![l, 0] S1x1024)
    (x : FVec Ideal S4096x1024 .f32) : FVec Ideal S4096x1024 .f32 :=
  rowConv (colConv x (cMat (W ⟪main_arg1⟫) l hc) (cMat (W ⟪main_arg2⟫) l hc) (cVec (W ⟪main_arg3⟫) l hcb) (ksW W) (kdW W))
    (rMat (W ⟪main_arg4⟫) l hr) (rMat (W ⟪main_arg5⟫) l hr) (rVec (W ⟪main_arg6⟫) l hrb) (gsW W) (gdW W)

abbrev L0 : FVec Ideal S4096x1024 .f32 :=
  layerOf W 0 slices_S3x4096x4096_S1x4096x4096_0_0_0 slices_S3x4096_S1x4096_0_0 slices_S3x1024x1024_S1x1024x1024_0_0_0
    slices_S3x1024_S1x1024_0_0 (W ⟪main_arg0⟫)
abbrev L1 : FVec Ideal S4096x1024 .f32 :=
  layerOf W 1 slices_S3x4096x4096_S1x4096x4096_1_0_0 slices_S3x4096_S1x4096_1_0 slices_S3x1024x1024_S1x1024x1024_1_0_0
    slices_S3x1024_S1x1024_1_0 (L0 W)
abbrev L2 : FVec Ideal S4096x1024 .f32 :=
  layerOf W 2 slices_S3x4096x4096_S1x4096x4096_2_0_0 slices_S3x4096_S1x4096_2_0 slices_S3x1024x1024_S1x1024x1024_2_0_0
    slices_S3x1024_S1x1024_2_0 (L1 W)

abbrev St1 : Valuation τ sig (Elt Ideal) := after (ops0 (F := Ideal)) W
abbrev St2 : Valuation τ sig (Elt Ideal) := after (ops1 (F := Ideal)) (St1 W)
abbrev St3 : Valuation τ sig (Elt Ideal) := after (ops2 (F := Ideal)) (St2 W)
abbrev St4 : Valuation τ sig (Elt Ideal) := after (ops3 (F := Ideal)) (St3 W)
abbrev St5 : Valuation τ sig (Elt Ideal) := after (ops4 (F := Ideal)) (St4 W)
abbrev St6 : Valuation τ sig (Elt Ideal) := after (ops5 (F := Ideal)) (St5 W)
abbrev St7 : Valuation τ sig (Elt Ideal) := after (ops6 (F := Ideal)) (St6 W)
abbrev St8 : Valuation τ sig (Elt Ideal) := after (ops7 (F := Ideal)) (St7 W)
abbrev St9 : Valuation τ sig (Elt Ideal) := after (ops8 (F := Ideal)) (St8 W)

theorem ops_stages : after (ops (F := Ideal)) W = St9 W := by
  have e : after (ops (F := Ideal)) W
      = after ops8 (after ops7 (after ops6 (after ops5 (after ops4 (after ops3 (after ops2 (after ops1 (after ops0 W)))))))) := by
    simp only [ops, StableHlo.after_append]
  exact e

theorem keeps1 : Keeps W (St1 W) := ops0_keeps W
theorem keeps2 : Keeps W (St2 W) := (keeps1 W).step ops1_ok
theorem keeps3 : Keeps W (St3 W) := (keeps2 W).step ops2_ok
theorem keeps4 : Keeps W (St4 W) := (keeps3 W).step ops3_ok
theorem keeps5 : Keeps W (St5 W) := (keeps4 W).step ops4_ok
theorem keeps6 : Keeps W (St6 W) := (keeps5 W).step ops5_ok
theorem keeps7 : Keeps W (St7 W) := (keeps6 W).step ops6_ok
theorem keeps8 : Keeps W (St8 W) := (keeps7 W).step ops7_ok

theorem st1_v42 : St1 W ⟪main_v42⟫
    = sage colFacts (transpose S1024x4096 [1, 0] (W ⟪main_arg0⟫) transposes_S4096x1024_S1024x4096_1_0)
        (cMat (W ⟪main_arg1⟫) 0 slices_S3x4096x4096_S1x4096x4096_0_0_0) (cMat (W ⟪main_arg2⟫) 0 slices_S3x4096x4096_S1x4096x4096_0_0_0)
        (cVec (W ⟪main_arg3⟫) 0 slices_S3x4096_S1x4096_0_0) (ksW W) (kdW W) := ops0_val W

theorem st2_v43 : St2 W ⟪main_v43⟫
    = colConv (W ⟪main_arg0⟫) (cMat (W ⟪main_arg1⟫) 0 slices_S3x4096x4096_S1x4096x4096_0_0_0)
        (cMat (W ⟪main_arg2⟫) 0 slices_S3x4096x4096_S1x4096x4096_0_0_0) (cVec (W ⟪main_arg3⟫) 0 slices_S3x4096_S1x4096_0_0) (ksW W) (kdW W) := by
  show after (ops1 (F := Ideal)) (St1 W) ⟪main_v43⟫ = _
  rw [ops1_v43, st1_v42]
  rfl
theorem st2_v45 : St2 W ⟪main_v45⟫ = rMat (W ⟪main_arg4⟫) 0 slices_S3x1024x1024_S1x1024x1024_0_0_0 := by
  show after (ops1 (F := Ideal)) (St1 W) ⟪main_v45⟫ = _
  rw [ops1_v45, (keeps1 W).a4]
theorem st2_v47 : St2 W ⟪main_v47⟫ = rVec (W ⟪main_arg6⟫) 0 slices_S3x1024_S1x1024_0_0 := by
  show after (ops1 (F := Ideal)) (St1 W) ⟪main_v47⟫ = _
  rw [ops1_v47, (keeps1 W).a6]
theorem st2_v49 : St2 W ⟪main_v49⟫ = rMat (W ⟪main_arg5⟫) 0 slices_S3x1024x1024_S1x1024x1024_0_0_0 := by
  show after (ops1 (F := Ideal)) (St1 W) ⟪main_v49⟫ = _
  rw [ops1_v49, (keeps1 W).a5]
theorem st2_v51 : St2 W ⟪main_v51⟫ = cmpi .slt (gsW W) (broadcastInDim S131072 ![] bcast_S_S131072 (constantI S_ 32 0#32)) := by
  show after (ops1 (F := Ideal)) (St1 W) ⟪main_v51⟫ = _
  rw [ops1_v51, (keeps1 W).g0]

theorem st3_v77 : St3 W ⟪main_v77⟫ = L0 W :=
  ops2_val (St2 W) _ _ _ _ _ _ (st2_v43 W) (st2_v45 W) (st2_v49 W) (st2_v47 W) (keeps2 W).g0 (keeps2 W).g1 (st2_v51 W)

theorem st4_v78 : St4 W ⟪main_v78⟫ = transpose S1024x4096 [1, 0] (L0 W) transposes_S4096x1024_S1024x4096_1_0 := by
  show after (ops3 (F := Ideal)) (St3 W) ⟪main_v78⟫ = _
  rw [ops3_v78, st3_v77]
theorem st4_v80 : St4 W ⟪main_v80⟫ = cMat (W ⟪main_arg1⟫) 1 slices_S3x4096x4096_S1x4096x4096_1_0_0 := by
  show after (ops3 (F := Ideal)) (St3 W) ⟪main_v80⟫ = _
  rw [ops3_v80, (keeps3 W).a1]
theorem st4_v82 : St4 W ⟪main_v82⟫ = cVec (W ⟪main_arg3⟫) 1 slices_S3x4096_S1x4096_1_0 := by
  show after (ops3 (F := Ideal)) (St3 W) ⟪main_v82⟫ = _
  rw [ops3_v82, (keeps3 W).a3]
theorem st4_v84 : St4 W ⟪main_v84⟫ = cMat (W ⟪main_arg2⟫) 1 slices_S3x4096x4096_S1x4096x4096_1_0_0 := by
  show after (ops3 (F := Ideal)) (St3 W) ⟪main_v84⟫ = _
  rw [ops3_v84, (keeps3 W).a2]
theorem st4_v94 : St4 W ⟪main_v94⟫
    = sageAgg colFacts (transpose S1024x4096 [1, 0] (L0 W) transposes_S4096x1024_S1024x4096_1_0) (ksW W) (kdW W) := by
  show after (ops3 (F := Ideal)) (St3 W) ⟪main_v94⟫ = _
  rw [ops3_v94, st3_v77, (keeps3 W).k0, (keeps3 W).k1]
theorem st4_v98 : St4 W ⟪main_v98⟫
    = Host.scatterAdd (cntScatter 1024 16384 colFacts.cwf) (broadcastInDim S1024 ![] bcast_S_S1024 (constant (F := Ideal) S_ .f32 0x00000000#32))
        (broadcastInDim S16384x1 ![0] bcast_S16384_S16384x1_0 (kdW W))
        (broadcastInDim S16384 ![] bcast_S_S16384 (constant (F := Ideal) S_ .f32 0x3F800000#32)) := by
  show after (ops3 (F := Ideal)) (St3 W) ⟪main_v98⟫ = _
  rw [ops3_v98, (keeps3 W).k1]
theorem st4_v99 : St4 W ⟪main_v99⟫ = broadcastInDim S1024 ![] bcast_S_S1024 (constant (F := Ideal) S_ .f32 0x3F800000#32) :=
  ops3_v99 (St3 W)

theorem st5_v112 : St5 W ⟪main_v112⟫
    = sage colFacts (transpose S1024x4096 [1, 0] (L0 W) transposes_S4096x1024_S1024x4096_1_0)
        (cMat (W ⟪main_arg1⟫) 1 slices_S3x4096x4096_S1x4096x4096_1_0_0) (cMat (W ⟪main_arg2⟫) 1 slices_S3x4096x4096_S1x4096x4096_1_0_0)
        (cVec (W ⟪main_arg3⟫) 1 slices_S3x4096_S1x4096_1_0) (ksW W) (kdW W) :=
  ops4_val (St4 W) _ _ _ _ _ _ (st4_v78 W) (st4_v80 W) (st4_v84 W) (st4_v82 W) (st4_v94 W) (st4_v98 W) (st4_v99 W)

theorem st6_v148 : St6 W ⟪main_v148⟫ = transpose S1024x4096 [1, 0] (L1 W) transposes_S4096x1024_S1024x4096_1_0 := by
  show after (ops5 (F := Ideal)) (St5 W) ⟪main_v148⟫ = _
  rw [ops5_val, st5_v112, (keeps5 W).a4, (keeps5 W).a5, (keeps5 W).a6, (keeps5 W).g0, (keeps5 W).g1]
  rfl
theorem st6_v150 : St6 W ⟪main_v150⟫ = cMat (W ⟪main_arg1⟫) 2 slices_S3x4096x4096_S1x4096x4096_2_0_0 := by
  show after (ops5 (F := Ideal)) (St5 W) ⟪main_v150⟫ = _
  rw [ops5_v150, (keeps5 W).a1]
theorem st6_v151 : St6 W ⟪main_v151⟫ = extractStridedSlice S1x4096 ![2, 0] (W ⟪main_arg3⟫) slices_S3x4096_S1x4096_2_0 := by
  show after (ops5 (F := Ideal)) (St5 W) ⟪main_v151⟫ = _
  rw [ops5_v151, (keeps5 W).a3]

theorem st7_v182 : St7 W ⟪main_v182⟫
    = sage colFacts (transpose S1024x4096 [1, 0] (L1 W) transposes_S4096x1024_S1024x4096_1_0)
        (cMat (W ⟪main_arg1⟫) 2 slices_S3x4096x4096_S1x4096x4096_2_0_0) (cMat (W ⟪main_arg2⟫) 2 slices_S3x4096x4096_S1x4096x4096_2_0_0)
        (cVec (W ⟪main_arg3⟫) 2 slices_S3x4096_S1x4096_2_0) (ksW W) (kdW W) := by
  show after (ops6 (F := Ideal)) (St6 W) ⟪main_v182⟫ = _
  rw [ops6_val (St6 W) _ _ (W ⟪main_arg3⟫) _ _ (st6_v148 W) (st6_v150 W) (st6_v151 W) (keeps6 W).k0 (keeps6 W).k1, (keeps6 W).a2]

theorem st8_v183 : St8 W ⟪main_v183⟫
    = colConv (L1 W) (cMat (W ⟪main_arg1⟫) 2 slices_S3x4096x4096_S1x4096x4096_2_0_0)
        (cMat (W ⟪main_arg2⟫) 2 slices_S3x4096x4096_S1x4096x4096_2_0_0) (cVec (W ⟪main_arg3⟫) 2 slices_S3x4096_S1x4096_2_0) (ksW W) (kdW W) := by
  show after (ops7 (F := Ideal)) (St7 W) ⟪main_v183⟫ = _
  rw [ops7_v183, st7_v182]
  rfl
theorem st8_v185 : St8 W ⟪main_v185⟫ = rMat (W ⟪main_arg4⟫) 2 slices_S3x1024x1024_S1x1024x1024_2_0_0 := by
  show after (ops7 (F := Ideal)) (St7 W) ⟪main_v185⟫ = _
  rw [ops7_v185, (keeps7 W).a4]
theorem st8_v187 : St8 W ⟪main_v187⟫ = rVec (W ⟪main_arg6⟫) 2 slices_S3x1024_S1x1024_2_0 := by
  show after (ops7 (F := Ideal)) (St7 W) ⟪main_v187⟫ = _
  rw [ops7_v187, (keeps7 W).a6]
theorem st8_v189 : St8 W ⟪main_v189⟫ = rMat (W ⟪main_arg5⟫) 2 slices_S3x1024x1024_S1x1024x1024_2_0_0 := by
  show after (ops7 (F := Ideal)) (St7 W) ⟪main_v189⟫ = _
  rw [ops7_v189, (keeps7 W).a5]
theorem st8_v199 : St8 W ⟪main_v199⟫
    = sageAgg rowFacts (colConv (L1 W) (cMat (W ⟪main_arg1⟫) 2 slices_S3x4096x4096_S1x4096x4096_2_0_0)
        (cMat (W ⟪main_arg2⟫) 2 slices_S3x4096x4096_S1x4096x4096_2_0_0) (cVec (W ⟪main_arg3⟫) 2 slices_S3x4096_S1x4096_2_0) (ksW W) (kdW W))
        (gsW W) (gdW W) := by
  show after (ops7 (F := Ideal)) (St7 W) ⟪main_v199⟫ = _
  rw [ops7_v199, st7_v182, (keeps7 W).g0, (keeps7 W).g1]
  rfl
theorem st8_v200 : St8 W ⟪main_v200⟫ = broadcastInDim S131072 ![] bcast_S_S131072 (constant (F := Ideal) S_ .f32 0x3F800000#32) :=
  ops7_v200 (St7 W)

theorem st9_v217 : St9 W ⟪main_v217⟫ = L2 W :=
  ops8_val (St8 W) _ _ _ _ _ _ (st8_v183 W) (st8_v185 W) (st8_v189 W) (st8_v187 W) (st8_v199 W) (st8_v200 W) (keeps8 W).g1

end Chain

theorem edgeK_dec (a : IVec S2x16384 32) (r : Nat) (h : S2x16384.Slices ![r, 0] S1x16384) (hr : r < 2) :
    (fun k : Fin 16384 => dec 1024 (edgeK a r h (ix1 k))) = edgeRow 1024 a ⟨r, hr⟩ := by
  funext k
  rw [edgeK_apply a r h hr]
  rfl
theorem edgeG_dec (a : IVec S2x131072 32) (r : Nat) (h : S2x131072.Slices ![r, 0] S1x131072) (hr : r < 2) :
    (fun k : Fin 131072 => dec 4096 (edgeG a r h (ix1 k))) = edgeRow 4096 a ⟨r, hr⟩ := by
  funext k
  rw [edgeG_apply a r h hr]
  rfl
theorem edgeK_inRange (a : IVec S2x16384 32) (r : Nat) (h : S2x16384.Slices ![r, 0] S1x16384) (hr : r < 2)
    (ha : ∀ i, InRange 1024 (a i)) (i : S16384.Idx) : InRange 1024 (edgeK a r h i) := by
  obtain ⟨k, rfl⟩ : ∃ k : Fin 16384, i = ix1 k := ⟨i 0, eq_ix1 i⟩
  rw [edgeK_apply a r h hr]
  exact ha _
theorem edgeG_inRange (a : IVec S2x131072 32) (r : Nat) (h : S2x131072.Slices ![r, 0] S1x131072) (hr : r < 2)
    (ha : ∀ i, InRange 4096 (a i)) (i : S131072.Idx) : InRange 4096 (edgeG a r h i) := by
  obtain ⟨k, rfl⟩ : ∃ k : Fin 131072, i = ix1 k := ⟨i 0, eq_ix1 i⟩
  rw [edgeG_apply a r h hr]
  exact ha _

/-- Both convolutions, at edge ends that are node numbers, are the specification's; the slices are the stacks' layers. -/
theorem layer_val (W : Valuation τ sig (Elt Ideal)) (l : Nat) (hl : l < 3)
    (hc : S3x4096x4096.Slices ![l, 0, 0] S1x4096x4096) (hcb : S3x4096.Slices ![l, 0] S1x4096)
    (hr : S3x1024x1024.Slices ![l, 0, 0] S1x1024x1024) (hrb : S3x1024.Slices ![l, 0] S1x1024)
    (x : FVec Ideal S4096x1024 .f32)
    (h7 : ∀ i, InRange 1024 (W ⟪main_arg7⟫ i)) (h8 : ∀ i, InRange 4096 (W ⟪main_arg8⟫ i)) :
    toMat (layerOf W l hc hcb hr hrb x)
      = rLayer (toMat x) (edgeRow 1024 (W ⟪main_arg7⟫) 0) (edgeRow 1024 (W ⟪main_arg7⟫) 1)
          (edgeRow 4096 (W ⟪main_arg8⟫) 0) (edgeRow 4096 (W ⟪main_arg8⟫) 1)
          (slab (W ⟪main_arg1⟫) ⟨l, hl⟩) (slab (W ⟪main_arg2⟫) ⟨l, hl⟩) (row (W ⟪main_arg3⟫) ⟨l, hl⟩)
          (slab (W ⟪main_arg4⟫) ⟨l, hl⟩) (slab (W ⟪main_arg5⟫) ⟨l, hl⟩) (row (W ⟪main_arg6⟫) ⟨l, hl⟩) := by
  unfold layerOf rLayer
  rw [rowConv_val _ _ _ _ _ _ (edgeG_inRange _ 0 _ (by decide) h8) (edgeG_inRange _ 1 _ (by decide) h8),
    colConv_val _ _ _ _ _ _ (edgeK_inRange _ 0 _ (by decide) h7) (edgeK_inRange _ 1 _ (by decide) h7),
    toMat_cMat _ l hc hl, toMat_cMat _ l hc hl, toVec_cVec _ l hcb hl, toMat_rMat _ l hr hl, toMat_rMat _ l hr hl, toVec_rVec _ l hrb hl,
    edgeK_dec _ 0 _ (by decide), edgeK_dec _ 1 _ (by decide), edgeG_dec _ 0 _ (by decide), edgeG_dec _ 1 _ (by decide)]
  rfl

/-- The nine pieces in order compute three layers, each the specification's. -/
theorem result (W : Valuation τ sig (Elt Ideal))
    (h7 : ∀ i, InRange 1024 (W (Proc.devRef .tc main_arg7) i))
    (h8 : ∀ i, InRange 4096 (W (Proc.devRef .tc main_arg8) i)) :
    toMat (StableHlo.after (ops (F := Ideal)) W (Proc.devRef .tc main_v217))
      = rNet (toMat (W (Proc.devRef .tc main_arg0)))
          (edgeRow 1024 (W (Proc.devRef .tc main_arg7)) 0) (edgeRow 1024 (W (Proc.devRef .tc main_arg7)) 1)
          (edgeRow 4096 (W (Proc.devRef .tc main_arg8)) 0) (edgeRow 4096 (W (Proc.devRef .tc main_arg8)) 1)
          (W (Proc.devRef .tc main_arg1)) (W (Proc.devRef .tc main_arg2)) (W (Proc.devRef .tc main_arg3))
          (W (Proc.devRef .tc main_arg4)) (W (Proc.devRef .tc main_arg5)) (W (Proc.devRef .tc main_arg6)) := by
  rw [ops_stages W]
  show toMat (St9 W ⟪main_v217⟫) = _
  rw [st9_v217 W]
  show toMat (layerOf W 2 _ _ _ _ (layerOf W 1 _ _ _ _ (layerOf W 0 _ _ _ _ (W ⟪main_arg0⟫)))) = _
  rw [layer_val W 2 (by decide) _ _ _ _ _ h7 h8, layer_val W 1 (by decide) _ _ _ _ _ h7 h8, layer_val W 0 (by decide) _ _ _ _ _ h7 h8]
  rfl

end Cert.ReferenceIdeal.Hand
-- ==== Proof.lean ====
import proofs.«415769_j962072674785_2_alg».proof.Defs
import proofs.«415769_j962072674785_2_alg».proof.Proof.Gen.Kernel
import proofs.«415769_j962072674785_2_alg».proof.Proof.Gen.KernelIdeal
import proofs.«415769_j962072674785_2_alg».proof.Proof.Gen.ReferenceIdeal
import proofs.«415769_j962072674785_2_alg».proof.Proof.Gen.Pre_finite_inputs
import proofs.«415769_j962072674785_2_alg».proof.Proof.Claims
import proofs.«415769_j962072674785_2_alg».proof.Proof.KRun
import proofs.«415769_j962072674785_2_alg».proof.Proof.KIRun
import proofs.«415769_j962072674785_2_alg».proof.Proof.KIVal
import proofs.«415769_j962072674785_2_alg».proof.Proof.RefRun
import proofs.«415769_j962072674785_2_alg».proof.Proof.RefVal

noncomputable section

namespace Cert.Proof

open Idealize.ShloMosaic Idealize.ShloMosaic.TcCoe Idealize.SL.Sem

def kernelSide : Claims.KernelSide where
  W := fun m ρ c => Cert.KernelIdeal.Hand.W24 (F := Ideal) m ρ c
  run := fun m ρ => Cert.KernelIdeal.Hand.run m ρ
  arg0 := fun m ρ c => Cert.KernelIdeal.Hand.W24_main_arg0 m ρ c
  arg1 := fun m ρ c => Cert.KernelIdeal.Hand.W24_main_arg1 m ρ c
  arg2 := fun m ρ c => Cert.KernelIdeal.Hand.W24_main_arg2 m ρ c
  arg3 := fun m ρ c => Cert.KernelIdeal.Hand.W24_main_arg3 m ρ c
  arg4 := fun m ρ c => Cert.KernelIdeal.Hand.W24_main_arg4 m ρ c
  arg5 := fun m ρ c => Cert.KernelIdeal.Hand.W24_main_arg5 m ρ c
  arg6 := fun m ρ c => Cert.KernelIdeal.Hand.W24_main_arg6 m ρ c
  arg7 := fun m ρ c => Cert.KernelIdeal.Hand.W24_main_arg7 m ρ c
  arg8 := fun m ρ c => Cert.KernelIdeal.Hand.W24_main_arg8 m ρ c
  value := fun m ρ c h7 h8 => Cert.KernelIdeal.Hand.result m ρ c h7 h8

def referenceSide : Claims.ReferenceSide where
  ops := Cert.ReferenceIdeal.Hand.ops (F := Ideal)
  run := fun m ρ => Cert.ReferenceIdeal.Hand.run m ρ
  value := fun W h7 h8 => Cert.ReferenceIdeal.Hand.result W h7 h8

theorem claim : Cert.Claim :=
  ⟨Cert.Kernel.Gen.facts, Cert.KernelIdeal.Gen.facts, Cert.ReferenceIdeal.Gen.facts, Cert.Pre_finite_inputs.Gen.facts,
    fun m ρ _ => Cert.Kernel.Hand.frame m ρ,
    Claims.frame_kernelIdeal kernelSide,
    Claims.frame_referenceIdeal referenceSide,
    Claims.preserves,
    Claims.algebraic kernelSide referenceSide⟩

end Cert.Proof

end
